-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v187)) (v1 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_v184) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v779) = v0 c
          ∧ r.2.mem ((c.tc : Thread Cert.ReferenceIdeal.nD Cert.ReferenceIdeal.τ).loc Cert.ReferenceIdeal.main_v773) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S800000 : Shape := ⟨1, ![800000]⟩
abbrev S12x100x16 : Shape := ⟨3, ![12, 100, 16]⟩
abbrev S12x16 : Shape := ⟨2, ![12, 16]⟩
abbrev S12x16x40 : Shape := ⟨3, ![12, 16, 40]⟩
abbrev S12x40 : Shape := ⟨2, ![12, 40]⟩
abbrev S480x40 : Shape := ⟨2, ![480, 40]⟩
abbrev S40 : Shape := ⟨1, ![40]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S12x100x16 : S_.BroadcastsInDim S12x100x16 (![] : Fin 0 → Fin S12x100x16.rank)
  reducesTo_S12x100x16_S_d0_1_2 : S12x100x16.ReducesTo [0, 1, 2] S_
  bcast_S_S12x16 : S_.BroadcastsInDim S12x16 (![] : Fin 0 → Fin S12x16.rank)
  reducesTo_S12x16_S_d0_1 : S12x16.ReducesTo [0, 1] S_
  bcast_S_S12x16x40 : S_.BroadcastsInDim S12x16x40 (![] : Fin 0 → Fin S12x16x40.rank)
  reducesTo_S12x16x40_S_d0_1_2 : S12x16x40.ReducesTo [0, 1, 2] S_
  bcast_S_S12x40 : S_.BroadcastsInDim S12x40 (![] : Fin 0 → Fin S12x40.rank)
  reducesTo_S12x40_S_d0_1 : S12x40.ReducesTo [0, 1] S_
  bcast_S_S480x40 : S_.BroadcastsInDim S480x40 (![] : Fin 0 → Fin S480x40.rank)
  reducesTo_S480x40_S_d0_1 : S480x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg9 : FVec F S12x16x40 .f32) (main_arg10 : FVec F S12x40 .f32) (main_arg11 : FVec F S480x40 .f32) (main_arg12 : FVec F S40 .f32) (main_v33 : IVec S_ 1) : IVec S_ 1 :=
  let main_v34 : FVec F S12x16x40 .f32 := Host.absf main_arg9
  let main_cst_12 : FVec F S_ .f32 := constant S_ .f32 0x7F800000#32
  let main_v35 : FVec F S12x16x40 .f32 := broadcastInDim S12x16x40 ![] bcast_S_S12x16x40 main_cst_12
  let main_v36 : IVec S12x16x40 1 := cmpf .olt main_v34 main_v35
  let main_c_13 : IVec S_ 1 := constantI S_ 1 1#1
  let main_v37 : IVec S_ 1 := (fun x v => Host.reduce IntOp.andi x v reducesTo_S12x16x40_S_d0_1_2 h_S_) main_v36 main_c_13
  let main_v38 : IVec S_ 1 := andi main_v33 main_v37
  let main_v39 : FVec F S12x40 .f32 := Host.absf main_arg10
  let main_cst_14 : FVec F S_ .f32 := constant S_ .f32 0x7F800000#32
  let main_v40 : FVec F S12x40 .f32 := broadcastInDim S12x40 ![] bcast_S_S12x40 main_cst_14
  let main_v41 : IVec S12x40 1 := cmpf .olt main_v39 main_v40
  let main_c_15 : IVec S_ 1 := constantI S_ 1 1#1
  let main_v42 : IVec S_ 1 := (fun x v => Host.reduce IntOp.andi x v reducesTo_S12x40_S_d0_1 h_S_) main_v41 main_c_15
  let main_v43 : IVec S_ 1 := andi main_v38 main_v42
  let main_v44 : FVec F S480x40 .f32 := Host.absf main_arg11
  let main_cst_16 : FVec F S_ .f32 := constant S_ .f32 0x7F800000#32
  let main_v45 : FVec F S480x40 .f32 := broadcastInDim S480x40 ![] bcast_S_S480x40 main_cst_16
  let main_v46 : IVec S480x40 1 := cmpf .olt main_v44 main_v45
  let main_c_17 : IVec S_ 1 := constantI S_ 1 1#1
  let main_v47 : IVec S_ 1 := (fun x v => Host.reduce IntOp.andi x v reducesTo_S480x40_S_d0_1 h_S_) main_v46 main_c_17
  let main_v48 : IVec S_ 1 := andi main_v43 main_v47
  let main_v49 : FVec F S40 .f32 := Host.absf main_arg12
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg6 : FVec F S12x16 .f32) (main_arg7 : FVec F S12x16 .f32) (main_arg8 : FVec F S12x16 .f32) (main_arg9 : FVec F S12x16x40 .f32) (main_arg10 : FVec F S12x40 .f32) (main_arg11 : FVec F S480x40 .f32) (main_arg12 : FVec F S40 .f32) (main_v13 : IVec S_ 1) (main_v16 : IVec S12x16 1) : IVec S_ 1 :=
  let main_c_5 : IVec S_ 1 := constantI S_ 1 1#1
  let main_v17 : IVec S_ 1 := (fun x v => Host.reduce IntOp.andi x v reducesTo_S12x16_S_d0_1 h_S_) main_v16 main_c_5
  let main_v18 : IVec S_ 1 := andi main_v13 main_v17
  let main_v19 : FVec F S12x16 .f32 := Host.absf main_arg6
  let main_cst_6 : FVec F S_ .f32 := constant S_ .f32 0x7F800000#32
  let main_v20 : FVec F S12x16 .f32 := broadcastInDim S12x16 ![] bcast_S_S12x16 main_cst_6
  let main_v21 : IVec S12x16 1 := cmpf .olt main_v19 main_v20
  let main_c_7 : IVec S_ 1 := constantI S_ 1 1#1
  let main_v22 : IVec S_ 1 := (fun x v => Host.reduce IntOp.andi x v reducesTo_S12x16_S_d0_1 h_S_) main_v21 main_c_7
  let main_v23 : IVec S_ 1 := andi main_v18 main_v22
  let main_v24 : FVec F S12x16 .f32 := Host.absf main_arg7
  let main_cst_8 : FVec F S_ .f32 := constant S_ .f32 0x7F800000#32
  let main_v25 : FVec F S12x16 .f32 := broadcastInDim S12x16 ![] bcast_S_S12x16 main_cst_8
  let main_v26 : IVec S12x16 1 := cmpf .olt main_v24 main_v25
  let main_c_9 : IVec S_ 1 := constantI S_ 1 1#1
  let main_v27 : IVec S_ 1 := (fun x v => Host.reduce IntOp.andi x v reducesTo_S12x16_S_d0_1 h_S_) main_v26 main_c_9
  let main_v28 : IVec S_ 1 := andi main_v23 main_v27
  let main_v29 : FVec F S12x16 .f32 := Host.absf main_arg8
  let main_cst_10 : FVec F S_ .f32 := constant S_ .f32 0x7F800000#32
  let main_v30 : FVec F S12x16 .f32 := broadcastInDim S12x16 ![] bcast_S_S12x16 main_cst_10
  let main_v31 : IVec S12x16 1 := cmpf .olt main_v29 main_v30
  let main_c_11 : IVec S_ 1 := constantI S_ 1 1#1
  let main_v32 : IVec S_ 1 := (fun x v => Host.reduce IntOp.andi x v reducesTo_S12x16_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x100 .f32) (main_arg1 : IVec S800000 32) (main_arg2 : IVec S800000 32) (main_arg3 : FVec F S12x100x16 .f32) (main_arg4 : FVec F S12x16 .f32) (main_arg5 : FVec F S12x16 .f32) (main_arg6 : FVec F S12x16 .f32) (main_arg7 : FVec F S12x16 .f32) (main_arg8 : FVec F S12x16 .f32) (main_arg9 : FVec F S12x16x40 .f32) (main_arg10 : FVec F S12x40 .f32) (main_arg11 : FVec F S480x40 .f32) (main_arg12 : FVec F S40 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S12x100x16 .f32 := Host.absf main_arg3
  let main_cst_0 : FVec F S_ .f32 := constant S_ .f32 0x7F800000#32
  let main_v5 : FVec F S12x100x16 .f32 := broadcastInDim S12x100x16 ![] bcast_S_S12x100x16 main_cst_0
  let main_v6 : IVec S12x100x16 1 := cmpf .olt main_v4 main_v5
  let main_c_1 : IVec S_ 1 := constantI S_ 1 1#1
  let main_v7 : IVec S_ 1 := (fun x v => Host.reduce IntOp.andi x v reducesTo_S12x100x16_S_d0_1_2 h_S_) main_v6 main_c_1
  let main_v8 : IVec S_ 1 := andi main_v3 main_v7
  let main_v9 : FVec F S12x16 .f32 := Host.absf main_arg4
  let main_cst_2 : FVec F S_ .f32 := constant S_ .f32 0x7F800000#32
  let main_v10 : FVec F S12x16 .f32 := broadcastInDim S12x16 ![] bcast_S_S12x16 main_cst_2
  let main_v11 : IVec S12x16 1 := cmpf .olt main_v9 main_v10
  let main_c_3 : IVec S_ 1 := constantI S_ 1 1#1
  let main_v12 : IVec S_ 1 := (fun x v => Host.reduce IntOp.andi x v reducesTo_S12x16_S_d0_1 h_S_) main_v11 main_c_3
  let main_v13 : IVec S_ 1 := andi main_v8 main_v12
  let main_v14 : FVec F S12x16 .f32 := Host.absf main_arg5
  let main_cst_4 : FVec F S_ .f32 := constant S_ .f32 0x7F800000#32
  let main_v15 : FVec F S12x16 .f32 := broadcastInDim S12x16 ![] bcast_S_S12x16 main_cst_4
  let main_v16 : IVec S12x16 1 := cmpf .olt main_v14 main_v15
  fn_part1 (F := F) main_arg6 main_arg7 main_arg8 main_arg9 main_arg10 main_arg11 main_arg12 main_v13 main_v16
-- ==== Kernel.lean ====
abbrev S50000x100 : Shape := ⟨2, ![50000, 100]⟩
abbrev S800000 : Shape := ⟨1, ![800000]⟩
abbrev S12x100x16 : Shape := ⟨3, ![12, 100, 16]⟩
abbrev S12x16 : Shape := ⟨2, ![12, 16]⟩
abbrev S12x16x40 : Shape := ⟨3, ![12, 16, 40]⟩
abbrev S12x40 : Shape := ⟨2, ![12, 40]⟩
abbrev S480x40 : Shape := ⟨2, ![480, 40]⟩
abbrev S40 : Shape := ⟨1, ![40]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x100 : Shape := ⟨2, ![2000, 100]⟩
abbrev S2000 : Shape := ⟨1, ![2000]⟩
abbrev S2000x1 : Shape := ⟨2, ![2000, 1]⟩
abbrev S850000x100 : Shape := ⟨2, ![850000, 100]⟩
abbrev S1x50000x100 : Shape := ⟨3, ![1, 50000, 100]⟩
abbrev S4x50000x100 : Shape := ⟨3, ![4, 50000, 100]⟩
abbrev S12x1x16 : Shape := ⟨3, ![12, 1, 16]⟩
abbrev S3x4x50000x16 : Shape := ⟨4, ![3, 4, 50000, 16]⟩
abbrev S1x2000x100 : Shape := ⟨3, ![1, 2000, 100]⟩
abbrev S1x100x16 : Shape := ⟨3, ![1, 100, 16]⟩
abbrev S1x1x16 : Shape := ⟨3, ![1, 1, 16]⟩
abbrev S1x1x2000x16 : Shape := ⟨4, ![1, 1, 2000, 16]⟩
abbrev S100x16 : Shape := ⟨2, ![100, 16]⟩
abbrev S2000x16 : Shape := ⟨2, ![2000, 16]⟩
abbrev S1x16 : Shape := ⟨2, ![1, 16]⟩
abbrev S3x1x50000x16 : Shape := ⟨4, ![3, 1, 50000, 16]⟩
abbrev S3x50000x16 : Shape := ⟨3, ![3, 50000, 16]⟩
abbrev S50000x3x16 : Shape := ⟨3, ![50000, 3, 16]⟩
abbrev S50000x48 : Shape := ⟨2, ![50000, 48]⟩
abbrev S850000x48 : Shape := ⟨2, ![850000, 48]⟩
abbrev S12x1x40 : Shape := ⟨3, ![12, 1, 40]⟩
abbrev S3x4x50000x40 : Shape := ⟨4, ![3, 4, 50000, 40]⟩
abbrev S1x16x40 : Shape := ⟨3, ![1, 16, 40]⟩
abbrev S1x1x40 : Shape := ⟨3, ![1, 1, 40]⟩
abbrev S1x1x2000x40 : Shape := ⟨4, ![1, 1, 2000, 40]⟩
abbrev S16x40 : Shape := ⟨2, ![16, 40]⟩
abbrev S2000x40 : Shape := ⟨2, ![2000, 40]⟩
abbrev S1x40 : Shape := ⟨2, ![1, 40]⟩
abbrev S50000x3x4x40 : Shape := ⟨4, ![50000, 3, 4, 40]⟩
abbrev S50000x12x40 : Shape := ⟨3, ![50000, 12, 40]⟩
abbrev S50000x480 : Shape := ⟨2, ![50000, 480]⟩
abbrev S50000x40 : Shape := ⟨2, ![50000, 40]⟩
abbrev S2000x480 : Shape := ⟨2, ![2000, 480]⟩

abbrev nBuf : Space → Nat
  | .hbm => 236
  | .vmem => 34
  | .smem => 0
  | _ => 0

abbrev hbmTy0_0 (i : Nat) : BufTy := match i % 128 with
  | 0 => ⟨S50000x100, .f32⟩
  | 1 => ⟨S800000, .i32⟩
  | 2 => ⟨S800000, .i32⟩
  | 3 => ⟨S12x100x16, .f32⟩
  | 4 => ⟨S12x16, .f32⟩
  | 5 => ⟨S12x16, .f32⟩
  | 6 => ⟨S12x16, .f32⟩
  | 7 => ⟨S12x16, .f32⟩
  | 8 => ⟨S12x16, .f32⟩
  | 9 => ⟨S12x16x40, .f32⟩
  | 10 => ⟨S12x40, .f32⟩
  | 11 => ⟨S480x40, .f32⟩
  | 12 => ⟨S40, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x100, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x100, .f32⟩
  | 59 => ⟨S850000x100, .f32⟩
  | 60 => ⟨S850000x100, .f32⟩
  | 61 => ⟨S_, .f32⟩
  | 62 => ⟨S50000x100, .f32⟩
  | 63 => ⟨S850000x1, .i32⟩
  | 64 => ⟨S50000x100, .f32⟩
  | 65 => ⟨S850000x1, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x100, .f32⟩
  | 75 => ⟨S850000x100, .f32⟩
  | 76 => ⟨S850000x100, .f32⟩
  | 77 => ⟨S_, .f32⟩
  | 78 => ⟨S50000x100, .f32⟩
  | 79 => ⟨S850000x1, .i32⟩
  | 80 => ⟨S50000x100, .f32⟩
  | 81 => ⟨S850000x1, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x100, .f32⟩
  | 91 => ⟨S850000x100, .f32⟩
  | 92 => ⟨S850000x100, .f32⟩
  | 93 => ⟨S_, .f32⟩
  | 94 => ⟨S50000x100, .f32⟩
  | 95 => ⟨S850000x1, .i32⟩
  | 96 => ⟨S50000x100, .f32⟩
  | 97 => ⟨S1x50000x100, .f32⟩
  | 98 => ⟨S1x50000x100, .f32⟩
  | 99 => ⟨S1x50000x100, .f32⟩
  | 100 => ⟨S1x50000x100, .f32⟩
  | 101 => ⟨S4x50000x100, .f32⟩
  | 102 => ⟨S12x1x16, .f32⟩
  | 103 => ⟨S12x1x16, .f32⟩
  | 104 => ⟨S12x1x16, .f32⟩
  | 105 => ⟨S12x1x16, .f32⟩
  | 106 => ⟨S12x1x16, .f32⟩
  | 107 => ⟨S3x4x50000x16, .f32⟩
  | 108 => ⟨S3x1x50000x16, .f32⟩
  | 109 => ⟨S3x50000x16, .f32⟩
  | 110 => ⟨S3x1x50000x16, .f32⟩
  | 111 => ⟨S3x50000x16, .f32⟩
  | 112 => ⟨S50000x3x16, .f32⟩
  | 113 => ⟨S50000x48, .f32⟩
  | 114 => ⟨S850000x1, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x48, .f32⟩
  | 124 => ⟨S850000x48, .f32⟩
  | 125 => ⟨S850000x48, .f32⟩
  | 126 => ⟨S_, .f32⟩
  | 127 => ⟨S50000x48, .f32⟩
  | _ => ⟨S50000x100, .f32⟩

abbrev hbmTy0_1 (i : Nat) : BufTy := match i % 128 with
  | 0 => ⟨S850000x1, .i32⟩
  | 1 => ⟨S50000x48, .f32⟩
  | 2 => ⟨S50000x3x16, .f32⟩
  | 3 => ⟨S3x50000x16, .f32⟩
  | 4 => ⟨S3x1x50000x16, .f32⟩
  | 5 => ⟨S3x50000x16, .f32⟩
  | 6 => ⟨S50000x3x16, .f32⟩
  | 7 => ⟨S50000x48, .f32⟩
  | 8 => ⟨S850000x1, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000x48, .f32⟩
  | 18 => ⟨S850000x48, .f32⟩
  | 19 => ⟨S850000x48, .f32⟩
  | 20 => ⟨S_, .f32⟩
  | 21 => ⟨S50000x48, .f32⟩
  | 22 => ⟨S850000x1, .i32⟩
  | 23 => ⟨S50000x48, .f32⟩
  | 24 => ⟨S850000x1, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000x48, .f32⟩
  | 34 => ⟨S850000x48, .f32⟩
  | 35 => ⟨S850000x48, .f32⟩
  | 36 => ⟨S_, .f32⟩
  | 37 => ⟨S50000x48, .f32⟩
  | 38 => ⟨S850000x1, .i32⟩
  | 39 => ⟨S50000x48, .f32⟩
  | 40 => ⟨S50000x3x16, .f32⟩
  | 41 => ⟨S3x50000x16, .f32⟩
  | 42 => ⟨S3x1x50000x16, .f32⟩
  | 43 => ⟨S3x50000x16, .f32⟩
  | 44 => ⟨S50000x3x16, .f32⟩
  | 45 => ⟨S50000x48, .f32⟩
  | 46 => ⟨S850000x1, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x48, .f32⟩
  | 56 => ⟨S850000x48, .f32⟩
  | 57 => ⟨S850000x48, .f32⟩
  | 58 => ⟨S_, .f32⟩
  | 59 => ⟨S50000x48, .f32⟩
  | 60 => ⟨S850000x1, .i32⟩
  | 61 => ⟨S50000x48, .f32⟩
  | 62 => ⟨S850000x1, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x48, .f32⟩
  | 72 => ⟨S850000x48, .f32⟩
  | 73 => ⟨S850000x48, .f32⟩
  | 74 => ⟨S_, .f32⟩
  | 75 => ⟨S50000x48, .f32⟩
  | 76 => ⟨S850000x1, .i32⟩
  | 77 => ⟨S50000x48, .f32⟩
  | 78 => ⟨S850000x1, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x48, .f32⟩
  | 88 => ⟨S850000x48, .f32⟩
  | 89 => ⟨S850000x48, .f32⟩
  | 90 => ⟨S_, .f32⟩
  | 91 => ⟨S50000x48, .f32⟩
  | 92 => ⟨S850000x1, .i32⟩
  | 93 => ⟨S50000x48, .f32⟩
  | 94 => ⟨S50000x3x16, .f32⟩
  | 95 => ⟨S3x50000x16, .f32⟩
  | 96 => ⟨S3x1x50000x16, .f32⟩
  | 97 => ⟨S3x1x50000x16, .f32⟩
  | 98 => ⟨S3x1x50000x16, .f32⟩
  | 99 => ⟨S3x1x50000x16, .f32⟩
  | 100 => ⟨S3x4x50000x16, .f32⟩
  | 101 => ⟨S12x1x40, .f32⟩
  | 102 => ⟨S3x4x50000x40, .f32⟩
  | 103 => ⟨S50000x3x4x40, .f32⟩
  | 104 => ⟨S50000x12x40, .f32⟩
  | 105 => ⟨S50000x480, .f32⟩
  | 106 => ⟨S1x40, .f32⟩
  | 107 => ⟨S50000x40, .f32⟩
  | _ => ⟨S50000x100, .f32⟩

abbrev hbmTy (i : Nat) : BufTy := match i / 128 with
  | 0 => hbmTy0_0 i
  | 1 => hbmTy0_1 i
  | _ => ⟨S50000x100, .f32⟩

abbrev bufTy : (tb : Table) → Fin (tcTables nBuf tb) → BufTy
  | .hbm, ⟨i, _⟩ => hbmTy i
  | .local _ .vmem, ⟨0, _⟩ => ⟨S2000x100, .f32⟩
  | .local _ .vmem, ⟨1, _⟩ => ⟨S2000x100, .f32⟩
  | .local _ .vmem, ⟨2, _⟩ => ⟨S2000x100, .f32⟩
  | .local _ .vmem, ⟨3, _⟩ => ⟨S2000x100, .f32⟩
  | .local _ .vmem, ⟨4, _⟩ => ⟨S1x2000x100, .f32⟩
  | .local _ .vmem, ⟨5, _⟩ => ⟨S1x2000x100, .f32⟩
  | .local _ .vmem, ⟨6, _⟩ => ⟨S1x100x16, .f32⟩
  | .local _ .vmem, ⟨7, _⟩ => ⟨S1x100x16, .f32⟩
  | .local _ .vmem, ⟨8, _⟩ => ⟨S1x1x16, .f32⟩
  | .local _ .vmem, ⟨9, _⟩ => ⟨S1x1x16, .f32⟩
  | .local _ .vmem, ⟨10, _⟩ => ⟨S1x1x16, .f32⟩
  | .local _ .vmem, ⟨11, _⟩ => ⟨S1x1x16, .f32⟩
  | .local _ .vmem, ⟨12, _⟩ => ⟨S1x1x16, .f32⟩
  | .local _ .vmem, ⟨13, _⟩ => ⟨S1x1x16, .f32⟩
  | .local _ .vmem, ⟨14, _⟩ => ⟨S1x1x16, .f32⟩
  | .local _ .vmem, ⟨15, _⟩ => ⟨S1x1x16, .f32⟩
  | .local _ .vmem, ⟨16, _⟩ => ⟨S1x1x16, .f32⟩
  | .local _ .vmem, ⟨17, _⟩ => ⟨S1x1x16, .f32⟩
  | .local _ .vmem, ⟨18, _⟩ => ⟨S1x1x2000x16, .f32⟩
  | .local _ .vmem, ⟨19, _⟩ => ⟨S1x1x2000x16, .f32⟩
  | .local _ .vmem, ⟨20, _⟩ => ⟨S1x1x2000x16, .f32⟩
  | .local _ .vmem, ⟨21, _⟩ => ⟨S1x1x2000x16, .f32⟩
  | .local _ .vmem, ⟨22, _⟩ => ⟨S1x16x40, .f32⟩
  | .local _ .vmem, ⟨23, _⟩ => ⟨S1x16x40, .f32⟩
  | .local _ .vmem, ⟨24, _⟩ => ⟨S1x1x40, .f32⟩
  | .local _ .vmem, ⟨25, _⟩ => ⟨S1x1x40, .f32⟩
  | .local _ .vmem, ⟨26, _⟩ => ⟨S1x1x2000x40, .f32⟩
  | .local _ .vmem, ⟨27, _⟩ => ⟨S1x1x2000x40, .f32⟩
  | .local _ .vmem, ⟨28, _⟩ => ⟨S2000x480, .f32⟩
  | .local _ .vmem, ⟨29, _⟩ => ⟨S2000x480, .f32⟩
  | .local _ .vmem, ⟨30, _⟩ => ⟨S480x40, .f32⟩
  | .local _ .vmem, ⟨31, _⟩ => ⟨S1x40, .f32⟩
  | .local _ .vmem, ⟨32, _⟩ => ⟨S2000x40, .f32⟩
  | .local _ .vmem, ⟨33, _⟩ => ⟨S2000x40, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_15 : Ref sig .tc := ⟨.hbm, 115, rfl⟩
abbrev main_v85 : Ref sig .tc := ⟨.hbm, 116, rfl⟩
abbrev main_v86 : Ref sig .tc := ⟨.hbm, 117, rfl⟩
abbrev main_c_16 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_17 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_18 : Ref sig .tc := ⟨.hbm, 137, rfl⟩
abbrev main_v104 : Ref sig .tc := ⟨.hbm, 138, rfl⟩
abbrev main_v105 : Ref sig .tc := ⟨.hbm, 139, rfl⟩
abbrev main_c_19 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_20 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_21 : Ref sig .tc := ⟨.hbm, 153, rfl⟩
abbrev main_v117 : Ref sig .tc := ⟨.hbm, 154, rfl⟩
abbrev main_v118 : Ref sig .tc := ⟨.hbm, 155, rfl⟩
abbrev main_c_22 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_23 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_c_24 : Ref sig .tc := ⟨.hbm, 175, rfl⟩
abbrev main_v136 : Ref sig .tc := ⟨.hbm, 176, rfl⟩
abbrev main_v137 : Ref sig .tc := ⟨.hbm, 177, rfl⟩
abbrev main_c_25 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_26 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_c_27 : Ref sig .tc := ⟨.hbm, 191, rfl⟩
abbrev main_v149 : Ref sig .tc := ⟨.hbm, 192, rfl⟩
abbrev main_v150 : Ref sig .tc := ⟨.hbm, 193, rfl⟩
abbrev main_c_28 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_cst_29 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_c_30 : Ref sig .tc := ⟨.hbm, 207, rfl⟩
abbrev main_v162 : Ref sig .tc := ⟨.hbm, 208, rfl⟩
abbrev main_v163 : Ref sig .tc := ⟨.hbm, 209, rfl⟩
abbrev main_c_31 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_32 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![3, 4, 25], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x2000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1x100x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x1x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x1x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1x1x2000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev grid2 : Pipeline.Grid := ⟨3, ![3, 4, 25], ![false, false, false]⟩

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage2_0 : Fin 2 → Memref sig .tc .vmem S1x1x2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x16x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x1x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x1x2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x480 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S480x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x100_S2000x100_0_0 : ∀ a, (![0, 0] : Fin 2 → Nat) a + S2000x100.size a ≤ S2000x100.size a
  h_S2000x100 : 0 < S2000x100.numel
  reduces_S2000x100_S2000 : S2000x100.Reduces [1] S2000
  shapeCasts_S2000_S2000x1 : S2000.ShapeCasts S2000x1
  broadcasts_S2000x1_S2000x100 : S2000x1.Broadcasts S2000x100
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  bcast_S50000x100_S1x50000x100_1_2 : S50000x100.BroadcastsInDim S1x50000x100 (![1, 2] : Fin 2 → Fin S1x50000x100.rank)
  concatenates_S1x50000x100_S1x50000x100_S1x50000x100_S1x50000x100_S4x50000x100_d0 : Shape.Concatenates [S1x50000x100, S1x50000x100, S1x50000x100, S1x50000x100] S4x50000x100 0
  shapeCasts_S12x16_S12x1x16 : S12x16.ShapeCasts S12x1x16
  inb_S1x2000x100_S1x2000x100_0_0_0 : ∀ a, (![0, 0, 0] : Fin 3 → Nat) a + S1x2000x100.size a ≤ S1x2000x100.size a
  h_S1x2000x100 : 0 < S1x2000x100.numel
  shapeCasts_S1x2000x100_S2000x100 : S1x2000x100.ShapeCasts S2000x100
  bitsLt_bf16_f32 : FTy.bits .bf16 < FTy.bits .f32
  inb_S1x100x16_S1x100x16_0_0_0 : ∀ a, (![0, 0, 0] : Fin 3 → Nat) a + S1x100x16.size a ≤ S1x100x16.size a
  h_S1x100x16 : 0 < S1x100x16.numel
  shapeCasts_S1x100x16_S100x16 : S1x100x16.ShapeCasts S100x16
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  broadcasts_S1x16_S2000x16 : S1x16.Broadcasts S2000x16
  inb_S1x1x2000x16_S1x1x2000x16_0_0_0_0 : ∀ a, (![0, 0, 0, 0] : Fin 4 → Nat) a + S1x1x2000x16.size a ≤ S1x1x2000x16.size a
  h_S1x1x2000x16 : 0 < S1x1x2000x16.numel
  shapeCasts_S1x1x2000x16_S2000x16 : S1x1x2000x16.ShapeCasts S2000x16
  shapeCasts_S2000x16_S1x1x2000x16 : S2000x16.ShapeCasts S1x1x2000x16
  slices_S3x4x50000x16_S3x1x50000x16_0_0_0_0 : S3x4x50000x16.Slices ![0, 0, 0, 0] S3x1x50000x16
  shapeCasts_S3x1x50000x16_S3x50000x16 : S3x1x50000x16.ShapeCasts S3x50000x16
  slices_S3x4x50000x16_S3x1x50000x16_0_1_0_0 : S3x4x50000x16.Slices ![0, 1, 0, 0] S3x1x50000x16
  transposes_S3x50000x16_S50000x3x16_1_0_2 : S3x50000x16.Transposes [1, 0, 2] S50000x3x16
  shapeCasts_S50000x3x16_S50000x48 : S50000x3x16.ShapeCasts S50000x48
  bcast_S850000x1_S850000x48_0_1 : S850000x1.BroadcastsInDim S850000x48 (![0, 1] : Fin 2 → Fin S850000x48.rank)
  bcast_S_S50000x48 : S_.BroadcastsInDim S50000x48 (![] : Fin 0 → Fin S50000x48.rank)
  shapeCasts_S50000x48_S50000x3x16 : S50000x48.ShapeCasts S50000x3x16
  transposes_S50000x3x16_S3x50000x16_1_0_2 : S50000x3x16.Transposes [1, 0, 2] S3x50000x16
  slices_S3x4x50000x16_S3x1x50000x16_0_2_0_0 : S3x4x50000x16.Slices ![0, 2, 0, 0] S3x1x50000x16
  slices_S3x4x50000x16_S3x1x50000x16_0_3_0_0 : S3x4x50000x16.Slices ![0, 3, 0, 0] S3x1x50000x16
  bcast_S3x50000x16_S3x1x50000x16_0_2_3 : S3x50000x16.BroadcastsInDim S3x1x50000x16 (![0, 2, 3] : Fin 3 → Fin S3x1x50000x16.rank)
  concatenates_S3x1x50000x16_S3x1x50000x16_S3x1x50000x16_S3x1x50000x16_S3x4x50000x16_d1 : Shape.Concatenates [S3x1x50000x16, S3x1x50000x16, S3x1x50000x16, S3x1x50000x16] S3x4x50000x16 1
  shapeCasts_S12x40_S12x1x40 : S12x40.ShapeCasts S12x1x40
  inb_S1x16x40_S1x16x40_0_0_0 : ∀ a, (![0, 0, 0] : Fin 3 → Nat) a + S1x16x40.size a ≤ S1x16x40.size a
  h_S1x16x40 : 0 < S1x16x40.numel
  shapeCasts_S1x16x40_S16x40 : S1x16x40.ShapeCasts S16x40
  inb_S1x1x40_S1x1x40_0_0_0 : ∀ a, (![0, 0, 0] : Fin 3 → Nat) a + S1x1x40.size a ≤ S1x1x40.size a
  h_S1x1x40 : 0 < S1x1x40.numel
  shapeCasts_S1x1x40_S1x40 : S1x1x40.ShapeCasts S1x40
  broadcasts_S1x40_S2000x40 : S1x40.Broadcasts S2000x40
  inb_S1x1x2000x40_S1x1x2000x40_0_0_0_0 : ∀ a, (![0, 0, 0, 0] : Fin 4 → Nat) a + S1x1x2000x40.size a ≤ S1x1x2000x40.size a
  h_S1x1x2000x40 : 0 < S1x1x2000x40.numel
  shapeCasts_S1x1x2000x40_S2000x40 : S1x1x2000x40.ShapeCasts S2000x40
  shapeCasts_S2000x40_S1x1x2000x40 : S2000x40.ShapeCasts S1x1x2000x40
  transposes_S3x4x50000x40_S50000x3x4x40_2_0_1_3 : S3x4x50000x40.Transposes [2, 0, 1, 3] S50000x3x4x40
  shapeCasts_S50000x3x4x40_S50000x12x40 : S50000x3x4x40.ShapeCasts S50000x12x40
  shapeCasts_S50000x12x40_S50000x480 : S50000x12x40.ShapeCasts S50000x480
  shapeCasts_S40_S1x40 : S40.ShapeCasts S1x40
  inb_S2000x480_S2000x480_0_0 : ∀ a, (![0, 0] : Fin 2 → Nat) a + S2000x480.size a ≤ S2000x480.size a
  h_S2000x480 : 0 < S2000x480.numel
  shapeCasts_S2000x480_S2000x480 : S2000x480.ShapeCasts S2000x480
  inb_S480x40_S480x40_0_0 : ∀ a, (![0, 0] : Fin 2 → Nat) a + S480x40.size a ≤ S480x40.size a
  h_S480x40 : 0 < S480x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  inb_S2000x40_S2000x40_0_0 : ∀ a, (![0, 0] : Fin 2 → Nat) a + S2000x40.size a ≤ S2000x40.size a
  h_S2000x40 : 0 < S2000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S2000x100_S100x16_S2000x16_1_0_0_1_n_n_wf : DotDims.WF S2000x100 S100x16 S2000x16 [1] [0] [0] [1] [] []
  gather_S50000x48_S850000x1_S850000x48_1_0_n_n_0_1_148_wf : GatherDims.WF S50000x48 S850000x1 S850000x48 [1] [0] [] [0] [] 1 ![1, 48]
  scatter_S50000x48_S850000x1_S850000x48_1_0_0_1_wf : ScatterDims.WF S50000x48 S850000x1 S850000x48 [1] [0] [0] 1
  dot_S2000x16_S16x40_S2000x40_1_0_0_1_n_n_wf : DotDims.WF S2000x16 S16x40 S2000x40 [1] [0] [0] [1] [] []
  dot_S2000x480_S480x40_S2000x40_1_0_0_1_n_n_wf : DotDims.WF S2000x480 S480x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x100.size a ≤ S50000x100.size a
  hwx0_0 : ∀ i : grid0.Coords, EltTy.bits .f32 = 32 ∨ (Rect.block (s := S50000x100) S2000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x100.size a ≤ S50000x100.size a
  hwx0_1 : ∀ i : grid0.Coords, EltTy.bits .f32 = 32 ∨ (Rect.block (s := S50000x100) S2000x100.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x100.size a ≤ S4x50000x100.size a
  hwx1_0 : ∀ i : grid1.Coords, EltTy.bits .f32 = 32 ∨ (Rect.block (s := S4x50000x100) S1x2000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x100x16.size a ≤ S12x100x16.size a
  hwx1_1 : ∀ i : grid1.Coords, EltTy.bits .f32 = 32 ∨ (Rect.block (s := S12x100x16) S1x100x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x16.size a ≤ S12x1x16.size a
  hwx1_2 : ∀ i : grid1.Coords, EltTy.bits .f32 = 32 ∨ (Rect.block (s := S12x1x16) S1x1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x16.size a ≤ S12x1x16.size a
  hwx1_3 : ∀ i : grid1.Coords, EltTy.bits .f32 = 32 ∨ (Rect.block (s := S12x1x16) S1x1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x16.size a ≤ S12x1x16.size a
  hwx1_4 : ∀ i : grid1.Coords, EltTy.bits .f32 = 32 ∨ (Rect.block (s := S12x1x16) S1x1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x16.size a ≤ S12x1x16.size a
  hwx1_5 : ∀ i : grid1.Coords, EltTy.bits .f32 = 32 ∨ (Rect.block (s := S12x1x16) S1x1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x16.size a ≤ S12x1x16.size a
  hwx1_6 : ∀ i : grid1.Coords, EltTy.bits .f32 = 32 ∨ (Rect.block (s := S12x1x16) S1x1x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x2000x16.size a ≤ S3x4x50000x16.size a
  hwx1_7 : ∀ i : grid1.Coords, EltTy.bits .f32 = 32 ∨ (Rect.block (s := S3x4x50000x16) S1x1x2000x16.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x2000x16.size a ≤ S3x4x50000x16.size a
  hwx2_0 : ∀ i : grid2.Coords, EltTy.bits .f32 = 32 ∨ (Rect.block (s := S3x4x50000x16) S1x1x2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x40.size a ≤ S12x16x40.size a
  hwx2_1 : ∀ i : grid2.Coords, EltTy.bits .f32 = 32 ∨ (Rect.block (s := S12x16x40) S1x16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x40.size a ≤ S12x1x40.size a
  hwx2_2 : ∀ i : grid2.Coords, EltTy.bits .f32 = 32 ∨ (Rect.block (s := S12x1x40) S1x1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x2000x40.size a ≤ S3x4x50000x40.size a
  hwx2_3 : ∀ i : grid2.Coords, EltTy.bits .f32 = 32 ∨ (Rect.block (s := S3x4x50000x40) S1x1x2000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x480.size a ≤ S50000x480.size a
  hwx3_0 : ∀ i : grid3.Coords, EltTy.bits .f32 = 32 ∨ (Rect.block (s := S50000x480) S2000x480.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S480x40.size a ≤ S480x40.size a
  hwx3_1 : ∀ i : grid3.Coords, EltTy.bits .f32 = 32 ∨ (Rect.block (s := S480x40) S480x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S50000x40.size a
  hwx3_3 : ∀ i : grid3.Coords, EltTy.bits .f32 = 32 ∨ (Rect.block (s := S50000x40) S2000x40.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S2000x100_S100x16_S2000x16_1_0_0_1_n_n : DotDims S2000x100 S100x16 S2000x16 where
  lhsContracting := [1]
  rhsContracting := [0]
  lhsNonContracting := [0]
  rhsNonContracting := [1]
  lhsBatch := []
  rhsBatch := []
  wf := dot_S2000x100_S100x16_S2000x16_1_0_0_1_n_n_wf
def gather_S50000x48_S850000x1_S850000x48_1_0_n_n_0_1_148 : GatherDims S50000x48 S850000x1 S850000x48 where
  offsetDims := [1]
  collapsedSliceDims := [0]
  operandBatchingDims := []
  startIndicesBatchingDims := []
  startIndexMap := [0]
  indexVectorDim := 1
  sliceSizes := ![1, 48]
  wf := gather_S50000x48_S850000x1_S850000x48_1_0_n_n_0_1_148_wf
def scatter_S50000x48_S850000x1_S850000x48_1_0_0_1 : ScatterDims S50000x48 S850000x1 S850000x48 where
  updateWindowDims := [1]
  insertedWindowDims := [0]
  scatterDimsToOperandDims := [0]
  indexVectorDim := 1
  wf := scatter_S50000x48_S850000x1_S850000x48_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def dot_S2000x480_S480x40_S2000x40_1_0_0_1_n_n : DotDims S2000x480 S480x40 S2000x40 where
  lhsContracting := [1]
  rhsContracting := [0]
  lhsNonContracting := [0]
  rhsNonContracting := [1]
  lhsBatch := []
  rhsBatch := []
  wf := dot_S2000x480_S480x40_S2000x40_1_0_0_1_n_n_wf

abbrev win0_0 : Pipeline.Window sig grid0 :=
  Pipeline.Window.ofSpec (Memref.whole main_arg0) S2000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x100.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v71) S1x2000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x100x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1x1x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x1x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x1x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v75) S1x1x16.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v76) S1x1x16.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v77) S1x1x2000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v180) S1x1x2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1x16x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v181) S1x1x40.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v182) S1x1x2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v185) S2000x480.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S480x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v186) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v187) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x100 : Shape := ⟨2, ![50000, 100]⟩
abbrev S800000 : Shape := ⟨1, ![800000]⟩
abbrev S12x100x16 : Shape := ⟨3, ![12, 100, 16]⟩
abbrev S12x16 : Shape := ⟨2, ![12, 16]⟩
abbrev S12x16x40 : Shape := ⟨3, ![12, 16, 40]⟩
abbrev S12x40 : Shape := ⟨2, ![12, 40]⟩
abbrev S480x40 : Shape := ⟨2, ![480, 40]⟩
abbrev S40 : Shape := ⟨1, ![40]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x100 : Shape := ⟨2, ![850000, 100]⟩
abbrev S1x100x16 : Shape := ⟨3, ![1, 100, 16]⟩
abbrev S100x16 : Shape := ⟨2, ![100, 16]⟩
abbrev S50000x16 : Shape := ⟨2, ![50000, 16]⟩
abbrev S1x16 : Shape := ⟨2, ![1, 16]⟩
abbrev S16 : Shape := ⟨1, ![16]⟩
abbrev S1x16x40 : Shape := ⟨3, ![1, 16, 40]⟩
abbrev S16x40 : Shape := ⟨2, ![16, 40]⟩
abbrev S50000x40 : Shape := ⟨2, ![50000, 40]⟩
abbrev S1x40 : Shape := ⟨2, ![1, 40]⟩
abbrev S850000x16 : Shape := ⟨2, ![850000, 16]⟩
abbrev S50000x1x40 : Shape := ⟨3, ![50000, 1, 40]⟩
abbrev S50000x12x40 : Shape := ⟨3, ![50000, 12, 40]⟩
abbrev S50000x480 : Shape := ⟨2, ![50000, 480]⟩

abbrev nBuf : Space → Nat
  | .hbm => 907
  | .vmem => 0
  | .smem => 0
  | _ => 0

abbrev hbmTy0_0 (i : Nat) : BufTy := match i % 128 with
  | 0 => ⟨S50000x100, .f32⟩
  | 1 => ⟨S800000, .i32⟩
  | 2 => ⟨S800000, .i32⟩
  | 3 => ⟨S12x100x16, .f32⟩
  | 4 => ⟨S12x16, .f32⟩
  | 5 => ⟨S12x16, .f32⟩
  | 6 => ⟨S12x16, .f32⟩
  | 7 => ⟨S12x16, .f32⟩
  | 8 => ⟨S12x16, .f32⟩
  | 9 => ⟨S12x16x40, .f32⟩
  | 10 => ⟨S12x40, .f32⟩
  | 11 => ⟨S480x40, .f32⟩
  | 12 => ⟨S40, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x100, .f32⟩
  | 49 => ⟨S_, .f32⟩
  | 50 => ⟨S50000, .f32⟩
  | 51 => ⟨S50000x1, .f32⟩
  | 52 => ⟨S50000x1, .f32⟩
  | 53 => ⟨S_, .f32⟩
  | 54 => ⟨S50000x1, .f32⟩
  | 55 => ⟨S50000x1, .f32⟩
  | 56 => ⟨S50000x100, .f32⟩
  | 57 => ⟨S50000x100, .f32⟩
  | 58 => ⟨S850000x1, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x100, .f32⟩
  | 68 => ⟨S850000x100, .f32⟩
  | 69 => ⟨S850000x100, .f32⟩
  | 70 => ⟨S_, .f32⟩
  | 71 => ⟨S50000x100, .f32⟩
  | 72 => ⟨S850000x1, .i32⟩
  | 73 => ⟨S50000x100, .f32⟩
  | 74 => ⟨S850000x1, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x100, .f32⟩
  | 84 => ⟨S850000x100, .f32⟩
  | 85 => ⟨S850000x100, .f32⟩
  | 86 => ⟨S_, .f32⟩
  | 87 => ⟨S50000x100, .f32⟩
  | 88 => ⟨S850000x1, .i32⟩
  | 89 => ⟨S50000x100, .f32⟩
  | 90 => ⟨S850000x1, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x100, .f32⟩
  | 100 => ⟨S850000x100, .f32⟩
  | 101 => ⟨S850000x100, .f32⟩
  | 102 => ⟨S_, .f32⟩
  | 103 => ⟨S50000x100, .f32⟩
  | 104 => ⟨S850000x1, .i32⟩
  | 105 => ⟨S50000x100, .f32⟩
  | 106 => ⟨S1x100x16, .f32⟩
  | 107 => ⟨S100x16, .f32⟩
  | 108 => ⟨S50000x16, .f32⟩
  | 109 => ⟨S1x16, .f32⟩
  | 110 => ⟨S16, .f32⟩
  | 111 => ⟨S1x16, .f32⟩
  | 112 => ⟨S50000x16, .f32⟩
  | 113 => ⟨S50000x16, .f32⟩
  | 114 => ⟨S1x16, .f32⟩
  | 115 => ⟨S16, .f32⟩
  | 116 => ⟨S1x16, .f32⟩
  | 117 => ⟨S50000x16, .f32⟩
  | 118 => ⟨S50000x16, .f32⟩
  | 119 => ⟨S1x16, .f32⟩
  | 120 => ⟨S16, .f32⟩
  | 121 => ⟨S1x16, .f32⟩
  | 122 => ⟨S16, .f32⟩
  | 123 => ⟨S_, .f32⟩
  | 124 => ⟨S16, .f32⟩
  | 125 => ⟨S16, .f32⟩
  | 126 => ⟨S16, .f32⟩
  | 127 => ⟨S16, .f32⟩
  | _ => ⟨S50000x100, .f32⟩

abbrev hbmTy0_1 (i : Nat) : BufTy := match i % 128 with
  | 0 => ⟨S1x16, .f32⟩
  | 1 => ⟨S50000x16, .f32⟩
  | 2 => ⟨S50000x16, .f32⟩
  | 3 => ⟨S1x16, .f32⟩
  | 4 => ⟨S16, .f32⟩
  | 5 => ⟨S1x16, .f32⟩
  | 6 => ⟨S50000x16, .f32⟩
  | 7 => ⟨S50000x16, .f32⟩
  | 8 => ⟨S_, .f32⟩
  | 9 => ⟨S50000x16, .f32⟩
  | 10 => ⟨S50000x16, .f32⟩
  | 11 => ⟨S1x16x40, .f32⟩
  | 12 => ⟨S16x40, .f32⟩
  | 13 => ⟨S50000x40, .f32⟩
  | 14 => ⟨S1x40, .f32⟩
  | 15 => ⟨S40, .f32⟩
  | 16 => ⟨S1x40, .f32⟩
  | 17 => ⟨S50000x40, .f32⟩
  | 18 => ⟨S50000x40, .f32⟩
  | 19 => ⟨S1x100x16, .f32⟩
  | 20 => ⟨S100x16, .f32⟩
  | 21 => ⟨S50000x16, .f32⟩
  | 22 => ⟨S1x16, .f32⟩
  | 23 => ⟨S16, .f32⟩
  | 24 => ⟨S1x16, .f32⟩
  | 25 => ⟨S50000x16, .f32⟩
  | 26 => ⟨S50000x16, .f32⟩
  | 27 => ⟨S1x16, .f32⟩
  | 28 => ⟨S16, .f32⟩
  | 29 => ⟨S1x16, .f32⟩
  | 30 => ⟨S50000x16, .f32⟩
  | 31 => ⟨S50000x16, .f32⟩
  | 32 => ⟨S1x16, .f32⟩
  | 33 => ⟨S16, .f32⟩
  | 34 => ⟨S1x16, .f32⟩
  | 35 => ⟨S16, .f32⟩
  | 36 => ⟨S_, .f32⟩
  | 37 => ⟨S16, .f32⟩
  | 38 => ⟨S16, .f32⟩
  | 39 => ⟨S16, .f32⟩
  | 40 => ⟨S16, .f32⟩
  | 41 => ⟨S1x16, .f32⟩
  | 42 => ⟨S50000x16, .f32⟩
  | 43 => ⟨S50000x16, .f32⟩
  | 44 => ⟨S1x16, .f32⟩
  | 45 => ⟨S16, .f32⟩
  | 46 => ⟨S1x16, .f32⟩
  | 47 => ⟨S50000x16, .f32⟩
  | 48 => ⟨S50000x16, .f32⟩
  | 49 => ⟨S_, .f32⟩
  | 50 => ⟨S50000x16, .f32⟩
  | 51 => ⟨S50000x16, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x16, .f32⟩
  | 62 => ⟨S850000x16, .f32⟩
  | 63 => ⟨S850000x16, .f32⟩
  | 64 => ⟨S_, .f32⟩
  | 65 => ⟨S50000x16, .f32⟩
  | 66 => ⟨S850000x1, .i32⟩
  | 67 => ⟨S50000x16, .f32⟩
  | 68 => ⟨S1x16x40, .f32⟩
  | 69 => ⟨S16x40, .f32⟩
  | 70 => ⟨S50000x40, .f32⟩
  | 71 => ⟨S1x40, .f32⟩
  | 72 => ⟨S40, .f32⟩
  | 73 => ⟨S1x40, .f32⟩
  | 74 => ⟨S50000x40, .f32⟩
  | 75 => ⟨S50000x40, .f32⟩
  | 76 => ⟨S1x100x16, .f32⟩
  | 77 => ⟨S100x16, .f32⟩
  | 78 => ⟨S50000x16, .f32⟩
  | 79 => ⟨S1x16, .f32⟩
  | 80 => ⟨S16, .f32⟩
  | 81 => ⟨S1x16, .f32⟩
  | 82 => ⟨S50000x16, .f32⟩
  | 83 => ⟨S50000x16, .f32⟩
  | 84 => ⟨S1x16, .f32⟩
  | 85 => ⟨S16, .f32⟩
  | 86 => ⟨S1x16, .f32⟩
  | 87 => ⟨S50000x16, .f32⟩
  | 88 => ⟨S50000x16, .f32⟩
  | 89 => ⟨S1x16, .f32⟩
  | 90 => ⟨S16, .f32⟩
  | 91 => ⟨S1x16, .f32⟩
  | 92 => ⟨S16, .f32⟩
  | 93 => ⟨S_, .f32⟩
  | 94 => ⟨S16, .f32⟩
  | 95 => ⟨S16, .f32⟩
  | 96 => ⟨S16, .f32⟩
  | 97 => ⟨S16, .f32⟩
  | 98 => ⟨S1x16, .f32⟩
  | 99 => ⟨S50000x16, .f32⟩
  | 100 => ⟨S50000x16, .f32⟩
  | 101 => ⟨S1x16, .f32⟩
  | 102 => ⟨S16, .f32⟩
  | 103 => ⟨S1x16, .f32⟩
  | 104 => ⟨S50000x16, .f32⟩
  | 105 => ⟨S50000x16, .f32⟩
  | 106 => ⟨S_, .f32⟩
  | 107 => ⟨S50000x16, .f32⟩
  | 108 => ⟨S50000x16, .f32⟩
  | 109 => ⟨S850000x1, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x16, .f32⟩
  | 119 => ⟨S850000x16, .f32⟩
  | 120 => ⟨S850000x16, .f32⟩
  | 121 => ⟨S_, .f32⟩
  | 122 => ⟨S50000x16, .f32⟩
  | 123 => ⟨S850000x1, .i32⟩
  | 124 => ⟨S50000x16, .f32⟩
  | 125 => ⟨S850000x1, .f32⟩
  | 126 => ⟨S_, .i32⟩
  | 127 => ⟨S850000, .i32⟩
  | _ => ⟨S50000x100, .f32⟩

abbrev hbmTy0_2 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x16, .f32⟩
  | 7 => ⟨S850000x16, .f32⟩
  | 8 => ⟨S850000x16, .f32⟩
  | 9 => ⟨S_, .f32⟩
  | 10 => ⟨S50000x16, .f32⟩
  | 11 => ⟨S850000x1, .i32⟩
  | 12 => ⟨S50000x16, .f32⟩
  | 13 => ⟨S1x16x40, .f32⟩
  | 14 => ⟨S16x40, .f32⟩
  | 15 => ⟨S50000x40, .f32⟩
  | 16 => ⟨S1x40, .f32⟩
  | 17 => ⟨S40, .f32⟩
  | 18 => ⟨S1x40, .f32⟩
  | 19 => ⟨S50000x40, .f32⟩
  | 20 => ⟨S50000x40, .f32⟩
  | 21 => ⟨S1x100x16, .f32⟩
  | 22 => ⟨S100x16, .f32⟩
  | 23 => ⟨S50000x16, .f32⟩
  | 24 => ⟨S1x16, .f32⟩
  | 25 => ⟨S16, .f32⟩
  | 26 => ⟨S1x16, .f32⟩
  | 27 => ⟨S50000x16, .f32⟩
  | 28 => ⟨S50000x16, .f32⟩
  | 29 => ⟨S1x16, .f32⟩
  | 30 => ⟨S16, .f32⟩
  | 31 => ⟨S1x16, .f32⟩
  | 32 => ⟨S50000x16, .f32⟩
  | 33 => ⟨S50000x16, .f32⟩
  | 34 => ⟨S1x16, .f32⟩
  | 35 => ⟨S16, .f32⟩
  | 36 => ⟨S1x16, .f32⟩
  | 37 => ⟨S16, .f32⟩
  | 38 => ⟨S_, .f32⟩
  | 39 => ⟨S16, .f32⟩
  | 40 => ⟨S16, .f32⟩
  | 41 => ⟨S16, .f32⟩
  | 42 => ⟨S16, .f32⟩
  | 43 => ⟨S1x16, .f32⟩
  | 44 => ⟨S50000x16, .f32⟩
  | 45 => ⟨S50000x16, .f32⟩
  | 46 => ⟨S1x16, .f32⟩
  | 47 => ⟨S16, .f32⟩
  | 48 => ⟨S1x16, .f32⟩
  | 49 => ⟨S50000x16, .f32⟩
  | 50 => ⟨S50000x16, .f32⟩
  | 51 => ⟨S_, .f32⟩
  | 52 => ⟨S50000x16, .f32⟩
  | 53 => ⟨S50000x16, .f32⟩
  | 54 => ⟨S850000x1, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x16, .f32⟩
  | 64 => ⟨S850000x16, .f32⟩
  | 65 => ⟨S850000x16, .f32⟩
  | 66 => ⟨S_, .f32⟩
  | 67 => ⟨S50000x16, .f32⟩
  | 68 => ⟨S850000x1, .i32⟩
  | 69 => ⟨S50000x16, .f32⟩
  | 70 => ⟨S850000x1, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x16, .f32⟩
  | 80 => ⟨S850000x16, .f32⟩
  | 81 => ⟨S850000x16, .f32⟩
  | 82 => ⟨S_, .f32⟩
  | 83 => ⟨S50000x16, .f32⟩
  | 84 => ⟨S850000x1, .i32⟩
  | 85 => ⟨S50000x16, .f32⟩
  | 86 => ⟨S850000x1, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x16, .f32⟩
  | 96 => ⟨S850000x16, .f32⟩
  | 97 => ⟨S850000x16, .f32⟩
  | 98 => ⟨S_, .f32⟩
  | 99 => ⟨S50000x16, .f32⟩
  | 100 => ⟨S850000x1, .i32⟩
  | 101 => ⟨S50000x16, .f32⟩
  | 102 => ⟨S1x16x40, .f32⟩
  | 103 => ⟨S16x40, .f32⟩
  | 104 => ⟨S50000x40, .f32⟩
  | 105 => ⟨S1x40, .f32⟩
  | 106 => ⟨S40, .f32⟩
  | 107 => ⟨S1x40, .f32⟩
  | 108 => ⟨S50000x40, .f32⟩
  | 109 => ⟨S50000x40, .f32⟩
  | 110 => ⟨S1x100x16, .f32⟩
  | 111 => ⟨S100x16, .f32⟩
  | 112 => ⟨S50000x16, .f32⟩
  | 113 => ⟨S1x16, .f32⟩
  | 114 => ⟨S16, .f32⟩
  | 115 => ⟨S1x16, .f32⟩
  | 116 => ⟨S50000x16, .f32⟩
  | 117 => ⟨S50000x16, .f32⟩
  | 118 => ⟨S1x16, .f32⟩
  | 119 => ⟨S16, .f32⟩
  | 120 => ⟨S1x16, .f32⟩
  | 121 => ⟨S50000x16, .f32⟩
  | 122 => ⟨S50000x16, .f32⟩
  | 123 => ⟨S1x16, .f32⟩
  | 124 => ⟨S16, .f32⟩
  | 125 => ⟨S1x16, .f32⟩
  | 126 => ⟨S16, .f32⟩
  | 127 => ⟨S_, .f32⟩
  | _ => ⟨S50000x100, .f32⟩

abbrev hbmTy0_3 (i : Nat) : BufTy := match i % 128 with
  | 0 => ⟨S16, .f32⟩
  | 1 => ⟨S16, .f32⟩
  | 2 => ⟨S16, .f32⟩
  | 3 => ⟨S16, .f32⟩
  | 4 => ⟨S1x16, .f32⟩
  | 5 => ⟨S50000x16, .f32⟩
  | 6 => ⟨S50000x16, .f32⟩
  | 7 => ⟨S1x16, .f32⟩
  | 8 => ⟨S16, .f32⟩
  | 9 => ⟨S1x16, .f32⟩
  | 10 => ⟨S50000x16, .f32⟩
  | 11 => ⟨S50000x16, .f32⟩
  | 12 => ⟨S_, .f32⟩
  | 13 => ⟨S50000x16, .f32⟩
  | 14 => ⟨S50000x16, .f32⟩
  | 15 => ⟨S1x16x40, .f32⟩
  | 16 => ⟨S16x40, .f32⟩
  | 17 => ⟨S50000x40, .f32⟩
  | 18 => ⟨S1x40, .f32⟩
  | 19 => ⟨S40, .f32⟩
  | 20 => ⟨S1x40, .f32⟩
  | 21 => ⟨S50000x40, .f32⟩
  | 22 => ⟨S50000x40, .f32⟩
  | 23 => ⟨S1x100x16, .f32⟩
  | 24 => ⟨S100x16, .f32⟩
  | 25 => ⟨S50000x16, .f32⟩
  | 26 => ⟨S1x16, .f32⟩
  | 27 => ⟨S16, .f32⟩
  | 28 => ⟨S1x16, .f32⟩
  | 29 => ⟨S50000x16, .f32⟩
  | 30 => ⟨S50000x16, .f32⟩
  | 31 => ⟨S1x16, .f32⟩
  | 32 => ⟨S16, .f32⟩
  | 33 => ⟨S1x16, .f32⟩
  | 34 => ⟨S50000x16, .f32⟩
  | 35 => ⟨S50000x16, .f32⟩
  | 36 => ⟨S1x16, .f32⟩
  | 37 => ⟨S16, .f32⟩
  | 38 => ⟨S1x16, .f32⟩
  | 39 => ⟨S16, .f32⟩
  | 40 => ⟨S_, .f32⟩
  | 41 => ⟨S16, .f32⟩
  | 42 => ⟨S16, .f32⟩
  | 43 => ⟨S16, .f32⟩
  | 44 => ⟨S16, .f32⟩
  | 45 => ⟨S1x16, .f32⟩
  | 46 => ⟨S50000x16, .f32⟩
  | 47 => ⟨S50000x16, .f32⟩
  | 48 => ⟨S1x16, .f32⟩
  | 49 => ⟨S16, .f32⟩
  | 50 => ⟨S1x16, .f32⟩
  | 51 => ⟨S50000x16, .f32⟩
  | 52 => ⟨S50000x16, .f32⟩
  | 53 => ⟨S_, .f32⟩
  | 54 => ⟨S50000x16, .f32⟩
  | 55 => ⟨S50000x16, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x16, .f32⟩
  | 66 => ⟨S850000x16, .f32⟩
  | 67 => ⟨S850000x16, .f32⟩
  | 68 => ⟨S_, .f32⟩
  | 69 => ⟨S50000x16, .f32⟩
  | 70 => ⟨S850000x1, .i32⟩
  | 71 => ⟨S50000x16, .f32⟩
  | 72 => ⟨S1x16x40, .f32⟩
  | 73 => ⟨S16x40, .f32⟩
  | 74 => ⟨S50000x40, .f32⟩
  | 75 => ⟨S1x40, .f32⟩
  | 76 => ⟨S40, .f32⟩
  | 77 => ⟨S1x40, .f32⟩
  | 78 => ⟨S50000x40, .f32⟩
  | 79 => ⟨S50000x40, .f32⟩
  | 80 => ⟨S1x100x16, .f32⟩
  | 81 => ⟨S100x16, .f32⟩
  | 82 => ⟨S50000x16, .f32⟩
  | 83 => ⟨S1x16, .f32⟩
  | 84 => ⟨S16, .f32⟩
  | 85 => ⟨S1x16, .f32⟩
  | 86 => ⟨S50000x16, .f32⟩
  | 87 => ⟨S50000x16, .f32⟩
  | 88 => ⟨S1x16, .f32⟩
  | 89 => ⟨S16, .f32⟩
  | 90 => ⟨S1x16, .f32⟩
  | 91 => ⟨S50000x16, .f32⟩
  | 92 => ⟨S50000x16, .f32⟩
  | 93 => ⟨S1x16, .f32⟩
  | 94 => ⟨S16, .f32⟩
  | 95 => ⟨S1x16, .f32⟩
  | 96 => ⟨S16, .f32⟩
  | 97 => ⟨S_, .f32⟩
  | 98 => ⟨S16, .f32⟩
  | 99 => ⟨S16, .f32⟩
  | 100 => ⟨S16, .f32⟩
  | 101 => ⟨S16, .f32⟩
  | 102 => ⟨S1x16, .f32⟩
  | 103 => ⟨S50000x16, .f32⟩
  | 104 => ⟨S50000x16, .f32⟩
  | 105 => ⟨S1x16, .f32⟩
  | 106 => ⟨S16, .f32⟩
  | 107 => ⟨S1x16, .f32⟩
  | 108 => ⟨S50000x16, .f32⟩
  | 109 => ⟨S50000x16, .f32⟩
  | 110 => ⟨S_, .f32⟩
  | 111 => ⟨S50000x16, .f32⟩
  | 112 => ⟨S50000x16, .f32⟩
  | 113 => ⟨S850000x1, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x16, .f32⟩
  | 123 => ⟨S850000x16, .f32⟩
  | 124 => ⟨S850000x16, .f32⟩
  | 125 => ⟨S_, .f32⟩
  | 126 => ⟨S50000x16, .f32⟩
  | 127 => ⟨S850000x1, .i32⟩
  | _ => ⟨S50000x100, .f32⟩

abbrev hbmTy0_4 (i : Nat) : BufTy := match i % 128 with
  | 0 => ⟨S50000x16, .f32⟩
  | 1 => ⟨S850000x1, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000x16, .f32⟩
  | 11 => ⟨S850000x16, .f32⟩
  | 12 => ⟨S850000x16, .f32⟩
  | 13 => ⟨S_, .f32⟩
  | 14 => ⟨S50000x16, .f32⟩
  | 15 => ⟨S850000x1, .i32⟩
  | 16 => ⟨S50000x16, .f32⟩
  | 17 => ⟨S1x16x40, .f32⟩
  | 18 => ⟨S16x40, .f32⟩
  | 19 => ⟨S50000x40, .f32⟩
  | 20 => ⟨S1x40, .f32⟩
  | 21 => ⟨S40, .f32⟩
  | 22 => ⟨S1x40, .f32⟩
  | 23 => ⟨S50000x40, .f32⟩
  | 24 => ⟨S50000x40, .f32⟩
  | 25 => ⟨S1x100x16, .f32⟩
  | 26 => ⟨S100x16, .f32⟩
  | 27 => ⟨S50000x16, .f32⟩
  | 28 => ⟨S1x16, .f32⟩
  | 29 => ⟨S16, .f32⟩
  | 30 => ⟨S1x16, .f32⟩
  | 31 => ⟨S50000x16, .f32⟩
  | 32 => ⟨S50000x16, .f32⟩
  | 33 => ⟨S1x16, .f32⟩
  | 34 => ⟨S16, .f32⟩
  | 35 => ⟨S1x16, .f32⟩
  | 36 => ⟨S50000x16, .f32⟩
  | 37 => ⟨S50000x16, .f32⟩
  | 38 => ⟨S1x16, .f32⟩
  | 39 => ⟨S16, .f32⟩
  | 40 => ⟨S1x16, .f32⟩
  | 41 => ⟨S16, .f32⟩
  | 42 => ⟨S_, .f32⟩
  | 43 => ⟨S16, .f32⟩
  | 44 => ⟨S16, .f32⟩
  | 45 => ⟨S16, .f32⟩
  | 46 => ⟨S16, .f32⟩
  | 47 => ⟨S1x16, .f32⟩
  | 48 => ⟨S50000x16, .f32⟩
  | 49 => ⟨S50000x16, .f32⟩
  | 50 => ⟨S1x16, .f32⟩
  | 51 => ⟨S16, .f32⟩
  | 52 => ⟨S1x16, .f32⟩
  | 53 => ⟨S50000x16, .f32⟩
  | 54 => ⟨S50000x16, .f32⟩
  | 55 => ⟨S_, .f32⟩
  | 56 => ⟨S50000x16, .f32⟩
  | 57 => ⟨S50000x16, .f32⟩
  | 58 => ⟨S850000x1, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x16, .f32⟩
  | 68 => ⟨S850000x16, .f32⟩
  | 69 => ⟨S850000x16, .f32⟩
  | 70 => ⟨S_, .f32⟩
  | 71 => ⟨S50000x16, .f32⟩
  | 72 => ⟨S850000x1, .i32⟩
  | 73 => ⟨S50000x16, .f32⟩
  | 74 => ⟨S850000x1, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x16, .f32⟩
  | 84 => ⟨S850000x16, .f32⟩
  | 85 => ⟨S850000x16, .f32⟩
  | 86 => ⟨S_, .f32⟩
  | 87 => ⟨S50000x16, .f32⟩
  | 88 => ⟨S850000x1, .i32⟩
  | 89 => ⟨S50000x16, .f32⟩
  | 90 => ⟨S850000x1, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x16, .f32⟩
  | 100 => ⟨S850000x16, .f32⟩
  | 101 => ⟨S850000x16, .f32⟩
  | 102 => ⟨S_, .f32⟩
  | 103 => ⟨S50000x16, .f32⟩
  | 104 => ⟨S850000x1, .i32⟩
  | 105 => ⟨S50000x16, .f32⟩
  | 106 => ⟨S1x16x40, .f32⟩
  | 107 => ⟨S16x40, .f32⟩
  | 108 => ⟨S50000x40, .f32⟩
  | 109 => ⟨S1x40, .f32⟩
  | 110 => ⟨S40, .f32⟩
  | 111 => ⟨S1x40, .f32⟩
  | 112 => ⟨S50000x40, .f32⟩
  | 113 => ⟨S50000x40, .f32⟩
  | 114 => ⟨S1x100x16, .f32⟩
  | 115 => ⟨S100x16, .f32⟩
  | 116 => ⟨S50000x16, .f32⟩
  | 117 => ⟨S1x16, .f32⟩
  | 118 => ⟨S16, .f32⟩
  | 119 => ⟨S1x16, .f32⟩
  | 120 => ⟨S50000x16, .f32⟩
  | 121 => ⟨S50000x16, .f32⟩
  | 122 => ⟨S1x16, .f32⟩
  | 123 => ⟨S16, .f32⟩
  | 124 => ⟨S1x16, .f32⟩
  | 125 => ⟨S50000x16, .f32⟩
  | 126 => ⟨S50000x16, .f32⟩
  | 127 => ⟨S1x16, .f32⟩
  | _ => ⟨S50000x100, .f32⟩

abbrev hbmTy0_5 (i : Nat) : BufTy := match i % 128 with
  | 0 => ⟨S16, .f32⟩
  | 1 => ⟨S1x16, .f32⟩
  | 2 => ⟨S16, .f32⟩
  | 3 => ⟨S_, .f32⟩
  | 4 => ⟨S16, .f32⟩
  | 5 => ⟨S16, .f32⟩
  | 6 => ⟨S16, .f32⟩
  | 7 => ⟨S16, .f32⟩
  | 8 => ⟨S1x16, .f32⟩
  | 9 => ⟨S50000x16, .f32⟩
  | 10 => ⟨S50000x16, .f32⟩
  | 11 => ⟨S1x16, .f32⟩
  | 12 => ⟨S16, .f32⟩
  | 13 => ⟨S1x16, .f32⟩
  | 14 => ⟨S50000x16, .f32⟩
  | 15 => ⟨S50000x16, .f32⟩
  | 16 => ⟨S_, .f32⟩
  | 17 => ⟨S50000x16, .f32⟩
  | 18 => ⟨S50000x16, .f32⟩
  | 19 => ⟨S1x16x40, .f32⟩
  | 20 => ⟨S16x40, .f32⟩
  | 21 => ⟨S50000x40, .f32⟩
  | 22 => ⟨S1x40, .f32⟩
  | 23 => ⟨S40, .f32⟩
  | 24 => ⟨S1x40, .f32⟩
  | 25 => ⟨S50000x40, .f32⟩
  | 26 => ⟨S50000x40, .f32⟩
  | 27 => ⟨S1x100x16, .f32⟩
  | 28 => ⟨S100x16, .f32⟩
  | 29 => ⟨S50000x16, .f32⟩
  | 30 => ⟨S1x16, .f32⟩
  | 31 => ⟨S16, .f32⟩
  | 32 => ⟨S1x16, .f32⟩
  | 33 => ⟨S50000x16, .f32⟩
  | 34 => ⟨S50000x16, .f32⟩
  | 35 => ⟨S1x16, .f32⟩
  | 36 => ⟨S16, .f32⟩
  | 37 => ⟨S1x16, .f32⟩
  | 38 => ⟨S50000x16, .f32⟩
  | 39 => ⟨S50000x16, .f32⟩
  | 40 => ⟨S1x16, .f32⟩
  | 41 => ⟨S16, .f32⟩
  | 42 => ⟨S1x16, .f32⟩
  | 43 => ⟨S16, .f32⟩
  | 44 => ⟨S_, .f32⟩
  | 45 => ⟨S16, .f32⟩
  | 46 => ⟨S16, .f32⟩
  | 47 => ⟨S16, .f32⟩
  | 48 => ⟨S16, .f32⟩
  | 49 => ⟨S1x16, .f32⟩
  | 50 => ⟨S50000x16, .f32⟩
  | 51 => ⟨S50000x16, .f32⟩
  | 52 => ⟨S1x16, .f32⟩
  | 53 => ⟨S16, .f32⟩
  | 54 => ⟨S1x16, .f32⟩
  | 55 => ⟨S50000x16, .f32⟩
  | 56 => ⟨S50000x16, .f32⟩
  | 57 => ⟨S_, .f32⟩
  | 58 => ⟨S50000x16, .f32⟩
  | 59 => ⟨S50000x16, .f32⟩
  | 60 => ⟨S850000x1, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x16, .f32⟩
  | 70 => ⟨S850000x16, .f32⟩
  | 71 => ⟨S850000x16, .f32⟩
  | 72 => ⟨S_, .f32⟩
  | 73 => ⟨S50000x16, .f32⟩
  | 74 => ⟨S850000x1, .i32⟩
  | 75 => ⟨S50000x16, .f32⟩
  | 76 => ⟨S1x16x40, .f32⟩
  | 77 => ⟨S16x40, .f32⟩
  | 78 => ⟨S50000x40, .f32⟩
  | 79 => ⟨S1x40, .f32⟩
  | 80 => ⟨S40, .f32⟩
  | 81 => ⟨S1x40, .f32⟩
  | 82 => ⟨S50000x40, .f32⟩
  | 83 => ⟨S50000x40, .f32⟩
  | 84 => ⟨S1x100x16, .f32⟩
  | 85 => ⟨S100x16, .f32⟩
  | 86 => ⟨S50000x16, .f32⟩
  | 87 => ⟨S1x16, .f32⟩
  | 88 => ⟨S16, .f32⟩
  | 89 => ⟨S1x16, .f32⟩
  | 90 => ⟨S50000x16, .f32⟩
  | 91 => ⟨S50000x16, .f32⟩
  | 92 => ⟨S1x16, .f32⟩
  | 93 => ⟨S16, .f32⟩
  | 94 => ⟨S1x16, .f32⟩
  | 95 => ⟨S50000x16, .f32⟩
  | 96 => ⟨S50000x16, .f32⟩
  | 97 => ⟨S1x16, .f32⟩
  | 98 => ⟨S16, .f32⟩
  | 99 => ⟨S1x16, .f32⟩
  | 100 => ⟨S16, .f32⟩
  | 101 => ⟨S_, .f32⟩
  | 102 => ⟨S16, .f32⟩
  | 103 => ⟨S16, .f32⟩
  | 104 => ⟨S16, .f32⟩
  | 105 => ⟨S16, .f32⟩
  | 106 => ⟨S1x16, .f32⟩
  | 107 => ⟨S50000x16, .f32⟩
  | 108 => ⟨S50000x16, .f32⟩
  | 109 => ⟨S1x16, .f32⟩
  | 110 => ⟨S16, .f32⟩
  | 111 => ⟨S1x16, .f32⟩
  | 112 => ⟨S50000x16, .f32⟩
  | 113 => ⟨S50000x16, .f32⟩
  | 114 => ⟨S_, .f32⟩
  | 115 => ⟨S50000x16, .f32⟩
  | 116 => ⟨S50000x16, .f32⟩
  | 117 => ⟨S850000x1, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x16, .f32⟩
  | 127 => ⟨S850000x16, .f32⟩
  | _ => ⟨S50000x100, .f32⟩

abbrev hbmTy0_6 (i : Nat) : BufTy := match i % 128 with
  | 0 => ⟨S850000x16, .f32⟩
  | 1 => ⟨S_, .f32⟩
  | 2 => ⟨S50000x16, .f32⟩
  | 3 => ⟨S850000x1, .i32⟩
  | 4 => ⟨S50000x16, .f32⟩
  | 5 => ⟨S850000x1, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x16, .f32⟩
  | 15 => ⟨S850000x16, .f32⟩
  | 16 => ⟨S850000x16, .f32⟩
  | 17 => ⟨S_, .f32⟩
  | 18 => ⟨S50000x16, .f32⟩
  | 19 => ⟨S850000x1, .i32⟩
  | 20 => ⟨S50000x16, .f32⟩
  | 21 => ⟨S1x16x40, .f32⟩
  | 22 => ⟨S16x40, .f32⟩
  | 23 => ⟨S50000x40, .f32⟩
  | 24 => ⟨S1x40, .f32⟩
  | 25 => ⟨S40, .f32⟩
  | 26 => ⟨S1x40, .f32⟩
  | 27 => ⟨S50000x40, .f32⟩
  | 28 => ⟨S50000x40, .f32⟩
  | 29 => ⟨S1x100x16, .f32⟩
  | 30 => ⟨S100x16, .f32⟩
  | 31 => ⟨S50000x16, .f32⟩
  | 32 => ⟨S1x16, .f32⟩
  | 33 => ⟨S16, .f32⟩
  | 34 => ⟨S1x16, .f32⟩
  | 35 => ⟨S50000x16, .f32⟩
  | 36 => ⟨S50000x16, .f32⟩
  | 37 => ⟨S1x16, .f32⟩
  | 38 => ⟨S16, .f32⟩
  | 39 => ⟨S1x16, .f32⟩
  | 40 => ⟨S50000x16, .f32⟩
  | 41 => ⟨S50000x16, .f32⟩
  | 42 => ⟨S1x16, .f32⟩
  | 43 => ⟨S16, .f32⟩
  | 44 => ⟨S1x16, .f32⟩
  | 45 => ⟨S16, .f32⟩
  | 46 => ⟨S_, .f32⟩
  | 47 => ⟨S16, .f32⟩
  | 48 => ⟨S16, .f32⟩
  | 49 => ⟨S16, .f32⟩
  | 50 => ⟨S16, .f32⟩
  | 51 => ⟨S1x16, .f32⟩
  | 52 => ⟨S50000x16, .f32⟩
  | 53 => ⟨S50000x16, .f32⟩
  | 54 => ⟨S1x16, .f32⟩
  | 55 => ⟨S16, .f32⟩
  | 56 => ⟨S1x16, .f32⟩
  | 57 => ⟨S50000x16, .f32⟩
  | 58 => ⟨S50000x16, .f32⟩
  | 59 => ⟨S_, .f32⟩
  | 60 => ⟨S50000x16, .f32⟩
  | 61 => ⟨S50000x16, .f32⟩
  | 62 => ⟨S850000x1, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x16, .f32⟩
  | 72 => ⟨S850000x16, .f32⟩
  | 73 => ⟨S850000x16, .f32⟩
  | 74 => ⟨S_, .f32⟩
  | 75 => ⟨S50000x16, .f32⟩
  | 76 => ⟨S850000x1, .i32⟩
  | 77 => ⟨S50000x16, .f32⟩
  | 78 => ⟨S850000x1, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x16, .f32⟩
  | 88 => ⟨S850000x16, .f32⟩
  | 89 => ⟨S850000x16, .f32⟩
  | 90 => ⟨S_, .f32⟩
  | 91 => ⟨S50000x16, .f32⟩
  | 92 => ⟨S850000x1, .i32⟩
  | 93 => ⟨S50000x16, .f32⟩
  | 94 => ⟨S850000x1, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x16, .f32⟩
  | 104 => ⟨S850000x16, .f32⟩
  | 105 => ⟨S850000x16, .f32⟩
  | 106 => ⟨S_, .f32⟩
  | 107 => ⟨S50000x16, .f32⟩
  | 108 => ⟨S850000x1, .i32⟩
  | 109 => ⟨S50000x16, .f32⟩
  | 110 => ⟨S1x16x40, .f32⟩
  | 111 => ⟨S16x40, .f32⟩
  | 112 => ⟨S50000x40, .f32⟩
  | 113 => ⟨S1x40, .f32⟩
  | 114 => ⟨S40, .f32⟩
  | 115 => ⟨S1x40, .f32⟩
  | 116 => ⟨S50000x40, .f32⟩
  | 117 => ⟨S50000x40, .f32⟩
  | 118 => ⟨S50000x1x40, .f32⟩
  | 119 => ⟨S50000x1x40, .f32⟩
  | 120 => ⟨S50000x1x40, .f32⟩
  | 121 => ⟨S50000x1x40, .f32⟩
  | 122 => ⟨S50000x1x40, .f32⟩
  | 123 => ⟨S50000x1x40, .f32⟩
  | 124 => ⟨S50000x1x40, .f32⟩
  | 125 => ⟨S50000x1x40, .f32⟩
  | 126 => ⟨S50000x1x40, .f32⟩
  | 127 => ⟨S50000x1x40, .f32⟩
  | _ => ⟨S50000x100, .f32⟩

abbrev hbmTy0_7 (i : Nat) : BufTy := match i % 128 with
  | 0 => ⟨S50000x1x40, .f32⟩
  | 1 => ⟨S50000x1x40, .f32⟩
  | 2 => ⟨S50000x12x40, .f32⟩
  | 3 => ⟨S50000x480, .f32⟩
  | 4 => ⟨S_, .f32⟩
  | 5 => ⟨S50000x480, .f32⟩
  | 6 => ⟨S50000x480, .f32⟩
  | 7 => ⟨S50000x40, .f32⟩
  | 8 => ⟨S1x40, .f32⟩
  | 9 => ⟨S50000x40, .f32⟩
  | 10 => ⟨S50000x40, .f32⟩
  | _ => ⟨S50000x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S50000x100, .f32⟩

abbrev bufTy : (tb : Table) → Fin (tcTables nBuf tb) → BufTy
  | .hbm, ⟨i, _⟩ => hbmTy i
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call2_cst : Ref sig .tc := ⟨.hbm, 136, rfl⟩
abbrev main_call2_v0 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_17 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_call3_cst : Ref sig .tc := ⟨.hbm, 177, rfl⟩
abbrev main_call3_v0 : Ref sig .tc := ⟨.hbm, 178, rfl⟩
abbrev main_v138 : Ref sig .tc := ⟨.hbm, 179, rfl⟩
abbrev main_v139 : Ref sig .tc := ⟨.hbm, 180, rfl⟩
abbrev main_c_18 : Ref sig .tc := ⟨.hbm, 181, rfl⟩
abbrev main_v140 : Ref sig .tc := ⟨.hbm, 182, rfl⟩
abbrev main_v141 : Ref sig .tc := ⟨.hbm, 183, rfl⟩
abbrev main_c_19 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_20 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_cst_21 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_call4_cst : Ref sig .tc := ⟨.hbm, 234, rfl⟩
abbrev main_call4_v0 : Ref sig .tc := ⟨.hbm, 235, rfl⟩
abbrev main_v189 : Ref sig .tc := ⟨.hbm, 236, rfl⟩
abbrev main_v190 : Ref sig .tc := ⟨.hbm, 237, rfl⟩
abbrev main_c_22 : Ref sig .tc := ⟨.hbm, 238, rfl⟩
abbrev main_v191 : Ref sig .tc := ⟨.hbm, 239, rfl⟩
abbrev main_v192 : Ref sig .tc := ⟨.hbm, 240, rfl⟩
abbrev main_c_23 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_cst_24 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_c_25 : Ref sig .tc := ⟨.hbm, 254, rfl⟩
abbrev main_v204 : Ref sig .tc := ⟨.hbm, 255, rfl⟩
abbrev main_v205 : Ref sig .tc := ⟨.hbm, 256, rfl⟩
abbrev main_c_26 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_cst_27 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_cst_28 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_call5_cst : Ref sig .tc := ⟨.hbm, 307, rfl⟩
abbrev main_call5_v0 : Ref sig .tc := ⟨.hbm, 308, rfl⟩
abbrev main_v253 : Ref sig .tc := ⟨.hbm, 309, rfl⟩
abbrev main_v254 : Ref sig .tc := ⟨.hbm, 310, rfl⟩
abbrev main_c_29 : Ref sig .tc := ⟨.hbm, 311, rfl⟩
abbrev main_v255 : Ref sig .tc := ⟨.hbm, 312, rfl⟩
abbrev main_v256 : Ref sig .tc := ⟨.hbm, 313, rfl⟩
abbrev main_c_30 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_cst_31 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_c_32 : Ref sig .tc := ⟨.hbm, 327, rfl⟩
abbrev main_v268 : Ref sig .tc := ⟨.hbm, 328, rfl⟩
abbrev main_v269 : Ref sig .tc := ⟨.hbm, 329, rfl⟩
abbrev main_c_33 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_cst_34 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_c_35 : Ref sig .tc := ⟨.hbm, 343, rfl⟩
abbrev main_v281 : Ref sig .tc := ⟨.hbm, 344, rfl⟩
abbrev main_v282 : Ref sig .tc := ⟨.hbm, 345, rfl⟩
abbrev main_c_36 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_cst_37 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_cst_38 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_call6_cst : Ref sig .tc := ⟨.hbm, 396, rfl⟩
abbrev main_call6_v0 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_cst_39 : Ref sig .tc := ⟨.hbm, 424, rfl⟩
abbrev main_v356 : Ref sig .tc := ⟨.hbm, 425, rfl⟩
abbrev main_v357 : Ref sig .tc := ⟨.hbm, 426, rfl⟩
abbrev main_v358 : Ref sig .tc := ⟨.hbm, 427, rfl⟩
abbrev main_v359 : Ref sig .tc := ⟨.hbm, 428, rfl⟩
abbrev main_v360 : Ref sig .tc := ⟨.hbm, 429, rfl⟩
abbrev main_v361 : Ref sig .tc := ⟨.hbm, 430, rfl⟩
abbrev main_v362 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_v367 : Ref sig .tc := ⟨.hbm, 436, rfl⟩
abbrev main_call7_cst : Ref sig .tc := ⟨.hbm, 437, rfl⟩
abbrev main_call7_v0 : Ref sig .tc := ⟨.hbm, 438, rfl⟩
abbrev main_v368 : Ref sig .tc := ⟨.hbm, 439, rfl⟩
abbrev main_v369 : Ref sig .tc := ⟨.hbm, 440, rfl⟩
abbrev main_c_40 : Ref sig .tc := ⟨.hbm, 441, rfl⟩
abbrev main_v370 : Ref sig .tc := ⟨.hbm, 442, rfl⟩
abbrev main_v371 : Ref sig .tc := ⟨.hbm, 443, rfl⟩
abbrev main_c_41 : Ref sig .tc := ⟨.hbm, 444, rfl⟩
abbrev main_v372 : Ref sig .tc := ⟨.hbm, 445, rfl⟩
abbrev main_v373 : Ref sig .tc := ⟨.hbm, 446, rfl⟩
abbrev main_v374 : Ref sig .tc := ⟨.hbm, 447, rfl⟩
abbrev main_v375 : Ref sig .tc := ⟨.hbm, 448, rfl⟩
abbrev main_v376 : Ref sig .tc := ⟨.hbm, 449, rfl⟩
abbrev main_v377 : Ref sig .tc := ⟨.hbm, 450, rfl⟩
abbrev main_v378 : Ref sig .tc := ⟨.hbm, 451, rfl⟩
abbrev main_cst_42 : Ref sig .tc := ⟨.hbm, 452, rfl⟩
abbrev main_v379 : Ref sig .tc := ⟨.hbm, 453, rfl⟩
abbrev main_v380 : Ref sig .tc := ⟨.hbm, 454, rfl⟩
abbrev main_v381 : Ref sig .tc := ⟨.hbm, 455, rfl⟩
abbrev main_v382 : Ref sig .tc := ⟨.hbm, 456, rfl⟩
abbrev main_v383 : Ref sig .tc := ⟨.hbm, 457, rfl⟩
abbrev main_v384 : Ref sig .tc := ⟨.hbm, 458, rfl⟩
abbrev main_v385 : Ref sig .tc := ⟨.hbm, 459, rfl⟩
abbrev main_v386 : Ref sig .tc := ⟨.hbm, 460, rfl⟩
abbrev main_v387 : Ref sig .tc := ⟨.hbm, 461, rfl⟩
abbrev main_v388 : Ref sig .tc := ⟨.hbm, 462, rfl⟩
abbrev main_v389 : Ref sig .tc := ⟨.hbm, 463, rfl⟩
abbrev main_v390 : Ref sig .tc := ⟨.hbm, 464, rfl⟩
abbrev main_v391 : Ref sig .tc := ⟨.hbm, 465, rfl⟩
abbrev main_v392 : Ref sig .tc := ⟨.hbm, 466, rfl⟩
abbrev main_v393 : Ref sig .tc := ⟨.hbm, 467, rfl⟩
abbrev main_v394 : Ref sig .tc := ⟨.hbm, 468, rfl⟩
abbrev main_v395 : Ref sig .tc := ⟨.hbm, 469, rfl⟩
abbrev main_v396 : Ref sig .tc := ⟨.hbm, 470, rfl⟩
abbrev main_v397 : Ref sig .tc := ⟨.hbm, 471, rfl⟩
abbrev main_v398 : Ref sig .tc := ⟨.hbm, 472, rfl⟩
abbrev main_v399 : Ref sig .tc := ⟨.hbm, 473, rfl⟩
abbrev main_v400 : Ref sig .tc := ⟨.hbm, 474, rfl⟩
abbrev main_v401 : Ref sig .tc := ⟨.hbm, 475, rfl⟩
abbrev main_v402 : Ref sig .tc := ⟨.hbm, 476, rfl⟩
abbrev main_v403 : Ref sig .tc := ⟨.hbm, 477, rfl⟩
abbrev main_v404 : Ref sig .tc := ⟨.hbm, 478, rfl⟩
abbrev main_v405 : Ref sig .tc := ⟨.hbm, 479, rfl⟩
abbrev main_v406 : Ref sig .tc := ⟨.hbm, 480, rfl⟩
abbrev main_cst_43 : Ref sig .tc := ⟨.hbm, 481, rfl⟩
abbrev main_v407 : Ref sig .tc := ⟨.hbm, 482, rfl⟩
abbrev main_v408 : Ref sig .tc := ⟨.hbm, 483, rfl⟩
abbrev main_v409 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_v413 : Ref sig .tc := ⟨.hbm, 488, rfl⟩
abbrev main_v414 : Ref sig .tc := ⟨.hbm, 489, rfl⟩
abbrev main_v415 : Ref sig .tc := ⟨.hbm, 490, rfl⟩
abbrev main_v416 : Ref sig .tc := ⟨.hbm, 491, rfl⟩
abbrev main_v417 : Ref sig .tc := ⟨.hbm, 492, rfl⟩
abbrev main_v418 : Ref sig .tc := ⟨.hbm, 493, rfl⟩
abbrev main_call8_cst : Ref sig .tc := ⟨.hbm, 494, rfl⟩
abbrev main_call8_v0 : Ref sig .tc := ⟨.hbm, 495, rfl⟩
abbrev main_v419 : Ref sig .tc := ⟨.hbm, 496, rfl⟩
abbrev main_v420 : Ref sig .tc := ⟨.hbm, 497, rfl⟩
abbrev main_c_44 : Ref sig .tc := ⟨.hbm, 498, rfl⟩
abbrev main_v421 : Ref sig .tc := ⟨.hbm, 499, rfl⟩
abbrev main_v422 : Ref sig .tc := ⟨.hbm, 500, rfl⟩
abbrev main_c_45 : Ref sig .tc := ⟨.hbm, 501, rfl⟩
abbrev main_v423 : Ref sig .tc := ⟨.hbm, 502, rfl⟩
abbrev main_v424 : Ref sig .tc := ⟨.hbm, 503, rfl⟩
abbrev main_v425 : Ref sig .tc := ⟨.hbm, 504, rfl⟩
abbrev main_v426 : Ref sig .tc := ⟨.hbm, 505, rfl⟩
abbrev main_v427 : Ref sig .tc := ⟨.hbm, 506, rfl⟩
abbrev main_v428 : Ref sig .tc := ⟨.hbm, 507, rfl⟩
abbrev main_v429 : Ref sig .tc := ⟨.hbm, 508, rfl⟩
abbrev main_cst_46 : Ref sig .tc := ⟨.hbm, 509, rfl⟩
abbrev main_v430 : Ref sig .tc := ⟨.hbm, 510, rfl⟩
abbrev main_v431 : Ref sig .tc := ⟨.hbm, 511, rfl⟩
abbrev main_v432 : Ref sig .tc := ⟨.hbm, 512, rfl⟩
abbrev main_v433 : Ref sig .tc := ⟨.hbm, 513, rfl⟩
abbrev main_c_47 : Ref sig .tc := ⟨.hbm, 514, rfl⟩
abbrev main_v434 : Ref sig .tc := ⟨.hbm, 515, rfl⟩
abbrev main_v435 : Ref sig .tc := ⟨.hbm, 516, rfl⟩
abbrev main_c_48 : Ref sig .tc := ⟨.hbm, 517, rfl⟩
abbrev main_v436 : Ref sig .tc := ⟨.hbm, 518, rfl⟩
abbrev main_v437 : Ref sig .tc := ⟨.hbm, 519, rfl⟩
abbrev main_v438 : Ref sig .tc := ⟨.hbm, 520, rfl⟩
abbrev main_v439 : Ref sig .tc := ⟨.hbm, 521, rfl⟩
abbrev main_v440 : Ref sig .tc := ⟨.hbm, 522, rfl⟩
abbrev main_v441 : Ref sig .tc := ⟨.hbm, 523, rfl⟩
abbrev main_v442 : Ref sig .tc := ⟨.hbm, 524, rfl⟩
abbrev main_cst_49 : Ref sig .tc := ⟨.hbm, 525, rfl⟩
abbrev main_v443 : Ref sig .tc := ⟨.hbm, 526, rfl⟩
abbrev main_v444 : Ref sig .tc := ⟨.hbm, 527, rfl⟩
abbrev main_v445 : Ref sig .tc := ⟨.hbm, 528, rfl⟩
abbrev main_v446 : Ref sig .tc := ⟨.hbm, 529, rfl⟩
abbrev main_v447 : Ref sig .tc := ⟨.hbm, 530, rfl⟩
abbrev main_v448 : Ref sig .tc := ⟨.hbm, 531, rfl⟩
abbrev main_v449 : Ref sig .tc := ⟨.hbm, 532, rfl⟩
abbrev main_v450 : Ref sig .tc := ⟨.hbm, 533, rfl⟩
abbrev main_v451 : Ref sig .tc := ⟨.hbm, 534, rfl⟩
abbrev main_v452 : Ref sig .tc := ⟨.hbm, 535, rfl⟩
abbrev main_v453 : Ref sig .tc := ⟨.hbm, 536, rfl⟩
abbrev main_v454 : Ref sig .tc := ⟨.hbm, 537, rfl⟩
abbrev main_v455 : Ref sig .tc := ⟨.hbm, 538, rfl⟩
abbrev main_v456 : Ref sig .tc := ⟨.hbm, 539, rfl⟩
abbrev main_v457 : Ref sig .tc := ⟨.hbm, 540, rfl⟩
abbrev main_v458 : Ref sig .tc := ⟨.hbm, 541, rfl⟩
abbrev main_v459 : Ref sig .tc := ⟨.hbm, 542, rfl⟩
abbrev main_v460 : Ref sig .tc := ⟨.hbm, 543, rfl⟩
abbrev main_v461 : Ref sig .tc := ⟨.hbm, 544, rfl⟩
abbrev main_v462 : Ref sig .tc := ⟨.hbm, 545, rfl⟩
abbrev main_v463 : Ref sig .tc := ⟨.hbm, 546, rfl⟩
abbrev main_v464 : Ref sig .tc := ⟨.hbm, 547, rfl⟩
abbrev main_v465 : Ref sig .tc := ⟨.hbm, 548, rfl⟩
abbrev main_v466 : Ref sig .tc := ⟨.hbm, 549, rfl⟩
abbrev main_v467 : Ref sig .tc := ⟨.hbm, 550, rfl⟩
abbrev main_v468 : Ref sig .tc := ⟨.hbm, 551, rfl⟩
abbrev main_v469 : Ref sig .tc := ⟨.hbm, 552, rfl⟩
abbrev main_v470 : Ref sig .tc := ⟨.hbm, 553, rfl⟩
abbrev main_cst_50 : Ref sig .tc := ⟨.hbm, 554, rfl⟩
abbrev main_v471 : Ref sig .tc := ⟨.hbm, 555, rfl⟩
abbrev main_v472 : Ref sig .tc := ⟨.hbm, 556, rfl⟩
abbrev main_v473 : Ref sig .tc := ⟨.hbm, 557, rfl⟩
abbrev main_v474 : Ref sig .tc := ⟨.hbm, 558, rfl⟩
abbrev main_v475 : Ref sig .tc := ⟨.hbm, 559, rfl⟩
abbrev main_v476 : Ref sig .tc := ⟨.hbm, 560, rfl⟩
abbrev main_v477 : Ref sig .tc := ⟨.hbm, 561, rfl⟩
abbrev main_v478 : Ref sig .tc := ⟨.hbm, 562, rfl⟩
abbrev main_v479 : Ref sig .tc := ⟨.hbm, 563, rfl⟩
abbrev main_v480 : Ref sig .tc := ⟨.hbm, 564, rfl⟩
abbrev main_v481 : Ref sig .tc := ⟨.hbm, 565, rfl⟩
abbrev main_v482 : Ref sig .tc := ⟨.hbm, 566, rfl⟩
abbrev main_call9_cst : Ref sig .tc := ⟨.hbm, 567, rfl⟩
abbrev main_call9_v0 : Ref sig .tc := ⟨.hbm, 568, rfl⟩
abbrev main_v483 : Ref sig .tc := ⟨.hbm, 569, rfl⟩
abbrev main_v484 : Ref sig .tc := ⟨.hbm, 570, rfl⟩
abbrev main_c_51 : Ref sig .tc := ⟨.hbm, 571, rfl⟩
abbrev main_v485 : Ref sig .tc := ⟨.hbm, 572, rfl⟩
abbrev main_v486 : Ref sig .tc := ⟨.hbm, 573, rfl⟩
abbrev main_c_52 : Ref sig .tc := ⟨.hbm, 574, rfl⟩
abbrev main_v487 : Ref sig .tc := ⟨.hbm, 575, rfl⟩
abbrev main_v488 : Ref sig .tc := ⟨.hbm, 576, rfl⟩
abbrev main_v489 : Ref sig .tc := ⟨.hbm, 577, rfl⟩
abbrev main_v490 : Ref sig .tc := ⟨.hbm, 578, rfl⟩
abbrev main_v491 : Ref sig .tc := ⟨.hbm, 579, rfl⟩
abbrev main_v492 : Ref sig .tc := ⟨.hbm, 580, rfl⟩
abbrev main_v493 : Ref sig .tc := ⟨.hbm, 581, rfl⟩
abbrev main_cst_53 : Ref sig .tc := ⟨.hbm, 582, rfl⟩
abbrev main_v494 : Ref sig .tc := ⟨.hbm, 583, rfl⟩
abbrev main_v495 : Ref sig .tc := ⟨.hbm, 584, rfl⟩
abbrev main_v496 : Ref sig .tc := ⟨.hbm, 585, rfl⟩
abbrev main_v497 : Ref sig .tc := ⟨.hbm, 586, rfl⟩
abbrev main_c_54 : Ref sig .tc := ⟨.hbm, 587, rfl⟩
abbrev main_v498 : Ref sig .tc := ⟨.hbm, 588, rfl⟩
abbrev main_v499 : Ref sig .tc := ⟨.hbm, 589, rfl⟩
abbrev main_c_55 : Ref sig .tc := ⟨.hbm, 590, rfl⟩
abbrev main_v500 : Ref sig .tc := ⟨.hbm, 591, rfl⟩
abbrev main_v501 : Ref sig .tc := ⟨.hbm, 592, rfl⟩
abbrev main_v502 : Ref sig .tc := ⟨.hbm, 593, rfl⟩
abbrev main_v503 : Ref sig .tc := ⟨.hbm, 594, rfl⟩
abbrev main_v504 : Ref sig .tc := ⟨.hbm, 595, rfl⟩
abbrev main_v505 : Ref sig .tc := ⟨.hbm, 596, rfl⟩
abbrev main_v506 : Ref sig .tc := ⟨.hbm, 597, rfl⟩
abbrev main_cst_56 : Ref sig .tc := ⟨.hbm, 598, rfl⟩
abbrev main_v507 : Ref sig .tc := ⟨.hbm, 599, rfl⟩
abbrev main_v508 : Ref sig .tc := ⟨.hbm, 600, rfl⟩
abbrev main_v509 : Ref sig .tc := ⟨.hbm, 601, rfl⟩
abbrev main_v510 : Ref sig .tc := ⟨.hbm, 602, rfl⟩
abbrev main_c_57 : Ref sig .tc := ⟨.hbm, 603, rfl⟩
abbrev main_v511 : Ref sig .tc := ⟨.hbm, 604, rfl⟩
abbrev main_v512 : Ref sig .tc := ⟨.hbm, 605, rfl⟩
abbrev main_c_58 : Ref sig .tc := ⟨.hbm, 606, rfl⟩
abbrev main_v513 : Ref sig .tc := ⟨.hbm, 607, rfl⟩
abbrev main_v514 : Ref sig .tc := ⟨.hbm, 608, rfl⟩
abbrev main_v515 : Ref sig .tc := ⟨.hbm, 609, rfl⟩
abbrev main_v516 : Ref sig .tc := ⟨.hbm, 610, rfl⟩
abbrev main_v517 : Ref sig .tc := ⟨.hbm, 611, rfl⟩
abbrev main_v518 : Ref sig .tc := ⟨.hbm, 612, rfl⟩
abbrev main_v519 : Ref sig .tc := ⟨.hbm, 613, rfl⟩
abbrev main_cst_59 : Ref sig .tc := ⟨.hbm, 614, rfl⟩
abbrev main_v520 : Ref sig .tc := ⟨.hbm, 615, rfl⟩
abbrev main_v521 : Ref sig .tc := ⟨.hbm, 616, rfl⟩
abbrev main_v522 : Ref sig .tc := ⟨.hbm, 617, rfl⟩
abbrev main_v523 : Ref sig .tc := ⟨.hbm, 618, rfl⟩
abbrev main_v524 : Ref sig .tc := ⟨.hbm, 619, rfl⟩
abbrev main_v525 : Ref sig .tc := ⟨.hbm, 620, rfl⟩
abbrev main_v526 : Ref sig .tc := ⟨.hbm, 621, rfl⟩
abbrev main_v527 : Ref sig .tc := ⟨.hbm, 622, rfl⟩
abbrev main_v528 : Ref sig .tc := ⟨.hbm, 623, rfl⟩
abbrev main_v529 : Ref sig .tc := ⟨.hbm, 624, rfl⟩
abbrev main_v530 : Ref sig .tc := ⟨.hbm, 625, rfl⟩
abbrev main_v531 : Ref sig .tc := ⟨.hbm, 626, rfl⟩
abbrev main_v532 : Ref sig .tc := ⟨.hbm, 627, rfl⟩
abbrev main_v533 : Ref sig .tc := ⟨.hbm, 628, rfl⟩
abbrev main_v534 : Ref sig .tc := ⟨.hbm, 629, rfl⟩
abbrev main_v535 : Ref sig .tc := ⟨.hbm, 630, rfl⟩
abbrev main_v536 : Ref sig .tc := ⟨.hbm, 631, rfl⟩
abbrev main_v537 : Ref sig .tc := ⟨.hbm, 632, rfl⟩
abbrev main_v538 : Ref sig .tc := ⟨.hbm, 633, rfl⟩
abbrev main_v539 : Ref sig .tc := ⟨.hbm, 634, rfl⟩
abbrev main_v540 : Ref sig .tc := ⟨.hbm, 635, rfl⟩
abbrev main_v541 : Ref sig .tc := ⟨.hbm, 636, rfl⟩
abbrev main_v542 : Ref sig .tc := ⟨.hbm, 637, rfl⟩
abbrev main_v543 : Ref sig .tc := ⟨.hbm, 638, rfl⟩
abbrev main_v544 : Ref sig .tc := ⟨.hbm, 639, rfl⟩
abbrev main_v545 : Ref sig .tc := ⟨.hbm, 640, rfl⟩
abbrev main_v546 : Ref sig .tc := ⟨.hbm, 641, rfl⟩
abbrev main_v547 : Ref sig .tc := ⟨.hbm, 642, rfl⟩
abbrev main_cst_60 : Ref sig .tc := ⟨.hbm, 643, rfl⟩
abbrev main_v548 : Ref sig .tc := ⟨.hbm, 644, rfl⟩
abbrev main_v549 : Ref sig .tc := ⟨.hbm, 645, rfl⟩
abbrev main_v550 : Ref sig .tc := ⟨.hbm, 646, rfl⟩
abbrev main_v551 : Ref sig .tc := ⟨.hbm, 647, rfl⟩
abbrev main_v552 : Ref sig .tc := ⟨.hbm, 648, rfl⟩
abbrev main_v553 : Ref sig .tc := ⟨.hbm, 649, rfl⟩
abbrev main_v554 : Ref sig .tc := ⟨.hbm, 650, rfl⟩
abbrev main_v555 : Ref sig .tc := ⟨.hbm, 651, rfl⟩
abbrev main_v556 : Ref sig .tc := ⟨.hbm, 652, rfl⟩
abbrev main_v557 : Ref sig .tc := ⟨.hbm, 653, rfl⟩
abbrev main_v558 : Ref sig .tc := ⟨.hbm, 654, rfl⟩
abbrev main_v559 : Ref sig .tc := ⟨.hbm, 655, rfl⟩
abbrev main_call10_cst : Ref sig .tc := ⟨.hbm, 656, rfl⟩
abbrev main_call10_v0 : Ref sig .tc := ⟨.hbm, 657, rfl⟩
abbrev main_v560 : Ref sig .tc := ⟨.hbm, 658, rfl⟩
abbrev main_v561 : Ref sig .tc := ⟨.hbm, 659, rfl⟩
abbrev main_v562 : Ref sig .tc := ⟨.hbm, 660, rfl⟩
abbrev main_v563 : Ref sig .tc := ⟨.hbm, 661, rfl⟩
abbrev main_v564 : Ref sig .tc := ⟨.hbm, 662, rfl⟩
abbrev main_v565 : Ref sig .tc := ⟨.hbm, 663, rfl⟩
abbrev main_v566 : Ref sig .tc := ⟨.hbm, 664, rfl⟩
abbrev main_v567 : Ref sig .tc := ⟨.hbm, 665, rfl⟩
abbrev main_v568 : Ref sig .tc := ⟨.hbm, 666, rfl⟩
abbrev main_v569 : Ref sig .tc := ⟨.hbm, 667, rfl⟩
abbrev main_v570 : Ref sig .tc := ⟨.hbm, 668, rfl⟩
abbrev main_v571 : Ref sig .tc := ⟨.hbm, 669, rfl⟩
abbrev main_v572 : Ref sig .tc := ⟨.hbm, 670, rfl⟩
abbrev main_v573 : Ref sig .tc := ⟨.hbm, 671, rfl⟩
abbrev main_v574 : Ref sig .tc := ⟨.hbm, 672, rfl⟩
abbrev main_v575 : Ref sig .tc := ⟨.hbm, 673, rfl⟩
abbrev main_v576 : Ref sig .tc := ⟨.hbm, 674, rfl⟩
abbrev main_v577 : Ref sig .tc := ⟨.hbm, 675, rfl⟩
abbrev main_v578 : Ref sig .tc := ⟨.hbm, 676, rfl⟩
abbrev main_v579 : Ref sig .tc := ⟨.hbm, 677, rfl⟩
abbrev main_v580 : Ref sig .tc := ⟨.hbm, 678, rfl⟩
abbrev main_v581 : Ref sig .tc := ⟨.hbm, 679, rfl⟩
abbrev main_v582 : Ref sig .tc := ⟨.hbm, 680, rfl⟩
abbrev main_v583 : Ref sig .tc := ⟨.hbm, 681, rfl⟩
abbrev main_v584 : Ref sig .tc := ⟨.hbm, 682, rfl⟩
abbrev main_v585 : Ref sig .tc := ⟨.hbm, 683, rfl⟩
abbrev main_cst_61 : Ref sig .tc := ⟨.hbm, 684, rfl⟩
abbrev main_v586 : Ref sig .tc := ⟨.hbm, 685, rfl⟩
abbrev main_v587 : Ref sig .tc := ⟨.hbm, 686, rfl⟩
abbrev main_v588 : Ref sig .tc := ⟨.hbm, 687, rfl⟩
abbrev main_v589 : Ref sig .tc := ⟨.hbm, 688, rfl⟩
abbrev main_v590 : Ref sig .tc := ⟨.hbm, 689, rfl⟩
abbrev main_v591 : Ref sig .tc := ⟨.hbm, 690, rfl⟩
abbrev main_v592 : Ref sig .tc := ⟨.hbm, 691, rfl⟩
abbrev main_v593 : Ref sig .tc := ⟨.hbm, 692, rfl⟩
abbrev main_v594 : Ref sig .tc := ⟨.hbm, 693, rfl⟩
abbrev main_v595 : Ref sig .tc := ⟨.hbm, 694, rfl⟩
abbrev main_v596 : Ref sig .tc := ⟨.hbm, 695, rfl⟩
abbrev main_v597 : Ref sig .tc := ⟨.hbm, 696, rfl⟩
abbrev main_call11_cst : Ref sig .tc := ⟨.hbm, 697, rfl⟩
abbrev main_call11_v0 : Ref sig .tc := ⟨.hbm, 698, rfl⟩
abbrev main_v598 : Ref sig .tc := ⟨.hbm, 699, rfl⟩
abbrev main_v599 : Ref sig .tc := ⟨.hbm, 700, rfl⟩
abbrev main_c_62 : Ref sig .tc := ⟨.hbm, 701, rfl⟩
abbrev main_v600 : Ref sig .tc := ⟨.hbm, 702, rfl⟩
abbrev main_v601 : Ref sig .tc := ⟨.hbm, 703, rfl⟩
abbrev main_c_63 : Ref sig .tc := ⟨.hbm, 704, rfl⟩
abbrev main_v602 : Ref sig .tc := ⟨.hbm, 705, rfl⟩
abbrev main_v603 : Ref sig .tc := ⟨.hbm, 706, rfl⟩
abbrev main_v604 : Ref sig .tc := ⟨.hbm, 707, rfl⟩
abbrev main_v605 : Ref sig .tc := ⟨.hbm, 708, rfl⟩
abbrev main_v606 : Ref sig .tc := ⟨.hbm, 709, rfl⟩
abbrev main_v607 : Ref sig .tc := ⟨.hbm, 710, rfl⟩
abbrev main_v608 : Ref sig .tc := ⟨.hbm, 711, rfl⟩
abbrev main_cst_64 : Ref sig .tc := ⟨.hbm, 712, rfl⟩
abbrev main_v609 : Ref sig .tc := ⟨.hbm, 713, rfl⟩
abbrev main_v610 : Ref sig .tc := ⟨.hbm, 714, rfl⟩
abbrev main_v611 : Ref sig .tc := ⟨.hbm, 715, rfl⟩
abbrev main_v612 : Ref sig .tc := ⟨.hbm, 716, rfl⟩
abbrev main_v613 : Ref sig .tc := ⟨.hbm, 717, rfl⟩
abbrev main_v614 : Ref sig .tc := ⟨.hbm, 718, rfl⟩
abbrev main_v615 : Ref sig .tc := ⟨.hbm, 719, rfl⟩
abbrev main_v616 : Ref sig .tc := ⟨.hbm, 720, rfl⟩
abbrev main_v617 : Ref sig .tc := ⟨.hbm, 721, rfl⟩
abbrev main_v618 : Ref sig .tc := ⟨.hbm, 722, rfl⟩
abbrev main_v619 : Ref sig .tc := ⟨.hbm, 723, rfl⟩
abbrev main_v620 : Ref sig .tc := ⟨.hbm, 724, rfl⟩
abbrev main_v621 : Ref sig .tc := ⟨.hbm, 725, rfl⟩
abbrev main_v622 : Ref sig .tc := ⟨.hbm, 726, rfl⟩
abbrev main_v623 : Ref sig .tc := ⟨.hbm, 727, rfl⟩
abbrev main_v624 : Ref sig .tc := ⟨.hbm, 728, rfl⟩
abbrev main_v625 : Ref sig .tc := ⟨.hbm, 729, rfl⟩
abbrev main_v626 : Ref sig .tc := ⟨.hbm, 730, rfl⟩
abbrev main_v627 : Ref sig .tc := ⟨.hbm, 731, rfl⟩
abbrev main_v628 : Ref sig .tc := ⟨.hbm, 732, rfl⟩
abbrev main_v629 : Ref sig .tc := ⟨.hbm, 733, rfl⟩
abbrev main_v630 : Ref sig .tc := ⟨.hbm, 734, rfl⟩
abbrev main_v631 : Ref sig .tc := ⟨.hbm, 735, rfl⟩
abbrev main_v632 : Ref sig .tc := ⟨.hbm, 736, rfl⟩
abbrev main_v633 : Ref sig .tc := ⟨.hbm, 737, rfl⟩
abbrev main_v634 : Ref sig .tc := ⟨.hbm, 738, rfl⟩
abbrev main_v635 : Ref sig .tc := ⟨.hbm, 739, rfl⟩
abbrev main_v636 : Ref sig .tc := ⟨.hbm, 740, rfl⟩
abbrev main_cst_65 : Ref sig .tc := ⟨.hbm, 741, rfl⟩
abbrev main_v637 : Ref sig .tc := ⟨.hbm, 742, rfl⟩
abbrev main_v638 : Ref sig .tc := ⟨.hbm, 743, rfl⟩
abbrev main_v639 : Ref sig .tc := ⟨.hbm, 744, rfl⟩
abbrev main_v640 : Ref sig .tc := ⟨.hbm, 745, rfl⟩
abbrev main_v641 : Ref sig .tc := ⟨.hbm, 746, rfl⟩
abbrev main_v642 : Ref sig .tc := ⟨.hbm, 747, rfl⟩
abbrev main_v643 : Ref sig .tc := ⟨.hbm, 748, rfl⟩
abbrev main_v644 : Ref sig .tc := ⟨.hbm, 749, rfl⟩
abbrev main_v645 : Ref sig .tc := ⟨.hbm, 750, rfl⟩
abbrev main_v646 : Ref sig .tc := ⟨.hbm, 751, rfl⟩
abbrev main_v647 : Ref sig .tc := ⟨.hbm, 752, rfl⟩
abbrev main_v648 : Ref sig .tc := ⟨.hbm, 753, rfl⟩
abbrev main_call12_cst : Ref sig .tc := ⟨.hbm, 754, rfl⟩
abbrev main_call12_v0 : Ref sig .tc := ⟨.hbm, 755, rfl⟩
abbrev main_v649 : Ref sig .tc := ⟨.hbm, 756, rfl⟩
abbrev main_v650 : Ref sig .tc := ⟨.hbm, 757, rfl⟩
abbrev main_c_66 : Ref sig .tc := ⟨.hbm, 758, rfl⟩
abbrev main_v651 : Ref sig .tc := ⟨.hbm, 759, rfl⟩
abbrev main_v652 : Ref sig .tc := ⟨.hbm, 760, rfl⟩
abbrev main_c_67 : Ref sig .tc := ⟨.hbm, 761, rfl⟩
abbrev main_v653 : Ref sig .tc := ⟨.hbm, 762, rfl⟩
abbrev main_v654 : Ref sig .tc := ⟨.hbm, 763, rfl⟩
abbrev main_v655 : Ref sig .tc := ⟨.hbm, 764, rfl⟩
abbrev main_v656 : Ref sig .tc := ⟨.hbm, 765, rfl⟩
abbrev main_v657 : Ref sig .tc := ⟨.hbm, 766, rfl⟩
abbrev main_v658 : Ref sig .tc := ⟨.hbm, 767, rfl⟩
abbrev main_v659 : Ref sig .tc := ⟨.hbm, 768, rfl⟩
abbrev main_cst_68 : Ref sig .tc := ⟨.hbm, 769, rfl⟩
abbrev main_v660 : Ref sig .tc := ⟨.hbm, 770, rfl⟩
abbrev main_v661 : Ref sig .tc := ⟨.hbm, 771, rfl⟩
abbrev main_v662 : Ref sig .tc := ⟨.hbm, 772, rfl⟩
abbrev main_v663 : Ref sig .tc := ⟨.hbm, 773, rfl⟩
abbrev main_c_69 : Ref sig .tc := ⟨.hbm, 774, rfl⟩
abbrev main_v664 : Ref sig .tc := ⟨.hbm, 775, rfl⟩
abbrev main_v665 : Ref sig .tc := ⟨.hbm, 776, rfl⟩
abbrev main_c_70 : Ref sig .tc := ⟨.hbm, 777, rfl⟩
abbrev main_v666 : Ref sig .tc := ⟨.hbm, 778, rfl⟩
abbrev main_v667 : Ref sig .tc := ⟨.hbm, 779, rfl⟩
abbrev main_v668 : Ref sig .tc := ⟨.hbm, 780, rfl⟩
abbrev main_v669 : Ref sig .tc := ⟨.hbm, 781, rfl⟩
abbrev main_v670 : Ref sig .tc := ⟨.hbm, 782, rfl⟩
abbrev main_v671 : Ref sig .tc := ⟨.hbm, 783, rfl⟩
abbrev main_v672 : Ref sig .tc := ⟨.hbm, 784, rfl⟩
abbrev main_cst_71 : Ref sig .tc := ⟨.hbm, 785, rfl⟩
abbrev main_v673 : Ref sig .tc := ⟨.hbm, 786, rfl⟩
abbrev main_v674 : Ref sig .tc := ⟨.hbm, 787, rfl⟩
abbrev main_v675 : Ref sig .tc := ⟨.hbm, 788, rfl⟩
abbrev main_v676 : Ref sig .tc := ⟨.hbm, 789, rfl⟩
abbrev main_v677 : Ref sig .tc := ⟨.hbm, 790, rfl⟩
abbrev main_v678 : Ref sig .tc := ⟨.hbm, 791, rfl⟩
abbrev main_v679 : Ref sig .tc := ⟨.hbm, 792, rfl⟩
abbrev main_v680 : Ref sig .tc := ⟨.hbm, 793, rfl⟩
abbrev main_v681 : Ref sig .tc := ⟨.hbm, 794, rfl⟩
abbrev main_v682 : Ref sig .tc := ⟨.hbm, 795, rfl⟩
abbrev main_v683 : Ref sig .tc := ⟨.hbm, 796, rfl⟩
abbrev main_v684 : Ref sig .tc := ⟨.hbm, 797, rfl⟩
abbrev main_v685 : Ref sig .tc := ⟨.hbm, 798, rfl⟩
abbrev main_v686 : Ref sig .tc := ⟨.hbm, 799, rfl⟩
abbrev main_v687 : Ref sig .tc := ⟨.hbm, 800, rfl⟩
abbrev main_v688 : Ref sig .tc := ⟨.hbm, 801, rfl⟩
abbrev main_v689 : Ref sig .tc := ⟨.hbm, 802, rfl⟩
abbrev main_v690 : Ref sig .tc := ⟨.hbm, 803, rfl⟩
abbrev main_v691 : Ref sig .tc := ⟨.hbm, 804, rfl⟩
abbrev main_v692 : Ref sig .tc := ⟨.hbm, 805, rfl⟩
abbrev main_v693 : Ref sig .tc := ⟨.hbm, 806, rfl⟩
abbrev main_v694 : Ref sig .tc := ⟨.hbm, 807, rfl⟩
abbrev main_v695 : Ref sig .tc := ⟨.hbm, 808, rfl⟩
abbrev main_v696 : Ref sig .tc := ⟨.hbm, 809, rfl⟩
abbrev main_v697 : Ref sig .tc := ⟨.hbm, 810, rfl⟩
abbrev main_v698 : Ref sig .tc := ⟨.hbm, 811, rfl⟩
abbrev main_v699 : Ref sig .tc := ⟨.hbm, 812, rfl⟩
abbrev main_v700 : Ref sig .tc := ⟨.hbm, 813, rfl⟩
abbrev main_cst_72 : Ref sig .tc := ⟨.hbm, 814, rfl⟩
abbrev main_v701 : Ref sig .tc := ⟨.hbm, 815, rfl⟩
abbrev main_v702 : Ref sig .tc := ⟨.hbm, 816, rfl⟩
abbrev main_v703 : Ref sig .tc := ⟨.hbm, 817, rfl⟩
abbrev main_v704 : Ref sig .tc := ⟨.hbm, 818, rfl⟩
abbrev main_v705 : Ref sig .tc := ⟨.hbm, 819, rfl⟩
abbrev main_v706 : Ref sig .tc := ⟨.hbm, 820, rfl⟩
abbrev main_v707 : Ref sig .tc := ⟨.hbm, 821, rfl⟩
abbrev main_v708 : Ref sig .tc := ⟨.hbm, 822, rfl⟩
abbrev main_v709 : Ref sig .tc := ⟨.hbm, 823, rfl⟩
abbrev main_v710 : Ref sig .tc := ⟨.hbm, 824, rfl⟩
abbrev main_v711 : Ref sig .tc := ⟨.hbm, 825, rfl⟩
abbrev main_v712 : Ref sig .tc := ⟨.hbm, 826, rfl⟩
abbrev main_call13_cst : Ref sig .tc := ⟨.hbm, 827, rfl⟩
abbrev main_call13_v0 : Ref sig .tc := ⟨.hbm, 828, rfl⟩
abbrev main_v713 : Ref sig .tc := ⟨.hbm, 829, rfl⟩
abbrev main_v714 : Ref sig .tc := ⟨.hbm, 830, rfl⟩
abbrev main_c_73 : Ref sig .tc := ⟨.hbm, 831, rfl⟩
abbrev main_v715 : Ref sig .tc := ⟨.hbm, 832, rfl⟩
abbrev main_v716 : Ref sig .tc := ⟨.hbm, 833, rfl⟩
abbrev main_c_74 : Ref sig .tc := ⟨.hbm, 834, rfl⟩
abbrev main_v717 : Ref sig .tc := ⟨.hbm, 835, rfl⟩
abbrev main_v718 : Ref sig .tc := ⟨.hbm, 836, rfl⟩
abbrev main_v719 : Ref sig .tc := ⟨.hbm, 837, rfl⟩
abbrev main_v720 : Ref sig .tc := ⟨.hbm, 838, rfl⟩
abbrev main_v721 : Ref sig .tc := ⟨.hbm, 839, rfl⟩
abbrev main_v722 : Ref sig .tc := ⟨.hbm, 840, rfl⟩
abbrev main_v723 : Ref sig .tc := ⟨.hbm, 841, rfl⟩
abbrev main_cst_75 : Ref sig .tc := ⟨.hbm, 842, rfl⟩
abbrev main_v724 : Ref sig .tc := ⟨.hbm, 843, rfl⟩
abbrev main_v725 : Ref sig .tc := ⟨.hbm, 844, rfl⟩
abbrev main_v726 : Ref sig .tc := ⟨.hbm, 845, rfl⟩
abbrev main_v727 : Ref sig .tc := ⟨.hbm, 846, rfl⟩
abbrev main_c_76 : Ref sig .tc := ⟨.hbm, 847, rfl⟩
abbrev main_v728 : Ref sig .tc := ⟨.hbm, 848, rfl⟩
abbrev main_v729 : Ref sig .tc := ⟨.hbm, 849, rfl⟩
abbrev main_c_77 : Ref sig .tc := ⟨.hbm, 850, rfl⟩
abbrev main_v730 : Ref sig .tc := ⟨.hbm, 851, rfl⟩
abbrev main_v731 : Ref sig .tc := ⟨.hbm, 852, rfl⟩
abbrev main_v732 : Ref sig .tc := ⟨.hbm, 853, rfl⟩
abbrev main_v733 : Ref sig .tc := ⟨.hbm, 854, rfl⟩
abbrev main_v734 : Ref sig .tc := ⟨.hbm, 855, rfl⟩
abbrev main_v735 : Ref sig .tc := ⟨.hbm, 856, rfl⟩
abbrev main_v736 : Ref sig .tc := ⟨.hbm, 857, rfl⟩
abbrev main_cst_78 : Ref sig .tc := ⟨.hbm, 858, rfl⟩
abbrev main_v737 : Ref sig .tc := ⟨.hbm, 859, rfl⟩
abbrev main_v738 : Ref sig .tc := ⟨.hbm, 860, rfl⟩
abbrev main_v739 : Ref sig .tc := ⟨.hbm, 861, rfl⟩
abbrev main_v740 : Ref sig .tc := ⟨.hbm, 862, rfl⟩
abbrev main_c_79 : Ref sig .tc := ⟨.hbm, 863, rfl⟩
abbrev main_v741 : Ref sig .tc := ⟨.hbm, 864, rfl⟩
abbrev main_v742 : Ref sig .tc := ⟨.hbm, 865, rfl⟩
abbrev main_c_80 : Ref sig .tc := ⟨.hbm, 866, rfl⟩
abbrev main_v743 : Ref sig .tc := ⟨.hbm, 867, rfl⟩
abbrev main_v744 : Ref sig .tc := ⟨.hbm, 868, rfl⟩
abbrev main_v745 : Ref sig .tc := ⟨.hbm, 869, rfl⟩
abbrev main_v746 : Ref sig .tc := ⟨.hbm, 870, rfl⟩
abbrev main_v747 : Ref sig .tc := ⟨.hbm, 871, rfl⟩
abbrev main_v748 : Ref sig .tc := ⟨.hbm, 872, rfl⟩
abbrev main_v749 : Ref sig .tc := ⟨.hbm, 873, rfl⟩
abbrev main_cst_81 : Ref sig .tc := ⟨.hbm, 874, rfl⟩
abbrev main_v750 : Ref sig .tc := ⟨.hbm, 875, rfl⟩
abbrev main_v751 : Ref sig .tc := ⟨.hbm, 876, rfl⟩
abbrev main_v752 : Ref sig .tc := ⟨.hbm, 877, rfl⟩
abbrev main_v753 : Ref sig .tc := ⟨.hbm, 878, rfl⟩
abbrev main_v754 : Ref sig .tc := ⟨.hbm, 879, rfl⟩
abbrev main_v755 : Ref sig .tc := ⟨.hbm, 880, rfl⟩
abbrev main_v756 : Ref sig .tc := ⟨.hbm, 881, rfl⟩
abbrev main_v757 : Ref sig .tc := ⟨.hbm, 882, rfl⟩
abbrev main_v758 : Ref sig .tc := ⟨.hbm, 883, rfl⟩
abbrev main_v759 : Ref sig .tc := ⟨.hbm, 884, rfl⟩
abbrev main_v760 : Ref sig .tc := ⟨.hbm, 885, rfl⟩
abbrev main_v761 : Ref sig .tc := ⟨.hbm, 886, rfl⟩
abbrev main_v762 : Ref sig .tc := ⟨.hbm, 887, rfl⟩
abbrev main_v763 : Ref sig .tc := ⟨.hbm, 888, rfl⟩
abbrev main_v764 : Ref sig .tc := ⟨.hbm, 889, rfl⟩
abbrev main_v765 : Ref sig .tc := ⟨.hbm, 890, rfl⟩
abbrev main_v766 : Ref sig .tc := ⟨.hbm, 891, rfl⟩
abbrev main_v767 : Ref sig .tc := ⟨.hbm, 892, rfl⟩
abbrev main_v768 : Ref sig .tc := ⟨.hbm, 893, rfl⟩
abbrev main_v769 : Ref sig .tc := ⟨.hbm, 894, rfl⟩
abbrev main_v770 : Ref sig .tc := ⟨.hbm, 895, rfl⟩
abbrev main_v771 : Ref sig .tc := ⟨.hbm, 896, rfl⟩
abbrev main_v772 : Ref sig .tc := ⟨.hbm, 897, rfl⟩
abbrev main_v773 : Ref sig .tc := ⟨.hbm, 898, rfl⟩
abbrev main_v774 : Ref sig .tc := ⟨.hbm, 899, rfl⟩
abbrev main_call14_cst : Ref sig .tc := ⟨.hbm, 900, rfl⟩
abbrev main_call14_v0 : Ref sig .tc := ⟨.hbm, 901, rfl⟩
abbrev main_v775 : Ref sig .tc := ⟨.hbm, 902, rfl⟩
abbrev main_v776 : Ref sig .tc := ⟨.hbm, 903, rfl⟩
abbrev main_v777 : Ref sig .tc := ⟨.hbm, 904, rfl⟩
abbrev main_v778 : Ref sig .tc := ⟨.hbm, 905, rfl⟩
abbrev main_v779 : Ref sig .tc := ⟨.hbm, 906, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  reducesTo_S50000x100_S50000_d1 : S50000x100.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x100_0_1 : S50000x1.BroadcastsInDim S50000x100 (![0, 1] : Fin 2 → Fin S50000x100.rank)
  bcast_S850000x1_S850000x100_0_1 : S850000x1.BroadcastsInDim S850000x100 (![0, 1] : Fin 2 → Fin S850000x100.rank)
  bcast_S_S50000x100 : S_.BroadcastsInDim S50000x100 (![] : Fin 0 → Fin S50000x100.rank)
  slices_S12x100x16_S1x100x16_0_0_0 : S12x100x16.Slices ![0, 0, 0] S1x100x16
  shapeCasts_S1x100x16_S100x16 : S1x100x16.ShapeCasts S100x16
  slices_S12x16_S1x16_0_0 : S12x16.Slices ![0, 0] S1x16
  shapeCasts_S1x16_S16 : S1x16.ShapeCasts S16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S16 : S_.BroadcastsInDim S16 (![] : Fin 0 → Fin S16.rank)
  bcast_S_S50000x16 : S_.BroadcastsInDim S50000x16 (![] : Fin 0 → Fin S50000x16.rank)
  slices_S12x16x40_S1x16x40_0_0_0 : S12x16x40.Slices ![0, 0, 0] S1x16x40
  shapeCasts_S1x16x40_S16x40 : S1x16x40.ShapeCasts S16x40
  slices_S12x40_S1x40_0_0 : S12x40.Slices ![0, 0] S1x40
  shapeCasts_S1x40_S40 : S1x40.ShapeCasts S40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  slices_S12x100x16_S1x100x16_1_0_0 : S12x100x16.Slices ![1, 0, 0] S1x100x16
  slices_S12x16_S1x16_1_0 : S12x16.Slices ![1, 0] S1x16
  bcast_S850000x1_S850000x16_0_1 : S850000x1.BroadcastsInDim S850000x16 (![0, 1] : Fin 2 → Fin S850000x16.rank)
  slices_S12x16x40_S1x16x40_1_0_0 : S12x16x40.Slices ![1, 0, 0] S1x16x40
  slices_S12x40_S1x40_1_0 : S12x40.Slices ![1, 0] S1x40
  slices_S12x100x16_S1x100x16_2_0_0 : S12x100x16.Slices ![2, 0, 0] S1x100x16
  slices_S12x16_S1x16_2_0 : S12x16.Slices ![2, 0] S1x16
  slices_S12x16x40_S1x16x40_2_0_0 : S12x16x40.Slices ![2, 0, 0] S1x16x40
  slices_S12x40_S1x40_2_0 : S12x40.Slices ![2, 0] S1x40
  slices_S12x100x16_S1x100x16_3_0_0 : S12x100x16.Slices ![3, 0, 0] S1x100x16
  slices_S12x16_S1x16_3_0 : S12x16.Slices ![3, 0] S1x16
  slices_S12x16x40_S1x16x40_3_0_0 : S12x16x40.Slices ![3, 0, 0] S1x16x40
  slices_S12x40_S1x40_3_0 : S12x40.Slices ![3, 0] S1x40
  slices_S12x100x16_S1x100x16_4_0_0 : S12x100x16.Slices ![4, 0, 0] S1x100x16
  slices_S12x16_S1x16_4_0 : S12x16.Slices ![4, 0] S1x16
  slices_S12x16x40_S1x16x40_4_0_0 : S12x16x40.Slices ![4, 0, 0] S1x16x40
  slices_S12x40_S1x40_4_0 : S12x40.Slices ![4, 0] S1x40
  slices_S12x100x16_S1x100x16_5_0_0 : S12x100x16.Slices ![5, 0, 0] S1x100x16
  slices_S12x16_S1x16_5_0 : S12x16.Slices ![5, 0] S1x16
  slices_S12x16x40_S1x16x40_5_0_0 : S12x16x40.Slices ![5, 0, 0] S1x16x40
  slices_S12x40_S1x40_5_0 : S12x40.Slices ![5, 0] S1x40
  slices_S12x100x16_S1x100x16_6_0_0 : S12x100x16.Slices ![6, 0, 0] S1x100x16
  slices_S12x16_S1x16_6_0 : S12x16.Slices ![6, 0] S1x16
  slices_S12x16x40_S1x16x40_6_0_0 : S12x16x40.Slices ![6, 0, 0] S1x16x40
  slices_S12x40_S1x40_6_0 : S12x40.Slices ![6, 0] S1x40
  slices_S12x100x16_S1x100x16_7_0_0 : S12x100x16.Slices ![7, 0, 0] S1x100x16
  slices_S12x16_S1x16_7_0 : S12x16.Slices ![7, 0] S1x16
  slices_S12x16x40_S1x16x40_7_0_0 : S12x16x40.Slices ![7, 0, 0] S1x16x40
  slices_S12x40_S1x40_7_0 : S12x40.Slices ![7, 0] S1x40
  slices_S12x100x16_S1x100x16_8_0_0 : S12x100x16.Slices ![8, 0, 0] S1x100x16
  slices_S12x16_S1x16_8_0 : S12x16.Slices ![8, 0] S1x16
  slices_S12x16x40_S1x16x40_8_0_0 : S12x16x40.Slices ![8, 0, 0] S1x16x40
  slices_S12x40_S1x40_8_0 : S12x40.Slices ![8, 0] S1x40
  slices_S12x100x16_S1x100x16_9_0_0 : S12x100x16.Slices ![9, 0, 0] S1x100x16
  slices_S12x16_S1x16_9_0 : S12x16.Slices ![9, 0] S1x16
  slices_S12x16x40_S1x16x40_9_0_0 : S12x16x40.Slices ![9, 0, 0] S1x16x40
  slices_S12x40_S1x40_9_0 : S12x40.Slices ![9, 0] S1x40
  slices_S12x100x16_S1x100x16_10_0_0 : S12x100x16.Slices ![10, 0, 0] S1x100x16
  slices_S12x16_S1x16_10_0 : S12x16.Slices ![10, 0] S1x16
  slices_S12x16x40_S1x16x40_10_0_0 : S12x16x40.Slices ![10, 0, 0] S1x16x40
  slices_S12x40_S1x40_10_0 : S12x40.Slices ![10, 0] S1x40
  slices_S12x100x16_S1x100x16_11_0_0 : S12x100x16.Slices ![11, 0, 0] S1x100x16
  slices_S12x16_S1x16_11_0 : S12x16.Slices ![11, 0] S1x16
  slices_S12x16x40_S1x16x40_11_0_0 : S12x16x40.Slices ![11, 0, 0] S1x16x40
  slices_S12x40_S1x40_11_0 : S12x40.Slices ![11, 0] S1x40
  bcast_S50000x40_S50000x1x40_0_2 : S50000x40.BroadcastsInDim S50000x1x40 (![0, 2] : Fin 2 → Fin S50000x1x40.rank)
  concatenates_S50000x1x40_S50000x1x40_S50000x1x40_S50000x1x40_S50000x1x40_S50000x1x40_S50000x1x40_S50000x1x40_S50000x1x40_S50000x1x40_S50000x1x40_S50000x1x40_S50000x12x40_d1 : Shape.Concatenates [S50000x1x40, S50000x1x40, S50000x1x40, S50000x1x40, S50000x1x40, S50000x1x40, S50000x1x40, S50000x1x40, S50000x1x40, S50000x1x40, S50000x1x40, S50000x1x40] S50000x12x40 1
  shapeCasts_S50000x12x40_S50000x480 : S50000x12x40.ShapeCasts S50000x480
  bcast_S_S50000x480 : S_.BroadcastsInDim S50000x480 (![] : Fin 0 → Fin S50000x480.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x100_S850000x1_S850000x100_1_0_n_n_0_1_1100_wf : GatherDims.WF S50000x100 S850000x1 S850000x100 [1] [0] [] [0] [] 1 ![1, 100]
  scatter_S50000x100_S850000x1_S850000x100_1_0_0_1_wf : ScatterDims.WF S50000x100 S850000x1 S850000x100 [1] [0] [0] 1
  dot_S50000x100_S100x16_S50000x16_1_0_0_1_n_n_wf : DotDims.WF S50000x100 S100x16 S50000x16 [1] [0] [0] [1] [] []
  dot_S50000x16_S16x40_S50000x40_1_0_0_1_n_n_wf : DotDims.WF S50000x16 S16x40 S50000x40 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  dot_S50000x480_S480x40_S50000x40_1_0_0_1_n_n_wf : DotDims.WF S50000x480 S480x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x100_S850000x1_S850000x100_1_0_n_n_0_1_1100 : GatherDims S50000x100 S850000x1 S850000x100 where
  offsetDims := [1]
  collapsedSliceDims := [0]
  operandBatchingDims := []
  startIndicesBatchingDims := []
  startIndexMap := [0]
  indexVectorDim := 1
  sliceSizes := ![1, 100]
  wf := gather_S50000x100_S850000x1_S850000x100_1_0_n_n_0_1_1100_wf
def scatter_S50000x100_S850000x1_S850000x100_1_0_0_1 : ScatterDims S50000x100 S850000x1 S850000x100 where
  updateWindowDims := [1]
  insertedWindowDims := [0]
  scatterDimsToOperandDims := [0]
  indexVectorDim := 1
  wf := scatter_S50000x100_S850000x1_S850000x100_1_0_0_1_wf
def dot_S50000x100_S100x16_S50000x16_1_0_0_1_n_n : DotDims S50000x100 S100x16 S50000x16 where
  lhsContracting := [1]
  rhsContracting := [0]
  lhsNonContracting := [0]
  rhsNonContracting := [1]
  lhsBatch := []
  rhsBatch := []
  wf := dot_S50000x100_S100x16_S50000x16_1_0_0_1_n_n_wf
def dot_S50000x16_S16x40_S50000x40_1_0_0_1_n_n : DotDims S50000x16 S16x40 S50000x40 where
  lhsContracting := [1]
  rhsContracting := [0]
  lhsNonContracting := [0]
  rhsNonContracting := [1]
  lhsBatch := []
  rhsBatch := []
  wf := dot_S50000x16_S16x40_S50000x40_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf
def dot_S50000x480_S480x40_S50000x40_1_0_0_1_n_n : DotDims S50000x480 S480x40 S50000x40 where
  lhsContracting := [1]
  rhsContracting := [0]
  lhsNonContracting := [0]
  rhsNonContracting := [1]
  lhsBatch := []
  rhsBatch := []
  wf := dot_S50000x480_S480x40_S50000x40_1_0_0_1_n_n_wf

class Facts : Prop extends Facts₀ where

variable [Facts]
-- ==== Proof.FrameB.Dat0.lean ====
/-
  Region 0 of @main (the row-normalising kernel, 25 tiles of 2000 rows), at any float instance and at a PARAMETER `V`,
  the TensorCore's buffer contents when the region is entered: each window's block at a grid point, what the body's
  one store leaves in the output's staging buffer, and the pipeline's proof data.
-/
import proofs.«124913_j71159018160549_2_alg».proof.Proof.Gen.Kernel.Launch
import proofs.«124913_j71159018160549_2_alg».proof.Proof.Gen.Kernel.Skeleton
import proofs.«124913_j71159018160549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2000×100 block as a rectangle. -/
abbrev r0_0 : Rect S2000x100 := Rect.unit (s := S2000x100) ![0, 0] S2000x100.size inb_S2000x100_S2000x100_0_0

/-- The output's staging buffer after the body: one whole-block piece, the input block's rows each divided by its length. -/
def out0_1 (x0 : Vec F S2000x100 .f32) : Vec F S2000x100 .f32 :=
  View.canon [⟨r0_0, k0_pay1 (View.ld x0 r0_0)⟩]

/-- The proof data of pipeline 0 on core `c`: the arrays as the region finds them; after the body at point `t` each
    input's buffer at its block and the output's at the body's one store over the input blocks; the scoped rest and
    the generator register ride untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

end Cert.Kernel.Gen

end
-- ==== Proof.FrameB.Dat1.lean ====
/-
  Region 1 of @main (the cells' first layer: grid 3 × 4 × 25, one 2000-row tile of one cell per point), at any float
  instance and at a PARAMETER `V`, the TensorCore's buffer contents when the region is entered: each window's block at
  a grid point, what the body's one store leaves in the output's staging buffer, and the pipeline's proof data.
  Windows: 0 the propagated rows, 1 the first weights, 2 the bias, 3 the scale, 4 the shift, 5 the running mean,
  6 the running variance, 7 the output.
-/
import proofs.«124913_j71159018160549_2_alg».proof.Proof.Gen.Kernel.Launch
import proofs.«124913_j71159018160549_2_alg».proof.Proof.Gen.Kernel.Skeleton
import proofs.«124913_j71159018160549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole blocks as rectangles. -/
abbrev r1_0 : Rect S1x2000x100 := Rect.unit (s := S1x2000x100) ![0, 0, 0] S1x2000x100.size inb_S1x2000x100_S1x2000x100_0_0_0
abbrev r1_1 : Rect S1x100x16 := Rect.unit (s := S1x100x16) ![0, 0, 0] S1x100x16.size inb_S1x100x16_S1x100x16_0_0_0
abbrev r1_2 : Rect S1x1x16 := Rect.unit (s := S1x1x16) ![0, 0, 0] S1x1x16.size inb_S1x1x16_S1x1x16_0_0_0
abbrev r1_7 : Rect S1x1x2000x16 := Rect.unit (s := S1x1x2000x16) ![0, 0, 0, 0] S1x1x2000x16.size inb_S1x1x2000x16_S1x1x2000x16_0_0_0_0

/-- The output's staging buffer after the body: one whole-block piece over the seven input blocks (the body reads the
    variance, the mean and the shift in that order after the scale). -/
def out1_7 (x0 : Vec F S1x2000x100 .f32) (x1 : Vec F S1x100x16 .f32) (x2 x3 x4 x5 x6 : Vec F S1x1x16 .f32) : Vec F S1x1x2000x16 .f32 :=
  View.canon [⟨r1_7, k1_pay1 (k1_pay2 (View.ld x0 r1_0) (View.ld x1 r1_1) (View.ld x2 r1_2) (View.ld x3 r1_2) (View.ld x6 r1_2) (View.ld x5 r1_2) (View.ld x4 r1_2))⟩]

/-- The proof data of pipeline 1 on core `c`: the arrays as the region finds them; after the body at point `t` each
    input's buffer at its block and the output's at the body's one store over the input blocks; the scoped rest and
    the generator register ride untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

end Cert.Kernel.Gen

end
-- ==== Proof.FrameB.Dat2.lean ====
/-
  Region 2 of @main (the cells' second layer: grid 3 × 4 × 25), at any float instance and at a PARAMETER `V`, the
  TensorCore's buffer contents when the region is entered: each window's block at a grid point, what the body's one
  store leaves in the output's staging buffer, and the pipeline's proof data. Windows: 0 the hidden rows, 1 the second
  weights, 2 the bias, 3 the output.
-/
import proofs.«124913_j71159018160549_2_alg».proof.Proof.Gen.Kernel.Launch
import proofs.«124913_j71159018160549_2_alg».proof.Proof.Gen.Kernel.Skeleton
import proofs.«124913_j71159018160549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole blocks as rectangles. -/
abbrev r2_0 : Rect S1x1x2000x16 := Rect.unit (s := S1x1x2000x16) ![0, 0, 0, 0] S1x1x2000x16.size inb_S1x1x2000x16_S1x1x2000x16_0_0_0_0
abbrev r2_1 : Rect S1x16x40 := Rect.unit (s := S1x16x40) ![0, 0, 0] S1x16x40.size inb_S1x16x40_S1x16x40_0_0_0
abbrev r2_2 : Rect S1x1x40 := Rect.unit (s := S1x1x40) ![0, 0, 0] S1x1x40.size inb_S1x1x40_S1x1x40_0_0_0
abbrev r2_3 : Rect S1x1x2000x40 := Rect.unit (s := S1x1x2000x40) ![0, 0, 0, 0] S1x1x2000x40.size inb_S1x1x2000x40_S1x1x2000x40_0_0_0_0

/-- The output's staging buffer after the body: one whole-block piece over the three input blocks. -/
def out2_3 (x0 : Vec F S1x1x2000x16 .f32) (x1 : Vec F S1x16x40 .f32) (x2 : Vec F S1x1x40 .f32) : Vec F S1x1x2000x40 .f32 :=
  View.canon [⟨r2_3, k2_pay1 (View.ld x0 r2_0) (View.ld x1 r2_1) (View.ld x2 r2_2)⟩]

/-- The proof data of pipeline 2 on core `c`: the arrays as the region finds them; after the body at point `t` each
    input's buffer at its block and the output's at the body's one store over the input blocks; the scoped rest and
    the generator register ride untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

end Cert.Kernel.Gen

end
-- ==== Proof.FrameB.Dat3.lean ====
/-
  Region 3 of @main (the last layer: 25 tiles of 2000 rows), at any float instance and at a PARAMETER `V`, the
  TensorCore's buffer contents when the region is entered: each window's block at a grid point, what the body's one
  store leaves in the output's staging buffer, and the pipeline's proof data. Windows: 0 the 480 columns, 1 the last
  weights, 2 the last bias, 3 the output.
-/
import proofs.«124913_j71159018160549_2_alg».proof.Proof.Gen.Kernel.Launch
import proofs.«124913_j71159018160549_2_alg».proof.Proof.Gen.Kernel.Skeleton
import proofs.«124913_j71159018160549_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole blocks as rectangles. -/
abbrev r3_0 : Rect S2000x480 := Rect.unit (s := S2000x480) ![0, 0] S2000x480.size inb_S2000x480_S2000x480_0_0
abbrev r3_1 : Rect S480x40 := Rect.unit (s := S480x40) ![0, 0] S480x40.size inb_S480x40_S480x40_0_0
abbrev r3_2 : Rect S1x40 := Rect.unit (s := S1x40) ![0, 0] S1x40.size inb_S1x40_S1x40_0_0
abbrev r3_3 : Rect S2000x40 := Rect.unit (s := S2000x40) ![0, 0] S2000x40.size inb_S2000x40_S2000x40_0_0

/-- The output's staging buffer after the body: one whole-block piece over the three input blocks. -/
def out3_3 (x0 : Vec F S2000x480 .f32) (x1 : Vec F S480x40 .f32) (x2 : Vec F S1x40 .f32) : Vec F S2000x40 .f32 :=
  View.canon [⟨r3_3, k3_pay1 (View.ld x0 r3_0) (View.ld x1 r3_1) (View.ld x2 r3_2)⟩]

/-- The proof data of pipeline 3 on core `c`: the arrays as the region finds them; after the body at point `t` each
    input's buffer at its block and the output's at the body's one store over the input blocks; the scoped rest and
    the generator register ride untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

end Cert.Kernel.Gen

end
-- ==== Proof.FrameB.Fold.lean ====
/-
  The TensorCore's buffer contents at every boundary between two items of @main, as a fold from the launch memory:
  a stretch of host operations applies them in order; a kernel region leaves its windows' arrays at what its
  write-backs leave (the inputs as entered, the output's blocks folded in) and every other buffer as entered.
  @main is thirteen items: three stretches, region 0, two stretches, region 1, three stretches, region 2, one stretch,
  region 3.
-/
import proofs.«124913_j71159018160549_2_alg».proof.Proof.FrameB.Dat0
import proofs.«124913_j71159018160549_2_alg».proof.Proof.FrameB.Dat1
import proofs.«124913_j71159018160549_2_alg».proof.Proof.FrameB.Dat2
import proofs.«124913_j71159018160549_2_alg».proof.Proof.FrameB.Dat3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the stretch `main_part0_ops0`. -/
abbrev W1 : Dev nD → Valuation τ sig (Elt F) := fun c => StableHlo.after main_part0_ops0 (W0 m c)
/-- After the stretch `main_part0_ops1`. -/
abbrev W2 : Dev nD → Valuation τ sig (Elt F) := fun c => StableHlo.after main_part0_ops1 (W1 m c)
/-- After the stretch `main_part0_ops2`. -/
abbrev W3 : Dev nD → Valuation τ sig (Elt F) := fun c => StableHlo.after main_part0_ops2 (W2 m c)
/-- Region 0's entry contents read at the TensorCore's references. -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Region 0's exit contents read at the TensorCore's references. -/
abbrev V4 : (c : Dev nD) → (b : Ref sig .tc) → Buf (Elt F) ((c : Thread nD τ).loc b) := fun c b => W4 m c b
/-- At region 0's exit each of its arrays holds what the pipeline leaves, every other buffer what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the stretch `main_part0_ops3`. -/
abbrev W5 : Dev nD → Valuation τ sig (Elt F) := fun c => StableHlo.after main_part0_ops3 (W4 m c)
/-- After the stretch `main_part1_ops0`. -/
abbrev W6 : Dev nD → Valuation τ sig (Elt F) := fun c => StableHlo.after main_part1_ops0 (W5 m c)
/-- Region 1's entry contents read at the TensorCore's references. -/
abbrev V6 : (c : Dev nD) → (b : Ref sig .tc) → Buf (Elt F) ((c : Thread nD τ).loc b) := fun c b => W6 m c b
/-- At region 1's exit: its arrays at what the pipeline leaves, every other buffer as entered. -/
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- Region 1's exit contents read at the TensorCore's references. -/
abbrev V7 : (c : Dev nD) → (b : Ref sig .tc) → Buf (Elt F) ((c : Thread nD τ).loc b) := fun c b => W7 m c b
/-- At region 1's exit each of its arrays holds what the pipeline leaves, every other buffer what it held at entry. -/
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- After the stretch `main_part1_ops1`. -/
abbrev W8 : Dev nD → Valuation τ sig (Elt F) := fun c => StableHlo.after main_part1_ops1 (W7 m c)
/-- After the stretch `main_part2_ops0`. -/
abbrev W9 : Dev nD → Valuation τ sig (Elt F) := fun c => StableHlo.after main_part2_ops0 (W8 m c)
/-- After the stretch `main_part3_ops0`. -/
abbrev W10 : Dev nD → Valuation τ sig (Elt F) := fun c => StableHlo.after main_part3_ops0 (W9 m c)
/-- Region 2's entry contents read at the TensorCore's references. -/
abbrev V10 : (c : Dev nD) → (b : Ref sig .tc) → Buf (Elt F) ((c : Thread nD τ).loc b) := fun c b => W10 m c b
/-- At region 2's exit: its arrays at what the pipeline leaves, every other buffer as entered. -/
def W11 (c : Dev nD) : Valuation τ sig (Elt F) :=
  Pipeline.withArrays spec2 c (W10 m c) fun w => (dat2 (V10 m) c).arrAt w cfg2.N
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
/-- Region 2's exit contents read at the TensorCore's references. -/
abbrev V11 : (c : Dev nD) → (b : Ref sig .tc) → Buf (Elt F) ((c : Thread nD τ).loc b) := fun c b => W11 m c b
/-- At region 2's exit each of its arrays holds what the pipeline leaves, every other buffer what it held at entry. -/
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => W11_of_ne m c b fun w e => hb (Finset.mem_image.mpr ⟨w, Finset.mem_univ _, e⟩)
/-- After the stretch `main_part3_ops1`. -/
abbrev W12 : Dev nD → Valuation τ sig (Elt F) := fun c => StableHlo.after main_part3_ops1 (W11 m c)
/-- Region 3's entry contents read at the TensorCore's references. -/
abbrev V12 : (c : Dev nD) → (b : Ref sig .tc) → Buf (Elt F) ((c : Thread nD τ).loc b) := fun c b => W12 m c b
/-- At region 3's exit: its arrays at what the pipeline leaves, every other buffer as entered. -/
def W13 (c : Dev nD) : Valuation τ sig (Elt F) :=
  Pipeline.withArrays spec3 c (W12 m c) fun w => (dat3 (V12 m) c).arrAt w cfg3.N
theorem W13_arr (c : Dev nD) (w : Fin cfg3.W) :
    W13 m c (Proc.devRef .tc (Pipeline.arrRef spec3 w)) = (dat3 (V12 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
/-- Region 3's exit contents read at the TensorCore's references. -/
abbrev V13 : (c : Dev nD) → (b : Ref sig .tc) → Buf (Elt F) ((c : Thread nD τ).loc b) := fun c b => W13 m c b
/-- At region 3's exit each of its arrays holds what the pipeline leaves, every other buffer what it held at entry. -/
theorem hF3 (c : Dev nD) (w : Fin cfg3.W) : (dat3 (V12 m) c).arrAt w cfg3.N = V13 m c (Pipeline.arrRef spec3 w) :=
  (W13_arr m c w).symm
theorem hrest3 (c : Dev nD) : ∀ b, b ∉ Finset.univ.image (Pipeline.arrRef spec3) → V13 m c b = V12 m c b :=
  fun b hb => W13_of_ne m c b fun w e => hb (Finset.mem_image.mpr ⟨w, Finset.mem_univ _, e⟩)

end Cert.Kernel.Gen

end
-- ==== Proof.FrameB.Body0.lean ====
import proofs.«124913_j71159018160549_2_alg».proof.Proof.FrameB.Dat0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem cover0_1 (p0 : Vec F S2000x100 .f32) (y : S2000x100.Idx) :
    ∃ pc ∈ ([⟨r0_0, p0⟩] : List (View.Piece (Elt F) S2000x100 .f32)), y ∈ pc.1.set :=
  View.cover_of_tiled [⟨r0_0, p0⟩] S2000x100.size (by rfl) y

set_option maxHeartbeats 1000000 in
theorem sound_kernel0 (c : Dev nD) (E : Set ℕ) (i : grid0.Coords) (arg1 : Memref sig .tc .vmem S2000x100 .f32) (harg1 : arg1.IsWhole) (arg2 : Memref sig .tc .vmem S2000x100 .f32) (harg2 : arg2.IsWhole)
    (x0 : Vec F S2000x100 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.FrameB.Body1.lean ====
import proofs.«124913_j71159018160549_2_alg».proof.Proof.FrameB.Dat1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem cover1_7 (p0 : Vec F S1x1x2000x16 .f32) (y : S1x1x2000x16.Idx) :
    ∃ pc ∈ ([⟨r1_7, p0⟩] : List (View.Piece (Elt F) S1x1x2000x16 .f32)), y ∈ pc.1.set :=
  View.cover_of_tiled [⟨r1_7, p0⟩] S1x1x2000x16.size (by rfl) y

set_option maxHeartbeats 1000000 in
theorem sound_kernel1 (c : Dev nD) (E : Set ℕ) (i : grid1.Coords) (arg3 : Memref sig .tc .vmem S1x2000x100 .f32) (harg3 : arg3.IsWhole) (arg4 : Memref sig .tc .vmem S1x100x16 .f32) (harg4 : arg4.IsWhole) (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole) (arg8 : Memref sig .tc .vmem S1x1x16 .f32) (harg8 : arg8.IsWhole) (arg9 : Memref sig .tc .vmem S1x1x16 .f32) (harg9 : arg9.IsWhole) (arg10 : Memref sig .tc .vmem S1x1x2000x16 .f32) (harg10 : arg10.IsWhole)
    (x0 : Vec F S1x2000x100 .f32) (x1 : Vec F S1x100x16 .f32) (x2 x3 x4 x5 x6 : Vec F S1x1x16 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out1_7 x0 x1 x2 x3 x4 x5 x6)) -∗ K ⟨⟩))
      ⊢ wp frame (wpE (defs₀ (F := F)) Variants.none c none) E (cc1_kernel i arg3 harg3 arg4 harg4 arg5 harg5 arg6 harg6 arg7 harg7 arg8 harg8 arg9 harg9 arg10 harg10) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.FrameB.Body2.lean ====
import proofs.«124913_j71159018160549_2_alg».proof.Proof.FrameB.Dat2

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem cover2_3 (p0 : Vec F S1x1x2000x40 .f32) (y : S1x1x2000x40.Idx) :
    ∃ pc ∈ ([⟨r2_3, p0⟩] : List (View.Piece (Elt F) S1x1x2000x40 .f32)), y ∈ pc.1.set :=
  View.cover_of_tiled [⟨r2_3, p0⟩] S1x1x2000x40.size (by rfl) y

set_option maxHeartbeats 1000000 in
theorem sound_kernel2 (c : Dev nD) (E : Set ℕ) (i : grid2.Coords) (arg3 : Memref sig .tc .vmem S1x1x2000x16 .f32) (harg3 : arg3.IsWhole) (arg4 : Memref sig .tc .vmem S1x16x40 .f32) (harg4 : arg4.IsWhole) (arg5 : Memref sig .tc .vmem S1x1x40 .f32) (harg5 : arg5.IsWhole) (arg6 : Memref sig .tc .vmem S1x1x2000x40 .f32) (harg6 : arg6.IsWhole)
    (x0 : Vec F S1x1x2000x16 .f32) (x1 : Vec F S1x16x40 .f32) (x2 : Vec F S1x1x40 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out2_3 x0 x1 x2)) -∗ K ⟨⟩))
      ⊢ wp frame (wpE (defs₀ (F := F)) Variants.none c none) E (cc2_kernel i arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.FrameB.Body3.lean ====
import proofs.«124913_j71159018160549_2_alg».proof.Proof.FrameB.Dat3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem cover3_3 (p0 : Vec F S2000x40 .f32) (y : S2000x40.Idx) :
    ∃ pc ∈ ([⟨r3_3, p0⟩] : List (View.Piece (Elt F) S2000x40 .f32)), y ∈ pc.1.set :=
  View.cover_of_tiled [⟨r3_3, p0⟩] S2000x40.size (by rfl) y

set_option maxHeartbeats 1000000 in
theorem sound_kernel3 (c : Dev nD) (E : Set ℕ) (i : grid3.Coords) (arg1 : Memref sig .tc .vmem S2000x480 .f32) (harg1 : arg1.IsWhole) (arg2 : Memref sig .tc .vmem S480x40 .f32) (harg2 : arg2.IsWhole) (arg3 : Memref sig .tc .vmem S1x40 .f32) (harg3 : arg3.IsWhole) (arg4 : Memref sig .tc .vmem S2000x40 .f32) (harg4 : arg4.IsWhole)
    (x0 : Vec F S2000x480 .f32) (x1 : Vec F S480x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.FrameB.Run.lean ====
import proofs.«124913_j71159018160549_2_alg».proof.Proof.FrameB.Fold
import proofs.«124913_j71159018160549_2_alg».proof.Proof.FrameB.Body0
import proofs.«124913_j71159018160549_2_alg».proof.Proof.FrameB.Body1
import proofs.«124913_j71159018160549_2_alg».proof.Proof.FrameB.Body2
import proofs.«124913_j71159018160549_2_alg».proof.Proof.FrameB.Body3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V6 m) c
  | ⟨2, _⟩ => fun c => dat2 (V10 m) c
  | ⟨3, _⟩ => fun c => dat3 (V12 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ :=
  ⟨rfl, rfl, rfl, rfl, rfl, rfl, rfl, rfl, rfl, rfl, rfl, rfl, rfl, rfl, rfl⟩

theorem main_part0_ops1_fresh : (main_part0_ops1 : List (HloOp τ sig (Elt F))).Forall fun op => op.fresh = ∅ :=
  rfl

theorem main_part0_ops2_fresh : (main_part0_ops2 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem main_part0_ops3_fresh : (main_part0_ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem main_part1_ops0_fresh : (main_part1_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem main_part1_ops1_fresh : (main_part1_ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem main_part2_ops0_fresh : (main_part2_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem main_part3_ops0_fresh : (main_part3_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem main_part3_ops1_fresh : (main_part3_ops1 : List (HloOp τ sig (Elt F))).Forall fun op => op.fresh = ∅ :=
  ⟨rfl, rfl, rfl, rfl⟩

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W13 m c) ∗ ∃ r, prngReg c r)

set_option backward.isDefEq.respectTransparency.types false in
/-- A kernel region over the thread state: entered from every unscoped buffer at `Wi`, left at `Wo` (regrouped as `post`). -/
def regOf (p : Fin 4) (launch : Pipeline.LaunchFacts (nD := nD) (τ := τ) cfgs p) (Wi Wo : Dev nD → Valuation τ sig (Elt F))
    (post : Dev nD → sProp 𝕄) (hpost : ∀ c : Dev nD, iprop(StableHlo.held (c : Thread nD τ) (Pipeline.ucRefs τ sig) (Wo c) ∗ R c) ⊢ post c)
    (hbody : ∀ c, Pipeline.BodyObligationLoose (pdats m p c) defs₀ 𝒱₀ () Set.univ)
    (howed : ∀ c t, (pdats m p c).owed t = 0) (hrec : ∀ c (x : SemLoc sig × Unit), x ∈ (pdats m p c).recorded 0)
    (hshare : ∀ c w, (pdats m p c).share w = fullShare)
    (hA : ∀ c w, (pdats m p c).A w = Wi c (Pipeline.arrRef (pcfgs (F := F) p).spec w))
    (hΦ0 : ∀ c, (pdats m p c).Φ 0 = Pipeline.ΦA (pcfgs (F := F) p).spec c)
    (hΦN : ∀ c, (pdats m p c).Φ (Fin.last _) = Pipeline.ΦA (pcfgs (F := F) p).spec c)
    (hF : ∀ c w, (pdats m p c).arrAt w (Pipeline.pin (pcfgs (F := F)) adm p).N = Wo c (Pipeline.arrRef (pcfgs (F := F) p).spec w))
    (hrest : ∀ c (b : Ref sig .tc), b ∉ Finset.univ.image (Pipeline.arrRef (pcfgs (F := F) p).spec) → Wo c b = Wi c b) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post := post
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wi c b)
  hentry c := by
    rw [Pipeline.ownSems0_none]
    have hsplit := Pipeline.arrays_of_unscopedBufs (p := p) (pcfgs (F := F)) adm (pdats m) launch.win launch.arr_whole c
      (hshare c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hrec c _)
      rw [howed c]; iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) (hshare c)
      (fun b => Wi c b) (fun b => Wo c b) ((pdats m p c).arrAt · (Pipeline.pin (pcfgs (F := F)) adm p).N) (hF c) (hrest c)
    rw [Pipeline.unscopedBufs_held] at hjoin
    iintro ⟨Ha, HO, HY, Hrest⟩
    imodintro; iapply hpost c
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱₀ L lv 0 :=
  regOf m 0 launch0 (W3 m) (W4 m) _ (fun _ => .rfl)
    (fun c => (body_obligation0 (V3 m) c).loose) (fun _ _ => rfl) (fun _ _ => trivial)
    (fun c => (pdats m 0 c).share_full fun _ => rfl) (fun _ _ => rfl) (fun _ => rfl) (fun _ => rfl) (hF0 m) (hrest0 m)
def reg1 : Pipeline.RegionSeg (pcfgs (F := F)) adm (pdats m) () defs₀ 𝒱₀ L lv 1 :=
  regOf m 1 launch1 (W6 m) (W7 m) _ (fun _ => .rfl)
    (fun c => (body_obligation1 (V6 m) c).loose) (fun _ _ => rfl) (fun _ _ => trivial)
    (fun c => (pdats m 1 c).share_full fun _ => rfl) (fun _ _ => rfl) (fun _ => rfl) (fun _ => rfl) (hF1 m) (hrest1 m)
def reg2 : Pipeline.RegionSeg (pcfgs (F := F)) adm (pdats m) () defs₀ 𝒱₀ L lv 2 :=
  regOf m 2 launch2 (W10 m) (W11 m) _ (fun _ => .rfl)
    (fun c => (body_obligation2 (V10 m) c).loose) (fun _ _ => rfl) (fun _ _ => trivial)
    (fun c => (pdats m 2 c).share_full fun _ => rfl) (fun _ _ => rfl) (fun _ => rfl) (fun _ => rfl) (hF2 m) (hrest2 m)
def reg3 : Pipeline.RegionSeg (pcfgs (F := F)) adm (pdats m) () defs₀ 𝒱₀ L lv 3 :=
  regOf m 3 launch3 (W12 m) (W13 m) (fun c => iprop(Tₙ m c ∗ ∃ W, owes (c : Thread nD τ) (0 : CellTallies nD τ sig Unit) W))
    (fun c => by iintro ⟨Hh, Hp, HO⟩; isplitr [HO]; · isplitl [Hh] <;> iassumption
                 iexact HO)
    (fun c => (body_obligation3 (V12 m) c).loose) (fun _ _ => rfl) (fun _ _ => trivial)
    (fun c => (pdats m 3 c).share_full fun _ => rfl) (fun _ _ => rfl) (fun _ => rfl) (fun _ => rfl) (hF3 m) (hrest3 m)

abbrev segs : List (Pipeline.Seg (pcfgs (F := F)) adm (pdats m) () defs₀ 𝒱₀ L lv) :=
  [ .host (hseg main_part0_ops0 main_part0_ops0_sub main_part0_ops0_fresh (W0 m)),
    .host (hseg main_part0_ops1 main_part0_ops1_sub main_part0_ops1_fresh (W1 m)),
    .host (hseg main_part0_ops2 main_part0_ops2_sub main_part0_ops2_fresh (W2 m)),
    .region (reg0 m),
    .host (hseg main_part0_ops3 main_part0_ops3_sub main_part0_ops3_fresh (W4 m)),
    .host (hseg main_part1_ops0 main_part1_ops0_sub main_part1_ops0_fresh (W5 m)),
    .region (reg1 m),
    .host (hseg main_part1_ops1 main_part1_ops1_sub main_part1_ops1_fresh (W7 m)),
    .host (hseg main_part2_ops0 main_part2_ops0_sub main_part2_ops0_fresh (W8 m)),
    .host (hseg main_part3_ops0 main_part3_ops0_sub main_part3_ops0_fresh (W9 m)),
    .region (reg2 m),
    .host (hseg main_part3_ops1 main_part3_ops1_sub main_part3_ops1_fresh (W11 m)),
    .region (reg3 m) ]

theorem main_run (c : Dev nD) : main (F := F) c = Pipeline.Seg.run (segs m) := (main_chain_windows c).trans (by chain_rfl)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.Kernel.Gen

end
-- ==== Proof.FrameB.Args.lean ====
import proofs.«124913_j71159018160549_2_alg».proof.Proof.FrameB.Run

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- No operation of `ops` writes the buffer `r`. -/
abbrev Unwritten (r : Ref sig .tc) (ops : List (HloOp τ sig (Elt F))) : Prop :=
  ops.Forall fun op => (Proc.devRef .tc r : DevRef τ sig) ∉ op.writes

theorem keeps {ops : List (HloOp τ sig (Elt F))} (V : Valuation τ sig (Elt F)) (r : Ref sig .tc) (h : Unwritten r ops) :
    StableHlo.after ops V (Proc.devRef .tc r) = V (Proc.devRef .tc r) :=
  StableHlo.after_of_forall_not_mem (b := Proc.devRef .tc r) _ _ (List.forall_iff_forall_mem.mp h)

theorem ne_of_idx_lt {r y : Ref sig .tc} {B : ℕ} (hr : r.idx.val < B) (hy : ¬ y.idx.val < B) : r ≠ y := fun h => hy (h ▸ hr)

/-- The buffers are numbered in the order @main defines them, the thirteen arguments first: the three stretches before
    region 0 write buffers numbered 13 and up. -/
theorem unwritten_low (r : Ref sig .tc) (hr : r.idx.val < 13) :
    Unwritten (F := F) r main_part0_ops0 ∧ Unwritten (F := F) r main_part0_ops1 ∧ Unwritten (F := F) r main_part0_ops2 := by
  simp only [Unwritten, main_part0_ops0, main_part0_ops1, main_part0_ops2, List.Forall, StableHlo.nullary_writes,
    StableHlo.unary_writes, StableHlo.binary_writes, StableHlo.ternary_writes, StableHlo.quaternary_writes,
    StableHlo.reshape_writes, StableHlo.binaryIndexed_writes, StableHlo.nary_writes, StableHlo.unaryIndexed_writes,
    Finset.mem_singleton]
  repeat' apply And.intro
  all_goals exact StableHlo.devRef_ne_of_ne (ne_of_idx_lt hr (by decide))

/-- Region 0's output is number 48, and every stretch after it writes buffers numbered above that. -/
theorem unwritten_mid (r : Ref sig .tc) (hr : r.idx.val < 48) :
    Unwritten (F := F) r main_part0_ops3 ∧ Unwritten (F := F) r main_part1_ops0 ∧ Unwritten (F := F) r main_part1_ops1
      ∧ Unwritten (F := F) r main_part2_ops0 ∧ Unwritten (F := F) r main_part3_ops0 ∧ Unwritten (F := F) r main_part3_ops1 := by
  simp only [Unwritten, main_part0_ops3, main_part1_ops0, main_part1_ops1, main_part2_ops0, main_part3_ops0, main_part3_ops1,
    List.Forall, StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals exact StableHlo.devRef_ne_of_ne (ne_of_idx_lt hr (by decide))

/-- A region leaves a buffer numbered below 48 as entered: it is none of the region's arrays, or the array of an input
    window, which the write-backs leave alone (each region's output is numbered 48 or more). -/
theorem region0_keeps (c : Dev nD) (r : Ref sig .tc) (hr : r.idx.val < 48) :
    W4 m c (Proc.devRef .tc r) = W3 m c (Proc.devRef .tc r) := by
  by_cases h : ∀ w, Pipeline.arrRef spec0 w ≠ r
  · exact W4_of_ne m c r h
  · obtain ⟨w, rfl⟩ := not_forall_not.mp h
    exact (W4_arr m c w).trans (((dat0 (V3 m) c).arrAt_in w
      ((by decide : ∀ w : Fin cfg0.W, (Pipeline.arrRef spec0 w).idx.val < 48 → (cfg0.win w).isOut = false) w hr) _).trans (A_eq0 (V3 m) c w))
theorem region1_keeps (c : Dev nD) (r : Ref sig .tc) (hr : r.idx.val < 48) :
    W7 m c (Proc.devRef .tc r) = W6 m c (Proc.devRef .tc r) := by
  by_cases h : ∀ w, Pipeline.arrRef spec1 w ≠ r
  · exact W7_of_ne m c r h
  · obtain ⟨w, rfl⟩ := not_forall_not.mp h
    exact (W7_arr m c w).trans (((dat1 (V6 m) c).arrAt_in w
      ((by decide : ∀ w : Fin cfg1.W, (Pipeline.arrRef spec1 w).idx.val < 48 → (cfg1.win w).isOut = false) w hr) _).trans (A_eq1 (V6 m) c w))
theorem region2_keeps (c : Dev nD) (r : Ref sig .tc) (hr : r.idx.val < 48) :
    W11 m c (Proc.devRef .tc r) = W10 m c (Proc.devRef .tc r) := by
  by_cases h : ∀ w, Pipeline.arrRef spec2 w ≠ r
  · exact W11_of_ne m c r h
  · obtain ⟨w, rfl⟩ := not_forall_not.mp h
    exact (W11_arr m c w).trans (((dat2 (V10 m) c).arrAt_in w
      ((by decide : ∀ w : Fin cfg2.W, (Pipeline.arrRef spec2 w).idx.val < 48 → (cfg2.win w).isOut = false) w hr) _).trans (A_eq2 (V10 m) c w))
theorem region3_keeps (c : Dev nD) (r : Ref sig .tc) (hr : r.idx.val < 48) :
    W13 m c (Proc.devRef .tc r) = W12 m c (Proc.devRef .tc r) := by
  by_cases h : ∀ w, Pipeline.arrRef spec3 w ≠ r
  · exact W13_of_ne m c r h
  · obtain ⟨w, rfl⟩ := not_forall_not.mp h
    exact (W13_arr m c w).trans (((dat3 (V12 m) c).arrAt_in w
      ((by decide : ∀ w : Fin cfg3.W, (Pipeline.arrRef spec3 w).idx.val < 48 → (cfg3.win w).isOut = false) w hr) _).trans (A_eq3 (V12 m) c w))

/-- A buffer numbered below 48 holds, at every boundary from region 0's exit on, what it held when region 0 was entered. -/
theorem kept (c : Dev nD) (r : Ref sig .tc) (hr : r.idx.val < 48) :
    W6 m c (Proc.devRef .tc r) = W3 m c (Proc.devRef .tc r) ∧ W7 m c (Proc.devRef .tc r) = W3 m c (Proc.devRef .tc r)
      ∧ W10 m c (Proc.devRef .tc r) = W3 m c (Proc.devRef .tc r) ∧ W11 m c (Proc.devRef .tc r) = W3 m c (Proc.devRef .tc r)
      ∧ W12 m c (Proc.devRef .tc r) = W3 m c (Proc.devRef .tc r) ∧ W13 m c (Proc.devRef .tc r) = W3 m c (Proc.devRef .tc r) := by
  obtain ⟨h3, h4, h5, h6, h7, h8⟩ := unwritten_mid (F := F) r hr
  have e6 : W6 m c (Proc.devRef .tc r) = W3 m c (Proc.devRef .tc r) :=
    (keeps (W5 m c) r h4).trans ((keeps (W4 m c) r h3).trans (region0_keeps m c r hr))
  have e7 := (region1_keeps m c r hr).trans e6
  have e10 : W10 m c (Proc.devRef .tc r) = W3 m c (Proc.devRef .tc r) :=
    (keeps (W9 m c) r h7).trans ((keeps (W8 m c) r h6).trans ((keeps (W7 m c) r h5).trans e7))
  have e11 := (region2_keeps m c r hr).trans e10
  have e12 : W12 m c (Proc.devRef .tc r) = W3 m c (Proc.devRef .tc r) := (keeps (W11 m c) r h8).trans e11
  exact ⟨e6, e7, e10, e11, e12, (region3_keeps m c r hr).trans e12⟩

/-- An argument holds its launch contents when region 0 is entered. -/
theorem arg_W3 (c : Dev nD) (r : Ref sig .tc) (hr : r.idx.val < 13) :
    W3 m c (Proc.devRef .tc r) = m ((c.tc : Thread nD τ).loc r) := by
  obtain ⟨h0, h1, h2⟩ := unwritten_low (F := F) r hr
  exact (keeps (W2 m c) r h2).trans ((keeps (W1 m c) r h1).trans (keeps (W0 m c) r h0))

/-- An argument holds its launch contents at every later boundary. -/
theorem arg_kept (c : Dev nD) (r : Ref sig .tc) (hr : r.idx.val < 13) :
    W6 m c (Proc.devRef .tc r) = m ((c.tc : Thread nD τ).loc r) ∧ W7 m c (Proc.devRef .tc r) = m ((c.tc : Thread nD τ).loc r)
      ∧ W10 m c (Proc.devRef .tc r) = m ((c.tc : Thread nD τ).loc r) ∧ W11 m c (Proc.devRef .tc r) = m ((c.tc : Thread nD τ).loc r)
      ∧ W12 m c (Proc.devRef .tc r) = m ((c.tc : Thread nD τ).loc r) ∧ W13 m c (Proc.devRef .tc r) = m ((c.tc : Thread nD τ).loc r) := by
  obtain ⟨e6, e7, e10, e11, e12, e13⟩ := kept m c r (lt_trans hr (by decide))
  have h := arg_W3 m c r hr
  exact ⟨e6.trans h, e7.trans h, e10.trans h, e11.trans h, e12.trans h, e13.trans h⟩

/-- A final state that holds every unscoped buffer at the last boundary's contents has the thirteen arguments as launched. -/
theorem args_of_last (c : Dev nD) (s : (ℓ : Loc nD τ sig) → Buf (Elt F) ℓ)
    (h : ∀ b ∈ Pipeline.ucRefs τ sig, s (((c : Thread nD τ)).1, b) = W13 m c b) (r : Ref sig .tc) (hr : r.idx.val < 13)
    (hu : ¬ (Proc.devRef .tc r : DevRef τ sig).isScoped) : s ((c.tc : Thread nD τ).loc r) = m ((c.tc : Thread nD τ).loc r) :=
  (h _ (mem_uc r hu)).trans (arg_kept m c r hr).2.2.2.2.2

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have a := args_of_last m c r.2.mem (h c)
    ⟨a main_arg0 (by decide) (by decide), a main_arg1 (by decide) (by decide), a main_arg2 (by decide) (by decide),
     a main_arg3 (by decide) (by decide), a main_arg4 (by decide) (by decide), a main_arg5 (by decide) (by decide),
     a main_arg6 (by decide) (by decide), a main_arg7 (by decide) (by decide), a main_arg8 (by decide) (by decide),
     a main_arg9 (by decide) (by decide), a main_arg10 (by decide) (by decide), a main_arg11 (by decide) (by decide),
     a main_arg12 (by decide) (by decide)⟩) (run_all m ρ)

end Cert.Kernel.Gen

end
-- ==== Proof.Frame.Dat0.lean ====
/-
  Region 0 of @main (the row-normalising kernel, 25 tiles of 2000 rows), at any float instance and at a PARAMETER `V`,
  the TensorCore's buffer contents when the region is entered: each window's block at a grid point, what the body's
  one store leaves in the output's staging buffer, and the pipeline's proof data.
-/
import proofs.«124913_j71159018160549_2_alg».proof.Proof.Gen.KernelIdeal.Launch
import proofs.«124913_j71159018160549_2_alg».proof.Proof.Gen.KernelIdeal.Skeleton
import proofs.«124913_j71159018160549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2000×100 block as a rectangle. -/
abbrev r0_0 : Rect S2000x100 := Rect.unit (s := S2000x100) ![0, 0] S2000x100.size inb_S2000x100_S2000x100_0_0

/-- The output's staging buffer after the body: one whole-block piece, the input block's rows each divided by its length. -/
def out0_1 (x0 : Vec F S2000x100 .f32) : Vec F S2000x100 .f32 :=
  View.canon [⟨r0_0, k0_pay1 (View.ld x0 r0_0)⟩]

/-- The proof data of pipeline 0 on core `c`: the arrays as the region finds them; after the body at point `t` each
    input's buffer at its block and the output's at the body's one store over the input blocks; the scoped rest and
    the generator register ride untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

end Cert.KernelIdeal.Gen

end
-- ==== Proof.Frame.Dat1.lean ====
/-
  Region 1 of @main (the cells' first layer: grid 3 × 4 × 25, one 2000-row tile of one cell per point), at any float
  instance and at a PARAMETER `V`, the TensorCore's buffer contents when the region is entered: each window's block at
  a grid point, what the body's one store leaves in the output's staging buffer, and the pipeline's proof data.
  Windows: 0 the propagated rows, 1 the first weights, 2 the bias, 3 the scale, 4 the shift, 5 the running mean,
  6 the running variance, 7 the output.
-/
import proofs.«124913_j71159018160549_2_alg».proof.Proof.Gen.KernelIdeal.Launch
import proofs.«124913_j71159018160549_2_alg».proof.Proof.Gen.KernelIdeal.Skeleton
import proofs.«124913_j71159018160549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole blocks as rectangles. -/
abbrev r1_0 : Rect S1x2000x100 := Rect.unit (s := S1x2000x100) ![0, 0, 0] S1x2000x100.size inb_S1x2000x100_S1x2000x100_0_0_0
abbrev r1_1 : Rect S1x100x16 := Rect.unit (s := S1x100x16) ![0, 0, 0] S1x100x16.size inb_S1x100x16_S1x100x16_0_0_0
abbrev r1_2 : Rect S1x1x16 := Rect.unit (s := S1x1x16) ![0, 0, 0] S1x1x16.size inb_S1x1x16_S1x1x16_0_0_0
abbrev r1_7 : Rect S1x1x2000x16 := Rect.unit (s := S1x1x2000x16) ![0, 0, 0, 0] S1x1x2000x16.size inb_S1x1x2000x16_S1x1x2000x16_0_0_0_0

/-- The output's staging buffer after the body: one whole-block piece over the seven input blocks (the body reads the
    variance, the mean and the shift in that order after the scale). -/
def out1_7 (x0 : Vec F S1x2000x100 .f32) (x1 : Vec F S1x100x16 .f32) (x2 x3 x4 x5 x6 : Vec F S1x1x16 .f32) : Vec F S1x1x2000x16 .f32 :=
  View.canon [⟨r1_7, k1_pay1 (k1_pay2 (View.ld x0 r1_0) (View.ld x1 r1_1) (View.ld x2 r1_2) (View.ld x3 r1_2) (View.ld x6 r1_2) (View.ld x5 r1_2) (View.ld x4 r1_2))⟩]

/-- The proof data of pipeline 1 on core `c`: the arrays as the region finds them; after the body at point `t` each
    input's buffer at its block and the output's at the body's one store over the input blocks; the scoped rest and
    the generator register ride untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

end Cert.KernelIdeal.Gen

end
-- ==== Proof.Frame.Dat2.lean ====
/-
  Region 2 of @main (the cells' second layer: grid 3 × 4 × 25), at any float instance and at a PARAMETER `V`, the
  TensorCore's buffer contents when the region is entered: each window's block at a grid point, what the body's one
  store leaves in the output's staging buffer, and the pipeline's proof data. Windows: 0 the hidden rows, 1 the second
  weights, 2 the bias, 3 the output.
-/
import proofs.«124913_j71159018160549_2_alg».proof.Proof.Gen.KernelIdeal.Launch
import proofs.«124913_j71159018160549_2_alg».proof.Proof.Gen.KernelIdeal.Skeleton
import proofs.«124913_j71159018160549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole blocks as rectangles. -/
abbrev r2_0 : Rect S1x1x2000x16 := Rect.unit (s := S1x1x2000x16) ![0, 0, 0, 0] S1x1x2000x16.size inb_S1x1x2000x16_S1x1x2000x16_0_0_0_0
abbrev r2_1 : Rect S1x16x40 := Rect.unit (s := S1x16x40) ![0, 0, 0] S1x16x40.size inb_S1x16x40_S1x16x40_0_0_0
abbrev r2_2 : Rect S1x1x40 := Rect.unit (s := S1x1x40) ![0, 0, 0] S1x1x40.size inb_S1x1x40_S1x1x40_0_0_0
abbrev r2_3 : Rect S1x1x2000x40 := Rect.unit (s := S1x1x2000x40) ![0, 0, 0, 0] S1x1x2000x40.size inb_S1x1x2000x40_S1x1x2000x40_0_0_0_0

/-- The output's staging buffer after the body: one whole-block piece over the three input blocks. -/
def out2_3 (x0 : Vec F S1x1x2000x16 .f32) (x1 : Vec F S1x16x40 .f32) (x2 : Vec F S1x1x40 .f32) : Vec F S1x1x2000x40 .f32 :=
  View.canon [⟨r2_3, k2_pay1 (View.ld x0 r2_0) (View.ld x1 r2_1) (View.ld x2 r2_2)⟩]

/-- The proof data of pipeline 2 on core `c`: the arrays as the region finds them; after the body at point `t` each
    input's buffer at its block and the output's at the body's one store over the input blocks; the scoped rest and
    the generator register ride untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

end Cert.KernelIdeal.Gen

end
-- ==== Proof.Frame.Dat3.lean ====
/-
  Region 3 of @main (the last layer: 25 tiles of 2000 rows), at any float instance and at a PARAMETER `V`, the
  TensorCore's buffer contents when the region is entered: each window's block at a grid point, what the body's one
  store leaves in the output's staging buffer, and the pipeline's proof data. Windows: 0 the 480 columns, 1 the last
  weights, 2 the last bias, 3 the output.
-/
import proofs.«124913_j71159018160549_2_alg».proof.Proof.Gen.KernelIdeal.Launch
import proofs.«124913_j71159018160549_2_alg».proof.Proof.Gen.KernelIdeal.Skeleton
import proofs.«124913_j71159018160549_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole blocks as rectangles. -/
abbrev r3_0 : Rect S2000x480 := Rect.unit (s := S2000x480) ![0, 0] S2000x480.size inb_S2000x480_S2000x480_0_0
abbrev r3_1 : Rect S480x40 := Rect.unit (s := S480x40) ![0, 0] S480x40.size inb_S480x40_S480x40_0_0
abbrev r3_2 : Rect S1x40 := Rect.unit (s := S1x40) ![0, 0] S1x40.size inb_S1x40_S1x40_0_0
abbrev r3_3 : Rect S2000x40 := Rect.unit (s := S2000x40) ![0, 0] S2000x40.size inb_S2000x40_S2000x40_0_0

/-- The output's staging buffer after the body: one whole-block piece over the three input blocks. -/
def out3_3 (x0 : Vec F S2000x480 .f32) (x1 : Vec F S480x40 .f32) (x2 : Vec F S1x40 .f32) : Vec F S2000x40 .f32 :=
  View.canon [⟨r3_3, k3_pay1 (View.ld x0 r3_0) (View.ld x1 r3_1) (View.ld x2 r3_2)⟩]

/-- The proof data of pipeline 3 on core `c`: the arrays as the region finds them; after the body at point `t` each
    input's buffer at its block and the output's at the body's one store over the input blocks; the scoped rest and
    the generator register ride untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

end Cert.KernelIdeal.Gen

end
-- ==== Proof.Frame.Fold.lean ====
/-
  The TensorCore's buffer contents at every boundary between two items of @main, as a fold from the launch memory:
  a stretch of host operations applies them in order; a kernel region leaves its windows' arrays at what its
  write-backs leave (the inputs as entered, the output's blocks folded in) and every other buffer as entered.
  @main is thirteen items: three stretches, region 0, two stretches, region 1, three stretches, region 2, one stretch,
  region 3.
-/
import proofs.«124913_j71159018160549_2_alg».proof.Proof.Frame.Dat0
import proofs.«124913_j71159018160549_2_alg».proof.Proof.Frame.Dat1
import proofs.«124913_j71159018160549_2_alg».proof.Proof.Frame.Dat2
import proofs.«124913_j71159018160549_2_alg».proof.Proof.Frame.Dat3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the stretch `main_part0_ops0`. -/
abbrev W1 : Dev nD → Valuation τ sig (Elt F) := fun c => StableHlo.after main_part0_ops0 (W0 m c)
/-- After the stretch `main_part0_ops1`. -/
abbrev W2 : Dev nD → Valuation τ sig (Elt F) := fun c => StableHlo.after main_part0_ops1 (W1 m c)
/-- After the stretch `main_part0_ops2`. -/
abbrev W3 : Dev nD → Valuation τ sig (Elt F) := fun c => StableHlo.after main_part0_ops2 (W2 m c)
/-- Region 0's entry contents read at the TensorCore's references. -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Region 0's exit contents read at the TensorCore's references. -/
abbrev V4 : (c : Dev nD) → (b : Ref sig .tc) → Buf (Elt F) ((c : Thread nD τ).loc b) := fun c b => W4 m c b
/-- At region 0's exit each of its arrays holds what the pipeline leaves, every other buffer what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the stretch `main_part0_ops3`. -/
abbrev W5 : Dev nD → Valuation τ sig (Elt F) := fun c => StableHlo.after main_part0_ops3 (W4 m c)
/-- After the stretch `main_part1_ops0`. -/
abbrev W6 : Dev nD → Valuation τ sig (Elt F) := fun c => StableHlo.after main_part1_ops0 (W5 m c)
/-- Region 1's entry contents read at the TensorCore's references. -/
abbrev V6 : (c : Dev nD) → (b : Ref sig .tc) → Buf (Elt F) ((c : Thread nD τ).loc b) := fun c b => W6 m c b
/-- At region 1's exit: its arrays at what the pipeline leaves, every other buffer as entered. -/
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- Region 1's exit contents read at the TensorCore's references. -/
abbrev V7 : (c : Dev nD) → (b : Ref sig .tc) → Buf (Elt F) ((c : Thread nD τ).loc b) := fun c b => W7 m c b
/-- At region 1's exit each of its arrays holds what the pipeline leaves, every other buffer what it held at entry. -/
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)
/-- After the stretch `main_part1_ops1`. -/
abbrev W8 : Dev nD → Valuation τ sig (Elt F) := fun c => StableHlo.after main_part1_ops1 (W7 m c)
/-- After the stretch `main_part2_ops0`. -/
abbrev W9 : Dev nD → Valuation τ sig (Elt F) := fun c => StableHlo.after main_part2_ops0 (W8 m c)
/-- After the stretch `main_part3_ops0`. -/
abbrev W10 : Dev nD → Valuation τ sig (Elt F) := fun c => StableHlo.after main_part3_ops0 (W9 m c)
/-- Region 2's entry contents read at the TensorCore's references. -/
abbrev V10 : (c : Dev nD) → (b : Ref sig .tc) → Buf (Elt F) ((c : Thread nD τ).loc b) := fun c b => W10 m c b
/-- At region 2's exit: its arrays at what the pipeline leaves, every other buffer as entered. -/
def W11 (c : Dev nD) : Valuation τ sig (Elt F) :=
  Pipeline.withArrays spec2 c (W10 m c) fun w => (dat2 (V10 m) c).arrAt w cfg2.N
theorem W11_arr (c : Dev nD) (w : Fin cfg2.W) :
    W11 m c (Proc.devRef .tc (Pipeline.arrRef spec2 w)) = (dat2 (V10 m) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m c (Proc.devRef .tc b) = W10 m c (Proc.devRef .tc b) := by
  unfold W11; exact Pipeline.withArrays_of_ne spec2 c _ _ b hb
/-- Region 2's exit contents read at the TensorCore's references. -/
abbrev V11 : (c : Dev nD) → (b : Ref sig .tc) → Buf (Elt F) ((c : Thread nD τ).loc b) := fun c b => W11 m c b
/-- At region 2's exit each of its arrays holds what the pipeline leaves, every other buffer what it held at entry. -/
theorem hF2 (c : Dev nD) (w : Fin cfg2.W) : (dat2 (V10 m) c).arrAt w cfg2.N = V11 m c (Pipeline.arrRef spec2 w) :=
  (W11_arr m c w).symm
theorem hrest2 (c : Dev nD) : ∀ b, b ∉ Finset.univ.image (Pipeline.arrRef spec2) → V11 m c b = V10 m c b :=
  fun b hb => W11_of_ne m c b fun w e => hb (Finset.mem_image.mpr ⟨w, Finset.mem_univ _, e⟩)
/-- After the stretch `main_part3_ops1`. -/
abbrev W12 : Dev nD → Valuation τ sig (Elt F) := fun c => StableHlo.after main_part3_ops1 (W11 m c)
/-- Region 3's entry contents read at the TensorCore's references. -/
abbrev V12 : (c : Dev nD) → (b : Ref sig .tc) → Buf (Elt F) ((c : Thread nD τ).loc b) := fun c b => W12 m c b
/-- At region 3's exit: its arrays at what the pipeline leaves, every other buffer as entered. -/
def W13 (c : Dev nD) : Valuation τ sig (Elt F) :=
  Pipeline.withArrays spec3 c (W12 m c) fun w => (dat3 (V12 m) c).arrAt w cfg3.N
theorem W13_arr (c : Dev nD) (w : Fin cfg3.W) :
    W13 m c (Proc.devRef .tc (Pipeline.arrRef spec3 w)) = (dat3 (V12 m) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m c (Proc.devRef .tc b) = W12 m c (Proc.devRef .tc b) := by
  unfold W13; exact Pipeline.withArrays_of_ne spec3 c _ _ b hb
/-- Region 3's exit contents read at the TensorCore's references. -/
abbrev V13 : (c : Dev nD) → (b : Ref sig .tc) → Buf (Elt F) ((c : Thread nD τ).loc b) := fun c b => W13 m c b
/-- At region 3's exit each of its arrays holds what the pipeline leaves, every other buffer what it held at entry. -/
theorem hF3 (c : Dev nD) (w : Fin cfg3.W) : (dat3 (V12 m) c).arrAt w cfg3.N = V13 m c (Pipeline.arrRef spec3 w) :=
  (W13_arr m c w).symm
theorem hrest3 (c : Dev nD) : ∀ b, b ∉ Finset.univ.image (Pipeline.arrRef spec3) → V13 m c b = V12 m c b :=
  fun b hb => W13_of_ne m c b fun w e => hb (Finset.mem_image.mpr ⟨w, Finset.mem_univ _, e⟩)

end Cert.KernelIdeal.Gen

end
-- ==== Proof.Frame.Body0.lean ====
import proofs.«124913_j71159018160549_2_alg».proof.Proof.Frame.Dat0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem cover0_1 (p0 : Vec F S2000x100 .f32) (y : S2000x100.Idx) :
    ∃ pc ∈ ([⟨r0_0, p0⟩] : List (View.Piece (Elt F) S2000x100 .f32)), y ∈ pc.1.set :=
  View.cover_of_tiled [⟨r0_0, p0⟩] S2000x100.size (by rfl) y

set_option maxHeartbeats 1000000 in
theorem sound_kernel0 (c : Dev nD) (E : Set ℕ) (i : grid0.Coords) (arg1 : Memref sig .tc .vmem S2000x100 .f32) (harg1 : arg1.IsWhole) (arg2 : Memref sig .tc .vmem S2000x100 .f32) (harg2 : arg2.IsWhole)
    (x0 : Vec F S2000x100 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_kernel i arg1 harg1 arg2 harg2) K := by
  simp only [cc0_kernel_eq_skeleton]; unfold cc0_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Frame.Body1.lean ====
import proofs.«124913_j71159018160549_2_alg».proof.Proof.Frame.Dat1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem cover1_7 (p0 : Vec F S1x1x2000x16 .f32) (y : S1x1x2000x16.Idx) :
    ∃ pc ∈ ([⟨r1_7, p0⟩] : List (View.Piece (Elt F) S1x1x2000x16 .f32)), y ∈ pc.1.set :=
  View.cover_of_tiled [⟨r1_7, p0⟩] S1x1x2000x16.size (by rfl) y

set_option maxHeartbeats 1000000 in
theorem sound_kernel1 (c : Dev nD) (E : Set ℕ) (i : grid1.Coords) (arg3 : Memref sig .tc .vmem S1x2000x100 .f32) (harg3 : arg3.IsWhole) (arg4 : Memref sig .tc .vmem S1x100x16 .f32) (harg4 : arg4.IsWhole) (arg5 : Memref sig .tc .vmem S1x1x16 .f32) (harg5 : arg5.IsWhole) (arg6 : Memref sig .tc .vmem S1x1x16 .f32) (harg6 : arg6.IsWhole) (arg7 : Memref sig .tc .vmem S1x1x16 .f32) (harg7 : arg7.IsWhole) (arg8 : Memref sig .tc .vmem S1x1x16 .f32) (harg8 : arg8.IsWhole) (arg9 : Memref sig .tc .vmem S1x1x16 .f32) (harg9 : arg9.IsWhole) (arg10 : Memref sig .tc .vmem S1x1x2000x16 .f32) (harg10 : arg10.IsWhole)
    (x0 : Vec F S1x2000x100 .f32) (x1 : Vec F S1x100x16 .f32) (x2 x3 x4 x5 x6 : Vec F S1x1x16 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (out1_7 x0 x1 x2 x3 x4 x5 x6)) -∗ K ⟨⟩))
      ⊢ wp frame (wpE (defs₀ (F := F)) Variants.none c none) E (cc1_kernel i arg3 harg3 arg4 harg4 arg5 harg5 arg6 harg6 arg7 harg7 arg8 harg8 arg9 harg9 arg10 harg10) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.Frame.Body2.lean ====
import proofs.«124913_j71159018160549_2_alg».proof.Proof.Frame.Dat2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem cover2_3 (p0 : Vec F S1x1x2000x40 .f32) (y : S1x1x2000x40.Idx) :
    ∃ pc ∈ ([⟨r2_3, p0⟩] : List (View.Piece (Elt F) S1x1x2000x40 .f32)), y ∈ pc.1.set :=
  View.cover_of_tiled [⟨r2_3, p0⟩] S1x1x2000x40.size (by rfl) y

set_option maxHeartbeats 1000000 in
theorem sound_kernel2 (c : Dev nD) (E : Set ℕ) (i : grid2.Coords) (arg3 : Memref sig .tc .vmem S1x1x2000x16 .f32) (harg3 : arg3.IsWhole) (arg4 : Memref sig .tc .vmem S1x16x40 .f32) (harg4 : arg4.IsWhole) (arg5 : Memref sig .tc .vmem S1x1x40 .f32) (harg5 : arg5.IsWhole) (arg6 : Memref sig .tc .vmem S1x1x2000x40 .f32) (harg6 : arg6.IsWhole)
    (x0 : Vec F S1x1x2000x16 .f32) (x1 : Vec F S1x16x40 .f32) (x2 : Vec F S1x1x40 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out2_3 x0 x1 x2)) -∗ K ⟨⟩))
      ⊢ wp frame (wpE (defs₀ (F := F)) Variants.none c none) E (cc2_kernel i arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Frame.Body3.lean ====
import proofs.«124913_j71159018160549_2_alg».proof.Proof.Frame.Dat3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem cover3_3 (p0 : Vec F S2000x40 .f32) (y : S2000x40.Idx) :
    ∃ pc ∈ ([⟨r3_3, p0⟩] : List (View.Piece (Elt F) S2000x40 .f32)), y ∈ pc.1.set :=
  View.cover_of_tiled [⟨r3_3, p0⟩] S2000x40.size (by rfl) y

set_option maxHeartbeats 1000000 in
theorem sound_kernel3 (c : Dev nD) (E : Set ℕ) (i : grid3.Coords) (arg1 : Memref sig .tc .vmem S2000x480 .f32) (harg1 : arg1.IsWhole) (arg2 : Memref sig .tc .vmem S480x40 .f32) (harg2 : arg2.IsWhole) (arg3 : Memref sig .tc .vmem S1x40 .f32) (harg3 : arg3.IsWhole) (arg4 : Memref sig .tc .vmem S2000x40 .f32) (harg4 : arg4.IsWhole)
    (x0 : Vec F S2000x480 .f32) (x1 : Vec F S480x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.Frame.Run.lean ====
import proofs.«124913_j71159018160549_2_alg».proof.Proof.Frame.Fold
import proofs.«124913_j71159018160549_2_alg».proof.Proof.Frame.Body0
import proofs.«124913_j71159018160549_2_alg».proof.Proof.Frame.Body1
import proofs.«124913_j71159018160549_2_alg».proof.Proof.Frame.Body2
import proofs.«124913_j71159018160549_2_alg».proof.Proof.Frame.Body3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V6 m) c
  | ⟨2, _⟩ => fun c => dat2 (V10 m) c
  | ⟨3, _⟩ => fun c => dat3 (V12 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ :=
  ⟨rfl, rfl, rfl, rfl, rfl, rfl, rfl, rfl, rfl, rfl, rfl, rfl, rfl, rfl, rfl⟩

theorem main_part0_ops1_fresh : (main_part0_ops1 : List (HloOp τ sig (Elt F))).Forall fun op => op.fresh = ∅ :=
  rfl

theorem main_part0_ops2_fresh : (main_part0_ops2 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem main_part0_ops3_fresh : (main_part0_ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem main_part1_ops0_fresh : (main_part1_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem main_part1_ops1_fresh : (main_part1_ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem main_part2_ops0_fresh : (main_part2_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem main_part3_ops0_fresh : (main_part3_ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem main_part3_ops1_fresh : (main_part3_ops1 : List (HloOp τ sig (Elt F))).Forall fun op => op.fresh = ∅ :=
  ⟨rfl, rfl, rfl, rfl⟩

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W13 m c) ∗ ∃ r, prngReg c r)

set_option backward.isDefEq.respectTransparency.types false in
/-- A kernel region over the thread state: entered from every unscoped buffer at `Wi`, left at `Wo` (regrouped as `post`). -/
def regOf (p : Fin 4) (launch : Pipeline.LaunchFacts (nD := nD) (τ := τ) cfgs p) (Wi Wo : Dev nD → Valuation τ sig (Elt F))
    (post : Dev nD → sProp 𝕄) (hpost : ∀ c : Dev nD, iprop(StableHlo.held (c : Thread nD τ) (Pipeline.ucRefs τ sig) (Wo c) ∗ R c) ⊢ post c)
    (hbody : ∀ c, Pipeline.BodyObligationLoose (pdats m p c) defs₀ 𝒱₀ () Set.univ)
    (howed : ∀ c t, (pdats m p c).owed t = 0) (hrec : ∀ c (x : SemLoc sig × Unit), x ∈ (pdats m p c).recorded 0)
    (hshare : ∀ c w, (pdats m p c).share w = fullShare)
    (hA : ∀ c w, (pdats m p c).A w = Wi c (Pipeline.arrRef (pcfgs (F := F) p).spec w))
    (hΦ0 : ∀ c, (pdats m p c).Φ 0 = Pipeline.ΦA (pcfgs (F := F) p).spec c)
    (hΦN : ∀ c, (pdats m p c).Φ (Fin.last _) = Pipeline.ΦA (pcfgs (F := F) p).spec c)
    (hF : ∀ c w, (pdats m p c).arrAt w (Pipeline.pin (pcfgs (F := F)) adm p).N = Wo c (Pipeline.arrRef (pcfgs (F := F) p).spec w))
    (hrest : ∀ c (b : Ref sig .tc), b ∉ Finset.univ.image (Pipeline.arrRef (pcfgs (F := F) p).spec) → Wo c b = Wi c b) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post := post
  X c := iprop(∃ r, prngReg c r)
  Y c := iprop(∃ r, prngReg c r)
  Z c := Pipeline.unscopedRest (Ix := Unit) (Name := ℕ) (U := UR sig nD τ) (Lvl := ℕ) (pcfgs (F := F) p).spec c (fun b => Wi c b)
  hentry c := by
    rw [Pipeline.ownSems0_none]
    have hsplit := Pipeline.arrays_of_unscopedBufs (p := p) (pcfgs (F := F)) adm (pdats m) launch.win launch.arr_whole c
      (hshare c) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (hrec c _)
      rw [howed c]; iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) (hshare c)
      (fun b => Wi c b) (fun b => Wo c b) ((pdats m p c).arrAt · (Pipeline.pin (pcfgs (F := F)) adm p).N) (hF c) (hrest c)
    rw [Pipeline.unscopedBufs_held] at hjoin
    iintro ⟨Ha, HO, HY, Hrest⟩
    imodintro; iapply hpost c
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱₀ L lv 0 :=
  regOf m 0 launch0 (W3 m) (W4 m) _ (fun _ => .rfl)
    (fun c => (body_obligation0 (V3 m) c).loose) (fun _ _ => rfl) (fun _ _ => trivial)
    (fun c => (pdats m 0 c).share_full fun _ => rfl) (fun _ _ => rfl) (fun _ => rfl) (fun _ => rfl) (hF0 m) (hrest0 m)
def reg1 : Pipeline.RegionSeg (pcfgs (F := F)) adm (pdats m) () defs₀ 𝒱₀ L lv 1 :=
  regOf m 1 launch1 (W6 m) (W7 m) _ (fun _ => .rfl)
    (fun c => (body_obligation1 (V6 m) c).loose) (fun _ _ => rfl) (fun _ _ => trivial)
    (fun c => (pdats m 1 c).share_full fun _ => rfl) (fun _ _ => rfl) (fun _ => rfl) (fun _ => rfl) (hF1 m) (hrest1 m)
def reg2 : Pipeline.RegionSeg (pcfgs (F := F)) adm (pdats m) () defs₀ 𝒱₀ L lv 2 :=
  regOf m 2 launch2 (W10 m) (W11 m) _ (fun _ => .rfl)
    (fun c => (body_obligation2 (V10 m) c).loose) (fun _ _ => rfl) (fun _ _ => trivial)
    (fun c => (pdats m 2 c).share_full fun _ => rfl) (fun _ _ => rfl) (fun _ => rfl) (fun _ => rfl) (hF2 m) (hrest2 m)
def reg3 : Pipeline.RegionSeg (pcfgs (F := F)) adm (pdats m) () defs₀ 𝒱₀ L lv 3 :=
  regOf m 3 launch3 (W12 m) (W13 m) (fun c => iprop(Tₙ m c ∗ ∃ W, owes (c : Thread nD τ) (0 : CellTallies nD τ sig Unit) W))
    (fun c => by iintro ⟨Hh, Hp, HO⟩; isplitr [HO]; · isplitl [Hh] <;> iassumption
                 iexact HO)
    (fun c => (body_obligation3 (V12 m) c).loose) (fun _ _ => rfl) (fun _ _ => trivial)
    (fun c => (pdats m 3 c).share_full fun _ => rfl) (fun _ _ => rfl) (fun _ => rfl) (fun _ => rfl) (hF3 m) (hrest3 m)

abbrev segs : List (Pipeline.Seg (pcfgs (F := F)) adm (pdats m) () defs₀ 𝒱₀ L lv) :=
  [ .host (hseg main_part0_ops0 main_part0_ops0_sub main_part0_ops0_fresh (W0 m)),
    .host (hseg main_part0_ops1 main_part0_ops1_sub main_part0_ops1_fresh (W1 m)),
    .host (hseg main_part0_ops2 main_part0_ops2_sub main_part0_ops2_fresh (W2 m)),
    .region (reg0 m),
    .host (hseg main_part0_ops3 main_part0_ops3_sub main_part0_ops3_fresh (W4 m)),
    .host (hseg main_part1_ops0 main_part1_ops0_sub main_part1_ops0_fresh (W5 m)),
    .region (reg1 m),
    .host (hseg main_part1_ops1 main_part1_ops1_sub main_part1_ops1_fresh (W7 m)),
    .host (hseg main_part2_ops0 main_part2_ops0_sub main_part2_ops0_fresh (W8 m)),
    .host (hseg main_part3_ops0 main_part3_ops0_sub main_part3_ops0_fresh (W9 m)),
    .region (reg2 m),
    .host (hseg main_part3_ops1 main_part3_ops1_sub main_part3_ops1_fresh (W11 m)),
    .region (reg3 m) ]

theorem main_run (c : Dev nD) : main (F := F) c = Pipeline.Seg.run (segs m) := (main_chain_windows c).trans (by chain_rfl)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.KernelIdeal.Gen

end
-- ==== Proof.Frame.Args.lean ====
import proofs.«124913_j71159018160549_2_alg».proof.Proof.Frame.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- No operation of `ops` writes the buffer `r`. -/
abbrev Unwritten (r : Ref sig .tc) (ops : List (HloOp τ sig (Elt F))) : Prop :=
  ops.Forall fun op => (Proc.devRef .tc r : DevRef τ sig) ∉ op.writes

theorem keeps {ops : List (HloOp τ sig (Elt F))} (V : Valuation τ sig (Elt F)) (r : Ref sig .tc) (h : Unwritten r ops) :
    StableHlo.after ops V (Proc.devRef .tc r) = V (Proc.devRef .tc r) :=
  StableHlo.after_of_forall_not_mem (b := Proc.devRef .tc r) _ _ (List.forall_iff_forall_mem.mp h)

theorem ne_of_idx_lt {r y : Ref sig .tc} {B : ℕ} (hr : r.idx.val < B) (hy : ¬ y.idx.val < B) : r ≠ y := fun h => hy (h ▸ hr)

/-- The buffers are numbered in the order @main defines them, the thirteen arguments first: the three stretches before
    region 0 write buffers numbered 13 and up. -/
theorem unwritten_low (r : Ref sig .tc) (hr : r.idx.val < 13) :
    Unwritten (F := F) r main_part0_ops0 ∧ Unwritten (F := F) r main_part0_ops1 ∧ Unwritten (F := F) r main_part0_ops2 := by
  simp only [Unwritten, main_part0_ops0, main_part0_ops1, main_part0_ops2, List.Forall, StableHlo.nullary_writes,
    StableHlo.unary_writes, StableHlo.binary_writes, StableHlo.ternary_writes, StableHlo.quaternary_writes,
    StableHlo.reshape_writes, StableHlo.binaryIndexed_writes, StableHlo.nary_writes, StableHlo.unaryIndexed_writes,
    Finset.mem_singleton]
  repeat' apply And.intro
  all_goals exact StableHlo.devRef_ne_of_ne (ne_of_idx_lt hr (by decide))

/-- Region 0's output is number 48, and every stretch after it writes buffers numbered above that. -/
theorem unwritten_mid (r : Ref sig .tc) (hr : r.idx.val < 48) :
    Unwritten (F := F) r main_part0_ops3 ∧ Unwritten (F := F) r main_part1_ops0 ∧ Unwritten (F := F) r main_part1_ops1
      ∧ Unwritten (F := F) r main_part2_ops0 ∧ Unwritten (F := F) r main_part3_ops0 ∧ Unwritten (F := F) r main_part3_ops1 := by
  simp only [Unwritten, main_part0_ops3, main_part1_ops0, main_part1_ops1, main_part2_ops0, main_part3_ops0, main_part3_ops1,
    List.Forall, StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals exact StableHlo.devRef_ne_of_ne (ne_of_idx_lt hr (by decide))

/-- A region leaves a buffer numbered below 48 as entered: it is none of the region's arrays, or the array of an input
    window, which the write-backs leave alone (each region's output is numbered 48 or more). -/
theorem region0_keeps (c : Dev nD) (r : Ref sig .tc) (hr : r.idx.val < 48) :
    W4 m c (Proc.devRef .tc r) = W3 m c (Proc.devRef .tc r) := by
  by_cases h : ∀ w, Pipeline.arrRef spec0 w ≠ r
  · exact W4_of_ne m c r h
  · obtain ⟨w, rfl⟩ := not_forall_not.mp h
    exact (W4_arr m c w).trans (((dat0 (V3 m) c).arrAt_in w
      ((by decide : ∀ w : Fin cfg0.W, (Pipeline.arrRef spec0 w).idx.val < 48 → (cfg0.win w).isOut = false) w hr) _).trans (A_eq0 (V3 m) c w))
theorem region1_keeps (c : Dev nD) (r : Ref sig .tc) (hr : r.idx.val < 48) :
    W7 m c (Proc.devRef .tc r) = W6 m c (Proc.devRef .tc r) := by
  by_cases h : ∀ w, Pipeline.arrRef spec1 w ≠ r
  · exact W7_of_ne m c r h
  · obtain ⟨w, rfl⟩ := not_forall_not.mp h
    exact (W7_arr m c w).trans (((dat1 (V6 m) c).arrAt_in w
      ((by decide : ∀ w : Fin cfg1.W, (Pipeline.arrRef spec1 w).idx.val < 48 → (cfg1.win w).isOut = false) w hr) _).trans (A_eq1 (V6 m) c w))
theorem region2_keeps (c : Dev nD) (r : Ref sig .tc) (hr : r.idx.val < 48) :
    W11 m c (Proc.devRef .tc r) = W10 m c (Proc.devRef .tc r) := by
  by_cases h : ∀ w, Pipeline.arrRef spec2 w ≠ r
  · exact W11_of_ne m c r h
  · obtain ⟨w, rfl⟩ := not_forall_not.mp h
    exact (W11_arr m c w).trans (((dat2 (V10 m) c).arrAt_in w
      ((by decide : ∀ w : Fin cfg2.W, (Pipeline.arrRef spec2 w).idx.val < 48 → (cfg2.win w).isOut = false) w hr) _).trans (A_eq2 (V10 m) c w))
theorem region3_keeps (c : Dev nD) (r : Ref sig .tc) (hr : r.idx.val < 48) :
    W13 m c (Proc.devRef .tc r) = W12 m c (Proc.devRef .tc r) := by
  by_cases h : ∀ w, Pipeline.arrRef spec3 w ≠ r
  · exact W13_of_ne m c r h
  · obtain ⟨w, rfl⟩ := not_forall_not.mp h
    exact (W13_arr m c w).trans (((dat3 (V12 m) c).arrAt_in w
      ((by decide : ∀ w : Fin cfg3.W, (Pipeline.arrRef spec3 w).idx.val < 48 → (cfg3.win w).isOut = false) w hr) _).trans (A_eq3 (V12 m) c w))

/-- A buffer numbered below 48 holds, at every boundary from region 0's exit on, what it held when region 0 was entered. -/
theorem kept (c : Dev nD) (r : Ref sig .tc) (hr : r.idx.val < 48) :
    W6 m c (Proc.devRef .tc r) = W3 m c (Proc.devRef .tc r) ∧ W7 m c (Proc.devRef .tc r) = W3 m c (Proc.devRef .tc r)
      ∧ W10 m c (Proc.devRef .tc r) = W3 m c (Proc.devRef .tc r) ∧ W11 m c (Proc.devRef .tc r) = W3 m c (Proc.devRef .tc r)
      ∧ W12 m c (Proc.devRef .tc r) = W3 m c (Proc.devRef .tc r) ∧ W13 m c (Proc.devRef .tc r) = W3 m c (Proc.devRef .tc r) := by
  obtain ⟨h3, h4, h5, h6, h7, h8⟩ := unwritten_mid (F := F) r hr
  have e6 : W6 m c (Proc.devRef .tc r) = W3 m c (Proc.devRef .tc r) :=
    (keeps (W5 m c) r h4).trans ((keeps (W4 m c) r h3).trans (region0_keeps m c r hr))
  have e7 := (region1_keeps m c r hr).trans e6
  have e10 : W10 m c (Proc.devRef .tc r) = W3 m c (Proc.devRef .tc r) :=
    (keeps (W9 m c) r h7).trans ((keeps (W8 m c) r h6).trans ((keeps (W7 m c) r h5).trans e7))
  have e11 := (region2_keeps m c r hr).trans e10
  have e12 : W12 m c (Proc.devRef .tc r) = W3 m c (Proc.devRef .tc r) := (keeps (W11 m c) r h8).trans e11
  exact ⟨e6, e7, e10, e11, e12, (region3_keeps m c r hr).trans e12⟩

/-- An argument holds its launch contents when region 0 is entered. -/
theorem arg_W3 (c : Dev nD) (r : Ref sig .tc) (hr : r.idx.val < 13) :
    W3 m c (Proc.devRef .tc r) = m ((c.tc : Thread nD τ).loc r) := by
  obtain ⟨h0, h1, h2⟩ := unwritten_low (F := F) r hr
  exact (keeps (W2 m c) r h2).trans ((keeps (W1 m c) r h1).trans (keeps (W0 m c) r h0))

/-- An argument holds its launch contents at every later boundary. -/
theorem arg_kept (c : Dev nD) (r : Ref sig .tc) (hr : r.idx.val < 13) :
    W6 m c (Proc.devRef .tc r) = m ((c.tc : Thread nD τ).loc r) ∧ W7 m c (Proc.devRef .tc r) = m ((c.tc : Thread nD τ).loc r)
      ∧ W10 m c (Proc.devRef .tc r) = m ((c.tc : Thread nD τ).loc r) ∧ W11 m c (Proc.devRef .tc r) = m ((c.tc : Thread nD τ).loc r)
      ∧ W12 m c (Proc.devRef .tc r) = m ((c.tc : Thread nD τ).loc r) ∧ W13 m c (Proc.devRef .tc r) = m ((c.tc : Thread nD τ).loc r) := by
  obtain ⟨e6, e7, e10, e11, e12, e13⟩ := kept m c r (lt_trans hr (by decide))
  have h := arg_W3 m c r hr
  exact ⟨e6.trans h, e7.trans h, e10.trans h, e11.trans h, e12.trans h, e13.trans h⟩

/-- A final state that holds every unscoped buffer at the last boundary's contents has the thirteen arguments as launched. -/
theorem args_of_last (c : Dev nD) (s : (ℓ : Loc nD τ sig) → Buf (Elt F) ℓ)
    (h : ∀ b ∈ Pipeline.ucRefs τ sig, s (((c : Thread nD τ)).1, b) = W13 m c b) (r : Ref sig .tc) (hr : r.idx.val < 13)
    (hu : ¬ (Proc.devRef .tc r : DevRef τ sig).isScoped) : s ((c.tc : Thread nD τ).loc r) = m ((c.tc : Thread nD τ).loc r) :=
  (h _ (mem_uc r hu)).trans (arg_kept m c r hr).2.2.2.2.2

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have a := args_of_last m c r.2.mem (h c)
    ⟨a main_arg0 (by decide) (by decide), a main_arg1 (by decide) (by decide), a main_arg2 (by decide) (by decide),
     a main_arg3 (by decide) (by decide), a main_arg4 (by decide) (by decide), a main_arg5 (by decide) (by decide),
     a main_arg6 (by decide) (by decide), a main_arg7 (by decide) (by decide), a main_arg8 (by decide) (by decide),
     a main_arg9 (by decide) (by decide), a main_arg10 (by decide) (by decide), a main_arg11 (by decide) (by decide),
     a main_arg12 (by decide) (by decide)⟩) (run_all m ρ)

end Cert.KernelIdeal.Gen

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev zeroW : EReal := Ideal.ofBits .f32 0x00000000#32
abbrev tinyW : EReal := Ideal.ofBits .f32 0x2B8CBCCC#32
abbrev epsW : EReal := Ideal.ofBits .f32 0x3727C5AC#32

structure Adj where
  vals : Fin 850000 → EReal
  hit : Fin 850000 → Fin 50000 → Prop
  hitDec : ∀ e n, Decidable (hit e n)
  col : Fin 850000 → Fin 50000

attribute [instance] Adj.hitDec

def adjOf (vals : (⟨1, ![850000]⟩ : Shape).Idx → EReal) (R Cw : IVec ⟨1, ![850000]⟩ 32) : Adj where
  vals e := vals (ix1 e)
  hit e n := (R (ix1 e)).toInt = (n.val : Int)
  hitDec _ _ := inferInstance
  col e := ⟨min (Cw (ix1 e)).toInt.toNat 49999, by omega⟩

def spmm (A : Adj) {F : Nat} (h : Fin 50000 → Fin F → EReal) : Fin 50000 → Fin F → EReal :=
  fun n f => ∑ e ∈ Finset.univ.filter (fun e => A.hit e n), A.vals e * h (A.col e) f

def hop (A : Adj) {F : Nat} (k : Nat) (h : Fin 50000 → Fin F → EReal) : Fin 50000 → Fin F → EReal :=
  (spmm A)^[k] h

def l2norm (x : Fin 50000 → Fin 100 → EReal) : Fin 50000 → Fin 100 → EReal :=
  fun n k => Ideal.div (x n k) (max (Ideal.sqrt (∑ k', x n k' * x n k')) tinyW)

def cellHid (xs : Fin 50000 → Fin 100 → EReal) (W1 : Fin 100 → Fin 16 → EReal) (b1 g be mu var : Fin 16 → EReal) :
    Fin 50000 → Fin 16 → EReal :=
  fun n q => max ((((∑ k, xs n k * W1 k q) + b1 q) - mu q) * (g q * Ideal.rsqrt (var q + epsW)) + be q) zeroW

def cellOut (hid : Fin 50000 → Fin 16 → EReal) (W2 : Fin 16 → Fin 40 → EReal) (b2 : Fin 40 → EReal) :
    Fin 50000 → Fin 40 → EReal :=
  fun n k => (∑ j, hid n j * W2 j k) + b2 k

structure Params where
  x : (⟨2, ![50000, 100]⟩ : Shape).Idx → EReal
  W1 : (⟨3, ![12, 100, 16]⟩ : Shape).Idx → EReal
  b1 : (⟨2, ![12, 16]⟩ : Shape).Idx → EReal
  g : (⟨2, ![12, 16]⟩ : Shape).Idx → EReal
  be : (⟨2, ![12, 16]⟩ : Shape).Idx → EReal
  mu : (⟨2, ![12, 16]⟩ : Shape).Idx → EReal
  var : (⟨2, ![12, 16]⟩ : Shape).Idx → EReal
  W2 : (⟨3, ![12, 16, 40]⟩ : Shape).Idx → EReal
  b2 : (⟨2, ![12, 40]⟩ : Shape).Idx → EReal
  Wout : (⟨2, ![480, 40]⟩ : Shape).Idx → EReal
  bout : (⟨1, ![40]⟩ : Shape).Idx → EReal

def xs (A : Adj) (P : Params) (k : Nat) : Fin 50000 → Fin 100 → EReal :=
  hop A k (l2norm fun n j => P.x (ix2 n j))

def hid (A : Adj) (P : Params) (i : Fin 12) : Fin 50000 → Fin 16 → EReal :=
  cellHid (xs A P (i.val % 4)) (fun k q => P.W1 (ix3 i k q)) (fun q => P.b1 (ix2 i q)) (fun q => P.g (ix2 i q))
    (fun q => P.be (ix2 i q)) (fun q => P.mu (ix2 i q)) (fun q => P.var (ix2 i q))

def cell (A : Adj) (P : Params) (i : Fin 12) : Fin 50000 → Fin 40 → EReal :=
  cellOut (hop A (i.val % 4) (hid A P i)) (fun j k => P.W2 (ix3 i j k)) (fun k => P.b2 (ix2 i k))

def out1 (A : Adj) (P : Params) : (⟨3, ![50000, 12, 40]⟩ : Shape).Idx → EReal :=
  fun j => cell A P (j 1) (j 0) (j 2)

def flat (A : Adj) (P : Params) (n : Fin 50000) (j : Fin 480) : EReal :=
  cell A P ⟨j.val / 40, by omega⟩ n ⟨j.val % 40, by omega⟩

def out0 (A : Adj) (P : Params) : (⟨2, ![50000, 40]⟩ : Shape).Idx → EReal :=
  fun j => (∑ t : Fin 480, max (flat A P (j 0) t) zeroW * P.Wout (ix2 t (j 1))) + P.bout (ix1 (j 1))

end Cert.Spec

end
-- ==== Proof.KVal.Defs.lean ====
import proofs.«124913_j71159018160549_2_alg».proof.Proof.Frame.Fold
import proofs.«124913_j71159018160549_2_alg».proof.Proof.Spec

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

abbrev cellIx (r : Fin 3) (h : Fin 4) : Fin 12 := ⟨4 * r.val + h.val, by omega⟩

def kR : IVec S850000 32 := W3 m c (Proc.devRef .tc main_v1)
def kC : IVec S850000 32 := W3 m c (Proc.devRef .tc main_v2)
def kVals : FVec Ideal S850000 .f32 := W3 m c (Proc.devRef .tc main_v26)

def kCw : IVec S850000 32 :=
  select (cmpi .slt (kC m c) (broadcastInDim S850000 ![] bcast_S_S850000 (constantI S_ 32 0#32)))
    (addi (kC m c) (broadcastInDim S850000 ![] bcast_S_S850000 (constantI S_ 32 50000#32))) (kC m c)

def kA : Cert.Spec.Adj := Cert.Spec.adjOf (kVals m c) (kR m c) (kCw m c)

def kP : Cert.Spec.Params where
  x := m ((c.tc : Thread nD τ).loc main_arg0)
  W1 := m ((c.tc : Thread nD τ).loc main_arg3)
  b1 := m ((c.tc : Thread nD τ).loc main_arg4)
  g := m ((c.tc : Thread nD τ).loc main_arg5)
  be := m ((c.tc : Thread nD τ).loc main_arg6)
  mu := m ((c.tc : Thread nD τ).loc main_arg7)
  var := m ((c.tc : Thread nD τ).loc main_arg8)
  W2 := m ((c.tc : Thread nD τ).loc main_arg9)
  b2 := m ((c.tc : Thread nD τ).loc main_arg10)
  Wout := m ((c.tc : Thread nD τ).loc main_arg11)
  bout := m ((c.tc : Thread nD τ).loc main_arg12)

end Cert.KernelIdeal.KVal

end
-- ==== Proof.KVal.Layers.lean ====
import proofs.«124913_j71159018160549_2_alg».proof.Proof.Gen.KernelIdeal.Skeleton
import proofs.«124913_j71159018160549_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.ValueIdx

section Layout
variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Roots
variable {s : Shape} {φ : FTy}

theorem sqrt_apply (a : FVec Ideal s φ) (i : s.Idx) : sqrt a i = Ideal.sqrt (a i) := rfl

theorem rsqrt_apply (a : FVec Ideal s φ) (i : s.Idx) : rsqrt a i = Ideal.rsqrt (a i) := rfl

end Roots

theorem lhs2_0 (i : S2000x40.Idx) (q : dot_S2000x16_S16x40_S2000x40_1_0_0_1_n_n.contr.Idx) :
    (dot_S2000x16_S16x40_S2000x40_1_0_0_1_n_n.lhsIdx i q 0).val = (i 0).val := by
  unfold DotDims.lhsIdx
  rw [dif_neg (show ¬(0 : Fin S2000x16.rank) ∈ dot_S2000x16_S16x40_S2000x40_1_0_0_1_n_n.lhsBatch by decide), dif_pos (show (0 : Fin S2000x16.rank) ∈ dot_S2000x16_S16x40_S2000x40_1_0_0_1_n_n.lhsNonContracting by decide)]
  rfl
theorem lhs2_1 (i : S2000x40.Idx) (q : dot_S2000x16_S16x40_S2000x40_1_0_0_1_n_n.contr.Idx) :
    (dot_S2000x16_S16x40_S2000x40_1_0_0_1_n_n.lhsIdx i q 1).val = (q ⟨0, by decide⟩).val :=
  dot_S2000x16_S16x40_S2000x40_1_0_0_1_n_n.lhsIdx_val_of_single rfl i q
theorem rhs2_0 (i : S2000x40.Idx) (q : dot_S2000x16_S16x40_S2000x40_1_0_0_1_n_n.contr.Idx) :
    (dot_S2000x16_S16x40_S2000x40_1_0_0_1_n_n.rhsIdx i q 0).val = (q ⟨0, by decide⟩).val :=
  dot_S2000x16_S16x40_S2000x40_1_0_0_1_n_n.rhsIdx_val_of_single rfl i q
theorem rhs2_1 (i : S2000x40.Idx) (q : dot_S2000x16_S16x40_S2000x40_1_0_0_1_n_n.contr.Idx) :
    (dot_S2000x16_S16x40_S2000x40_1_0_0_1_n_n.rhsIdx i q 1).val = (i 1).val := by
  unfold DotDims.rhsIdx
  rw [dif_neg (show ¬(1 : Fin S16x40.rank) ∈ dot_S2000x16_S16x40_S2000x40_1_0_0_1_n_n.rhsBatch by decide), dif_pos (show (1 : Fin S16x40.rank) ∈ dot_S2000x16_S16x40_S2000x40_1_0_0_1_n_n.rhsNonContracting by decide)]
  rfl

theorem mm2_apply (a : FVec Ideal S2000x16 .bf16) (b : FVec Ideal S16x40 .bf16) (p : Fin 2000) (k : Fin 40) :
    matmul dot_S2000x16_S16x40_S2000x40_1_0_0_1_n_n none a b (constant (F := Ideal) S2000x40 .f32 0x00000000#32) (ix2 p k)
      = ∑ j : Fin 16, a (ix2 p j) * b (ix2 j k) := by
  simp only [matmul]
  rw [Ideal.matmul_constant_zero_apply, ← Equiv.sum_comp (ValueIdx.contrEquiv1 dot_S2000x16_S16x40_S2000x40_1_0_0_1_n_n 16 rfl rfl).symm]
  refine Finset.sum_congr rfl fun j _ => ?_
  have hk := ValueIdx.contrEquiv1_symm_val dot_S2000x16_S16x40_S2000x40_1_0_0_1_n_n 16 rfl rfl j
  have el : dot_S2000x16_S16x40_S2000x40_1_0_0_1_n_n.lhsIdx (ix2 p k) ((ValueIdx.contrEquiv1 dot_S2000x16_S16x40_S2000x40_1_0_0_1_n_n 16 rfl rfl).symm j) = ix2 p j := funext fun c => Fin.ext (by
    match c with
    | ⟨0, _⟩ => exact lhs2_0 _ _
    | ⟨1, _⟩ => exact (lhs2_1 _ _).trans hk)
  have er : dot_S2000x16_S16x40_S2000x40_1_0_0_1_n_n.rhsIdx (ix2 p k) ((ValueIdx.contrEquiv1 dot_S2000x16_S16x40_S2000x40_1_0_0_1_n_n 16 rfl rfl).symm j) = ix2 j k := funext fun c => Fin.ext (by
    match c with
    | ⟨0, _⟩ => exact (rhs2_0 _ _).trans hk
    | ⟨1, _⟩ => exact rhs2_1 _ _)
  rw [el, er]

theorem pay2_apply (v0 : Vec Ideal S1x1x2000x16 .f32) (v3 : Vec Ideal S1x16x40 .f32) (v7 : Vec Ideal S1x1x40 .f32) (p : Fin 2000) (k : Fin 40) :
    k2_pay1 (F := Ideal) v0 v3 v7 (ix4 0 0 p k) = (∑ j : Fin 16, v0 (ix4 0 0 p j) * v3 (ix3 0 j k)) + v7 (ix3 0 0 k) := by
  unfold k2_pay1
  rw [shapeCast_ab_11ab_apply, addf_apply, mm2_apply, broadcastTo_1b_ab_apply, shapeCast_1ab_ab_apply]
  refine congrArg (· + v7 (ix3 0 0 k)) (Finset.sum_congr rfl fun j _ => ?_)
  rw [truncf_apply, truncf_apply, shapeCast_11ab_ab_apply, shapeCast_1ab_ab_apply]

theorem lhs3_0 (i : S2000x40.Idx) (q : dot_S2000x480_S480x40_S2000x40_1_0_0_1_n_n.contr.Idx) :
    (dot_S2000x480_S480x40_S2000x40_1_0_0_1_n_n.lhsIdx i q 0).val = (i 0).val := by
  unfold DotDims.lhsIdx
  rw [dif_neg (show ¬(0 : Fin S2000x480.rank) ∈ dot_S2000x480_S480x40_S2000x40_1_0_0_1_n_n.lhsBatch by decide), dif_pos (show (0 : Fin S2000x480.rank) ∈ dot_S2000x480_S480x40_S2000x40_1_0_0_1_n_n.lhsNonContracting by decide)]
  rfl
theorem lhs3_1 (i : S2000x40.Idx) (q : dot_S2000x480_S480x40_S2000x40_1_0_0_1_n_n.contr.Idx) :
    (dot_S2000x480_S480x40_S2000x40_1_0_0_1_n_n.lhsIdx i q 1).val = (q ⟨0, by decide⟩).val :=
  dot_S2000x480_S480x40_S2000x40_1_0_0_1_n_n.lhsIdx_val_of_single rfl i q
theorem rhs3_0 (i : S2000x40.Idx) (q : dot_S2000x480_S480x40_S2000x40_1_0_0_1_n_n.contr.Idx) :
    (dot_S2000x480_S480x40_S2000x40_1_0_0_1_n_n.rhsIdx i q 0).val = (q ⟨0, by decide⟩).val :=
  dot_S2000x480_S480x40_S2000x40_1_0_0_1_n_n.rhsIdx_val_of_single rfl i q
theorem rhs3_1 (i : S2000x40.Idx) (q : dot_S2000x480_S480x40_S2000x40_1_0_0_1_n_n.contr.Idx) :
    (dot_S2000x480_S480x40_S2000x40_1_0_0_1_n_n.rhsIdx i q 1).val = (i 1).val := by
  unfold DotDims.rhsIdx
  rw [dif_neg (show ¬(1 : Fin S480x40.rank) ∈ dot_S2000x480_S480x40_S2000x40_1_0_0_1_n_n.rhsBatch by decide), dif_pos (show (1 : Fin S480x40.rank) ∈ dot_S2000x480_S480x40_S2000x40_1_0_0_1_n_n.rhsNonContracting by decide)]
  rfl

theorem mm3_apply (a : FVec Ideal S2000x480 .bf16) (b : FVec Ideal S480x40 .bf16) (p : Fin 2000) (k : Fin 40) :
    matmul dot_S2000x480_S480x40_S2000x40_1_0_0_1_n_n none a b (constant (F := Ideal) S2000x40 .f32 0x00000000#32) (ix2 p k)
      = ∑ j : Fin 480, a (ix2 p j) * b (ix2 j k) := by
  simp only [matmul]
  rw [Ideal.matmul_constant_zero_apply, ← Equiv.sum_comp (ValueIdx.contrEquiv1 dot_S2000x480_S480x40_S2000x40_1_0_0_1_n_n 480 rfl rfl).symm]
  refine Finset.sum_congr rfl fun j _ => ?_
  have hk := ValueIdx.contrEquiv1_symm_val dot_S2000x480_S480x40_S2000x40_1_0_0_1_n_n 480 rfl rfl j
  have el : dot_S2000x480_S480x40_S2000x40_1_0_0_1_n_n.lhsIdx (ix2 p k) ((ValueIdx.contrEquiv1 dot_S2000x480_S480x40_S2000x40_1_0_0_1_n_n 480 rfl rfl).symm j) = ix2 p j := funext fun c => Fin.ext (by
    match c with
    | ⟨0, _⟩ => exact lhs3_0 _ _
    | ⟨1, _⟩ => exact (lhs3_1 _ _).trans hk)
  have er : dot_S2000x480_S480x40_S2000x40_1_0_0_1_n_n.rhsIdx (ix2 p k) ((ValueIdx.contrEquiv1 dot_S2000x480_S480x40_S2000x40_1_0_0_1_n_n 480 rfl rfl).symm j) = ix2 j k := funext fun c => Fin.ext (by
    match c with
    | ⟨0, _⟩ => exact (rhs3_0 _ _).trans hk
    | ⟨1, _⟩ => exact rhs3_1 _ _)
  rw [el, er]

theorem pay3_apply (v0 : Vec Ideal S2000x480 .f32) (v5 : Vec Ideal S480x40 .f32) (v8 : Vec Ideal S1x40 .f32) (p : Fin 2000) (k : Fin 40) :
    k3_pay1 (F := Ideal) v0 v5 v8 (ix2 p k) = (∑ t : Fin 480, max (v0 (ix2 p t)) Cert.Spec.zeroW * v5 (ix2 t k)) + v8 (ix2 0 k) := by
  unfold k3_pay1
  rw [addf_apply, mm3_apply, broadcastTo_1b_ab_apply, shapeCast_self, shapeCast_self]
  refine congrArg (· + v8 (ix2 0 k)) (Finset.sum_congr rfl fun t _ => ?_)
  rw [truncf_apply, truncf_apply, maximumf_apply, broadcast_apply]
  rfl

theorem lhs1_0 (i : S2000x16.Idx) (q : dot_S2000x100_S100x16_S2000x16_1_0_0_1_n_n.contr.Idx) :
    (dot_S2000x100_S100x16_S2000x16_1_0_0_1_n_n.lhsIdx i q 0).val = (i 0).val := by
  unfold DotDims.lhsIdx
  rw [dif_neg (show ¬(0 : Fin S2000x100.rank) ∈ dot_S2000x100_S100x16_S2000x16_1_0_0_1_n_n.lhsBatch by decide), dif_pos (show (0 : Fin S2000x100.rank) ∈ dot_S2000x100_S100x16_S2000x16_1_0_0_1_n_n.lhsNonContracting by decide)]
  rfl
theorem lhs1_1 (i : S2000x16.Idx) (q : dot_S2000x100_S100x16_S2000x16_1_0_0_1_n_n.contr.Idx) :
    (dot_S2000x100_S100x16_S2000x16_1_0_0_1_n_n.lhsIdx i q 1).val = (q ⟨0, by decide⟩).val :=
  dot_S2000x100_S100x16_S2000x16_1_0_0_1_n_n.lhsIdx_val_of_single rfl i q
theorem rhs1_0 (i : S2000x16.Idx) (q : dot_S2000x100_S100x16_S2000x16_1_0_0_1_n_n.contr.Idx) :
    (dot_S2000x100_S100x16_S2000x16_1_0_0_1_n_n.rhsIdx i q 0).val = (q ⟨0, by decide⟩).val :=
  dot_S2000x100_S100x16_S2000x16_1_0_0_1_n_n.rhsIdx_val_of_single rfl i q
theorem rhs1_1 (i : S2000x16.Idx) (q : dot_S2000x100_S100x16_S2000x16_1_0_0_1_n_n.contr.Idx) :
    (dot_S2000x100_S100x16_S2000x16_1_0_0_1_n_n.rhsIdx i q 1).val = (i 1).val := by
  unfold DotDims.rhsIdx
  rw [dif_neg (show ¬(1 : Fin S100x16.rank) ∈ dot_S2000x100_S100x16_S2000x16_1_0_0_1_n_n.rhsBatch by decide), dif_pos (show (1 : Fin S100x16.rank) ∈ dot_S2000x100_S100x16_S2000x16_1_0_0_1_n_n.rhsNonContracting by decide)]
  rfl

theorem mm1_apply (a : FVec Ideal S2000x100 .bf16) (b : FVec Ideal S100x16 .bf16) (p : Fin 2000) (k : Fin 16) :
    matmul dot_S2000x100_S100x16_S2000x16_1_0_0_1_n_n none a b (constant (F := Ideal) S2000x16 .f32 0x00000000#32) (ix2 p k)
      = ∑ j : Fin 100, a (ix2 p j) * b (ix2 j k) := by
  simp only [matmul]
  rw [Ideal.matmul_constant_zero_apply, ← Equiv.sum_comp (ValueIdx.contrEquiv1 dot_S2000x100_S100x16_S2000x16_1_0_0_1_n_n 100 rfl rfl).symm]
  refine Finset.sum_congr rfl fun j _ => ?_
  have hk := ValueIdx.contrEquiv1_symm_val dot_S2000x100_S100x16_S2000x16_1_0_0_1_n_n 100 rfl rfl j
  have el : dot_S2000x100_S100x16_S2000x16_1_0_0_1_n_n.lhsIdx (ix2 p k) ((ValueIdx.contrEquiv1 dot_S2000x100_S100x16_S2000x16_1_0_0_1_n_n 100 rfl rfl).symm j) = ix2 p j := funext fun c => Fin.ext (by
    match c with
    | ⟨0, _⟩ => exact lhs1_0 _ _
    | ⟨1, _⟩ => exact (lhs1_1 _ _).trans hk)
  have er : dot_S2000x100_S100x16_S2000x16_1_0_0_1_n_n.rhsIdx (ix2 p k) ((ValueIdx.contrEquiv1 dot_S2000x100_S100x16_S2000x16_1_0_0_1_n_n 100 rfl rfl).symm j) = ix2 j k := funext fun c => Fin.ext (by
    match c with
    | ⟨0, _⟩ => exact (rhs1_0 _ _).trans hk
    | ⟨1, _⟩ => exact rhs1_1 _ _)
  rw [el, er]

theorem row16_apply (v : Vec Ideal S1x1x16 .f32) (p : Fin 2000) (q : Fin 16) :
    broadcastTo S2000x16 (shapeCast S1x16 v shapeCasts_S1x1x16_S1x16) broadcasts_S1x16_S2000x16 (ix2 p q) = v (ix3 0 0 q) := by
  rw [broadcastTo_1b_ab_apply, shapeCast_1ab_ab_apply]

theorem pay1_apply (v0 : Vec Ideal S1x2000x100 .f32) (v3 : Vec Ideal S1x100x16 .f32) (v7 v11 v13 v19 v25 : Vec Ideal S1x1x16 .f32) (p : Fin 2000) (q : Fin 16) :
    k1_pay1 (F := Ideal) (k1_pay2 v0 v3 v7 v11 v13 v19 v25) (ix4 0 0 p q) = max ((((∑ k : Fin 100, v0 (ix3 0 p k) * v3 (ix3 0 k q)) + v7 (ix3 0 0 q)) - v19 (ix3 0 0 q)) * (v11 (ix3 0 0 q) * Ideal.rsqrt (v13 (ix3 0 0 q) + Cert.Spec.epsW)) + v25 (ix3 0 0 q)) Cert.Spec.zeroW := by
  unfold k1_pay1 k1_pay2
  rw [shapeCast_ab_11ab_apply, maximumf_apply, broadcast_apply, addf_apply, row16_apply, mulf_apply, subf_apply, row16_apply,
    addf_apply, row16_apply, mm1_apply, broadcastTo_1b_ab_apply, mulf_apply, shapeCast_1ab_ab_apply, rsqrt_apply, addf_apply,
    shapeCast_1ab_ab_apply, broadcast_apply]
  refine congrArg (fun t => max ((((t + v7 (ix3 0 0 q)) - v19 (ix3 0 0 q)) * (v11 (ix3 0 0 q) * Ideal.rsqrt (v13 (ix3 0 0 q) + Cert.Spec.epsW)) + v25 (ix3 0 0 q))) Cert.Spec.zeroW)
    (Finset.sum_congr rfl fun j _ => ?_)
  rw [truncf_apply, truncf_apply, shapeCast_1ab_ab_apply, shapeCast_1ab_ab_apply]

theorem rowsum_apply (src : FVec Ideal S2000x100 .f32) (hφ : FKind.Formats .f32)
    (hacc : (0x00000000#32 : BitVec 32) = FKind.add.neutral .f32 hφ) (p : Fin 2000) :
    multiReduction (F := Ideal) .add [1] S2000 src 0x00000000#32 reduces_S2000x100_S2000 hφ hacc (ix1 p)
      = ∑ k : Fin 100, src (ix2 p k) := by
  refine (Ideal.multiReduction_add_single src 0x00000000#32 reduces_S2000x100_S2000 hφ hacc (ix1 p)).trans ?_
  refine Finset.sum_congr rfl fun k _ => congrArg src ?_
  funext c
  refine Fin.ext ?_
  match c with
  | ⟨0, _⟩ => rfl
  | ⟨1, _⟩ => rfl

theorem pay0_apply (x0 : Vec Ideal S2000x100 .f32) (p : Fin 2000) (q : Fin 100) :
    k0_pay1 (F := Ideal) x0 (ix2 p q) = Ideal.div (x0 (ix2 p q)) (max (Ideal.sqrt (∑ k : Fin 100, x0 (ix2 p k) * x0 (ix2 p k))) Cert.Spec.tinyW) := by
  unfold k0_pay1
  rw [divf_apply, broadcastTo_a1_ab_apply, maximumf_apply, broadcast_apply]
  refine congrArg (fun t => Ideal.div (x0 (ix2 p q)) (max (Ideal.sqrt t) Cert.Spec.tinyW)) ?_
  rw [shapeCast_a_a1_apply]
  refine (rowsum_apply _ _ _ p).trans ?_
  rfl

end Cert.KernelIdeal.KVal

end
-- ==== Proof.KVal.Regions.lean ====
import proofs.«124913_j71159018160549_2_alg».proof.Proof.Frame.Dat0
import proofs.«124913_j71159018160549_2_alg».proof.Proof.Frame.Dat1
import proofs.«124913_j71159018160549_2_alg».proof.Proof.Frame.Dat2
import proofs.«124913_j71159018160549_2_alg».proof.Proof.Frame.Dat3
import proofs.«124913_j71159018160549_2_alg».proof.Proof.KVal.Defs
import proofs.«124913_j71159018160549_2_alg».proof.Proof.KVal.Layers
import proofs.«124913_j71159018160549_2_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b)) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

abbrev G0 : S50000x100.Idx → EReal :=
  fun j => Cert.Spec.l2norm (fun n k => V c main_arg0 (ix2 n k)) (j 0) (j 1)

theorem blk0_l2norm (x0 : Vec Ideal S2000x100 .f32) (A : S50000x100.Idx → EReal) (b : Nat) (hb : b < 25)
    (hx : ∀ (p : Fin 2000) (q : Fin 100), x0 (ix2 p q) = A (ix2 ⟨b * 2000 + p.val, by omega⟩ q))
    (p : Fin 2000) (q : Fin 100) :
    k0_pay1 (F := Ideal) x0 (ix2 p q) = Cert.Spec.l2norm (fun n k => A (ix2 n k)) ⟨b * 2000 + p.val, by omega⟩ q := by
  rw [pay0_apply]
  unfold Cert.Spec.l2norm
  simp only [hx]

theorem iblk0_0_apply (t : Fin cfg0.N) (ht : t.val < 25) (p : Fin 2000) (q : Fin 100) :
    (iblk0 V c 0 t : Vec Ideal S2000x100 .f32) (ix2 p q)
      = (V c main_arg0 : S50000x100.Idx → EReal) (ix2 ⟨t.val * 2000 + p.val, by omega⟩ q) := by
  obtain ⟨e0, e1, e2, e3⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * p.val = t.val * 2000 + p.val; omega
  | ⟨1, _⟩ => show win0_0.index t (1 : Fin 2) * 100 + 1 * q.val = q.val; omega

theorem flushed0_eq (t : Fin cfg0.N) :
    (dat0 (F := Ideal) V c).flushed 1 t = ((cfg0.win 1).blk t).view.read (Elt Ideal) (G0 V c) := by
  show (cfg0.win 1).cut (grid0.coords t) ((dat0 V c).after 1 t) = _
  rw [after0_1]
  unfold out0_1
  rw [View.canon_unit_zero hz2]
  simp only [View.ld_unit_zero (S := S2000x100) hz2]
  funext j
  obtain ⟨e0, e1, e2, e3⟩ := idx_facts0 t
  have ht : t.val < 25 := lt_of_lt_of_eq t.isLt N_0
  have hj0 : (j 0).val < 2000 := (j 0).isLt
  have hj1 : (j 1).val < 100 := (j 1).isLt
  show k0_pay1 (iblk0 V c 0 t) j = Cert.Spec.l2norm (fun n k => V c main_arg0 (ix2 n k))
    ((((cfg0.win 1).blk t).view.emb j) 0) ((((cfg0.win 1).blk t).view.emb j) 1)
  have h0 : (((cfg0.win 1).blk t).view.emb j) 0 = (⟨t.val * 2000 + (j 0).val, by omega⟩ : Fin 50000) :=
    Fin.ext (by show win0_1.index t (0 : Fin 2) * 2000 + 1 * (j 0).val = t.val * 2000 + (j 0).val; omega)
  have h1 : (((cfg0.win 1).blk t).view.emb j) 1 = (j 1 : Fin 100) :=
    Fin.ext (by show win0_1.index t (1 : Fin 2) * 100 + 1 * (j 1).val = (j 1).val; omega)
  rw [h0, h1]
  have hj : (j : S2000x100.Idx) = ix2 (j 0) (j 1) := eq_ix2 j
  refine (congrArg (k0_pay1 (F := Ideal) (iblk0 V c 0 t)) hj).trans ?_
  exact blk0_l2norm (iblk0 V c 0 t) (V c main_arg0) t.val ht (fun p q => iblk0_0_apply V c t ht p q) (j 0) (j 1)

theorem mem_blk0 (t : Fin cfg0.N) (i : S50000x100.Idx) :
    i ∈ ((cfg0.win 1).blk t).view.set ↔ ∀ a : Fin 2, win0_1.index t a * S2000x100.size a ≤ (i a).val
      ∧ (i a).val < win0_1.index t a * S2000x100.size a + S2000x100.size a := by
  show i ∈ ((View.whole main_v27).slice (win0_1.rect t)).set ↔ _
  rw [View.set_slice_whole, Rect.mem_set_unit]
  exact Iff.rfl

theorem cover0 (i : S50000x100.Idx) :
    ∃ t : Fin cfg0.N, (cfg0.win 1).flush t = true ∧ i ∈ ((cfg0.win 1).blk t).view.set := by
  have hi0 : (i 0).val < 50000 := (i 0).isLt
  have hi1 : (i 1).val < 100 := (i 1).isLt
  obtain ⟨t, tv⟩ : ∃ t : Fin cfg0.N, t.val = (i 0).val / 2000 :=
    ⟨⟨(i 0).val / 2000, by rw [show cfg0.N = 25 from N_0]; omega⟩, rfl⟩
  obtain ⟨e0, e1, e2, e3⟩ := idx_facts0 t
  refine ⟨t, flush0_1 t, ?_⟩
  rw [mem_blk0]
  intro a
  match a with
  | ⟨0, _⟩ => show win0_1.index t (0 : Fin 2) * 2000 ≤ (i 0).val ∧ (i 0).val < win0_1.index t (0 : Fin 2) * 2000 + 2000; omega
  | ⟨1, _⟩ => show win0_1.index t (1 : Fin 2) * 100 ≤ (i 1).val ∧ (i 1).val < win0_1.index t (1 : Fin 2) * 100 + 100; omega

theorem final0 : (dat0 (F := Ideal) V c).arrAt 1 cfg0.N
    = fun j : S50000x100.Idx => Cert.Spec.l2norm (fun n k => V c main_arg0 (ix2 n k)) (j 0) (j 1) :=
  (dat0 V c).arrAt_eq_of_cover 1 (G0 V c) (fun t _ => flushed0_eq V c t) (cover0)

theorem idx_facts1_o : ∀ t : Fin cfg1.N,
      win1_7.index t (0 : Fin 4) = t.val / 100 ∧ win1_7.index t (1 : Fin 4) = t.val / 25 % 4
    ∧ win1_7.index t (2 : Fin 4) = t.val % 25 ∧ win1_7.index t (3 : Fin 4) = 0 :=
  (by decide +kernel : ∀ t : Fin grid1.N, _)

theorem idx_facts1_x : ∀ t : Fin cfg1.N,
      win1_0.index t (0 : Fin 3) = t.val / 25 % 4 ∧ win1_0.index t (1 : Fin 3) = t.val % 25
    ∧ win1_0.index t (2 : Fin 3) = 0 :=
  (by decide +kernel : ∀ t : Fin grid1.N, _)

theorem idx_facts1_p : ∀ t : Fin cfg1.N,
      win1_1.index t (0 : Fin 3) = 4 * (t.val / 100) + t.val / 25 % 4 ∧ win1_1.index t (1 : Fin 3) = 0 ∧ win1_1.index t (2 : Fin 3) = 0
    ∧       win1_2.index t (0 : Fin 3) = 4 * (t.val / 100) + t.val / 25 % 4 ∧ win1_2.index t (1 : Fin 3) = 0 ∧ win1_2.index t (2 : Fin 3) = 0
    ∧       win1_3.index t (0 : Fin 3) = 4 * (t.val / 100) + t.val / 25 % 4 ∧ win1_3.index t (1 : Fin 3) = 0 ∧ win1_3.index t (2 : Fin 3) = 0
    ∧       win1_4.index t (0 : Fin 3) = 4 * (t.val / 100) + t.val / 25 % 4 ∧ win1_4.index t (1 : Fin 3) = 0 ∧ win1_4.index t (2 : Fin 3) = 0
    ∧       win1_5.index t (0 : Fin 3) = 4 * (t.val / 100) + t.val / 25 % 4 ∧ win1_5.index t (1 : Fin 3) = 0 ∧ win1_5.index t (2 : Fin 3) = 0
    ∧       win1_6.index t (0 : Fin 3) = 4 * (t.val / 100) + t.val / 25 % 4 ∧ win1_6.index t (1 : Fin 3) = 0 ∧ win1_6.index t (2 : Fin 3) = 0 :=
  (by decide +kernel : ∀ t : Fin grid1.N, _)

abbrev G1 : S3x4x50000x16.Idx → EReal :=
  fun j => Cert.Spec.cellHid (fun n k => V c main_v71 (ix3 (j 1) n k))
    (fun k q => V c main_arg3 (ix3 (cellIx (j 0) (j 1)) k q))
    (fun q => V c main_v72 (ix3 (cellIx (j 0) (j 1)) 0 q))
    (fun q => V c main_v73 (ix3 (cellIx (j 0) (j 1)) 0 q))
    (fun q => V c main_v74 (ix3 (cellIx (j 0) (j 1)) 0 q))
    (fun q => V c main_v75 (ix3 (cellIx (j 0) (j 1)) 0 q))
    (fun q => V c main_v76 (ix3 (cellIx (j 0) (j 1)) 0 q)) (j 2) (j 3)

theorem blk1_out (x0 : Vec Ideal S1x2000x100 .f32) (x1 : Vec Ideal S1x100x16 .f32) (x2 x3 x4 x5 x6 : Vec Ideal S1x1x16 .f32)
    (A : S4x50000x100.Idx → EReal) (W : S12x100x16.Idx → EReal) (B2 B3 B4 B5 B6 : S12x1x16.Idx → EReal)
    (r : Fin 3) (h : Fin 4) (b : Nat) (hb : b < 25)
    (h0 : ∀ (p : Fin 2000) (k : Fin 100), x0 (ix3 0 p k) = A (ix3 h ⟨b * 2000 + p.val, by omega⟩ k))
    (h1 : ∀ (k : Fin 100) (q : Fin 16), x1 (ix3 0 k q) = W (ix3 (cellIx r h) k q))
    (h2 : ∀ (q : Fin 16), x2 (ix3 0 0 q) = B2 (ix3 (cellIx r h) 0 q))
    (h3 : ∀ (q : Fin 16), x3 (ix3 0 0 q) = B3 (ix3 (cellIx r h) 0 q))
    (h4 : ∀ (q : Fin 16), x4 (ix3 0 0 q) = B4 (ix3 (cellIx r h) 0 q))
    (h5 : ∀ (q : Fin 16), x5 (ix3 0 0 q) = B5 (ix3 (cellIx r h) 0 q))
    (h6 : ∀ (q : Fin 16), x6 (ix3 0 0 q) = B6 (ix3 (cellIx r h) 0 q))
    (p : Fin 2000) (q : Fin 16) :
    k1_pay1 (F := Ideal) (k1_pay2 x0 x1 x2 x3 x6 x5 x4) (ix4 0 0 p q)
      = Cert.Spec.cellHid (fun n k => A (ix3 h n k)) (fun k q => W (ix3 (cellIx r h) k q))
          (fun q => B2 (ix3 (cellIx r h) 0 q)) (fun q => B3 (ix3 (cellIx r h) 0 q)) (fun q => B4 (ix3 (cellIx r h) 0 q))
          (fun q => B5 (ix3 (cellIx r h) 0 q)) (fun q => B6 (ix3 (cellIx r h) 0 q)) ⟨b * 2000 + p.val, by omega⟩ q := by
  rw [pay1_apply]
  unfold Cert.Spec.cellHid
  simp only [h0, h1, h2, h3, h4, h5, h6]

theorem iblk1_0_apply (t : Fin cfg1.N) (h : Fin 4) (hh : h.val = t.val / 25 % 4) (p : Fin 2000) (k : Fin 100) :
    (iblk1 V c 0 t : Vec Ideal S1x2000x100 .f32) (ix3 0 p k)
      = (V c main_v71 : S4x50000x100.Idx → EReal) (ix3 h ⟨t.val % 25 * 2000 + p.val, by omega⟩ k) := by
  obtain ⟨x0, x1, x2⟩ := idx_facts1_x t
  unfold iblk1
  rw [View.read_apply]
  show V c main_v71 _ = V c main_v71 _
  congr 1
  funext a
  apply Fin.ext
  match a with
  | ⟨0, _⟩ => show win1_0.index t (0 : Fin 3) * 1 + 1 * 0 = h.val; omega
  | ⟨1, _⟩ => show win1_0.index t (1 : Fin 3) * 2000 + 1 * p.val = t.val % 25 * 2000 + p.val; omega
  | ⟨2, _⟩ => show win1_0.index t (2 : Fin 3) * 100 + 1 * k.val = k.val; omega

theorem iblk1_1_apply (t : Fin cfg1.N) (r : Fin 3) (h : Fin 4) (hr : r.val = t.val / 100) (hh : h.val = t.val / 25 % 4)
    (k : Fin 100) (q : Fin 16) :
    (iblk1 V c 1 t : Vec Ideal S1x100x16 .f32) (ix3 0 k q)
      = (V c main_arg3 : S12x100x16.Idx → EReal) (ix3 (cellIx r h) k q) := by
  obtain ⟨p0, p1, p2, p3, p4, p5, p6, p7, p8, p9, p10, p11, p12, p13, p14, p15, p16, p17⟩ := idx_facts1_p t
  unfold iblk1
  rw [View.read_apply]
  show V c main_arg3 _ = V c main_arg3 _
  congr 1
  funext a
  apply Fin.ext
  match a with
  | ⟨0, _⟩ => show win1_1.index t (0 : Fin 3) * 1 + 1 * 0 = 4 * r.val + h.val; omega
  | ⟨1, _⟩ => show win1_1.index t (1 : Fin 3) * 100 + 1 * k.val = k.val; omega
  | ⟨2, _⟩ => show win1_1.index t (2 : Fin 3) * 16 + 1 * q.val = q.val; omega

theorem iblk1_2_apply (t : Fin cfg1.N) (r : Fin 3) (h : Fin 4) (hr : r.val = t.val / 100) (hh : h.val = t.val / 25 % 4)
    (q : Fin 16) :
    (iblk1 V c 2 t : Vec Ideal S1x1x16 .f32) (ix3 0 0 q)
      = (V c main_v72 : S12x1x16.Idx → EReal) (ix3 (cellIx r h) 0 q) := by
  obtain ⟨p0, p1, p2, p3, p4, p5, p6, p7, p8, p9, p10, p11, p12, p13, p14, p15, p16, p17⟩ := idx_facts1_p t
  unfold iblk1
  rw [View.read_apply]
  show V c main_v72 _ = V c main_v72 _
  congr 1
  funext a
  apply Fin.ext
  match a with
  | ⟨0, _⟩ => show win1_2.index t (0 : Fin 3) * 1 + 1 * 0 = 4 * r.val + h.val; omega
  | ⟨1, _⟩ => show win1_2.index t (1 : Fin 3) * 1 + 1 * 0 = 0; omega
  | ⟨2, _⟩ => show win1_2.index t (2 : Fin 3) * 16 + 1 * q.val = q.val; omega

theorem iblk1_3_apply (t : Fin cfg1.N) (r : Fin 3) (h : Fin 4) (hr : r.val = t.val / 100) (hh : h.val = t.val / 25 % 4)
    (q : Fin 16) :
    (iblk1 V c 3 t : Vec Ideal S1x1x16 .f32) (ix3 0 0 q)
      = (V c main_v73 : S12x1x16.Idx → EReal) (ix3 (cellIx r h) 0 q) := by
  obtain ⟨p0, p1, p2, p3, p4, p5, p6, p7, p8, p9, p10, p11, p12, p13, p14, p15, p16, p17⟩ := idx_facts1_p t
  unfold iblk1
  rw [View.read_apply]
  show V c main_v73 _ = V c main_v73 _
  congr 1
  funext a
  apply Fin.ext
  match a with
  | ⟨0, _⟩ => show win1_3.index t (0 : Fin 3) * 1 + 1 * 0 = 4 * r.val + h.val; omega
  | ⟨1, _⟩ => show win1_3.index t (1 : Fin 3) * 1 + 1 * 0 = 0; omega
  | ⟨2, _⟩ => show win1_3.index t (2 : Fin 3) * 16 + 1 * q.val = q.val; omega

theorem iblk1_4_apply (t : Fin cfg1.N) (r : Fin 3) (h : Fin 4) (hr : r.val = t.val / 100) (hh : h.val = t.val / 25 % 4)
    (q : Fin 16) :
    (iblk1 V c 4 t : Vec Ideal S1x1x16 .f32) (ix3 0 0 q)
      = (V c main_v74 : S12x1x16.Idx → EReal) (ix3 (cellIx r h) 0 q) := by
  obtain ⟨p0, p1, p2, p3, p4, p5, p6, p7, p8, p9, p10, p11, p12, p13, p14, p15, p16, p17⟩ := idx_facts1_p t
  unfold iblk1
  rw [View.read_apply]
  show V c main_v74 _ = V c main_v74 _
  congr 1
  funext a
  apply Fin.ext
  match a with
  | ⟨0, _⟩ => show win1_4.index t (0 : Fin 3) * 1 + 1 * 0 = 4 * r.val + h.val; omega
  | ⟨1, _⟩ => show win1_4.index t (1 : Fin 3) * 1 + 1 * 0 = 0; omega
  | ⟨2, _⟩ => show win1_4.index t (2 : Fin 3) * 16 + 1 * q.val = q.val; omega

theorem iblk1_5_apply (t : Fin cfg1.N) (r : Fin 3) (h : Fin 4) (hr : r.val = t.val / 100) (hh : h.val = t.val / 25 % 4)
    (q : Fin 16) :
    (iblk1 V c 5 t : Vec Ideal S1x1x16 .f32) (ix3 0 0 q)
      = (V c main_v75 : S12x1x16.Idx → EReal) (ix3 (cellIx r h) 0 q) := by
  obtain ⟨p0, p1, p2, p3, p4, p5, p6, p7, p8, p9, p10, p11, p12, p13, p14, p15, p16, p17⟩ := idx_facts1_p t
  unfold iblk1
  rw [View.read_apply]
  show V c main_v75 _ = V c main_v75 _
  congr 1
  funext a
  apply Fin.ext
  match a with
  | ⟨0, _⟩ => show win1_5.index t (0 : Fin 3) * 1 + 1 * 0 = 4 * r.val + h.val; omega
  | ⟨1, _⟩ => show win1_5.index t (1 : Fin 3) * 1 + 1 * 0 = 0; omega
  | ⟨2, _⟩ => show win1_5.index t (2 : Fin 3) * 16 + 1 * q.val = q.val; omega

theorem iblk1_6_apply (t : Fin cfg1.N) (r : Fin 3) (h : Fin 4) (hr : r.val = t.val / 100) (hh : h.val = t.val / 25 % 4)
    (q : Fin 16) :
    (iblk1 V c 6 t : Vec Ideal S1x1x16 .f32) (ix3 0 0 q)
      = (V c main_v76 : S12x1x16.Idx → EReal) (ix3 (cellIx r h) 0 q) := by
  obtain ⟨p0, p1, p2, p3, p4, p5, p6, p7, p8, p9, p10, p11, p12, p13, p14, p15, p16, p17⟩ := idx_facts1_p t
  unfold iblk1
  rw [View.read_apply]
  show V c main_v76 _ = V c main_v76 _
  congr 1
  funext a
  apply Fin.ext
  match a with
  | ⟨0, _⟩ => show win1_6.index t (0 : Fin 3) * 1 + 1 * 0 = 4 * r.val + h.val; omega
  | ⟨1, _⟩ => show win1_6.index t (1 : Fin 3) * 1 + 1 * 0 = 0; omega
  | ⟨2, _⟩ => show win1_6.index t (2 : Fin 3) * 16 + 1 * q.val = q.val; omega

theorem flushed1_eq (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero hz4]
  simp only [View.ld_unit_zero (S := S1x2000x100) hz3, View.ld_unit_zero (S := S1x100x16) hz3, View.ld_unit_zero (S := S1x1x16) hz3]
  funext j
  obtain ⟨e0, e1, e2, e3⟩ := idx_facts1_o t
  have ht : t.val < 300 := lt_of_lt_of_eq t.isLt N_1
  have hj0 : (j 0).val < 1 := (j 0).isLt
  have hj1 : (j 1).val < 1 := (j 1).isLt
  have hj2 : (j 2).val < 2000 := (j 2).isLt
  have hj3 : (j 3).val < 16 := (j 3).isLt
  obtain ⟨r, hr⟩ : ∃ r : Fin 3, r.val = t.val / 100 := ⟨⟨t.val / 100, by omega⟩, rfl⟩
  obtain ⟨h, hh⟩ : ∃ h : Fin 4, h.val = t.val / 25 % 4 := ⟨⟨t.val / 25 % 4, by omega⟩, rfl⟩
  have hb : t.val % 25 < 25 := by omega
  show k1_pay1 (k1_pay2 (iblk1 V c 0 t) (iblk1 V c 1 t) (iblk1 V c 2 t) (iblk1 V c 3 t) (iblk1 V c 6 t) (iblk1 V c 5 t) (iblk1 V c 4 t)) j
    = Cert.Spec.cellHid (fun n k => V c main_v71 (ix3 ((((cfg1.win 7).blk t).view.emb j) 1) n k))
        (fun k q => V c main_arg3 (ix3 (cellIx ((((cfg1.win 7).blk t).view.emb j) 0) ((((cfg1.win 7).blk t).view.emb j) 1)) k q))
        (fun q => V c main_v72 (ix3 (cellIx ((((cfg1.win 7).blk t).view.emb j) 0) ((((cfg1.win 7).blk t).view.emb j) 1)) 0 q))
        (fun q => V c main_v73 (ix3 (cellIx ((((cfg1.win 7).blk t).view.emb j) 0) ((((cfg1.win 7).blk t).view.emb j) 1)) 0 q))
        (fun q => V c main_v74 (ix3 (cellIx ((((cfg1.win 7).blk t).view.emb j) 0) ((((cfg1.win 7).blk t).view.emb j) 1)) 0 q))
        (fun q => V c main_v75 (ix3 (cellIx ((((cfg1.win 7).blk t).view.emb j) 0) ((((cfg1.win 7).blk t).view.emb j) 1)) 0 q))
        (fun q => V c main_v76 (ix3 (cellIx ((((cfg1.win 7).blk t).view.emb j) 0) ((((cfg1.win 7).blk t).view.emb j) 1)) 0 q)) ((((cfg1.win 7).blk t).view.emb j) 2) ((((cfg1.win 7).blk t).view.emb j) 3)
  have h0 : (((cfg1.win 7).blk t).view.emb j) 0 = r :=
    Fin.ext (by show win1_7.index t (0 : Fin 4) * 1 + 1 * (j 0).val = r.val; omega)
  have h1 : (((cfg1.win 7).blk t).view.emb j) 1 = h :=
    Fin.ext (by show win1_7.index t (1 : Fin 4) * 1 + 1 * (j 1).val = h.val; omega)
  have h2 : (((cfg1.win 7).blk t).view.emb j) 2 = (⟨t.val % 25 * 2000 + (j 2).val, by omega⟩ : Fin 50000) :=
    Fin.ext (by show win1_7.index t (2 : Fin 4) * 2000 + 1 * (j 2).val = t.val % 25 * 2000 + (j 2).val; omega)
  have h3 : (((cfg1.win 7).blk t).view.emb j) 3 = (j 3 : Fin 16) :=
    Fin.ext (by show win1_7.index t (3 : Fin 4) * 16 + 1 * (j 3).val = (j 3).val; omega)
  rw [h0, h1, h2, h3]
  have hj : (j : S1x1x2000x16.Idx) = ix4 0 0 (j 2) (j 3) := by
    funext a
    match a with
    | ⟨0, _⟩ => exact Fin.ext (by show (j 0).val = 0; omega)
    | ⟨1, _⟩ => exact Fin.ext (by show (j 1).val = 0; omega)
    | ⟨2, _⟩ => rfl
    | ⟨3, _⟩ => rfl
  refine (congrArg (k1_pay1 (F := Ideal) (k1_pay2 (iblk1 V c 0 t) (iblk1 V c 1 t) (iblk1 V c 2 t) (iblk1 V c 3 t) (iblk1 V c 6 t) (iblk1 V c 5 t) (iblk1 V c 4 t))) hj).trans ?_
  exact blk1_out (iblk1 V c 0 t) (iblk1 V c 1 t) (iblk1 V c 2 t) (iblk1 V c 3 t) (iblk1 V c 4 t) (iblk1 V c 5 t) (iblk1 V c 6 t)
    (V c main_v71) (V c main_arg3) (V c main_v72) (V c main_v73) (V c main_v74) (V c main_v75) (V c main_v76) r h
    (t.val % 25) hb (fun p k => iblk1_0_apply V c t h hh p k) (fun k q => iblk1_1_apply V c t r h hr hh k q)
    (fun q => iblk1_2_apply V c t r h hr hh q) (fun q => iblk1_3_apply V c t r h hr hh q)
    (fun q => iblk1_4_apply V c t r h hr hh q) (fun q => iblk1_5_apply V c t r h hr hh q)
    (fun q => iblk1_6_apply V c t r h hr hh q) (j 2) (j 3)

theorem mem_blk1 (t : Fin cfg1.N) (i : S3x4x50000x16.Idx) :
    i ∈ ((cfg1.win 7).blk t).view.set ↔ ∀ a : Fin 4, win1_7.index t a * S1x1x2000x16.size a ≤ (i a).val
      ∧ (i a).val < win1_7.index t a * S1x1x2000x16.size a + S1x1x2000x16.size a := by
  show i ∈ ((View.whole main_v77).slice (win1_7.rect t)).set ↔ _
  rw [View.set_slice_whole, Rect.mem_set_unit]
  exact Iff.rfl

theorem cover1 (i : S3x4x50000x16.Idx) :
    ∃ t : Fin cfg1.N, (cfg1.win 7).flush t = true ∧ i ∈ ((cfg1.win 7).blk t).view.set := by
  have hi0 : (i 0).val < 3 := (i 0).isLt
  have hi1 : (i 1).val < 4 := (i 1).isLt
  have hi2 : (i 2).val < 50000 := (i 2).isLt
  have hi3 : (i 3).val < 16 := (i 3).isLt
  obtain ⟨t, tv⟩ : ∃ t : Fin cfg1.N, t.val = (i 0).val * 100 + (i 1).val * 25 + (i 2).val / 2000 :=
    ⟨⟨(i 0).val * 100 + (i 1).val * 25 + (i 2).val / 2000, by rw [show cfg1.N = 300 from N_1]; omega⟩, rfl⟩
  obtain ⟨e0, e1, e2, e3⟩ := idx_facts1_o t
  refine ⟨t, flush1_7 t, ?_⟩
  rw [mem_blk1]
  intro a
  match a with
  | ⟨0, _⟩ => show win1_7.index t (0 : Fin 4) * 1 ≤ (i 0).val ∧ (i 0).val < win1_7.index t (0 : Fin 4) * 1 + 1; omega
  | ⟨1, _⟩ => show win1_7.index t (1 : Fin 4) * 1 ≤ (i 1).val ∧ (i 1).val < win1_7.index t (1 : Fin 4) * 1 + 1; omega
  | ⟨2, _⟩ => show win1_7.index t (2 : Fin 4) * 2000 ≤ (i 2).val ∧ (i 2).val < win1_7.index t (2 : Fin 4) * 2000 + 2000; omega
  | ⟨3, _⟩ => show win1_7.index t (3 : Fin 4) * 16 ≤ (i 3).val ∧ (i 3).val < win1_7.index t (3 : Fin 4) * 16 + 16; omega

theorem final1 : (dat1 (F := Ideal) V c).arrAt 7 cfg1.N
    = fun j : S3x4x50000x16.Idx => Cert.Spec.cellHid (fun n k => V c main_v71 (ix3 (j 1) n k))
        (fun k q => V c main_arg3 (ix3 (cellIx (j 0) (j 1)) k q))
        (fun q => V c main_v72 (ix3 (cellIx (j 0) (j 1)) 0 q))
        (fun q => V c main_v73 (ix3 (cellIx (j 0) (j 1)) 0 q))
        (fun q => V c main_v74 (ix3 (cellIx (j 0) (j 1)) 0 q))
        (fun q => V c main_v75 (ix3 (cellIx (j 0) (j 1)) 0 q))
        (fun q => V c main_v76 (ix3 (cellIx (j 0) (j 1)) 0 q)) (j 2) (j 3) :=
  (dat1 V c).arrAt_eq_of_cover 7 (G1 V c) (fun t _ => flushed1_eq V c t) (cover1)

theorem idx_facts2 : ∀ t : Fin cfg2.N,
      win2_3.index t (0 : Fin 4) = t.val / 100 ∧ win2_3.index t (1 : Fin 4) = t.val / 25 % 4
    ∧ win2_3.index t (2 : Fin 4) = t.val % 25 ∧ win2_3.index t (3 : Fin 4) = 0
    ∧ win2_0.index t (0 : Fin 4) = t.val / 100 ∧ win2_0.index t (1 : Fin 4) = t.val / 25 % 4
    ∧ win2_0.index t (2 : Fin 4) = t.val % 25 ∧ win2_0.index t (3 : Fin 4) = 0
    ∧ win2_1.index t (0 : Fin 3) = 4 * (t.val / 100) + t.val / 25 % 4 ∧ win2_1.index t (1 : Fin 3) = 0
    ∧ win2_1.index t (2 : Fin 3) = 0
    ∧ win2_2.index t (0 : Fin 3) = 4 * (t.val / 100) + t.val / 25 % 4 ∧ win2_2.index t (1 : Fin 3) = 0
    ∧ win2_2.index t (2 : Fin 3) = 0 :=
  (by decide +kernel : ∀ t : Fin grid2.N, _)

abbrev G2 : S3x4x50000x40.Idx → EReal :=
  fun j => Cert.Spec.cellOut (fun n q => V c main_v180 (ix4 (j 0) (j 1) n q))
    (fun q k => V c main_arg9 (ix3 (cellIx (j 0) (j 1)) q k))
    (fun k => V c main_v181 (ix3 (cellIx (j 0) (j 1)) 0 k)) (j 2) (j 3)

theorem blk2_out (x0 : Vec Ideal S1x1x2000x16 .f32) (x1 : Vec Ideal S1x16x40 .f32) (x2 : Vec Ideal S1x1x40 .f32)
    (A : S3x4x50000x16.Idx → EReal) (W : S12x16x40.Idx → EReal) (B : S12x1x40.Idx → EReal)
    (r : Fin 3) (h : Fin 4) (b : Nat) (hb : b < 25)
    (h0 : ∀ (p : Fin 2000) (s : Fin 16), x0 (ix4 0 0 p s) = A (ix4 r h ⟨b * 2000 + p.val, by omega⟩ s))
    (h1 : ∀ (s : Fin 16) (k : Fin 40), x1 (ix3 0 s k) = W (ix3 (cellIx r h) s k))
    (h2 : ∀ (k : Fin 40), x2 (ix3 0 0 k) = B (ix3 (cellIx r h) 0 k))
    (p : Fin 2000) (k : Fin 40) :
    k2_pay1 (F := Ideal) x0 x1 x2 (ix4 0 0 p k)
      = Cert.Spec.cellOut (fun n q => A (ix4 r h n q)) (fun q k => W (ix3 (cellIx r h) q k))
          (fun k => B (ix3 (cellIx r h) 0 k)) ⟨b * 2000 + p.val, by omega⟩ k := by
  rw [pay2_apply]
  unfold Cert.Spec.cellOut
  simp only [h0, h1, h2]

theorem iblk2_0_apply (t : Fin cfg2.N) (r : Fin 3) (h : Fin 4) (hr : r.val = t.val / 100) (hh : h.val = t.val / 25 % 4)
    (p : Fin 2000) (s : Fin 16) :
    (iblk2 V c 0 t : Vec Ideal S1x1x2000x16 .f32) (ix4 0 0 p s)
      = (V c main_v180 : S3x4x50000x16.Idx → EReal) (ix4 r h ⟨t.val % 25 * 2000 + p.val, by omega⟩ s) := by
  obtain ⟨e0, e1, e2, e3, e4, e5, e6, e7, e8, e9, e10, e11, e12, e13⟩ := idx_facts2 t
  unfold iblk2
  rw [View.read_apply]
  show V c main_v180 _ = V c main_v180 _
  congr 1
  funext a
  apply Fin.ext
  match a with
  | ⟨0, _⟩ => show win2_0.index t (0 : Fin 4) * 1 + 1 * 0 = r.val; omega
  | ⟨1, _⟩ => show win2_0.index t (1 : Fin 4) * 1 + 1 * 0 = h.val; omega
  | ⟨2, _⟩ => show win2_0.index t (2 : Fin 4) * 2000 + 1 * p.val = t.val % 25 * 2000 + p.val; omega
  | ⟨3, _⟩ => show win2_0.index t (3 : Fin 4) * 16 + 1 * s.val = s.val; omega

theorem iblk2_1_apply (t : Fin cfg2.N) (r : Fin 3) (h : Fin 4) (hr : r.val = t.val / 100) (hh : h.val = t.val / 25 % 4)
    (s : Fin 16) (k : Fin 40) :
    (iblk2 V c 1 t : Vec Ideal S1x16x40 .f32) (ix3 0 s k)
      = (V c main_arg9 : S12x16x40.Idx → EReal) (ix3 (cellIx r h) s k) := by
  obtain ⟨e0, e1, e2, e3, e4, e5, e6, e7, e8, e9, e10, e11, e12, e13⟩ := idx_facts2 t
  unfold iblk2
  rw [View.read_apply]
  show V c main_arg9 _ = V c main_arg9 _
  congr 1
  funext a
  apply Fin.ext
  match a with
  | ⟨0, _⟩ => show win2_1.index t (0 : Fin 3) * 1 + 1 * 0 = 4 * r.val + h.val; omega
  | ⟨1, _⟩ => show win2_1.index t (1 : Fin 3) * 16 + 1 * s.val = s.val; omega
  | ⟨2, _⟩ => show win2_1.index t (2 : Fin 3) * 40 + 1 * k.val = k.val; omega

theorem iblk2_2_apply (t : Fin cfg2.N) (r : Fin 3) (h : Fin 4) (hr : r.val = t.val / 100) (hh : h.val = t.val / 25 % 4)
    (k : Fin 40) :
    (iblk2 V c 2 t : Vec Ideal S1x1x40 .f32) (ix3 0 0 k)
      = (V c main_v181 : S12x1x40.Idx → EReal) (ix3 (cellIx r h) 0 k) := by
  obtain ⟨e0, e1, e2, e3, e4, e5, e6, e7, e8, e9, e10, e11, e12, e13⟩ := idx_facts2 t
  unfold iblk2
  rw [View.read_apply]
  show V c main_v181 _ = V c main_v181 _
  congr 1
  funext a
  apply Fin.ext
  match a with
  | ⟨0, _⟩ => show win2_2.index t (0 : Fin 3) * 1 + 1 * 0 = 4 * r.val + h.val; omega
  | ⟨1, _⟩ => show win2_2.index t (1 : Fin 3) * 1 + 1 * 0 = 0; omega
  | ⟨2, _⟩ => show win2_2.index t (2 : Fin 3) * 40 + 1 * k.val = k.val; omega

theorem flushed2_eq (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero hz4]
  simp only [View.ld_unit_zero (S := S1x1x2000x16) hz4, View.ld_unit_zero (S := S1x16x40) hz3, View.ld_unit_zero (S := S1x1x40) hz3]
  funext j
  obtain ⟨e0, e1, e2, e3, e4, e5, e6, e7, e8, e9, e10, e11, e12, e13⟩ := idx_facts2 t
  have ht : t.val < 300 := lt_of_lt_of_eq t.isLt N_2
  have hj0 : (j 0).val < 1 := (j 0).isLt
  have hj1 : (j 1).val < 1 := (j 1).isLt
  have hj2 : (j 2).val < 2000 := (j 2).isLt
  have hj3 : (j 3).val < 40 := (j 3).isLt
  obtain ⟨r, hr⟩ : ∃ r : Fin 3, r.val = t.val / 100 := ⟨⟨t.val / 100, by omega⟩, rfl⟩
  obtain ⟨h, hh⟩ : ∃ h : Fin 4, h.val = t.val / 25 % 4 := ⟨⟨t.val / 25 % 4, by omega⟩, rfl⟩
  have hb : t.val % 25 < 25 := by omega
  show k2_pay1 (iblk2 V c 0 t) (iblk2 V c 1 t) (iblk2 V c 2 t) j
    = Cert.Spec.cellOut (fun n q => V c main_v180 (ix4 ((((cfg2.win 3).blk t).view.emb j) 0) ((((cfg2.win 3).blk t).view.emb j) 1) n q))
        (fun q k => V c main_arg9 (ix3 (cellIx ((((cfg2.win 3).blk t).view.emb j) 0) ((((cfg2.win 3).blk t).view.emb j) 1)) q k))
        (fun k => V c main_v181 (ix3 (cellIx ((((cfg2.win 3).blk t).view.emb j) 0) ((((cfg2.win 3).blk t).view.emb j) 1)) 0 k)) ((((cfg2.win 3).blk t).view.emb j) 2) ((((cfg2.win 3).blk t).view.emb j) 3)
  have h0 : (((cfg2.win 3).blk t).view.emb j) 0 = r :=
    Fin.ext (by show win2_3.index t (0 : Fin 4) * 1 + 1 * (j 0).val = r.val; omega)
  have h1 : (((cfg2.win 3).blk t).view.emb j) 1 = h :=
    Fin.ext (by show win2_3.index t (1 : Fin 4) * 1 + 1 * (j 1).val = h.val; omega)
  have h2 : (((cfg2.win 3).blk t).view.emb j) 2 = (⟨t.val % 25 * 2000 + (j 2).val, by omega⟩ : Fin 50000) :=
    Fin.ext (by show win2_3.index t (2 : Fin 4) * 2000 + 1 * (j 2).val = t.val % 25 * 2000 + (j 2).val; omega)
  have h3 : (((cfg2.win 3).blk t).view.emb j) 3 = (j 3 : Fin 40) :=
    Fin.ext (by show win2_3.index t (3 : Fin 4) * 40 + 1 * (j 3).val = (j 3).val; omega)
  rw [h0, h1, h2, h3]
  have hj : (j : S1x1x2000x40.Idx) = ix4 0 0 (j 2) (j 3) := by
    funext a
    match a with
    | ⟨0, _⟩ => exact Fin.ext (by show (j 0).val = 0; omega)
    | ⟨1, _⟩ => exact Fin.ext (by show (j 1).val = 0; omega)
    | ⟨2, _⟩ => rfl
    | ⟨3, _⟩ => rfl
  refine (congrArg (k2_pay1 (F := Ideal) (iblk2 V c 0 t) (iblk2 V c 1 t) (iblk2 V c 2 t)) hj).trans ?_
  exact blk2_out (iblk2 V c 0 t) (iblk2 V c 1 t) (iblk2 V c 2 t) (V c main_v180) (V c main_arg9) (V c main_v181) r h
    (t.val % 25) hb (fun p s => iblk2_0_apply V c t r h hr hh p s) (fun s k => iblk2_1_apply V c t r h hr hh s k)
    (fun k => iblk2_2_apply V c t r h hr hh k) (j 2) (j 3)

theorem mem_blk2 (t : Fin cfg2.N) (i : S3x4x50000x40.Idx) :
    i ∈ ((cfg2.win 3).blk t).view.set ↔ ∀ a : Fin 4, win2_3.index t a * S1x1x2000x40.size a ≤ (i a).val
      ∧ (i a).val < win2_3.index t a * S1x1x2000x40.size a + S1x1x2000x40.size a := by
  show i ∈ ((View.whole main_v182).slice (win2_3.rect t)).set ↔ _
  rw [View.set_slice_whole, Rect.mem_set_unit]
  exact Iff.rfl

theorem cover2 (i : S3x4x50000x40.Idx) :
    ∃ t : Fin cfg2.N, (cfg2.win 3).flush t = true ∧ i ∈ ((cfg2.win 3).blk t).view.set := by
  have hi0 : (i 0).val < 3 := (i 0).isLt
  have hi1 : (i 1).val < 4 := (i 1).isLt
  have hi2 : (i 2).val < 50000 := (i 2).isLt
  have hi3 : (i 3).val < 40 := (i 3).isLt
  obtain ⟨t, tv⟩ : ∃ t : Fin cfg2.N, t.val = (i 0).val * 100 + (i 1).val * 25 + (i 2).val / 2000 :=
    ⟨⟨(i 0).val * 100 + (i 1).val * 25 + (i 2).val / 2000, by rw [show cfg2.N = 300 from N_2]; omega⟩, rfl⟩
  obtain ⟨e0, e1, e2, e3, -⟩ := idx_facts2 t
  refine ⟨t, flush2_3 t, ?_⟩
  rw [mem_blk2]
  intro a
  match a with
  | ⟨0, _⟩ => show win2_3.index t (0 : Fin 4) * 1 ≤ (i 0).val ∧ (i 0).val < win2_3.index t (0 : Fin 4) * 1 + 1; omega
  | ⟨1, _⟩ => show win2_3.index t (1 : Fin 4) * 1 ≤ (i 1).val ∧ (i 1).val < win2_3.index t (1 : Fin 4) * 1 + 1; omega
  | ⟨2, _⟩ => show win2_3.index t (2 : Fin 4) * 2000 ≤ (i 2).val ∧ (i 2).val < win2_3.index t (2 : Fin 4) * 2000 + 2000; omega
  | ⟨3, _⟩ => show win2_3.index t (3 : Fin 4) * 40 ≤ (i 3).val ∧ (i 3).val < win2_3.index t (3 : Fin 4) * 40 + 40; omega

theorem final2 : (dat2 (F := Ideal) V c).arrAt 3 cfg2.N
    = fun j : S3x4x50000x40.Idx => Cert.Spec.cellOut (fun n q => V c main_v180 (ix4 (j 0) (j 1) n q))
        (fun q k => V c main_arg9 (ix3 (cellIx (j 0) (j 1)) q k))
        (fun k => V c main_v181 (ix3 (cellIx (j 0) (j 1)) 0 k)) (j 2) (j 3) :=
  (dat2 V c).arrAt_eq_of_cover 3 (G2 V c) (fun t _ => flushed2_eq V c t) (cover2)

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

abbrev lastOut (x : Fin 50000 → Fin 480 → EReal) (W : Fin 480 → Fin 40 → EReal) (b : Fin 40 → EReal) :
    Fin 50000 → Fin 40 → EReal :=
  fun n k => (∑ t : Fin 480, max (x n t) Cert.Spec.zeroW * W t k) + b k

abbrev G3 : S50000x40.Idx → EReal :=
  fun j => lastOut (fun n t => V c main_v185 (ix2 n t)) (fun t k => V c main_arg11 (ix2 t k))
    (fun k => V c main_v186 (ix2 0 k)) (j 0) (j 1)

theorem blk3_out (x0 : Vec Ideal S2000x480 .f32) (x1 : Vec Ideal S480x40 .f32) (x2 : Vec Ideal S1x40 .f32)
    (A : S50000x480.Idx → EReal) (W : S480x40.Idx → EReal) (B : S1x40.Idx → EReal) (b : Nat) (hb : b < 25)
    (h0 : ∀ (p : Fin 2000) (s : Fin 480), x0 (ix2 p s) = A (ix2 ⟨b * 2000 + p.val, by omega⟩ s))
    (h1 : ∀ (s : Fin 480) (k : Fin 40), x1 (ix2 s k) = W (ix2 s k))
    (h2 : ∀ (k : Fin 40), x2 (ix2 0 k) = B (ix2 0 k))
    (p : Fin 2000) (k : Fin 40) :
    k3_pay1 (F := Ideal) x0 x1 x2 (ix2 p k)
      = lastOut (fun n s => A (ix2 n s)) (fun s k => W (ix2 s k)) (fun k => B (ix2 0 k)) ⟨b * 2000 + p.val, by omega⟩ k := by
  rw [pay3_apply]
  simp only [lastOut, h0, h1, h2]

theorem iblk3_0_apply (t : Fin cfg3.N) (ht : t.val < 25) (p : Fin 2000) (s : Fin 480) :
    (iblk3 V c 0 t : Vec Ideal S2000x480 .f32) (ix2 p s)
      = (V c main_v185 : S50000x480.Idx → EReal) (ix2 ⟨t.val * 2000 + p.val, by omega⟩ s) := by
  obtain ⟨e0, e1, e2, e3, e4, e5, e6, e7⟩ := idx_facts3 t
  unfold iblk3
  rw [View.read_apply]
  show V c main_v185 _ = V c main_v185 _
  congr 1
  funext a
  apply Fin.ext
  match a with
  | ⟨0, _⟩ => show win3_0.index t (0 : Fin 2) * 2000 + 1 * p.val = t.val * 2000 + p.val; omega
  | ⟨1, _⟩ => show win3_0.index t (1 : Fin 2) * 480 + 1 * s.val = s.val; omega

theorem iblk3_1_apply (t : Fin cfg3.N) (s : Fin 480) (k : Fin 40) :
    (iblk3 V c 1 t : Vec Ideal S480x40 .f32) (ix2 s k) = (V c main_arg11 : S480x40.Idx → EReal) (ix2 s k) := by
  obtain ⟨e0, e1, e2, e3, e4, e5, e6, e7⟩ := idx_facts3 t
  unfold iblk3
  rw [View.read_apply]
  show V c main_arg11 _ = V c main_arg11 _
  congr 1
  funext a
  apply Fin.ext
  match a with
  | ⟨0, _⟩ => show win3_1.index t (0 : Fin 2) * 480 + 1 * s.val = s.val; omega
  | ⟨1, _⟩ => show win3_1.index t (1 : Fin 2) * 40 + 1 * k.val = k.val; omega

theorem iblk3_2_apply (t : Fin cfg3.N) (k : Fin 40) :
    (iblk3 V c 2 t : Vec Ideal S1x40 .f32) (ix2 0 k) = (V c main_v186 : S1x40.Idx → EReal) (ix2 0 k) := by
  obtain ⟨e0, e1, e2, e3, e4, e5, e6, e7⟩ := idx_facts3 t
  unfold iblk3
  rw [View.read_apply]
  show V c main_v186 _ = V c main_v186 _
  congr 1
  funext a
  apply Fin.ext
  match a with
  | ⟨0, _⟩ => show win3_2.index t (0 : Fin 2) * 1 + 1 * 0 = 0; omega
  | ⟨1, _⟩ => show win3_2.index t (1 : Fin 2) * 40 + 1 * k.val = k.val; omega

theorem flushed3_eq (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  unfold out3_3
  rw [View.canon_unit_zero hz2]
  simp only [View.ld_unit_zero (S := S2000x480) hz2, View.ld_unit_zero (S := S480x40) hz2, View.ld_unit_zero (S := S1x40) hz2]
  funext j
  obtain ⟨e0, e1, e2, e3, e4, e5, e6, e7⟩ := idx_facts3 t
  have ht : t.val < 25 := lt_of_lt_of_eq t.isLt N_3
  have hj0 : (j 0).val < 2000 := (j 0).isLt
  have hj1 : (j 1).val < 40 := (j 1).isLt
  show k3_pay1 (iblk3 V c 0 t) (iblk3 V c 1 t) (iblk3 V c 2 t) j
    = lastOut (fun n s => V c main_v185 (ix2 n s)) (fun s k => V c main_arg11 (ix2 s k))
        (fun k => V c main_v186 (ix2 0 k)) ((((cfg3.win 3).blk t).view.emb j) 0) ((((cfg3.win 3).blk t).view.emb j) 1)
  have h0 : (((cfg3.win 3).blk t).view.emb j) 0 = (⟨t.val * 2000 + (j 0).val, by omega⟩ : Fin 50000) :=
    Fin.ext (by show win3_3.index t (0 : Fin 2) * 2000 + 1 * (j 0).val = t.val * 2000 + (j 0).val; omega)
  have h1 : (((cfg3.win 3).blk t).view.emb j) 1 = (j 1 : Fin 40) :=
    Fin.ext (by show win3_3.index t (1 : Fin 2) * 40 + 1 * (j 1).val = (j 1).val; omega)
  rw [h0, h1]
  have hj : (j : S2000x40.Idx) = ix2 (j 0) (j 1) := eq_ix2 j
  refine (congrArg (k3_pay1 (F := Ideal) (iblk3 V c 0 t) (iblk3 V c 1 t) (iblk3 V c 2 t)) hj).trans ?_
  exact blk3_out (iblk3 V c 0 t) (iblk3 V c 1 t) (iblk3 V c 2 t) (V c main_v185) (V c main_arg11) (V c main_v186) t.val ht
    (fun p s => iblk3_0_apply V c t ht p s) (fun s k => iblk3_1_apply V c t s k) (fun k => iblk3_2_apply V c t k) (j 0) (j 1)

theorem mem_blk3 (t : Fin cfg3.N) (i : S50000x40.Idx) :
    i ∈ ((cfg3.win 3).blk t).view.set ↔ ∀ a : Fin 2, win3_3.index t a * S2000x40.size a ≤ (i a).val
      ∧ (i a).val < win3_3.index t a * S2000x40.size a + S2000x40.size a := by
  show i ∈ ((View.whole main_v187).slice (win3_3.rect t)).set ↔ _
  rw [View.set_slice_whole, Rect.mem_set_unit]
  exact Iff.rfl

theorem cover3 (i : S50000x40.Idx) :
    ∃ t : Fin cfg3.N, (cfg3.win 3).flush t = true ∧ i ∈ ((cfg3.win 3).blk t).view.set := by
  have hi0 : (i 0).val < 50000 := (i 0).isLt
  have hi1 : (i 1).val < 40 := (i 1).isLt
  obtain ⟨t, tv⟩ : ∃ t : Fin cfg3.N, t.val = (i 0).val / 2000 :=
    ⟨⟨(i 0).val / 2000, by rw [show cfg3.N = 25 from N_3]; omega⟩, rfl⟩
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 40 ≤ (i 1).val ∧ (i 1).val < win3_3.index t (1 : Fin 2) * 40 + 40; omega

theorem final3 : (dat3 (F := Ideal) V c).arrAt 3 cfg3.N
    = fun j : S50000x40.Idx => lastOut (fun n t => V c main_v185 (ix2 n t)) (fun t k => V c main_arg11 (ix2 t k))
        (fun k => V c main_v186 (ix2 0 k)) (j 0) (j 1) :=
  (dat3 V c).arrAt_eq_of_cover 3 (G3 V c) (fun t _ => flushed3_eq V c t) (cover3)

end Cert.KernelIdeal.KVal
end
-- ==== Proof.SpmmIdx.lean ====
import Idealize.ShloMosaic.PureOps.Ideal
import Idealize.ShloMosaic.PureOps.Ideal.Laws
import Idealize.ShloMosaic.Lib.ValueIdx
import Idealize.ShloMosaic.Lib.Pipeline.Value
import proofs.«124913_j71159018160549_2_alg».proof.Proof.Spec

noncomputable section

open scoped BigOperators

namespace Cert.SpmmIdx

open Idealize.ShloMosaic Idealize.ShloMosaic.ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hall
    constructor
    · intro hh a
      have := congrFun (Option.some.inj hh) a
      rw [← this]
      exact (Int.toNat_of_nonneg (hall a).1).symm
    · intro hh
      congr 1
      funext a
      refine Fin.ext ?_
      show (d.start j idx a + (d.window j a : Int)).toNat = (i a).val
      rw [hh a]; rfl
  · rename_i hall
    constructor
    · intro hh; exact absurd hh (by simp)
    · intro hh
      exfalso; apply hall
      intro a
      rw [hh a]
      exact ⟨Int.natCast_nonneg _, by exact_mod_cast (i a).isLt⟩

section RowPut
variable {N E F : Nat}

abbrev rowPut (N E F : Nat) (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF ⟨2, ![N, F]⟩ ⟨2, ![E, 1]⟩ ⟨2, ![E, F]⟩ [1] [0] [0] 1)

theorem rowPut_start0 (j : (⟨2, ![E, F]⟩ : Shape).Idx) (idx : IVec ⟨2, ![E, 1]⟩ 32) :
    (rowPut N E F wf).start j idx 0 = (idx (ix2 (j 0) 0)).toInt := by
  unfold ScatterDims.start
  rw [dif_pos (show (0 : Fin 2) ∈ (rowPut N E F wf).scatterDimsToOperandDims from List.mem_singleton.mpr rfl)]
  congr 2
  funext b; refine Fin.ext ?_
  match b with
  | ⟨0, _⟩ => rfl
  | ⟨1, _⟩ => rfl

theorem rowPut_start1 (j : (⟨2, ![E, F]⟩ : Shape).Idx) (idx : IVec ⟨2, ![E, 1]⟩ 32) :
    (rowPut N E F wf).start j idx 1 = 0 := by
  unfold ScatterDims.start
  rw [dif_neg (show ¬ (1 : Fin 2) ∈ ([0] : List (Fin 2)) from by decide)]

theorem rowPut_window0 (j : (⟨2, ![E, F]⟩ : Shape).Idx) : (rowPut N E F wf).window j 0 = 0 := by
  unfold ScatterDims.window
  have hk : ¬ (0 : Fin 2) ∈ (rowPut N E F wf).sKept :=
    (show ¬ (0 : Fin 2) ∈ (List.finRange 2).filter (fun a => a ∉ ([0] : List (Fin 2))) from by decide)
  rw [dif_neg hk]

theorem rowPut_window1 (j : (⟨2, ![E, F]⟩ : Shape).Idx) : (rowPut N E F wf).window j 1 = (j 1).val := by
  unfold ScatterDims.window
  have hk : (1 : Fin 2) ∈ (rowPut N E F wf).sKept :=
    (show (1 : Fin 2) ∈ (List.finRange 2).filter (fun a => a ∉ ([0] : List (Fin 2))) from by decide)
  rw [dif_pos hk]
  rfl

theorem rowPut_lands (idx : IVec ⟨2, ![E, 1]⟩ 32) (e : Fin E) (f' : Fin F) (n : Fin N) (f : Fin F) :
    (rowPut N E F wf).resultIdx? (ix2 e f') idx = some (ix2 n f)
      ↔ (idx (ix2 e 0)).toInt = (n.val : Int) ∧ f' = f := by
  rw [resultIdx?_eq_some_iff, Fin.forall_fin_two, rowPut_start0, rowPut_start1, rowPut_window0, rowPut_window1]
  show (idx (ix2 e 0)).toInt + ((0 : Nat) : Int) = (n.val : Int) ∧ (0 : Int) + (f'.val : Int) = (f.val : Int) ↔ _
  constructor
  · rintro ⟨a, b⟩; exact ⟨by omega, Fin.ext (by omega)⟩
  · rintro ⟨a, rfl⟩; exact ⟨by omega, by omega⟩

theorem rowPut_apply (x : (⟨2, ![N, F]⟩ : Shape).Idx → EReal) (idx : IVec ⟨2, ![E, 1]⟩ 32)
    (upd : (⟨2, ![E, F]⟩ : Shape).Idx → EReal) (n : Fin N) (f : Fin F) :
    Ideal.hostScatterAdd (rowPut N E F wf) x idx upd (ix2 n f)
      = x (ix2 n f) + ∑ e ∈ Finset.univ.filter (fun e : Fin E => (idx (ix2 e 0)).toInt = (n.val : Int)),
          upd (ix2 e f) := by
  unfold Ideal.hostScatterAdd
  congr 1
  rw [Finset.sum_filter, sum_idx2, Finset.sum_filter]
  refine Finset.sum_congr rfl fun e _ => ?_
  by_cases he : (idx (ix2 e 0)).toInt = (n.val : Int)
  · rw [if_pos he, Finset.sum_eq_single f]
    · rw [if_pos ((rowPut_lands wf idx e f n f).2 ⟨he, rfl⟩)]
    · intro f' _ hne
      rw [if_neg (fun h => hne ((rowPut_lands wf idx e f' n f).1 h).2)]
    · intro h; exact absurd (Finset.mem_univ _) h
  · rw [if_neg he]
    exact Finset.sum_eq_zero fun f' _ => if_neg (fun h => he ((rowPut_lands wf idx e f' n f).1 h).1)

end RowPut

section RowTake
variable {N E F : Nat} {α : Type}

abbrev rowTake (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

variable (wf : GatherDims.WF ⟨2, ![N, F]⟩ ⟨2, ![E, 1]⟩ ⟨2, ![E, F]⟩ [1] [0] [] [0] [] 1 ![1, F])

theorem rowTake_row (j : (⟨2, ![E, F]⟩ : Shape).Idx) (idx : IVec ⟨2, ![E, 1]⟩ 32) :
    ((rowTake N E F wf).operandIdx j idx 0).val = min (idx (ix2 (j 0) 0)).toInt.toNat (N - 1) := by
  show (rowTake N E F wf).start j idx 0 + (rowTake N E F wf).batchCoord j 0 + (rowTake N E F wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTake N E F wf).startIndexMap from List.mem_singleton.mpr rfl)]
  have hsi : (rowTake N E F wf).siIdx j ⟨List.idxOf (0 : Fin 2) (rowTake N E F wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowTake_col (j : (⟨2, ![E, F]⟩ : Shape).Idx) (idx : IVec ⟨2, ![E, 1]⟩ 32) :
    ((rowTake N E F wf).operandIdx j idx 1).val = (j 1).val := by
  show (rowTake N E F wf).start j idx 1 + (rowTake N E F wf).batchCoord j 1 + (rowTake N E F wf).offCoord j 1 = _
  rw [GatherDims.batchCoord_eq_zero _ _ _ List.not_mem_nil]
  have h0 : (rowTake N E F wf).start j idx 1 = 0 := by
    unfold GatherDims.start
    rw [dif_neg (show ¬ (1 : Fin 2) ∈ ([0] : List (Fin 2)) from by decide)]
  have hk : (1 : Fin 2) ∈ (rowTake N E F wf).sKept :=
    (GatherDims.mem_sKept _ _).mpr ⟨(show ¬ (1 : Fin 2) ∈ ([0] : List (Fin 2)) from by decide), List.not_mem_nil⟩
  rw [h0]
  unfold GatherDims.offCoord
  rw [dif_pos hk]
  simp only [Nat.zero_add, Nat.add_zero]
  rfl

theorem rowTake_apply (hN : 0 < N) (x : (⟨2, ![N, F]⟩ : Shape).Idx → α) (idx : IVec ⟨2, ![E, 1]⟩ 32)
    (j : (⟨2, ![E, F]⟩ : Shape).Idx) :
    Host.gather (rowTake N E F wf) x idx j
      = x (ix2 ⟨min (idx (ix2 (j 0) 0)).toInt.toNat (N - 1), by omega⟩ (j 1)) := by
  unfold Host.gather
  congr 1
  funext a
  refine Fin.ext ?_
  match a with
  | ⟨0, _⟩ => exact rowTake_row wf j idx
  | ⟨1, _⟩ => exact rowTake_col wf j idx

end RowTake

theorem scatterAdd_ideal {s si u : Shape} {w : Nat} {φ : FTy} (d : ScatterDims s si u) (x : FVec Ideal s φ) (i : IVec si w)
    (v : FVec Ideal u φ) : Host.scatterAdd d x i v = Ideal.hostScatterAdd d x i v := rfl

section Rows
variable {F : Nat}

theorem scatterRows_apply (dS : ScatterDims ⟨2, ![50000, F]⟩ ⟨2, ![850000, 1]⟩ ⟨2, ![850000, F]⟩)
    (h1 : dS.updateWindowDims = [1]) (h2 : dS.insertedWindowDims = [0]) (h3 : dS.scatterDimsToOperandDims = [0])
    (h4 : dS.indexVectorDim = 1)
    (x : (⟨2, ![50000, F]⟩ : Shape).Idx → EReal) (idx : IVec ⟨2, ![850000, 1]⟩ 32)
    (upd : (⟨2, ![850000, F]⟩ : Shape).Idx → EReal) (n : Fin 50000) (f : Fin F) :
    Ideal.hostScatterAdd dS x idx upd (ix2 n f)
      = x (ix2 n f) + ∑ e ∈ Finset.univ.filter (fun e : Fin 850000 => (idx (ix2 e 0)).toInt = (n.val : Int)),
          upd (ix2 e f) := by
  obtain ⟨uw, iw, sd, iv, wf⟩ := dS
  dsimp only at h1 h2 h3 h4
  subst h1 h2 h3 h4
  exact rowPut_apply wf x idx upd n f

theorem gatherRows_apply {α : Type} (dG : GatherDims ⟨2, ![50000, F]⟩ ⟨2, ![850000, 1]⟩ ⟨2, ![850000, F]⟩)
    (g1 : dG.offsetDims = [1]) (g2 : dG.collapsedSliceDims = [0]) (g3 : dG.operandBatchingDims = [])
    (g4 : dG.startIndicesBatchingDims = []) (g5 : dG.startIndexMap = [0]) (g6 : dG.indexVectorDim = 1)
    (g7 : dG.sliceSizes = ![1, F])
    (h : (⟨2, ![50000, F]⟩ : Shape).Idx → α) (idx : IVec ⟨2, ![850000, 1]⟩ 32) (e : Fin 850000) (f : Fin F) :
    Host.gather dG h idx (ix2 e f) = h (ix2 ⟨min (idx (ix2 e 0)).toInt.toNat 49999, by omega⟩ f) := by
  obtain ⟨od, cd, ob, sb, sm, iv, ss, wf⟩ := dG
  dsimp only at g1 g2 g3 g4 g5 g6 g7
  subst g1 g2 g3 g4 g5 g6 g7
  exact rowTake_apply wf (by omega) h idx (ix2 e f)

theorem spread_apply {α : Type} (bE : (⟨1, ![850000]⟩ : Shape).BroadcastsInDim ⟨2, ![850000, 1]⟩ ![0])
    (v : (⟨1, ![850000]⟩ : Shape).Idx → α) (e : Fin 850000) :
    broadcastInDim ⟨2, ![850000, 1]⟩ ![0] bE v (ix2 e 0) = v (ix1 e) := by
  refine broadcastInDim_apply _ _ _ _ (ix1 e) ?_
  intro a
  obtain rfl : a = 0 := Subsingleton.elim _ _
  have hne : ¬ (⟨1, ![850000]⟩ : Shape).size 0 = 1 := (show ¬ (850000 : Nat) = 1 from by omega)
  rw [if_neg hne]
  rfl

theorem spreadCols_apply {α : Type} (bF : (⟨2, ![850000, 1]⟩ : Shape).BroadcastsInDim ⟨2, ![850000, F]⟩ ![0, 1])
    (v : (⟨2, ![850000, 1]⟩ : Shape).Idx → α) (e : Fin 850000) (f : Fin F) :
    broadcastInDim ⟨2, ![850000, F]⟩ ![0, 1] bF v (ix2 e f) = v (ix2 e 0) := by
  refine broadcastInDim_apply _ _ _ _ (ix2 e 0) ?_
  intro a
  match a with
  | ⟨0, _⟩ =>
    have hne : ¬ (⟨2, ![850000, 1]⟩ : Shape).size 0 = 1 := (show ¬ (850000 : Nat) = 1 from by omega)
    exact (if_neg hne).symm
  | ⟨1, _⟩ =>
    have he : (⟨2, ![850000, 1]⟩ : Shape).size 1 = 1 := rfl
    exact (if_pos he).symm

theorem spmm_apply (dS : ScatterDims ⟨2, ![50000, F]⟩ ⟨2, ![850000, 1]⟩ ⟨2, ![850000, F]⟩)
    (dG : GatherDims ⟨2, ![50000, F]⟩ ⟨2, ![850000, 1]⟩ ⟨2, ![850000, F]⟩)
    (h1 : dS.updateWindowDims = [1]) (h2 : dS.insertedWindowDims = [0]) (h3 : dS.scatterDimsToOperandDims = [0])
    (h4 : dS.indexVectorDim = 1)
    (g1 : dG.offsetDims = [1]) (g2 : dG.collapsedSliceDims = [0]) (g3 : dG.operandBatchingDims = [])
    (g4 : dG.startIndicesBatchingDims = []) (g5 : dG.startIndexMap = [0]) (g6 : dG.indexVectorDim = 1)
    (g7 : dG.sliceSizes = ![1, F])
    (bE : (⟨1, ![850000]⟩ : Shape).BroadcastsInDim ⟨2, ![850000, 1]⟩ ![0])
    (bF : (⟨2, ![850000, 1]⟩ : Shape).BroadcastsInDim ⟨2, ![850000, F]⟩ ![0, 1])
    (bZ : (⟨0, ![]⟩ : Shape).BroadcastsInDim ⟨2, ![50000, F]⟩ ![])
    (vals : FVec Ideal ⟨1, ![850000]⟩ .f32) (R Cw : IVec ⟨1, ![850000]⟩ 32) (h : FVec Ideal ⟨2, ![50000, F]⟩ .f32)
    (n : Fin 50000) (f : Fin F) :
    Host.scatterAdd dS
        (broadcastInDim ⟨2, ![50000, F]⟩ ![] bZ (constant (F := Ideal) ⟨0, ![]⟩ .f32 0x00000000#32))
        (broadcastInDim ⟨2, ![850000, 1]⟩ ![0] bE R)
        (mulf (broadcastInDim ⟨2, ![850000, F]⟩ ![0, 1] bF (broadcastInDim ⟨2, ![850000, 1]⟩ ![0] bE vals))
          (Host.gather dG h (broadcastInDim ⟨2, ![850000, 1]⟩ ![0] bE Cw))) (ix2 n f)
      = Cert.Spec.spmm (Cert.Spec.adjOf vals R Cw) (fun n' f' => h (ix2 n' f')) n f := by
  rw [scatterAdd_ideal, scatterRows_apply dS h1 h2 h3 h4]
  have hZ : broadcastInDim ⟨2, ![50000, F]⟩ ![] bZ (constant (F := Ideal) ⟨0, ![]⟩ .f32 0x00000000#32) (ix2 n f)
      = constant (F := Ideal) ⟨0, ![]⟩ .f32 0x00000000#32 ix0 :=
    broadcastInDim_apply _ _ _ (ix2 n f) ix0 (fun a => a.elim0)
  rw [hZ, constant_apply, Ideal.ofBits_zero_f32, zero_add]
  unfold Cert.Spec.spmm
  refine Finset.sum_congr ?_ ?_
  · ext e
    simp only [Finset.mem_filter, Finset.mem_univ, true_and]
    rw [spread_apply bE R e]
    rfl
  · intro e _
    have hcol : (⟨min (broadcastInDim ⟨2, ![850000, 1]⟩ ![0] bE Cw (ix2 e 0)).toInt.toNat 49999, by omega⟩ : Fin 50000)
        = (Cert.Spec.adjOf vals R Cw).col e :=
      Fin.ext (congrArg (fun c : BitVec 32 => min c.toInt.toNat 49999) (spread_apply bE Cw e))
    rw [mulf_apply, spreadCols_apply bF _ e f, spread_apply bE vals e, gatherRows_apply dG g1 g2 g3 g4 g5 g6 g7, hcol]
    rfl

end Rows

theorem spmm_col (A : Cert.Spec.Adj) {F G : Nat} (h : Fin 50000 → Fin F → EReal) (φ : Fin G → Fin F) :
    Cert.Spec.spmm A (fun n g => h n (φ g)) = fun n g => Cert.Spec.spmm A h n (φ g) := rfl

theorem hop_col (A : Cert.Spec.Adj) {F G : Nat} (k : Nat) (h : Fin 50000 → Fin F → EReal) (φ : Fin G → Fin F) :
    Cert.Spec.hop A k (fun n g => h n (φ g)) = fun n g => Cert.Spec.hop A k h n (φ g) := by
  induction k with
  | zero => rfl
  | succ k ih =>
    unfold Cert.Spec.hop at ih ⊢
    rw [Function.iterate_succ_apply', Function.iterate_succ_apply', ih]
    rfl

theorem spmm_pack (A : Cert.Spec.Adj) (X : (⟨3, ![3, 50000, 16]⟩ : Shape).Idx → EReal)
    (P : Fin 50000 → Fin 48 → EReal)
    (hP : ∀ (r : Fin 3) (n : Fin 50000) (j : Fin 16), P n ⟨16 * r.val + j.val, by omega⟩ = X (ix3 r n j))
    (r : Fin 3) (n : Fin 50000) (j : Fin 16) :
    Cert.Spec.spmm A P n ⟨16 * r.val + j.val, by omega⟩ = Cert.Spec.spmm A (fun n' j' => X (ix3 r n' j')) n j := by
  have e : (fun n' (j' : Fin 16) => P n' ⟨16 * r.val + j'.val, by omega⟩) = fun n' j' => X (ix3 r n' j') := by
    funext n' j'; exact hP r n' j'
  rw [← e]
  exact (congrFun (congrFun (spmm_col A P (fun j' : Fin 16 => ⟨16 * r.val + j'.val, by omega⟩)) n) j).symm

theorem hop_pack (A : Cert.Spec.Adj) (k : Nat) (X : (⟨3, ![3, 50000, 16]⟩ : Shape).Idx → EReal)
    (P : Fin 50000 → Fin 48 → EReal)
    (hP : ∀ (r : Fin 3) (n : Fin 50000) (j : Fin 16), P n ⟨16 * r.val + j.val, by omega⟩ = X (ix3 r n j))
    (r : Fin 3) (n : Fin 50000) (j : Fin 16) :
    Cert.Spec.hop A k P n ⟨16 * r.val + j.val, by omega⟩ = Cert.Spec.hop A k (fun n' j' => X (ix3 r n' j')) n j := by
  have e : (fun n' (j' : Fin 16) => P n' ⟨16 * r.val + j'.val, by omega⟩) = fun n' j' => X (ix3 r n' j') := by
    funext n' j'; exact hP r n' j'
  rw [← e]
  exact (congrFun (congrFun (hop_col A k P (fun j' : Fin 16 => ⟨16 * r.val + j'.val, by omega⟩)) n) j).symm

end Cert.SpmmIdx

end
-- ==== Proof.KVal.StageA.lean ====
import proofs.«124913_j71159018160549_2_alg».proof.Proof.KVal.Defs
import proofs.«124913_j71159018160549_2_alg».proof.Proof.SpmmIdx
import Idealize.ShloMosaic.Lib.Pipeline.Value
import Idealize.ShloMosaic.Lib.ValueLayout

set_option maxRecDepth 16384

noncomputable section

open scoped BigOperators

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

abbrev st0_W : List (Ref sig .tc) := [main_v0, main_v1, main_v2, main_cst, main_v3, main_cst_0, main_v4, main_v5, main_v6, main_cst_1, main_v7, main_v8, main_v9, main_cst_2, main_v10]
theorem st0_writes : (main_part0_ops0 : List (HloOp τ sig (Elt Ideal))).Forall fun op =>
    op.writes ⊆ (st0_W.map (Proc.devRef (τ := τ) .tc)).toFinset := by
  simp only [main_part0_ops0, List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)

abbrev st1_W : List (Ref sig .tc) := [main_v11]
theorem st1_writes : (main_part0_ops1 : List (HloOp τ sig (Elt Ideal))).Forall fun op =>
    op.writes ⊆ (st1_W.map (Proc.devRef (τ := τ) .tc)).toFinset := by
  simp only [main_part0_ops1, List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)

abbrev st2_W : List (Ref sig .tc) := [main_c, main_v12, main_v13, main_c_3, main_v14, main_v15, main_v16, main_v17, main_v18, main_c_4, main_v19, main_v20, main_c_5, main_v21, main_v22, main_v23, main_v24, main_v25, main_v26]
theorem st2_writes : (main_part0_ops2 : List (HloOp τ sig (Elt Ideal))).Forall fun op =>
    op.writes ⊆ (st2_W.map (Proc.devRef (τ := τ) .tc)).toFinset := by
  simp only [main_part0_ops2, List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)

abbrev st3_W : List (Ref sig .tc) := [main_v28, main_c_6, main_v29, main_v30, main_c_7, main_v31, main_v32, main_v33, main_v34, main_v35, main_v36, main_v37, main_cst_8, main_v38, main_v39, main_v40, main_v41, main_c_9, main_v42, main_v43, main_c_10, main_v44, main_v45, main_v46]
theorem st3_writes : (main_part0_ops3 : List (HloOp τ sig (Elt Ideal))).Forall fun op =>
    op.writes ⊆ (st3_W.map (Proc.devRef (τ := τ) .tc)).toFinset := by
  simp only [main_part0_ops3, List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)

abbrev st4_W : List (Ref sig .tc) := [main_v47, main_v48, main_v49, main_v50, main_cst_11, main_v51, main_v52, main_v53, main_v54, main_c_12, main_v55, main_v56, main_c_13, main_v57, main_v58, main_v59, main_v60, main_v61, main_v62, main_v63, main_cst_14, main_v64, main_v65, main_v66, main_v67, main_v68, main_v69, main_v70, main_v71, main_v72, main_v73, main_v74, main_v75, main_v76]
theorem st4_writes : (main_part1_ops0 : List (HloOp τ sig (Elt Ideal))).Forall fun op =>
    op.writes ⊆ (st4_W.map (Proc.devRef (τ := τ) .tc)).toFinset := by
  simp only [main_part1_ops0, List.Forall, StableHlo.nullary_writes, StableHlo.unary_writes, StableHlo.binary_writes, StableHlo.ternary_writes, StableHlo.quaternary_writes, StableHlo.reshape_writes, StableHlo.nary_writes, Finset.singleton_subset_iff, List.mem_toFinset]
  repeat' apply And.intro
  all_goals exact List.mem_map_of_mem (by decide)

theorem W1_of (r : Ref sig .tc) (h : r ∉ st0_W) : W1 m c (Proc.devRef .tc r) = W0 m c (Proc.devRef .tc r) :=
  StableHlo.after_of_writes_sub main_part0_ops0 _ st0_writes h
theorem W2_of (r : Ref sig .tc) (h : r ∉ st1_W) : W2 m c (Proc.devRef .tc r) = W1 m c (Proc.devRef .tc r) :=
  StableHlo.after_of_writes_sub main_part0_ops1 _ st1_writes h
theorem W3_of (r : Ref sig .tc) (h : r ∉ st2_W) : W3 m c (Proc.devRef .tc r) = W2 m c (Proc.devRef .tc r) :=
  StableHlo.after_of_writes_sub main_part0_ops2 _ st2_writes h
theorem W5_of (r : Ref sig .tc) (h : r ∉ st3_W) : W5 m c (Proc.devRef .tc r) = W4 m c (Proc.devRef .tc r) :=
  StableHlo.after_of_writes_sub main_part0_ops3 _ st3_writes h
theorem W6_of (r : Ref sig .tc) (h : r ∉ st4_W) : W6 m c (Proc.devRef .tc r) = W5 m c (Proc.devRef .tc r) :=
  StableHlo.after_of_writes_sub main_part1_ops0 _ st4_writes h

theorem W3_launch (r : Ref sig .tc) (h0 : r ∉ st0_W) (h1 : r ∉ st1_W) (h2 : r ∉ st2_W) :
    W3 m c (Proc.devRef .tc r) = m ((c.tc : Thread nD τ).loc r) :=
  (W3_of m c r h2).trans <| (W2_of m c r h1).trans <| (W1_of m c r h0).trans rfl

theorem W4_launch (r : Ref sig .tc) (h0 : r ∉ st0_W) (h1 : r ∉ st1_W) (h2 : r ∉ st2_W)
    (hr : ∀ w, Pipeline.arrRef spec0 w ≠ r) : W4 m c (Proc.devRef .tc r) = m ((c.tc : Thread nD τ).loc r) :=
  (W4_of_ne m c r hr).trans (W3_launch m c r h0 h1 h2)

theorem W5_launch (r : Ref sig .tc) (h0 : r ∉ st0_W) (h1 : r ∉ st1_W) (h2 : r ∉ st2_W)
    (hr : ∀ w, Pipeline.arrRef spec0 w ≠ r) (h3 : r ∉ st3_W) :
    W5 m c (Proc.devRef .tc r) = m ((c.tc : Thread nD τ).loc r) :=
  (W5_of m c r h3).trans (W4_launch m c r h0 h1 h2 hr)

theorem W6_launch (r : Ref sig .tc) (h0 : r ∉ st0_W) (h1 : r ∉ st1_W) (h2 : r ∉ st2_W)
    (hr : ∀ w, Pipeline.arrRef spec0 w ≠ r) (h3 : r ∉ st3_W) (h4 : r ∉ st4_W) :
    W6 m c (Proc.devRef .tc r) = m ((c.tc : Thread nD τ).loc r) :=
  (W6_of m c r h4).trans (W5_launch m c r h0 h1 h2 hr h3)

theorem keep4 : W4 m c (Proc.devRef .tc main_v1) = kR m c ∧ W4 m c (Proc.devRef .tc main_v2) = kC m c
    ∧ W4 m c (Proc.devRef .tc main_v26) = kVals m c :=
  ⟨W4_of_ne m c main_v1 (by decide), W4_of_ne m c main_v2 (by decide), W4_of_ne m c main_v26 (by decide)⟩

theorem keep5 : W5 m c (Proc.devRef .tc main_v1) = kR m c ∧ W5 m c (Proc.devRef .tc main_v2) = kC m c
    ∧ W5 m c (Proc.devRef .tc main_v26) = kVals m c :=
  ⟨(W5_of m c main_v1 (by decide)).trans (keep4 m c).1, (W5_of m c main_v2 (by decide)).trans (keep4 m c).2.1,
    (W5_of m c main_v26 (by decide)).trans (keep4 m c).2.2⟩

theorem keep6 : W6 m c (Proc.devRef .tc main_v1) = kR m c ∧ W6 m c (Proc.devRef .tc main_v2) = kC m c
    ∧ W6 m c (Proc.devRef .tc main_v26) = kVals m c :=
  ⟨(W6_of m c main_v1 (by decide)).trans (keep5 m c).1, (W6_of m c main_v2 (by decide)).trans (keep5 m c).2.1,
    (W6_of m c main_v26 (by decide)).trans (keep5 m c).2.2⟩

theorem W3_arg0 : W3 m c (Proc.devRef .tc main_arg0) = m ((c.tc : Thread nD τ).loc main_arg0) :=
  W3_launch m c main_arg0 (by decide) (by decide) (by decide)

theorem W6_arg3 : W6 m c (Proc.devRef .tc main_arg3) = m ((c.tc : Thread nD τ).loc main_arg3) :=
  W6_launch m c main_arg3 (by decide) (by decide) (by decide) (by decide) (by decide) (by decide)

theorem W6_arg4 : W6 m c (Proc.devRef .tc main_arg4) = m ((c.tc : Thread nD τ).loc main_arg4) :=
  W6_launch m c main_arg4 (by decide) (by decide) (by decide) (by decide) (by decide) (by decide)

theorem W6_arg5 : W6 m c (Proc.devRef .tc main_arg5) = m ((c.tc : Thread nD τ).loc main_arg5) :=
  W6_launch m c main_arg5 (by decide) (by decide) (by decide) (by decide) (by decide) (by decide)

theorem W6_arg6 : W6 m c (Proc.devRef .tc main_arg6) = m ((c.tc : Thread nD τ).loc main_arg6) :=
  W6_launch m c main_arg6 (by decide) (by decide) (by decide) (by decide) (by decide) (by decide)

theorem W6_arg7 : W6 m c (Proc.devRef .tc main_arg7) = m ((c.tc : Thread nD τ).loc main_arg7) :=
  W6_launch m c main_arg7 (by decide) (by decide) (by decide) (by decide) (by decide) (by decide)

theorem W6_arg8 : W6 m c (Proc.devRef .tc main_arg8) = m ((c.tc : Thread nD τ).loc main_arg8) :=
  W6_launch m c main_arg8 (by decide) (by decide) (by decide) (by decide) (by decide) (by decide)

theorem W6_arg9 : W6 m c (Proc.devRef .tc main_arg9) = m ((c.tc : Thread nD τ).loc main_arg9) :=
  W6_launch m c main_arg9 (by decide) (by decide) (by decide) (by decide) (by decide) (by decide)

theorem W6_arg10 : W6 m c (Proc.devRef .tc main_arg10) = m ((c.tc : Thread nD τ).loc main_arg10) :=
  W6_launch m c main_arg10 (by decide) (by decide) (by decide) (by decide) (by decide) (by decide)

theorem W6_arg11 : W6 m c (Proc.devRef .tc main_arg11) = m ((c.tc : Thread nD τ).loc main_arg11) :=
  W6_launch m c main_arg11 (by decide) (by decide) (by decide) (by decide) (by decide) (by decide)

theorem W6_arg12 : W6 m c (Proc.devRef .tc main_arg12) = m ((c.tc : Thread nD τ).loc main_arg12) :=
  W6_launch m c main_arg12 (by decide) (by decide) (by decide) (by decide) (by decide) (by decide)

theorem args6 : W6 m c (Proc.devRef .tc main_arg3) = m ((c.tc : Thread nD τ).loc main_arg3)
    ∧ W6 m c (Proc.devRef .tc main_arg4) = m ((c.tc : Thread nD τ).loc main_arg4)
    ∧ W6 m c (Proc.devRef .tc main_arg5) = m ((c.tc : Thread nD τ).loc main_arg5)
    ∧ W6 m c (Proc.devRef .tc main_arg6) = m ((c.tc : Thread nD τ).loc main_arg6)
    ∧ W6 m c (Proc.devRef .tc main_arg7) = m ((c.tc : Thread nD τ).loc main_arg7)
    ∧ W6 m c (Proc.devRef .tc main_arg8) = m ((c.tc : Thread nD τ).loc main_arg8)
    ∧ W6 m c (Proc.devRef .tc main_arg9) = m ((c.tc : Thread nD τ).loc main_arg9)
    ∧ W6 m c (Proc.devRef .tc main_arg10) = m ((c.tc : Thread nD τ).loc main_arg10)
    ∧ W6 m c (Proc.devRef .tc main_arg11) = m ((c.tc : Thread nD τ).loc main_arg11)
    ∧ W6 m c (Proc.devRef .tc main_arg12) = m ((c.tc : Thread nD τ).loc main_arg12) :=
  ⟨W6_arg3 m c, W6_arg4 m c, W6_arg5 m c, W6_arg6 m c, W6_arg7 m c, W6_arg8 m c, W6_arg9 m c, W6_arg10 m c, W6_arg11 m c, W6_arg12 m c⟩

theorem relay_apply {α : Type} (x : S12x16.Idx → α) (j : S12x1x16.Idx) :
    shapeCast S12x1x16 x shapeCasts_S12x16_S12x1x16 j = x (ix2 (j 0) (j 2)) :=
  shapeCast_apply x _ j _ (by
    have h1 : (j 1).val < 1 := (j 1).isLt
    rw [Shape.rowMajor_val_two, Shape.rowMajor_val_three]
    show (j 0).val * 16 + (j 2).val = ((j 0).val * 1 + (j 1).val) * 16 + (j 2).val
    omega)

theorem v72_eq : W6 m c (Proc.devRef .tc main_v72) = fun j : S12x1x16.Idx => (kP m c).b1 (ix2 (j 0) (j 2)) := by
  have h : W6 m c (Proc.devRef .tc main_v72)
      = shapeCast S12x1x16 (W5 m c (Proc.devRef .tc main_arg4) : FVec Ideal S12x16 .f32) shapeCasts_S12x16_S12x1x16 := by
    show StableHlo.after main_part1_ops0 (W5 m c) (Proc.devRef .tc main_v72) = _
    after_results
    rfl
  rw [h, W5_launch m c main_arg4 (by decide) (by decide) (by decide) (by decide) (by decide)]
  funext j
  exact relay_apply _ j

theorem v73_eq : W6 m c (Proc.devRef .tc main_v73) = fun j : S12x1x16.Idx => (kP m c).g (ix2 (j 0) (j 2)) := by
  have h : W6 m c (Proc.devRef .tc main_v73)
      = shapeCast S12x1x16 (W5 m c (Proc.devRef .tc main_arg5) : FVec Ideal S12x16 .f32) shapeCasts_S12x16_S12x1x16 := by
    show StableHlo.after main_part1_ops0 (W5 m c) (Proc.devRef .tc main_v73) = _
    after_results
    rfl
  rw [h, W5_launch m c main_arg5 (by decide) (by decide) (by decide) (by decide) (by decide)]
  funext j
  exact relay_apply _ j

theorem v74_eq : W6 m c (Proc.devRef .tc main_v74) = fun j : S12x1x16.Idx => (kP m c).be (ix2 (j 0) (j 2)) := by
  have h : W6 m c (Proc.devRef .tc main_v74)
      = shapeCast S12x1x16 (W5 m c (Proc.devRef .tc main_arg6) : FVec Ideal S12x16 .f32) shapeCasts_S12x16_S12x1x16 := by
    show StableHlo.after main_part1_ops0 (W5 m c) (Proc.devRef .tc main_v74) = _
    after_results
    rfl
  rw [h, W5_launch m c main_arg6 (by decide) (by decide) (by decide) (by decide) (by decide)]
  funext j
  exact relay_apply _ j

theorem v75_eq : W6 m c (Proc.devRef .tc main_v75) = fun j : S12x1x16.Idx => (kP m c).mu (ix2 (j 0) (j 2)) := by
  have h : W6 m c (Proc.devRef .tc main_v75)
      = shapeCast S12x1x16 (W5 m c (Proc.devRef .tc main_arg7) : FVec Ideal S12x16 .f32) shapeCasts_S12x16_S12x1x16 := by
    show StableHlo.after main_part1_ops0 (W5 m c) (Proc.devRef .tc main_v75) = _
    after_results
    rfl
  rw [h, W5_launch m c main_arg7 (by decide) (by decide) (by decide) (by decide) (by decide)]
  funext j
  exact relay_apply _ j

theorem v76_eq : W6 m c (Proc.devRef .tc main_v76) = fun j : S12x1x16.Idx => (kP m c).var (ix2 (j 0) (j 2)) := by
  have h : W6 m c (Proc.devRef .tc main_v76)
      = shapeCast S12x1x16 (W5 m c (Proc.devRef .tc main_arg8) : FVec Ideal S12x16 .f32) shapeCasts_S12x16_S12x1x16 := by
    show StableHlo.after main_part1_ops0 (W5 m c) (Proc.devRef .tc main_v76) = _
    after_results
    rfl
  rw [h, W5_launch m c main_arg8 (by decide) (by decide) (by decide) (by decide) (by decide)]
  funext j
  exact relay_apply _ j

def prop100 (vals : FVec Ideal S850000 .f32) (R C : IVec S850000 32) (h : FVec Ideal S50000x100 .f32) :
    FVec Ideal S50000x100 .f32 :=
  Host.scatterAdd scatter_S50000x100_S850000x1_S850000x100_1_0_0_1
    (broadcastInDim S50000x100 ![] bcast_S_S50000x100 (constant (F := Ideal) S_ .f32 0x00000000#32))
    (broadcastInDim S850000x1 ![0] bcast_S850000_S850000x1_0 R)
    (mulf (broadcastInDim S850000x100 ![0, 1] bcast_S850000x1_S850000x100_0_1
        (broadcastInDim S850000x1 ![0] bcast_S850000_S850000x1_0 vals))
      (Host.gather gather_S50000x100_S850000x1_S850000x100_1_0_n_n_0_1_1100 h
        (broadcastInDim S850000x1 ![0] bcast_S850000_S850000x1_0
          (select (cmpi .slt C (broadcastInDim S850000 ![] bcast_S_S850000 (constantI S_ 32 0#32)))
            (addi C (broadcastInDim S850000 ![] bcast_S_S850000 (constantI S_ 32 50000#32))) C))))

theorem prop100_eq (h : FVec Ideal S50000x100 .f32) (X : Fin 50000 → Fin 100 → EReal)
    (hX : ∀ n f, h (ix2 n f) = X n f) :
    prop100 (kVals m c) (kR m c) (kC m c) h = fun j => Cert.Spec.spmm (kA m c) X (j 0) (j 1) := by
  funext j
  obtain ⟨n, f, rfl⟩ : ∃ n f, j = ix2 n f := ⟨j 0, j 1, eq_ix2 j⟩
  have e := Cert.SpmmIdx.spmm_apply scatter_S50000x100_S850000x1_S850000x100_1_0_0_1
    gather_S50000x100_S850000x1_S850000x100_1_0_n_n_0_1_1100 rfl rfl rfl rfl rfl rfl rfl rfl rfl rfl rfl
    bcast_S850000_S850000x1_0 bcast_S850000x1_S850000x100_0_1 bcast_S_S50000x100
    (kVals m c) (kR m c) (kCw m c) h n f
  have hh : (fun n' f' => h (ix2 n' f')) = X := funext fun n' => funext fun f' => hX n' f'
  rw [hh] at e
  exact e

set_option maxHeartbeats 2000000 in
theorem st3_v40 (V : Valuation τ sig (Elt Ideal)) :
    StableHlo.after main_part0_ops3 V (Proc.devRef .tc main_v40)
      = prop100 (V (Proc.devRef .tc main_v26)) (V (Proc.devRef .tc main_v1)) (V (Proc.devRef .tc main_v2))
          (V (Proc.devRef .tc main_v27)) := by
  unfold prop100
  after_results_simp <;> rfl
theorem st3_v41 (V : Valuation τ sig (Elt Ideal)) :
    StableHlo.after main_part0_ops3 V (Proc.devRef .tc main_v41)
      = broadcastInDim S850000x1 ![0] bcast_S850000_S850000x1_0 (V (Proc.devRef .tc main_v26) : FVec Ideal S850000 .f32) := by
  after_results_simp <;> rfl
set_option maxHeartbeats 2000000 in
theorem st3_v46 (V : Valuation τ sig (Elt Ideal)) :
    StableHlo.after main_part0_ops3 V (Proc.devRef .tc main_v46)
      = select (cmpi .slt (V (Proc.devRef .tc main_v2) : IVec S850000 32) (broadcastInDim S850000 ![] bcast_S_S850000 (constantI S_ 32 0#32)))
          (addi (V (Proc.devRef .tc main_v2) : IVec S850000 32) (broadcastInDim S850000 ![] bcast_S_S850000 (constantI S_ 32 50000#32)))
          (V (Proc.devRef .tc main_v2)) := by
  after_results_simp <;> rfl

set_option maxHeartbeats 2000000 in
theorem st4_v53 (V : Valuation τ sig (Elt Ideal)) :
    StableHlo.after main_part1_ops0 V (Proc.devRef .tc main_v53)
      = Host.scatterAdd scatter_S50000x100_S850000x1_S850000x100_1_0_0_1
          (broadcastInDim S50000x100 ![] bcast_S_S50000x100 (constant (F := Ideal) S_ .f32 0x00000000#32))
          (broadcastInDim S850000x1 ![0] bcast_S850000_S850000x1_0 (V (Proc.devRef .tc main_v1) : IVec S850000 32))
          (mulf (broadcastInDim S850000x100 ![0, 1] bcast_S850000x1_S850000x100_0_1
              (V (Proc.devRef .tc main_v41) : FVec Ideal S850000x1 .f32))
            (Host.gather gather_S50000x100_S850000x1_S850000x100_1_0_n_n_0_1_1100
              (V (Proc.devRef .tc main_v40) : FVec Ideal S50000x100 .f32)
              (broadcastInDim S850000x1 ![0] bcast_S850000_S850000x1_0 (V (Proc.devRef .tc main_v46) : IVec S850000 32)))) := by
  after_results_simp <;> rfl
set_option maxHeartbeats 2000000 in
theorem st4_v66 (V : Valuation τ sig (Elt Ideal)) :
    StableHlo.after main_part1_ops0 V (Proc.devRef .tc main_v66)
      = prop100 (V (Proc.devRef .tc main_v26)) (V (Proc.devRef .tc main_v1)) (V (Proc.devRef .tc main_v2))
          (StableHlo.after main_part1_ops0 V (Proc.devRef .tc main_v53)) := by
  unfold prop100
  after_results_simp <;> rfl
set_option maxHeartbeats 4000000 in
theorem st4_v71 (V : Valuation τ sig (Elt Ideal)) :
    StableHlo.after main_part1_ops0 V (Proc.devRef .tc main_v71)
      = concatenate S4x50000x100 0
          [⟨S1x50000x100, broadcastInDim S1x50000x100 ![1, 2] bcast_S50000x100_S1x50000x100_1_2
              (V (Proc.devRef .tc main_v27) : FVec Ideal S50000x100 .f32)⟩,
           ⟨S1x50000x100, broadcastInDim S1x50000x100 ![1, 2] bcast_S50000x100_S1x50000x100_1_2
              (V (Proc.devRef .tc main_v40) : FVec Ideal S50000x100 .f32)⟩,
           ⟨S1x50000x100, broadcastInDim S1x50000x100 ![1, 2] bcast_S50000x100_S1x50000x100_1_2
              (StableHlo.after main_part1_ops0 V (Proc.devRef .tc main_v53) : FVec Ideal S50000x100 .f32)⟩,
           ⟨S1x50000x100, broadcastInDim S1x50000x100 ![1, 2] bcast_S50000x100_S1x50000x100_1_2
              (StableHlo.after main_part1_ops0 V (Proc.devRef .tc main_v66) : FVec Ideal S50000x100 .f32)⟩]
          concatenates_S1x50000x100_S1x50000x100_S1x50000x100_S1x50000x100_S4x50000x100_d0 := by
  after_results_simp <;> rfl

theorem lead_apply {α : Type} (y : S50000x100.Idx → α) (i : S1x50000x100.Idx) :
    broadcastInDim S1x50000x100 ![1, 2] bcast_S50000x100_S1x50000x100_1_2 y i = y (ix2 (i 1) (i 2)) :=
  broadcastInDim_apply _ _ y i _ (by
    intro a
    match a with
    | ⟨0, _⟩ => rfl
    | ⟨1, _⟩ => rfl)

theorem stack_apply {α : Type} (x : Fin 4 → (S50000x100.Idx → α)) (j : S4x50000x100.Idx) :
    concatenate S4x50000x100 0
        [⟨S1x50000x100, broadcastInDim S1x50000x100 ![1, 2] bcast_S50000x100_S1x50000x100_1_2 (x 0)⟩,
         ⟨S1x50000x100, broadcastInDim S1x50000x100 ![1, 2] bcast_S50000x100_S1x50000x100_1_2 (x 1)⟩,
         ⟨S1x50000x100, broadcastInDim S1x50000x100 ![1, 2] bcast_S50000x100_S1x50000x100_1_2 (x 2)⟩,
         ⟨S1x50000x100, broadcastInDim S1x50000x100 ![1, 2] bcast_S50000x100_S1x50000x100_1_2 (x 3)⟩]
        concatenates_S1x50000x100_S1x50000x100_S1x50000x100_S1x50000x100_S4x50000x100_d0 j
      = x (j 0) (ix2 (j 1) (j 2)) := by
  have h0 : (j 0).val < 4 := (j 0).isLt
  have hi : ∀ b : Fin S1x50000x100.rank, b.cast (rfl : S1x50000x100.rank = S4x50000x100.rank) ≠ (0 : Fin S4x50000x100.rank) →
      ((ix3 (0 : Fin 1) (j 1) (j 2) : S1x50000x100.Idx) b).val = (j (b.cast rfl)).val := by
    intro b hb
    match b with
    | ⟨0, _⟩ => exact absurd rfl hb
    | ⟨1, _⟩ => rfl
    | ⟨2, _⟩ => rfl
  rcases (by omega : (j 0).val = 0 ∨ (j 0).val = 1 ∨ (j 0).val = 2 ∨ (j 0).val = 3) with h | h | h | h
  · have e : j 0 = (0 : Fin 4) := Fin.ext h
    rw [concatenate_apply_piece (0 : Fin S4x50000x100.rank) _ _ j 0 (by show (0 : ℕ) < 4; omega) S1x50000x100 _ rfl rfl 0 rfl
      (ix3 (0 : Fin 1) (j 1) (j 2)) hi (by show 0 + 0 = (j 0).val; omega), lead_apply, e]
  · have e : j 0 = (1 : Fin 4) := Fin.ext h
    rw [concatenate_apply_piece (0 : Fin S4x50000x100.rank) _ _ j 1 (by show (1 : ℕ) < 4; omega) S1x50000x100 _ rfl rfl 1 rfl
      (ix3 (0 : Fin 1) (j 1) (j 2)) hi (by show 1 + 0 = (j 0).val; omega), lead_apply, e]
  · have e : j 0 = (2 : Fin 4) := Fin.ext h
    rw [concatenate_apply_piece (0 : Fin S4x50000x100.rank) _ _ j 2 (by show (2 : ℕ) < 4; omega) S1x50000x100 _ rfl rfl 2 rfl
      (ix3 (0 : Fin 1) (j 1) (j 2)) hi (by show 2 + 0 = (j 0).val; omega), lead_apply, e]
  · have e : j 0 = (3 : Fin 4) := Fin.ext h
    rw [concatenate_apply_piece (0 : Fin S4x50000x100.rank) _ _ j 3 (by show (3 : ℕ) < 4; omega) S1x50000x100 _ rfl rfl 3 rfl
      (ix3 (0 : Fin 1) (j 1) (j 2)) hi (by show 3 + 0 = (j 0).val; omega), lead_apply, e]

theorem v27_eq
    (hfinal0 : ∀ V, (dat0 (F := Ideal) V c).arrAt 1 cfg0.N
      = fun j => Cert.Spec.l2norm (fun n k => V c main_arg0 (ix2 n k)) (j 0) (j 1)) :
    W4 m c (Proc.devRef .tc main_v27)
      = fun j => Cert.Spec.l2norm (fun n k => (kP m c).x (ix2 n k)) (j 0) (j 1) := by
  refine (W4_arr m c 1).trans ((hfinal0 (V3 m)).trans ?_)
  have hx : ∀ n k, V3 m c main_arg0 (ix2 n k) = (kP m c).x (ix2 n k) := fun n k => congrFun (W3_arg0 m c) _
  funext j
  exact congrArg (fun x => Cert.Spec.l2norm x (j 0) (j 1)) (funext fun n => funext fun k => hx n k)

theorem v71_eq
    (hv27 : W4 m c (Proc.devRef .tc main_v27)
      = fun j => Cert.Spec.l2norm (fun n k => (kP m c).x (ix2 n k)) (j 0) (j 1)) :
    W6 m c (Proc.devRef .tc main_v71)
      = fun j : S4x50000x100.Idx => Cert.Spec.xs (kA m c) (kP m c) (j 0).val (j 1) (j 2) := by

  generalize hX0 : Cert.Spec.l2norm (fun n k => (kP m c).x (ix2 n k)) = X0 at hv27
  have hop1 : Cert.Spec.hop (kA m c) 1 X0 = Cert.Spec.spmm (kA m c) (Cert.Spec.hop (kA m c) 0 X0) :=
    Function.iterate_succ_apply' (Cert.Spec.spmm (kA m c)) 0 X0
  have hop2 : Cert.Spec.hop (kA m c) 2 X0 = Cert.Spec.spmm (kA m c) (Cert.Spec.hop (kA m c) 1 X0) :=
    Function.iterate_succ_apply' (Cert.Spec.spmm (kA m c)) 1 X0
  have hop3 : Cert.Spec.hop (kA m c) 3 X0 = Cert.Spec.spmm (kA m c) (Cert.Spec.hop (kA m c) 2 X0) :=
    Function.iterate_succ_apply' (Cert.Spec.spmm (kA m c)) 2 X0
  have e27 : W5 m c (Proc.devRef .tc main_v27) = fun j => Cert.Spec.hop (kA m c) 0 X0 (j 0) (j 1) :=
    (W5_of m c main_v27 (by decide)).trans hv27
  have e40 : W5 m c (Proc.devRef .tc main_v40) = fun j => Cert.Spec.hop (kA m c) 1 X0 (j 0) (j 1) := by
    have h : W5 m c (Proc.devRef .tc main_v40) = _ := st3_v40 (W4 m c)
    rw [(keep4 m c).1, (keep4 m c).2.1, (keep4 m c).2.2] at h
    rw [hop1]
    exact h.trans (prop100_eq m c _ (Cert.Spec.hop (kA m c) 0 X0) fun n f => congrFun hv27 (ix2 n f))
  have e41 : W5 m c (Proc.devRef .tc main_v41)
      = broadcastInDim S850000x1 ![0] bcast_S850000_S850000x1_0 (kVals m c) := by
    have h : W5 m c (Proc.devRef .tc main_v41) = _ := st3_v41 (W4 m c)
    rw [(keep4 m c).2.2] at h
    exact h
  have e46 : W5 m c (Proc.devRef .tc main_v46)
      = select (cmpi .slt (kC m c) (broadcastInDim S850000 ![] bcast_S_S850000 (constantI S_ 32 0#32)))
          (addi (kC m c) (broadcastInDim S850000 ![] bcast_S_S850000 (constantI S_ 32 50000#32))) (kC m c) := by
    have h : W5 m c (Proc.devRef .tc main_v46) = _ := st3_v46 (W4 m c)
    rw [(keep4 m c).2.1] at h
    exact h
  have e53 : W6 m c (Proc.devRef .tc main_v53) = fun j => Cert.Spec.hop (kA m c) 2 X0 (j 0) (j 1) := by
    have h : W6 m c (Proc.devRef .tc main_v53) = _ := st4_v53 (W5 m c)
    rw [e41, e46, (keep5 m c).1] at h
    rw [hop2]
    exact h.trans (prop100_eq m c _ (Cert.Spec.hop (kA m c) 1 X0) fun n f => congrFun e40 (ix2 n f))
  have e66 : W6 m c (Proc.devRef .tc main_v66) = fun j => Cert.Spec.hop (kA m c) 3 X0 (j 0) (j 1) := by
    have h : W6 m c (Proc.devRef .tc main_v66) = _ := st4_v66 (W5 m c)
    rw [(keep5 m c).1, (keep5 m c).2.1, (keep5 m c).2.2] at h
    rw [hop3]
    exact h.trans (prop100_eq m c _ (Cert.Spec.hop (kA m c) 2 X0) fun n f => congrFun e53 (ix2 n f))

  have h : W6 m c (Proc.devRef .tc main_v71) = _ := st4_v71 (W5 m c)
  rw [e27, e40] at h
  rw [show StableHlo.after main_part1_ops0 (W5 m c) (Proc.devRef .tc main_v53) = _ from e53,
    show StableHlo.after main_part1_ops0 (W5 m c) (Proc.devRef .tc main_v66) = _ from e66] at h
  rw [h]
  funext j
  subst hX0
  exact (stack_apply (fun (k : Fin 4) (i : S50000x100.Idx) => Cert.Spec.hop (kA m c) k.val _ (i 0) (i 1)) j).trans rfl

end Cert.KernelIdeal.KVal

end
-- ==== Proof.KVal.StageC.Terms.lean ====
import Idealize.ShloMosaic.Lib.StableHlo.Run
import Idealize.ShloMosaic.Lib.Pipeline.Value
import Idealize.ShloMosaic.Lib.ValueIdx
import Idealize.ShloMosaic.PureOps.Ideal
import proofs.«124913_j71159018160549_2_alg».proof.Proof.KVal.Defs
import proofs.«124913_j71159018160549_2_alg».proof.Proof.SpmmIdx

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

def cwOf (C : IVec S850000 32) : IVec S850000 32 :=
  select (cmpi .slt C (broadcastInDim S850000 ![] bcast_S_S850000 (constantI S_ 32 0#32)))
    (addi C (broadcastInDim S850000 ![] bcast_S_S850000 (constantI S_ 32 50000#32))) C

def prop48 (vals : FVec Ideal S850000 .f32) (R C : IVec S850000 32) (Z : FVec Ideal S50000x48 .f32) :
    FVec Ideal S50000x48 .f32 :=
  Host.scatterAdd scatter_S50000x48_S850000x1_S850000x48_1_0_0_1
    (broadcastInDim S50000x48 ![] bcast_S_S50000x48 (constant (F := Ideal) S_ .f32 0x00000000#32))
    (broadcastInDim S850000x1 ![0] bcast_S850000_S850000x1_0 R)
    (mulf (broadcastInDim S850000x48 ![0, 1] bcast_S850000x1_S850000x48_0_1
        (broadcastInDim S850000x1 ![0] bcast_S850000_S850000x1_0 vals))
      (Host.gather gather_S50000x48_S850000x1_S850000x48_1_0_n_n_0_1_148 Z
        (broadcastInDim S850000x1 ![0] bcast_S850000_S850000x1_0 (cwOf C))))

def pack (Y : FVec Ideal S3x50000x16 .f32) : FVec Ideal S50000x48 .f32 :=
  shapeCast S50000x48 (transpose S50000x3x16 [1, 0, 2] Y transposes_S3x50000x16_S50000x3x16_1_0_2)
    shapeCasts_S50000x3x16_S50000x48

def unpack (Z : FVec Ideal S50000x48 .f32) : FVec Ideal S3x50000x16 .f32 :=
  transpose S3x50000x16 [1, 0, 2] (shapeCast S50000x3x16 Z shapeCasts_S50000x48_S50000x3x16)
    transposes_S50000x3x16_S3x50000x16_1_0_2

def cut0 (X : FVec Ideal S3x4x50000x16 .f32) : FVec Ideal S3x1x50000x16 .f32 :=
  extractStridedSlice S3x1x50000x16 ![0, 0, 0, 0] X slices_S3x4x50000x16_S3x1x50000x16_0_0_0_0
def cut1 (X : FVec Ideal S3x4x50000x16 .f32) : FVec Ideal S3x1x50000x16 .f32 :=
  extractStridedSlice S3x1x50000x16 ![0, 1, 0, 0] X slices_S3x4x50000x16_S3x1x50000x16_0_1_0_0
def cut2 (X : FVec Ideal S3x4x50000x16 .f32) : FVec Ideal S3x1x50000x16 .f32 :=
  extractStridedSlice S3x1x50000x16 ![0, 2, 0, 0] X slices_S3x4x50000x16_S3x1x50000x16_0_2_0_0
def cut3 (X : FVec Ideal S3x4x50000x16 .f32) : FVec Ideal S3x1x50000x16 .f32 :=
  extractStridedSlice S3x1x50000x16 ![0, 3, 0, 0] X slices_S3x4x50000x16_S3x1x50000x16_0_3_0_0

def flat3 (Y : FVec Ideal S3x1x50000x16 .f32) : FVec Ideal S3x50000x16 .f32 :=
  shapeCast S3x50000x16 Y shapeCasts_S3x1x50000x16_S3x50000x16

def lift3 (Y : FVec Ideal S3x50000x16 .f32) : FVec Ideal S3x1x50000x16 .f32 :=
  broadcastInDim S3x1x50000x16 ![0, 2, 3] bcast_S3x50000x16_S3x1x50000x16_0_2_3 Y

def stack4 (Y0 Y1 Y2 Y3 : FVec Ideal S3x1x50000x16 .f32) : FVec Ideal S3x4x50000x16 .f32 :=
  concatenate S3x4x50000x16 1 [⟨S3x1x50000x16, Y0⟩, ⟨S3x1x50000x16, Y1⟩, ⟨S3x1x50000x16, Y2⟩, ⟨S3x1x50000x16, Y3⟩]
    concatenates_S3x1x50000x16_S3x1x50000x16_S3x1x50000x16_S3x1x50000x16_S3x4x50000x16_d1

def prop48B (valsB : FVec Ideal S850000x1 .f32) (zeroB : IVec S850000 32) (R C : IVec S850000 32)
    (Z : FVec Ideal S50000x48 .f32) : FVec Ideal S50000x48 .f32 :=
  Host.scatterAdd scatter_S50000x48_S850000x1_S850000x48_1_0_0_1
    (broadcastInDim S50000x48 ![] bcast_S_S50000x48 (constant (F := Ideal) S_ .f32 0x00000000#32))
    (broadcastInDim S850000x1 ![0] bcast_S850000_S850000x1_0 R)
    (mulf (broadcastInDim S850000x48 ![0, 1] bcast_S850000x1_S850000x48_0_1 valsB)
      (Host.gather gather_S50000x48_S850000x1_S850000x48_1_0_n_n_0_1_148 Z
        (broadcastInDim S850000x1 ![0] bcast_S850000_S850000x1_0
          (select (cmpi .slt C zeroB)
            (addi C (broadcastInDim S850000 ![] bcast_S_S850000 (constantI S_ 32 50000#32))) C))))

theorem prop48B_eq (vals : FVec Ideal S850000 .f32) (R C : IVec S850000 32) (Z : FVec Ideal S50000x48 .f32) :
    prop48B (broadcastInDim S850000x1 ![0] bcast_S850000_S850000x1_0 vals)
        (broadcastInDim S850000 ![] bcast_S_S850000 (constantI S_ 32 0#32)) R C Z
      = prop48 vals R C Z := by
  unfold prop48B prop48 cwOf
  rfl

section Layout

theorem pack_apply (Y : FVec Ideal S3x50000x16 .f32) (r : Fin 3) (n : Fin 50000) (j : Fin 16) :
    pack Y (ix2 n (⟨16 * r.val + j.val, by omega⟩ : Fin 48)) = Y (ix3 r n j) := by
  unfold pack
  refine (shapeCast_apply _ shapeCasts_S50000x3x16_S50000x48 (ix2 n (⟨16 * r.val + j.val, by omega⟩ : Fin 48)) (ix3 n r j)
    (by rewrite [Shape.rowMajor_val_three, Shape.rowMajor_val_two]
        show (n.val * 3 + r.val) * 16 + j.val = n.val * 48 + (16 * r.val + j.val); omega)).trans ?_
  exact transpose_apply _ Y transposes_S3x50000x16_S50000x3x16_1_0_2 (ix3 n r j) (ix3 r n j)
    (fun b => match b with | ⟨0, _⟩ => rfl | ⟨1, _⟩ => rfl | ⟨2, _⟩ => rfl)

theorem unpack_apply (Z : FVec Ideal S50000x48 .f32) (r : Fin 3) (n : Fin 50000) (j : Fin 16) :
    unpack Z (ix3 r n j) = Z (ix2 n (⟨16 * r.val + j.val, by omega⟩ : Fin 48)) := by
  unfold unpack
  refine (transpose_apply _ _ transposes_S50000x3x16_S3x50000x16_1_0_2 (ix3 r n j) (ix3 n r j)
    (fun b => match b with | ⟨0, _⟩ => rfl | ⟨1, _⟩ => rfl | ⟨2, _⟩ => rfl)).trans ?_
  exact shapeCast_apply Z shapeCasts_S50000x48_S50000x3x16 (ix3 n r j) (ix2 n (⟨16 * r.val + j.val, by omega⟩ : Fin 48))
    (by rewrite [Shape.rowMajor_val_three, Shape.rowMajor_val_two]
        show n.val * 48 + (16 * r.val + j.val) = (n.val * 3 + r.val) * 16 + j.val; omega)

theorem flat3_apply (Y : FVec Ideal S3x1x50000x16 .f32) (r : Fin 3) (n : Fin 50000) (j : Fin 16) :
    flat3 Y (ix3 r n j) = Y (ix4 r (0 : Fin 1) n j) := by
  unfold flat3
  exact shapeCast_apply Y shapeCasts_S3x1x50000x16_S3x50000x16 (ix3 r n j) (ix4 r (0 : Fin 1) n j)
    (by rewrite [Shape.rowMajor_val_three, Shape.rowMajor_val_four]
        show ((r.val * 1 + 0) * 50000 + n.val) * 16 + j.val = (r.val * 50000 + n.val) * 16 + j.val; omega)

theorem lift3_apply (Y : FVec Ideal S3x50000x16 .f32) (r : Fin 3) (u : Fin 1) (n : Fin 50000) (j : Fin 16) :
    lift3 Y (ix4 r u n j) = Y (ix3 r n j) := by
  unfold lift3
  exact broadcastInDim_apply _ bcast_S3x50000x16_S3x1x50000x16_0_2_3 Y (ix4 r u n j) (ix3 r n j) (fun a => match a with
    | ⟨0, _⟩ => by show r.val = if (3 : Nat) = 1 then 0 else r.val; rw [if_neg (by decide)]
    | ⟨1, _⟩ => by show n.val = if (50000 : Nat) = 1 then 0 else n.val; rw [if_neg (by decide)]
    | ⟨2, _⟩ => by show j.val = if (16 : Nat) = 1 then 0 else j.val; rw [if_neg (by decide)])

theorem cut0_apply (X : FVec Ideal S3x4x50000x16 .f32) (r : Fin 3) (u : Fin 1) (n : Fin 50000) (j : Fin 16) :
    cut0 X (ix4 r u n j) = X (ix4 r (0 : Fin 4) n j) := by
  unfold cut0
  exact extractStridedSlice_apply ![0, 0, 0, 0] X slices_S3x4x50000x16_S3x1x50000x16_0_0_0_0 (ix4 r u n j) (ix4 r (0 : Fin 4) n j)
    (fun a => match a with
      | ⟨0, _⟩ => by show r.val = 0 + r.val; omega
      | ⟨1, _⟩ => by show (0 : Nat) = 0 + u.val; omega
      | ⟨2, _⟩ => by show n.val = 0 + n.val; omega
      | ⟨3, _⟩ => by show j.val = 0 + j.val; omega)
theorem cut1_apply (X : FVec Ideal S3x4x50000x16 .f32) (r : Fin 3) (u : Fin 1) (n : Fin 50000) (j : Fin 16) :
    cut1 X (ix4 r u n j) = X (ix4 r (1 : Fin 4) n j) := by
  unfold cut1
  exact extractStridedSlice_apply ![0, 1, 0, 0] X slices_S3x4x50000x16_S3x1x50000x16_0_1_0_0 (ix4 r u n j) (ix4 r (1 : Fin 4) n j)
    (fun a => match a with
      | ⟨0, _⟩ => by show r.val = 0 + r.val; omega
      | ⟨1, _⟩ => by show (1 : Nat) = 1 + u.val; omega
      | ⟨2, _⟩ => by show n.val = 0 + n.val; omega
      | ⟨3, _⟩ => by show j.val = 0 + j.val; omega)
theorem cut2_apply (X : FVec Ideal S3x4x50000x16 .f32) (r : Fin 3) (u : Fin 1) (n : Fin 50000) (j : Fin 16) :
    cut2 X (ix4 r u n j) = X (ix4 r (2 : Fin 4) n j) := by
  unfold cut2
  exact extractStridedSlice_apply ![0, 2, 0, 0] X slices_S3x4x50000x16_S3x1x50000x16_0_2_0_0 (ix4 r u n j) (ix4 r (2 : Fin 4) n j)
    (fun a => match a with
      | ⟨0, _⟩ => by show r.val = 0 + r.val; omega
      | ⟨1, _⟩ => by show (2 : Nat) = 2 + u.val; omega
      | ⟨2, _⟩ => by show n.val = 0 + n.val; omega
      | ⟨3, _⟩ => by show j.val = 0 + j.val; omega)
theorem cut3_apply (X : FVec Ideal S3x4x50000x16 .f32) (r : Fin 3) (u : Fin 1) (n : Fin 50000) (j : Fin 16) :
    cut3 X (ix4 r u n j) = X (ix4 r (3 : Fin 4) n j) := by
  unfold cut3
  exact extractStridedSlice_apply ![0, 3, 0, 0] X slices_S3x4x50000x16_S3x1x50000x16_0_3_0_0 (ix4 r u n j) (ix4 r (3 : Fin 4) n j)
    (fun a => match a with
      | ⟨0, _⟩ => by show r.val = 0 + r.val; omega
      | ⟨1, _⟩ => by show (3 : Nat) = 3 + u.val; omega
      | ⟨2, _⟩ => by show n.val = 0 + n.val; omega
      | ⟨3, _⟩ => by show j.val = 0 + j.val; omega)

end Layout

section Stack

theorem stack4_apply0 (Y0 Y1 Y2 Y3 : FVec Ideal S3x1x50000x16 .f32) (r : Fin 3) (n : Fin 50000) (j : Fin 16) :
    stack4 Y0 Y1 Y2 Y3 (ix4 r (0 : Fin 4) n j) = Y0 (ix4 r (0 : Fin 1) n j) := by
  unfold stack4
  exact concatenate_apply_piece 1 _ _ (ix4 r (0 : Fin 4) n j) 0 (by show (0 : Nat) < 4; omega) S3x1x50000x16 Y0 rfl rfl 0 rfl
    (ix4 r (0 : Fin 1) n j)
    (fun b hb => match b with
      | ⟨0, _⟩ => rfl | ⟨1, _⟩ => (hb (Fin.ext rfl)).elim | ⟨2, _⟩ => rfl | ⟨3, _⟩ => rfl)
    rfl
theorem stack4_apply1 (Y0 Y1 Y2 Y3 : FVec Ideal S3x1x50000x16 .f32) (r : Fin 3) (n : Fin 50000) (j : Fin 16) :
    stack4 Y0 Y1 Y2 Y3 (ix4 r (1 : Fin 4) n j) = Y1 (ix4 r (0 : Fin 1) n j) := by
  unfold stack4
  exact concatenate_apply_piece 1 _ _ (ix4 r (1 : Fin 4) n j) 1 (by show (1 : Nat) < 4; omega) S3x1x50000x16 Y1 rfl rfl 1 rfl
    (ix4 r (0 : Fin 1) n j)
    (fun b hb => match b with
      | ⟨0, _⟩ => rfl | ⟨1, _⟩ => (hb (Fin.ext rfl)).elim | ⟨2, _⟩ => rfl | ⟨3, _⟩ => rfl)
    rfl
theorem stack4_apply2 (Y0 Y1 Y2 Y3 : FVec Ideal S3x1x50000x16 .f32) (r : Fin 3) (n : Fin 50000) (j : Fin 16) :
    stack4 Y0 Y1 Y2 Y3 (ix4 r (2 : Fin 4) n j) = Y2 (ix4 r (0 : Fin 1) n j) := by
  unfold stack4
  exact concatenate_apply_piece 1 _ _ (ix4 r (2 : Fin 4) n j) 2 (by show (2 : Nat) < 4; omega) S3x1x50000x16 Y2 rfl rfl 2 rfl
    (ix4 r (0 : Fin 1) n j)
    (fun b hb => match b with
      | ⟨0, _⟩ => rfl | ⟨1, _⟩ => (hb (Fin.ext rfl)).elim | ⟨2, _⟩ => rfl | ⟨3, _⟩ => rfl)
    rfl
theorem stack4_apply3 (Y0 Y1 Y2 Y3 : FVec Ideal S3x1x50000x16 .f32) (r : Fin 3) (n : Fin 50000) (j : Fin 16) :
    stack4 Y0 Y1 Y2 Y3 (ix4 r (3 : Fin 4) n j) = Y3 (ix4 r (0 : Fin 1) n j) := by
  unfold stack4
  exact concatenate_apply_piece 1 _ _ (ix4 r (3 : Fin 4) n j) 3 (by show (3 : Nat) < 4; omega) S3x1x50000x16 Y3 rfl rfl 3 rfl
    (ix4 r (0 : Fin 1) n j)
    (fun b hb => match b with
      | ⟨0, _⟩ => rfl | ⟨1, _⟩ => (hb (Fin.ext rfl)).elim | ⟨2, _⟩ => rfl | ⟨3, _⟩ => rfl)
    rfl

end Stack

section Propagation

variable (vals : FVec Ideal S850000 .f32) (R C : IVec S850000 32)

theorem prop48_apply (Z : FVec Ideal S50000x48 .f32) (n : Fin 50000) (f : Fin 48) :
    prop48 vals R C Z (ix2 n f)
      = Cert.Spec.spmm (Cert.Spec.adjOf vals R (cwOf C)) (fun n' f' => Z (ix2 n' f')) n f := by
  unfold prop48
  exact Cert.SpmmIdx.spmm_apply (F := 48) scatter_S50000x48_S850000x1_S850000x48_1_0_0_1
    gather_S50000x48_S850000x1_S850000x48_1_0_n_n_0_1_148 rfl rfl rfl rfl rfl rfl rfl rfl rfl rfl rfl
    bcast_S850000_S850000x1_0 bcast_S850000x1_S850000x48_0_1 bcast_S_S50000x48 vals R (cwOf C) Z n f

theorem prop48_fun (Z : FVec Ideal S50000x48 .f32) :
    (fun (n : Fin 50000) (f : Fin 48) => prop48 vals R C Z (ix2 n f))
      = Cert.Spec.spmm (Cert.Spec.adjOf vals R (cwOf C)) (fun n f => Z (ix2 n f)) :=
  funext fun n => funext fun f => prop48_apply vals R C Z n f

theorem prop48_iter (k : Nat) (Z : FVec Ideal S50000x48 .f32) :
    (fun (n : Fin 50000) (f : Fin 48) => (prop48 vals R C)^[k] Z (ix2 n f))
      = Cert.Spec.hop (Cert.Spec.adjOf vals R (cwOf C)) k (fun n f => Z (ix2 n f)) := by
  induction k generalizing Z with
  | zero =>
    unfold Cert.Spec.hop
    rw [Function.iterate_zero, Function.iterate_zero]
    rfl
  | succ k ih =>
    rw [Function.iterate_succ_apply, ih (prop48 vals R C Z), prop48_fun]
    unfold Cert.Spec.hop
    rw [Function.iterate_succ_apply]

theorem packed_hop (k : Nat) (Y : FVec Ideal S3x50000x16 .f32) (r : Fin 3) (n : Fin 50000) (j : Fin 16) :
    unpack ((prop48 vals R C)^[k] (pack Y)) (ix3 r n j)
      = Cert.Spec.hop (Cert.Spec.adjOf vals R (cwOf C)) k (fun n' j' => Y (ix3 r n' j')) n j := by
  rw [unpack_apply]
  have h := congrFun (congrFun (prop48_iter vals R C k (pack Y)) n) (⟨16 * r.val + j.val, by omega⟩ : Fin 48)
  refine h.trans ?_
  exact Cert.SpmmIdx.hop_pack _ k Y (fun n' f' => pack Y (ix2 n' f')) (fun r' n' j' => pack_apply Y r' n' j') r n j

end Propagation

section Read

variable (vals : FVec Ideal S850000 .f32) (R C : IVec S850000 32)

theorem hop_zero (A : Cert.Spec.Adj) (f : Fin 50000 → Fin 16 → EReal) : Cert.Spec.hop A 0 f = f := rfl

theorem packed_hop1 (Y : FVec Ideal S3x50000x16 .f32) (r : Fin 3) (n : Fin 50000) (j : Fin 16) :
    unpack (prop48 vals R C (pack Y)) (ix3 r n j)
      = Cert.Spec.hop (Cert.Spec.adjOf vals R (cwOf C)) 1 (fun n' j' => Y (ix3 r n' j')) n j := by
  have h := packed_hop vals R C 1 Y r n j
  rw [Function.iterate_succ_apply, Function.iterate_zero_apply] at h
  exact h

theorem packed_hop2 (Y : FVec Ideal S3x50000x16 .f32) (r : Fin 3) (n : Fin 50000) (j : Fin 16) :
    unpack (prop48 vals R C (prop48 vals R C (pack Y))) (ix3 r n j)
      = Cert.Spec.hop (Cert.Spec.adjOf vals R (cwOf C)) 2 (fun n' j' => Y (ix3 r n' j')) n j := by
  have h := packed_hop vals R C 2 Y r n j
  rw [Function.iterate_succ_apply, Function.iterate_succ_apply, Function.iterate_zero_apply] at h
  exact h

theorem packed_hop3 (Y : FVec Ideal S3x50000x16 .f32) (r : Fin 3) (n : Fin 50000) (j : Fin 16) :
    unpack (prop48 vals R C (prop48 vals R C (prop48 vals R C (pack Y)))) (ix3 r n j)
      = Cert.Spec.hop (Cert.Spec.adjOf vals R (cwOf C)) 3 (fun n' j' => Y (ix3 r n' j')) n j := by
  have h := packed_hop vals R C 3 Y r n j
  rw [Function.iterate_succ_apply, Function.iterate_succ_apply, Function.iterate_succ_apply,
    Function.iterate_zero_apply] at h
  exact h

variable (X : FVec Ideal S3x4x50000x16 .f32)

theorem stacked_read0 (Y1 Y2 Y3 : FVec Ideal S3x1x50000x16 .f32) (r : Fin 3) (n : Fin 50000) (j : Fin 16) :
    stack4 (lift3 (flat3 (cut0 X))) Y1 Y2 Y3 (ix4 r (0 : Fin 4) n j) = X (ix4 r (0 : Fin 4) n j) := by
  rw [stack4_apply0, lift3_apply, flat3_apply, cut0_apply]

theorem stacked_read1 (Y0 Y2 Y3 : FVec Ideal S3x1x50000x16 .f32) (r : Fin 3) (n : Fin 50000) (j : Fin 16) :
    stack4 Y0 (lift3 (unpack (prop48 vals R C (pack (flat3 (cut1 X)))))) Y2 Y3 (ix4 r (1 : Fin 4) n j)
      = Cert.Spec.hop (Cert.Spec.adjOf vals R (cwOf C)) 1 (fun n' j' => X (ix4 r (1 : Fin 4) n' j')) n j := by
  rw [stack4_apply1, lift3_apply, packed_hop1]
  have e : (fun (n' : Fin 50000) (j' : Fin 16) => flat3 (cut1 X) (ix3 r n' j'))
      = fun n' j' => X (ix4 r (1 : Fin 4) n' j') :=
    funext fun n' => funext fun j' => by rw [flat3_apply, cut1_apply]
  rw [e]

theorem stacked_read2 (Y0 Y1 Y3 : FVec Ideal S3x1x50000x16 .f32) (r : Fin 3) (n : Fin 50000) (j : Fin 16) :
    stack4 Y0 Y1 (lift3 (unpack (prop48 vals R C (prop48 vals R C (pack (flat3 (cut2 X))))))) Y3
        (ix4 r (2 : Fin 4) n j)
      = Cert.Spec.hop (Cert.Spec.adjOf vals R (cwOf C)) 2 (fun n' j' => X (ix4 r (2 : Fin 4) n' j')) n j := by
  rw [stack4_apply2, lift3_apply, packed_hop2]
  have e : (fun (n' : Fin 50000) (j' : Fin 16) => flat3 (cut2 X) (ix3 r n' j'))
      = fun n' j' => X (ix4 r (2 : Fin 4) n' j') :=
    funext fun n' => funext fun j' => by rw [flat3_apply, cut2_apply]
  rw [e]

theorem stacked_read3 (Y0 Y1 Y2 : FVec Ideal S3x1x50000x16 .f32) (r : Fin 3) (n : Fin 50000) (j : Fin 16) :
    stack4 Y0 Y1 Y2
        (lift3 (unpack (prop48 vals R C (prop48 vals R C (prop48 vals R C (pack (flat3 (cut3 X))))))))
        (ix4 r (3 : Fin 4) n j)
      = Cert.Spec.hop (Cert.Spec.adjOf vals R (cwOf C)) 3 (fun n' j' => X (ix4 r (3 : Fin 4) n' j')) n j := by
  rw [stack4_apply3, lift3_apply, packed_hop3]
  have e : (fun (n' : Fin 50000) (j' : Fin 16) => flat3 (cut3 X) (ix3 r n' j'))
      = fun n' j' => X (ix4 r (3 : Fin 4) n' j') :=
    funext fun n' => funext fun j' => by rw [flat3_apply, cut3_apply]
  rw [e]

end Read

end Cert.KernelIdeal.KVal

end
-- ==== Proof.KVal.StageC.Keep.lean ====
import Idealize.ShloMosaic.Lib.StableHlo.Run
import Idealize.ShloMosaic.Lib.Pipeline.Value
import Idealize.ShloMosaic.Lib.ValueIdx
import Idealize.ShloMosaic.PureOps.Ideal
import proofs.«124913_j71159018160549_2_alg».proof.Proof.KVal.Defs

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

section Stretches

variable (V : Valuation τ sig (Elt Ideal))

theorem kept_through {ops : List (HloOp τ sig (Elt Ideal))} (r : Ref sig .tc)
    (h : ops.Forall fun op => (Proc.devRef .tc r : DevRef τ sig) ∉ op.writes) :
    StableHlo.after ops V (Proc.devRef .tc r) = V (Proc.devRef .tc r) :=
  StableHlo.after_of_forall_not_mem (b := Proc.devRef .tc r) _ _ (List.forall_iff_forall_mem.mp h)

local macro "no_writer " ops:ident : tactic =>
  `(tactic| (
    simp only [$ops:ident, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))

theorem s8_v1 : StableHlo.after main_part1_ops1 V (Proc.devRef .tc main_v1) = V (Proc.devRef .tc main_v1) :=
  kept_through V main_v1 (by no_writer main_part1_ops1)
theorem s8_v2 : StableHlo.after main_part1_ops1 V (Proc.devRef .tc main_v2) = V (Proc.devRef .tc main_v2) :=
  kept_through V main_v2 (by no_writer main_part1_ops1)
theorem s8_v26 : StableHlo.after main_part1_ops1 V (Proc.devRef .tc main_v26) = V (Proc.devRef .tc main_v26) :=
  kept_through V main_v26 (by no_writer main_part1_ops1)
theorem s8_v77 : StableHlo.after main_part1_ops1 V (Proc.devRef .tc main_v77) = V (Proc.devRef .tc main_v77) :=
  kept_through V main_v77 (by no_writer main_part1_ops1)
theorem s8_arg9 : StableHlo.after main_part1_ops1 V (Proc.devRef .tc main_arg9) = V (Proc.devRef .tc main_arg9) :=
  kept_through V main_arg9 (by no_writer main_part1_ops1)
theorem s8_arg10 : StableHlo.after main_part1_ops1 V (Proc.devRef .tc main_arg10) = V (Proc.devRef .tc main_arg10) :=
  kept_through V main_arg10 (by no_writer main_part1_ops1)
theorem s8_arg11 : StableHlo.after main_part1_ops1 V (Proc.devRef .tc main_arg11) = V (Proc.devRef .tc main_arg11) :=
  kept_through V main_arg11 (by no_writer main_part1_ops1)
theorem s8_arg12 : StableHlo.after main_part1_ops1 V (Proc.devRef .tc main_arg12) = V (Proc.devRef .tc main_arg12) :=
  kept_through V main_arg12 (by no_writer main_part1_ops1)

theorem s9_v1 : StableHlo.after main_part2_ops0 V (Proc.devRef .tc main_v1) = V (Proc.devRef .tc main_v1) :=
  kept_through V main_v1 (by no_writer main_part2_ops0)
theorem s9_v2 : StableHlo.after main_part2_ops0 V (Proc.devRef .tc main_v2) = V (Proc.devRef .tc main_v2) :=
  kept_through V main_v2 (by no_writer main_part2_ops0)
theorem s9_v26 : StableHlo.after main_part2_ops0 V (Proc.devRef .tc main_v26) = V (Proc.devRef .tc main_v26) :=
  kept_through V main_v26 (by no_writer main_part2_ops0)
theorem s9_v79 : StableHlo.after main_part2_ops0 V (Proc.devRef .tc main_v79) = V (Proc.devRef .tc main_v79) :=
  kept_through V main_v79 (by no_writer main_part2_ops0)
theorem s9_v98 : StableHlo.after main_part2_ops0 V (Proc.devRef .tc main_v98) = V (Proc.devRef .tc main_v98) :=
  kept_through V main_v98 (by no_writer main_part2_ops0)
theorem s9_arg9 : StableHlo.after main_part2_ops0 V (Proc.devRef .tc main_arg9) = V (Proc.devRef .tc main_arg9) :=
  kept_through V main_arg9 (by no_writer main_part2_ops0)
theorem s9_arg10 : StableHlo.after main_part2_ops0 V (Proc.devRef .tc main_arg10) = V (Proc.devRef .tc main_arg10) :=
  kept_through V main_arg10 (by no_writer main_part2_ops0)
theorem s9_arg11 : StableHlo.after main_part2_ops0 V (Proc.devRef .tc main_arg11) = V (Proc.devRef .tc main_arg11) :=
  kept_through V main_arg11 (by no_writer main_part2_ops0)
theorem s9_arg12 : StableHlo.after main_part2_ops0 V (Proc.devRef .tc main_arg12) = V (Proc.devRef .tc main_arg12) :=
  kept_through V main_arg12 (by no_writer main_part2_ops0)

theorem s10_arg9 : StableHlo.after main_part3_ops0 V (Proc.devRef .tc main_arg9) = V (Proc.devRef .tc main_arg9) :=
  kept_through V main_arg9 (by no_writer main_part3_ops0)
theorem s10_arg11 : StableHlo.after main_part3_ops0 V (Proc.devRef .tc main_arg11) = V (Proc.devRef .tc main_arg11) :=
  kept_through V main_arg11 (by no_writer main_part3_ops0)
theorem s10_arg12 : StableHlo.after main_part3_ops0 V (Proc.devRef .tc main_arg12) = V (Proc.devRef .tc main_arg12) :=
  kept_through V main_arg12 (by no_writer main_part3_ops0)

end Stretches

end Cert.KernelIdeal.KVal

end
-- ==== Proof.KVal.StageC.S8.lean ====
import Idealize.ShloMosaic.Lib.StableHlo.Run
import Idealize.ShloMosaic.Lib.Pipeline.Value
import Idealize.ShloMosaic.Lib.ValueIdx
import Idealize.ShloMosaic.PureOps.Ideal
import proofs.«124913_j71159018160549_2_alg».proof.Proof.KVal.StageC.Terms

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

section Stretches

variable (V : Valuation τ sig (Elt Ideal))

set_option maxHeartbeats 2000000 in
theorem s8_v79 : StableHlo.after main_part1_ops1 V (Proc.devRef .tc main_v79)
    = flat3 (cut0 (V (Proc.devRef .tc main_v77))) := by
  after_results_simp
  rfl

set_option maxHeartbeats 2000000 in
theorem s8_v98 : StableHlo.after main_part1_ops1 V (Proc.devRef .tc main_v98)
    = unpack (prop48 (V (Proc.devRef .tc main_v26)) (V (Proc.devRef .tc main_v1)) (V (Proc.devRef .tc main_v2))
        (pack (flat3 (cut1 (V (Proc.devRef .tc main_v77)))))) := by
  after_results_simp
  rfl

set_option maxHeartbeats 2000000 in
theorem s8_v99 : StableHlo.after main_part1_ops1 V (Proc.devRef .tc main_v99)
    = cut2 (V (Proc.devRef .tc main_v77)) := by
  after_results_simp
  rfl

end Stretches

end Cert.KernelIdeal.KVal

end
-- ==== Proof.KVal.StageC.S9a.lean ====
import Idealize.ShloMosaic.Lib.StableHlo.Run
import Idealize.ShloMosaic.Lib.Pipeline.Value
import Idealize.ShloMosaic.Lib.ValueIdx
import Idealize.ShloMosaic.PureOps.Ideal
import proofs.«124913_j71159018160549_2_alg».proof.Proof.KVal.StageC.Terms

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

section Stretches

variable (V : Valuation τ sig (Elt Ideal))

set_option maxHeartbeats 4000000 in
theorem s9_v130 : StableHlo.after main_part2_ops0 V (Proc.devRef .tc main_v130)
    = unpack (prop48 (V (Proc.devRef .tc main_v26)) (V (Proc.devRef .tc main_v1)) (V (Proc.devRef .tc main_v2))
        (prop48 (V (Proc.devRef .tc main_v26)) (V (Proc.devRef .tc main_v1)) (V (Proc.devRef .tc main_v2))
          (pack (flat3 (V (Proc.devRef .tc main_v99)))))) := by
  after_results_simp
  rfl

end Stretches

end Cert.KernelIdeal.KVal

end
-- ==== Proof.KVal.StageC.S9b.lean ====
import Idealize.ShloMosaic.Lib.StableHlo.Run
import Idealize.ShloMosaic.Lib.Pipeline.Value
import Idealize.ShloMosaic.Lib.ValueIdx
import Idealize.ShloMosaic.PureOps.Ideal
import proofs.«124913_j71159018160549_2_alg».proof.Proof.KVal.StageC.Terms

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

section Stretches

variable (V : Valuation τ sig (Elt Ideal))

set_option maxHeartbeats 4000000 in
theorem s9_v147 : StableHlo.after main_part2_ops0 V (Proc.devRef .tc main_v147)
    = prop48 (V (Proc.devRef .tc main_v26)) (V (Proc.devRef .tc main_v1)) (V (Proc.devRef .tc main_v2))
        (pack (flat3 (cut3 (V (Proc.devRef .tc main_v77))))) := by
  after_results_simp
  rfl

set_option maxHeartbeats 4000000 in
theorem s9_v148 : StableHlo.after main_part2_ops0 V (Proc.devRef .tc main_v148)
    = broadcastInDim S850000x1 ![0] bcast_S850000_S850000x1_0 (V (Proc.devRef .tc main_v26)) := by
  after_results_simp

set_option maxHeartbeats 4000000 in
theorem s9_v149 : StableHlo.after main_part2_ops0 V (Proc.devRef .tc main_v149)
    = broadcastInDim S850000 ![] bcast_S_S850000 (constantI S_ 32 0#32) := by
  after_results_simp

end Stretches

end Cert.KernelIdeal.KVal

end
-- ==== Proof.KVal.StageC.S10.lean ====
import Idealize.ShloMosaic.Lib.StableHlo.Run
import Idealize.ShloMosaic.Lib.Pipeline.Value
import Idealize.ShloMosaic.Lib.ValueIdx
import Idealize.ShloMosaic.PureOps.Ideal
import proofs.«124913_j71159018160549_2_alg».proof.Proof.KVal.StageC.Terms

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

section Stretches

variable (V : Valuation τ sig (Elt Ideal))

theorem stretch_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih (op.result W)

def pre10 : List (HloOp τ sig (Elt Ideal)) := List.take 35 main_part3_ops0
def last10 : List (HloOp τ sig (Elt Ideal)) := List.drop 35 main_part3_ops0

theorem split10 : (main_part3_ops0 : List (HloOp τ sig (Elt Ideal))) = pre10 ++ last10 :=
  (List.take_append_drop 35 _).symm

theorem after10 : StableHlo.after main_part3_ops0 V = StableHlo.after last10 (StableHlo.after pre10 V) := by
  rw [← stretch_append, ← split10]

theorem last10_v180 (W : Valuation τ sig (Elt Ideal)) :
    StableHlo.after last10 W (Proc.devRef .tc main_v180)
      = stack4 (W (Proc.devRef .tc main_v176)) (W (Proc.devRef .tc main_v177)) (W (Proc.devRef .tc main_v178))
          (W (Proc.devRef .tc main_v179)) := by
  unfold last10
  simp only [main_part3_ops0, List.drop_succ_cons, List.drop_zero, StableHlo.after_cons, StableHlo.after_nil]
  rw [StableHlo.reshape_result_ne]; rotate_left; decide
  rw [StableHlo.nary4_result]
  rfl

theorem last10_keeps (W : Valuation τ sig (Elt Ideal)) (r : Ref sig .tc) (h1 : r ≠ main_v180) (h2 : r ≠ main_v181) :
    StableHlo.after last10 W (Proc.devRef .tc r) = W (Proc.devRef .tc r) := by
  unfold last10
  simp only [main_part3_ops0, List.drop_succ_cons, List.drop_zero, StableHlo.after_cons, StableHlo.after_nil]
  rw [StableHlo.reshape_result_ne (h := h2), StableHlo.nary_result_ne (h := h1)]

set_option maxHeartbeats 4000000 in
theorem s10_v176 : StableHlo.after main_part3_ops0 V (Proc.devRef .tc main_v176)
    = lift3 (V (Proc.devRef .tc main_v79)) := by
  after_results_simp
  rfl
set_option maxHeartbeats 4000000 in
theorem s10_v177 : StableHlo.after main_part3_ops0 V (Proc.devRef .tc main_v177)
    = lift3 (V (Proc.devRef .tc main_v98)) := by
  after_results_simp
  rfl
set_option maxHeartbeats 4000000 in
theorem s10_v178 : StableHlo.after main_part3_ops0 V (Proc.devRef .tc main_v178)
    = lift3 (V (Proc.devRef .tc main_v130)) := by
  after_results_simp
  rfl
set_option maxHeartbeats 4000000 in
theorem s10_v179 : StableHlo.after main_part3_ops0 V (Proc.devRef .tc main_v179)
    = lift3 (unpack (prop48 (V (Proc.devRef .tc main_v26)) (V (Proc.devRef .tc main_v1)) (V (Proc.devRef .tc main_v2))
        (prop48B (V (Proc.devRef .tc main_v148)) (V (Proc.devRef .tc main_v149)) (V (Proc.devRef .tc main_v1))
          (V (Proc.devRef .tc main_v2)) (V (Proc.devRef .tc main_v147))))) := by
  after_results_simp
  rfl

theorem pre10_eq (r : Ref sig .tc) (h1 : r ≠ main_v180) (h2 : r ≠ main_v181) :
    StableHlo.after pre10 V (Proc.devRef .tc r) = StableHlo.after main_part3_ops0 V (Proc.devRef .tc r) := by
  rw [after10, last10_keeps _ r h1 h2]

theorem s10_v180 : StableHlo.after main_part3_ops0 V (Proc.devRef .tc main_v180)
    = stack4 (lift3 (V (Proc.devRef .tc main_v79))) (lift3 (V (Proc.devRef .tc main_v98)))
        (lift3 (V (Proc.devRef .tc main_v130)))
        (lift3 (unpack (prop48 (V (Proc.devRef .tc main_v26)) (V (Proc.devRef .tc main_v1)) (V (Proc.devRef .tc main_v2))
          (prop48B (V (Proc.devRef .tc main_v148)) (V (Proc.devRef .tc main_v149)) (V (Proc.devRef .tc main_v1))
            (V (Proc.devRef .tc main_v2)) (V (Proc.devRef .tc main_v147)))))) := by
  rw [after10, last10_v180, pre10_eq V main_v176 (by decide) (by decide), pre10_eq V main_v177 (by decide) (by decide),
    pre10_eq V main_v178 (by decide) (by decide), pre10_eq V main_v179 (by decide) (by decide),
    s10_v176, s10_v177, s10_v178, s10_v179]

set_option maxHeartbeats 4000000 in
theorem s10_v181 : StableHlo.after main_part3_ops0 V (Proc.devRef .tc main_v181)
    = shapeCast S12x1x40 (V (Proc.devRef .tc main_arg10)) shapeCasts_S12x40_S12x1x40 := by
  after_results_simp
  rfl

end Stretches

end Cert.KernelIdeal.KVal

end
-- ==== Proof.KVal.StageC.lean ====
import Idealize.ShloMosaic.Lib.StableHlo.Run
import Idealize.ShloMosaic.Lib.Pipeline.Value
import Idealize.ShloMosaic.Lib.ValueIdx
import Idealize.ShloMosaic.PureOps.Ideal
import proofs.«124913_j71159018160549_2_alg».proof.Proof.KVal.StageC.Terms
import proofs.«124913_j71159018160549_2_alg».proof.Proof.KVal.StageC.Keep
import proofs.«124913_j71159018160549_2_alg».proof.Proof.KVal.StageC.S8
import proofs.«124913_j71159018160549_2_alg».proof.Proof.KVal.StageC.S9a
import proofs.«124913_j71159018160549_2_alg».proof.Proof.KVal.StageC.S9b
import proofs.«124913_j71159018160549_2_alg».proof.Proof.KVal.StageC.S10

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

section Assemble

variable (V : Valuation τ sig (Elt Ideal))

theorem v180_term :
    StableHlo.after main_part3_ops0 (StableHlo.after main_part2_ops0 (StableHlo.after main_part1_ops1 V))
        (Proc.devRef .tc main_v180)
      = stack4 (lift3 (flat3 (cut0 (V (Proc.devRef .tc main_v77)))))
          (lift3 (unpack (prop48 (V (Proc.devRef .tc main_v26)) (V (Proc.devRef .tc main_v1)) (V (Proc.devRef .tc main_v2))
            (pack (flat3 (cut1 (V (Proc.devRef .tc main_v77))))))))
          (lift3 (unpack (prop48 (V (Proc.devRef .tc main_v26)) (V (Proc.devRef .tc main_v1)) (V (Proc.devRef .tc main_v2))
            (prop48 (V (Proc.devRef .tc main_v26)) (V (Proc.devRef .tc main_v1)) (V (Proc.devRef .tc main_v2))
              (pack (flat3 (cut2 (V (Proc.devRef .tc main_v77)))))))))
          (lift3 (unpack (prop48 (V (Proc.devRef .tc main_v26)) (V (Proc.devRef .tc main_v1)) (V (Proc.devRef .tc main_v2))
            (prop48 (V (Proc.devRef .tc main_v26)) (V (Proc.devRef .tc main_v1)) (V (Proc.devRef .tc main_v2))
              (prop48 (V (Proc.devRef .tc main_v26)) (V (Proc.devRef .tc main_v1)) (V (Proc.devRef .tc main_v2))
                (pack (flat3 (cut3 (V (Proc.devRef .tc main_v77)))))))))) := by
  rw [s10_v180, s9_v79, s9_v98, s9_v130, s9_v147, s9_v148, s9_v149, s9_v26, s9_v1, s9_v2,
    s8_v79, s8_v98, s8_v99, s8_v26, s8_v1, s8_v2, s8_v77, prop48B_eq]

theorem v181_term :
    StableHlo.after main_part3_ops0 (StableHlo.after main_part2_ops0 (StableHlo.after main_part1_ops1 V))
        (Proc.devRef .tc main_v181)
      = shapeCast S12x1x40 (V (Proc.devRef .tc main_arg10)) shapeCasts_S12x40_S12x1x40 := by
  rw [s10_v181, s9_arg10, s8_arg10]

end Assemble

section Deliver

variable (m : (ℓ : Loc nD τ sig) → Buf (Elt Ideal) ℓ) (c : Dev nD)

theorem v180_eq
    (hv77 : W7 m c (Proc.devRef .tc main_v77)
      = fun j : S3x4x50000x16.Idx => Cert.Spec.hid (kA m c) (kP m c) (cellIx (j 0) (j 1)) (j 2) (j 3))
    (hR : W7 m c (Proc.devRef .tc main_v1) = kR m c) (hC : W7 m c (Proc.devRef .tc main_v2) = kC m c)
    (hvals : W7 m c (Proc.devRef .tc main_v26) = kVals m c) :
    W10 m c (Proc.devRef .tc main_v180)
      = fun j : S3x4x50000x16.Idx =>
          Cert.Spec.hop (kA m c) (j 1).val (Cert.Spec.hid (kA m c) (kP m c) (cellIx (j 0) (j 1))) (j 2) (j 3) := by
  funext j
  obtain ⟨r, h, n, q, rfl⟩ : ∃ (r : Fin 3) (h : Fin 4) (n : Fin 50000) (q : Fin 16), j = ix4 r h n q :=
    ⟨j 0, j 1, j 2, j 3, eq_ix4 j⟩
  have hX : ∀ (r : Fin 3) (h : Fin 4) (n : Fin 50000) (q : Fin 16),
      W7 m c (Proc.devRef .tc main_v77) (ix4 r h n q) = Cert.Spec.hid (kA m c) (kP m c) (cellIx r h) n q :=
    fun r h n q => congrFun hv77 (ix4 r h n q)
  have hA : Cert.Spec.adjOf (kVals m c) (kR m c) (cwOf (kC m c)) = kA m c := rfl
  refine (congrFun (v180_term (W7 m c)) (ix4 r h n q)).trans ?_
  rw [hvals, hR, hC]
  show _ = Cert.Spec.hop (kA m c) h.val (Cert.Spec.hid (kA m c) (kP m c) (cellIx r h)) n q
  have h4 : h.val = 0 ∨ h.val = 1 ∨ h.val = 2 ∨ h.val = 3 := by omega
  rcases h4 with h0 | h0 | h0 | h0
  · obtain rfl : h = 0 := Fin.ext h0
    rw [stacked_read0, hX]
    show _ = Cert.Spec.hop (kA m c) 0 (Cert.Spec.hid (kA m c) (kP m c) (cellIx r 0)) n q
    rw [hop_zero]
  · obtain rfl : h = 1 := Fin.ext h0
    rw [stacked_read1, hA]
    have e : (fun (n' : Fin 50000) (j' : Fin 16) => W7 m c (Proc.devRef .tc main_v77) (ix4 r (1 : Fin 4) n' j'))
        = Cert.Spec.hid (kA m c) (kP m c) (cellIx r 1) := funext fun n' => funext fun j' => hX r 1 n' j'
    rw [e]
    rfl
  · obtain rfl : h = 2 := Fin.ext h0
    rw [stacked_read2, hA]
    have e : (fun (n' : Fin 50000) (j' : Fin 16) => W7 m c (Proc.devRef .tc main_v77) (ix4 r (2 : Fin 4) n' j'))
        = Cert.Spec.hid (kA m c) (kP m c) (cellIx r 2) := funext fun n' => funext fun j' => hX r 2 n' j'
    rw [e]
    rfl
  · obtain rfl : h = 3 := Fin.ext h0
    rw [stacked_read3, hA]
    have e : (fun (n' : Fin 50000) (j' : Fin 16) => W7 m c (Proc.devRef .tc main_v77) (ix4 r (3 : Fin 4) n' j'))
        = Cert.Spec.hid (kA m c) (kP m c) (cellIx r 3) := funext fun n' => funext fun j' => hX r 3 n' j'
    rw [e]
    rfl

theorem v181_eq (harg10 : W7 m c (Proc.devRef .tc main_arg10) = m ((c.tc : Thread nD τ).loc main_arg10)) :
    W10 m c (Proc.devRef .tc main_v181) = fun j : S12x1x40.Idx => (kP m c).b2 (ix2 (j 0) (j 2)) := by
  funext j
  obtain ⟨a, u, k, rfl⟩ : ∃ (a : Fin 12) (u : Fin 1) (k : Fin 40), j = ix3 a u k := ⟨j 0, j 1, j 2, eq_ix3 j⟩
  refine (congrFun (v181_term (W7 m c)) (ix3 a u k)).trans ?_
  rw [harg10]
  exact shapeCast_apply _ shapeCasts_S12x40_S12x1x40 (ix3 a u k) (ix2 a k)
    (by rewrite [Shape.rowMajor_val_two, Shape.rowMajor_val_three]
        show a.val * 40 + k.val = (a.val * 1 + u.val) * 40 + k.val
        have := u.isLt
        omega)

theorem keep10_arg9 : W10 m c (Proc.devRef .tc main_arg9) = W7 m c (Proc.devRef .tc main_arg9) :=
  (s10_arg9 _).trans ((s9_arg9 _).trans (s8_arg9 _))
theorem keep10_arg11 : W10 m c (Proc.devRef .tc main_arg11) = W7 m c (Proc.devRef .tc main_arg11) :=
  (s10_arg11 _).trans ((s9_arg11 _).trans (s8_arg11 _))
theorem keep10_arg12 : W10 m c (Proc.devRef .tc main_arg12) = W7 m c (Proc.devRef .tc main_arg12) :=
  (s10_arg12 _).trans ((s9_arg12 _).trans (s8_arg12 _))

end Deliver

end Cert.KernelIdeal.KVal

end
-- ==== Proof.KVal.StageD.lean ====
import proofs.«124913_j71159018160549_2_alg».proof.Proof.KVal.Defs
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.KVal

open Idealize.ShloMosaic Idealize.ShloMosaic.TcCoe Idealize.ShloMosaic.ValueIdx Idealize.SL.Sem
open Cert.KernelIdeal Cert.KernelIdeal.Gen

theorem cellIx_divmod (i : Fin 12) : cellIx ⟨i.val / 4, by omega⟩ ⟨i.val % 4, by omega⟩ = i :=
  Fin.ext (by show 4 * (i.val / 4) + i.val % 4 = i.val; omega)

theorem cellIx_mod (r : Fin 3) (h : Fin 4) : (cellIx r h).val % 4 = h.val := by
  show (4 * r.val + h.val) % 4 = h.val
  omega

section Layout
variable {α : Type}

theorem cells_relayout_apply (x : S3x4x50000x40.Idx → α) (ht : S3x4x50000x40.Transposes [2, 0, 1, 3] S50000x3x4x40)
    (hs : S50000x3x4x40.ShapeCasts S50000x12x40) (n : Fin 50000) (i : Fin 12) (k : Fin 40) :
    shapeCast S50000x12x40 (transpose S50000x3x4x40 [2, 0, 1, 3] x ht) hs (ix3 n i k)
      = x (ix4 (⟨i.val / 4, by omega⟩ : Fin 3) (⟨i.val % 4, by omega⟩ : Fin 4) n k) := by
  rw [shapeCast_apply _ hs (ix3 n i k) (ix4 n (⟨i.val / 4, by omega⟩ : Fin 3) (⟨i.val % 4, by omega⟩ : Fin 4) k) (by
    rw [Shape.rowMajor_val_four, Shape.rowMajor_val_three]
    show ((n.val * 3 + i.val / 4) * 4 + i.val % 4) * 40 + k.val = (n.val * 12 + i.val) * 40 + k.val
    omega)]
  exact transpose_apply [2, 0, 1, 3] x ht _ _ (fun b => match b with
    | ⟨0, _⟩ => rfl | ⟨1, _⟩ => rfl | ⟨2, _⟩ => rfl | ⟨3, _⟩ => rfl)

theorem cells_flatten_apply (y : S50000x12x40.Idx → α) (hs : S50000x12x40.ShapeCasts S50000x480) (n : Fin 50000) (t : Fin 480) :
    shapeCast S50000x480 y hs (ix2 n t) = y (ix3 n (⟨t.val / 40, by omega⟩ : Fin 12) (⟨t.val % 40, by omega⟩ : Fin 40)) :=
  shapeCast_apply y hs _ _ (by
    rw [Shape.rowMajor_val_three, Shape.rowMajor_val_two]
    show (n.val * 12 + t.val / 40) * 40 + t.val % 40 = n.val * 480 + t.val
    omega)

theorem bias_row_apply (v : S40.Idx → α) (hs : S40.ShapeCasts S1x40) (u : Fin 1) (k : Fin 40) :
    shapeCast S1x40 v hs (ix2 u k) = v (ix1 k) :=
  shapeCast_apply v hs _ _ (by
    have hu : u.val = 0 := by omega
    rw [Shape.rowMajor_val_one, Shape.rowMajor_val_two]
    show k.val = u.val * 40 + k.val
    omega)

end Layout

variable (m : (ℓ : Loc nD τ sig) → Buf (Elt Ideal) ℓ) (c : Dev nD)

theorem v186_eq (harg12 : W11 m c (Proc.devRef .tc main_arg12) = m ((c.tc : Thread nD τ).loc main_arg12)) :
    W12 m c (Proc.devRef .tc main_v186) = fun j : S1x40.Idx => (kP m c).bout (ix1 (j 1)) := by
  show StableHlo.after main_part3_ops1 (W11 m c) (Proc.devRef .tc main_v186) = _
  after_results
  rw [harg12]
  funext j
  rw [eq_ix2 j]
  exact bias_row_apply _ _ (j 0) (j 1)

theorem v184_eq
    (hv182 : W11 m c (Proc.devRef .tc main_v182)
      = fun j : S3x4x50000x40.Idx => Cert.Spec.cell (kA m c) (kP m c) (cellIx (j 0) (j 1)) (j 2) (j 3)) :
    W12 m c (Proc.devRef .tc main_v184) = Cert.Spec.out1 (kA m c) (kP m c)
      ∧ W12 m c (Proc.devRef .tc main_v185) = (fun j : S50000x480.Idx => Cert.Spec.flat (kA m c) (kP m c) (j 0) (j 1)) := by
  constructor
  · show StableHlo.after main_part3_ops1 (W11 m c) (Proc.devRef .tc main_v184) = _
    after_results
    rw [hv182]
    funext j
    rw [eq_ix3 j]
    refine (cells_relayout_apply _ _ _ (j 0) (j 1) (j 2)).trans ?_
    show Cert.Spec.cell (kA m c) (kP m c) (cellIx ⟨(j 1).val / 4, _⟩ ⟨(j 1).val % 4, _⟩) (j 0) (j 2) = Cert.Spec.cell (kA m c) (kP m c) (j 1) (j 0) (j 2)
    rw [cellIx_divmod (j 1)]
  · show StableHlo.after main_part3_ops1 (W11 m c) (Proc.devRef .tc main_v185) = _
    after_results
    rw [hv182]
    funext j
    rw [eq_ix2 j]
    refine (cells_flatten_apply _ _ (j 0) (j 1)).trans ?_
    refine (cells_relayout_apply _ _ _ (j 0) _ _).trans ?_
    show Cert.Spec.cell (kA m c) (kP m c) (cellIx ⟨(j 1).val / 40 / 4, _⟩ ⟨(j 1).val / 40 % 4, _⟩) (j 0) ⟨(j 1).val % 40, _⟩ = Cert.Spec.cell (kA m c) (kP m c) ⟨(j 1).val / 40, _⟩ (j 0) ⟨(j 1).val % 40, _⟩
    rw [cellIx_divmod ⟨(j 1).val / 40, _⟩]

theorem results_eq
    (hfinal3 : ∀ (V : (c : Dev nD) → (b : Ref sig .tc) → Buf (Elt Ideal) ((c : Thread nD τ).loc b)) (c : Dev nD),
      (dat3 (F := Ideal) V c).arrAt 3 cfg3.N = fun j : S50000x40.Idx =>
        (∑ t : Fin 480, max (α := EReal) ((V c main_v185 : S50000x480.Idx → EReal) (ix2 (j 0) t)) Cert.Spec.zeroW
            * (V c main_arg11 : S480x40.Idx → EReal) (ix2 t (j 1)))
          + (V c main_v186 : S1x40.Idx → EReal) (ix2 0 (j 1)))
    (hv184 : W12 m c (Proc.devRef .tc main_v184) = Cert.Spec.out1 (kA m c) (kP m c))
    (hv185 : W12 m c (Proc.devRef .tc main_v185) = (fun j : S50000x480.Idx => Cert.Spec.flat (kA m c) (kP m c) (j 0) (j 1)))
    (hv186 : W12 m c (Proc.devRef .tc main_v186) = fun j : S1x40.Idx => (kP m c).bout (ix1 (j 1)))
    (hWout : W12 m c (Proc.devRef .tc main_arg11) = (kP m c).Wout) :
    W13 m c (Proc.devRef .tc main_v187) = Cert.Spec.out0 (kA m c) (kP m c)
      ∧ W13 m c (Proc.devRef .tc main_v184) = Cert.Spec.out1 (kA m c) (kP m c) := by
  constructor
  · refine (W13_arr m c 3).trans ((hfinal3 (V12 m) c).trans ?_)
    funext j
    show (∑ t : Fin 480, max (α := EReal) (W12 m c (Proc.devRef .tc main_v185) (ix2 (j 0) t)) Cert.Spec.zeroW
            * W12 m c (Proc.devRef .tc main_arg11) (ix2 t (j 1)))
          + W12 m c (Proc.devRef .tc main_v186) (ix2 0 (j 1)) = _
    rw [hv185, hv186, hWout]
    rfl
  · exact (W13_of_ne m c main_v184 (by decide)).trans hv184

theorem v182_eq
    (hfinal2 : ∀ (V : (c : Dev nD) → (b : Ref sig .tc) → Buf (Elt Ideal) ((c : Thread nD τ).loc b)) (c : Dev nD),
      (dat2 (F := Ideal) V c).arrAt 3 cfg2.N = fun j : S3x4x50000x40.Idx =>
        Cert.Spec.cellOut (fun n q => (V c main_v180 : S3x4x50000x16.Idx → EReal) (ix4 (j 0) (j 1) n q))
          (fun q k => (V c main_arg9 : S12x16x40.Idx → EReal) (ix3 (cellIx (j 0) (j 1)) q k))
          (fun k => (V c main_v181 : S12x1x40.Idx → EReal) (ix3 (cellIx (j 0) (j 1)) 0 k)) (j 2) (j 3))
    (hv180 : W10 m c (Proc.devRef .tc main_v180) = fun j : S3x4x50000x16.Idx =>
      Cert.Spec.hop (kA m c) (j 1).val (Cert.Spec.hid (kA m c) (kP m c) (cellIx (j 0) (j 1))) (j 2) (j 3))
    (hW2 : W10 m c (Proc.devRef .tc main_arg9) = (kP m c).W2)
    (hv181 : W10 m c (Proc.devRef .tc main_v181) = fun j : S12x1x40.Idx => (kP m c).b2 (ix2 (j 0) (j 2))) :
    W11 m c (Proc.devRef .tc main_v182)
      = fun j : S3x4x50000x40.Idx => Cert.Spec.cell (kA m c) (kP m c) (cellIx (j 0) (j 1)) (j 2) (j 3) := by
  refine (W11_arr m c 3).trans ((hfinal2 (V10 m) c).trans ?_)
  funext j
  show Cert.Spec.cellOut (fun n q => W10 m c (Proc.devRef .tc main_v180) (ix4 (j 0) (j 1) n q))
      (fun q k => W10 m c (Proc.devRef .tc main_arg9) (ix3 (cellIx (j 0) (j 1)) q k))
      (fun k => W10 m c (Proc.devRef .tc main_v181) (ix3 (cellIx (j 0) (j 1)) 0 k)) (j 2) (j 3) = _
  rw [hv180, hW2, hv181]
  unfold Cert.Spec.cell
  rw [cellIx_mod (j 0) (j 1)]

theorem v77_eq
    (hfinal1 : ∀ (V : (c : Dev nD) → (b : Ref sig .tc) → Buf (Elt Ideal) ((c : Thread nD τ).loc b)) (c : Dev nD),
      (dat1 (F := Ideal) V c).arrAt 7 cfg1.N = fun j : S3x4x50000x16.Idx =>
        Cert.Spec.cellHid (fun n k => (V c main_v71 : S4x50000x100.Idx → EReal) (ix3 (j 1) n k))
          (fun k q => (V c main_arg3 : S12x100x16.Idx → EReal) (ix3 (cellIx (j 0) (j 1)) k q))
          (fun q => (V c main_v72 : S12x1x16.Idx → EReal) (ix3 (cellIx (j 0) (j 1)) 0 q))
          (fun q => (V c main_v73 : S12x1x16.Idx → EReal) (ix3 (cellIx (j 0) (j 1)) 0 q))
          (fun q => (V c main_v74 : S12x1x16.Idx → EReal) (ix3 (cellIx (j 0) (j 1)) 0 q))
          (fun q => (V c main_v75 : S12x1x16.Idx → EReal) (ix3 (cellIx (j 0) (j 1)) 0 q))
          (fun q => (V c main_v76 : S12x1x16.Idx → EReal) (ix3 (cellIx (j 0) (j 1)) 0 q)) (j 2) (j 3))
    (hv71 : W6 m c (Proc.devRef .tc main_v71) = fun j : S4x50000x100.Idx => Cert.Spec.xs (kA m c) (kP m c) (j 0).val (j 1) (j 2))
    (hW1 : W6 m c (Proc.devRef .tc main_arg3) = (kP m c).W1)
    (hv72 : W6 m c (Proc.devRef .tc main_v72) = fun j : S12x1x16.Idx => (kP m c).b1 (ix2 (j 0) (j 2)))
    (hv73 : W6 m c (Proc.devRef .tc main_v73) = fun j : S12x1x16.Idx => (kP m c).g (ix2 (j 0) (j 2)))
    (hv74 : W6 m c (Proc.devRef .tc main_v74) = fun j : S12x1x16.Idx => (kP m c).be (ix2 (j 0) (j 2)))
    (hv75 : W6 m c (Proc.devRef .tc main_v75) = fun j : S12x1x16.Idx => (kP m c).mu (ix2 (j 0) (j 2)))
    (hv76 : W6 m c (Proc.devRef .tc main_v76) = fun j : S12x1x16.Idx => (kP m c).var (ix2 (j 0) (j 2))) :
    W7 m c (Proc.devRef .tc main_v77)
      = fun j : S3x4x50000x16.Idx => Cert.Spec.hid (kA m c) (kP m c) (cellIx (j 0) (j 1)) (j 2) (j 3) := by
  refine (W7_arr m c 7).trans ((hfinal1 (V6 m) c).trans ?_)
  funext j
  show Cert.Spec.cellHid (fun n k => W6 m c (Proc.devRef .tc main_v71) (ix3 (j 1) n k))
      (fun k q => W6 m c (Proc.devRef .tc main_arg3) (ix3 (cellIx (j 0) (j 1)) k q))
      (fun q => W6 m c (Proc.devRef .tc main_v72) (ix3 (cellIx (j 0) (j 1)) 0 q))
      (fun q => W6 m c (Proc.devRef .tc main_v73) (ix3 (cellIx (j 0) (j 1)) 0 q))
      (fun q => W6 m c (Proc.devRef .tc main_v74) (ix3 (cellIx (j 0) (j 1)) 0 q))
      (fun q => W6 m c (Proc.devRef .tc main_v75) (ix3 (cellIx (j 0) (j 1)) 0 q))
      (fun q => W6 m c (Proc.devRef .tc main_v76) (ix3 (cellIx (j 0) (j 1)) 0 q)) (j 2) (j 3) = _
  rw [hv71, hW1, hv72, hv73, hv74, hv75, hv76]
  unfold Cert.Spec.hid
  rw [cellIx_mod (j 0) (j 1)]

end Cert.KernelIdeal.KVal

end
-- ==== Proof.KVal.Kernel.lean ====
import proofs.«124913_j71159018160549_2_alg».proof.Proof.Frame.Args
import proofs.«124913_j71159018160549_2_alg».proof.Proof.KVal.Regions
import proofs.«124913_j71159018160549_2_alg».proof.Proof.KVal.StageA
import proofs.«124913_j71159018160549_2_alg».proof.Proof.KVal.StageC
import proofs.«124913_j71159018160549_2_alg».proof.Proof.KVal.StageD

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

theorem results : W13 m c (Proc.devRef .tc main_v187) = Cert.Spec.out0 (kA m c) (kP m c)
    ∧ W13 m c (Proc.devRef .tc main_v184) = Cert.Spec.out1 (kA m c) (kP m c) := by
  have hv27 := v27_eq m c (fun V => final0 V c)
  have hv71 := v71_eq m c hv27
  have hv77 := v77_eq m c (fun V c => final1 V c) hv71 (arg_kept m c main_arg3 (by decide)).1 (v72_eq m c) (v73_eq m c) (v74_eq m c)
    (v75_eq m c) (v76_eq m c)
  have hv180 := v180_eq m c hv77 (kept m c main_v1 (by decide)).2.1 (kept m c main_v2 (by decide)).2.1 (kept m c main_v26 (by decide)).2.1
  have hv181 := v181_eq m c (arg_kept m c main_arg10 (by decide)).2.1
  have hv182 := v182_eq m c (fun V c => final2 V c) hv180 (arg_kept m c main_arg9 (by decide)).2.2.1 hv181
  obtain ⟨hv184, hv185⟩ := v184_eq m c hv182
  have hv186 := v186_eq m c (arg_kept m c main_arg12 (by decide)).2.2.2.1
  exact results_eq m c (fun V c => final3 V c) hv184 hv185 hv186 (arg_kept m c main_arg11 (by decide)).2.2.2.2.1

theorem kernel_values (ρ : Dev nD → PrngReg) :
    θ_run defs (onTc (τ := τ) (main (F := Ideal))) ⟨m, fun _ => 0, ρ⟩ (fun r => ∀ c : Dev nD,
      r.2.mem ((c.tc : Thread nD τ).loc main_v187) = Cert.Spec.out0 (kA m c) (kP m c)
      ∧ r.2.mem ((c.tc : Thread nD τ).loc main_v184) = Cert.Spec.out1 (kA m c) (kP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have a := args_of_last m c r.2.mem (h c)
    ⟨(h c _ (mem_uc main_v187 (by decide))).trans (results m c).1,
     (h c _ (mem_uc main_v184 (by decide))).trans (results m c).2,
     a main_arg0 (by decide) (by decide),
     a main_arg1 (by decide) (by decide),
     a main_arg2 (by decide) (by decide),
     a main_arg3 (by decide) (by decide),
     a main_arg4 (by decide) (by decide),
     a main_arg5 (by decide) (by decide),
     a main_arg6 (by decide) (by decide),
     a main_arg7 (by decide) (by decide),
     a main_arg8 (by decide) (by decide),
     a main_arg9 (by decide) (by decide),
     a main_arg10 (by decide) (by decide),
     a main_arg11 (by decide) (by decide),
     a main_arg12 (by decide) (by decide)⟩)
    (run_all (F := Ideal) m ρ)

end Cert.KernelIdeal.KVal

end
-- ==== Proof.RVal.Ops.lean ====
import proofs.«124913_j71159018160549_2_alg».proof.Proof.Gen.ReferenceIdeal
import Idealize.ShloMosaic.Lib.StableHlo.Run

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

abbrev rops0 : List (HloOp τ sig (Elt F)) :=
  [ nullary main_v0 (iotaInDim S50000 32 0),
    binary main_arg1 main_v0 main_v1 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_arg2 main_v0 main_v2 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v3 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v4 (broadcastInDim S50000 ![] bcast_S_S50000 : (⟨S_, .f32⟩ : BufTy).Contents (Elt F) → (⟨S50000, .f32⟩ : BufTy).Contents (Elt F)),
    unary main_v1 main_v5 (broadcastInDim S850000x1 ![0] bcast_S850000_S850000x1_0 : (⟨S850000, .i32⟩ : BufTy).Contents (Elt F) → (⟨S850000x1, .i32⟩ : BufTy).Contents (Elt F)),
    ternary main_v4 main_v5 main_v3 main_v6 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v7 (broadcastInDim S50000 ![] bcast_S_S50000 : (⟨S_, .f32⟩ : BufTy).Contents (Elt F) → (⟨S50000, .f32⟩ : BufTy).Contents (Elt F)),
    binary main_v6 main_v7 main_v8 (cmpf .ogt : (⟨S50000, .f32⟩ : BufTy).Contents (Elt F) → (⟨S50000, .f32⟩ : BufTy).Contents (Elt F) → (⟨S50000, .i1⟩ : BufTy).Contents (Elt F)),
    unary main_v6 main_v9 (Host.rsqrt : (⟨S50000, .f32⟩ : BufTy).Contents (Elt F) → (⟨S50000, .f32⟩ : BufTy).Contents (Elt F)),
    nullary main_cst_2 (constant S_ .f32 0x00000000#32),
    unary main_cst_2 main_v10 (broadcastInDim S50000 ![] bcast_S_S50000 : (⟨S_, .f32⟩ : BufTy).Contents (Elt F) → (⟨S50000, .f32⟩ : BufTy).Contents (Elt F)),
    TRef.ternary (TRef.of (T := ⟨S50000, .i1⟩) main_v8) (TRef.of (T := ⟨S50000, .f32⟩) main_v9) (TRef.of (T := ⟨S50000, .f32⟩) main_v10) (TRef.of (T := ⟨S50000, .f32⟩) main_v11) select,
    nullary main_c (constantI S_ 32 0#32),
    unary main_c main_v12 (broadcastInDim S850000 ![] bcast_S_S850000 : (⟨S_, .i32⟩ : BufTy).Contents (Elt F) → (⟨S850000, .i32⟩ : BufTy).Contents (Elt F)),
    binary main_v1 main_v12 main_v13 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v14 (broadcastInDim S850000 ![] bcast_S_S850000 : (⟨S_, .i32⟩ : BufTy).Contents (Elt F) → (⟨S850000, .i32⟩ : BufTy).Contents (Elt F)),
    binary main_v1 main_v14 main_v15 (addi : (⟨S850000, .i32⟩ : BufTy).Contents (Elt F) → (⟨S850000, .i32⟩ : BufTy).Contents (Elt F) → (⟨S850000, .i32⟩ : BufTy).Contents (Elt F)),
    ternary main_v13 main_v15 main_v1 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v16 main_v17 (broadcastInDim S850000x1 ![0] bcast_S850000_S850000x1_0 : (⟨S850000, .i32⟩ : BufTy).Contents (Elt F) → (⟨S850000x1, .i32⟩ : BufTy).Contents (Elt F)),
    binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v19 (broadcastInDim S850000 ![] bcast_S_S850000 : (⟨S_, .i32⟩ : BufTy).Contents (Elt F) → (⟨S850000, .i32⟩ : BufTy).Contents (Elt F)),
    binary main_v2 main_v19 main_v20 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v21 (broadcastInDim S850000 ![] bcast_S_S850000 : (⟨S_, .i32⟩ : BufTy).Contents (Elt F) → (⟨S850000, .i32⟩ : BufTy).Contents (Elt F)),
    binary main_v2 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v2 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v18 main_v25 main_v26 (mulf : (⟨S850000, .f32⟩ : BufTy).Contents (Elt F) → (⟨S850000, .f32⟩ : BufTy).Contents (Elt F) → (⟨S850000, .f32⟩ : BufTy).Contents (Elt F)) ]

set_option maxRecDepth 8192 in
theorem rops0_sub : (rops0 : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

abbrev rops1 : List (HloOp τ sig (Elt F)) :=
  [ TRef.binary (TRef.of (T := ⟨S50000x100, .f32⟩) main_arg0) (TRef.of (T := ⟨S50000x100, .f32⟩) main_arg0) (TRef.of (T := ⟨S50000x100, .f32⟩) main_call1_v0) mulf,
    TRef.nullary (TRef.of (T := ⟨S_, .f32⟩) main_call1_cst) (constant S_ .f32 0x00000000#32),
    TRef.binary (TRef.of (T := ⟨S50000x100, .f32⟩) main_call1_v0) (TRef.of (T := ⟨S_, .f32⟩) main_call1_cst) (TRef.of (T := ⟨S50000, .f32⟩) main_call1_v1) (fun x v => Host.reduceAdd x v reducesTo_S50000x100_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v27) Host.sqrt,
    nullary main_cst_6 (constant S_ .f32 0x2B8CBCCC#32),
    unary main_cst_6 main_v28 (broadcastInDim S50000x1 ![] bcast_S_S50000x1 : (⟨S_, .f32⟩ : BufTy).Contents (Elt F) → (⟨S50000x1, .f32⟩ : BufTy).Contents (Elt F)),
    binary main_v27 main_v28 main_v29 (maximumf : (⟨S50000x1, .f32⟩ : BufTy).Contents (Elt F) → (⟨S50000x1, .f32⟩ : BufTy).Contents (Elt F) → (⟨S50000x1, .f32⟩ : BufTy).Contents (Elt F)),
    unary main_v29 main_v30 (broadcastInDim S50000x100 ![0, 1] bcast_S50000x1_S50000x100_0_1 : (⟨S50000x1, .f32⟩ : BufTy).Contents (Elt F) → (⟨S50000x100, .f32⟩ : BufTy).Contents (Elt F)),
    binary main_arg0 main_v30 main_v31 (Host.divf : (⟨S50000x100, .f32⟩ : BufTy).Contents (Elt F) → (⟨S50000x100, .f32⟩ : BufTy).Contents (Elt F) → (⟨S50000x100, .f32⟩ : BufTy).Contents (Elt F)),
    unary main_v26 main_v32 (broadcastInDim S850000x1 ![0] bcast_S850000_S850000x1_0 : (⟨S850000, .f32⟩ : BufTy).Contents (Elt F) → (⟨S850000x1, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v2 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v2 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v2 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v31 main_v38 main_v39 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)),
    unary main_v32 main_v40 (broadcastInDim S850000x100 ![0, 1] bcast_S850000x1_S850000x100_0_1 : (⟨S850000x1, .f32⟩ : BufTy).Contents (Elt F) → (⟨S850000x100, .f32⟩ : BufTy).Contents (Elt F)),
    binary main_v40 main_v39 main_v41 (mulf : (⟨S850000x100, .f32⟩ : BufTy).Contents (Elt F) → (⟨S850000x100, .f32⟩ : BufTy).Contents (Elt F) → (⟨S850000x100, .f32⟩ : BufTy).Contents (Elt F)),
    nullary main_cst_9 (constant S_ .f32 0x00000000#32),
    unary main_cst_9 main_v42 (broadcastInDim S50000x100 ![] bcast_S_S50000x100 : (⟨S_, .f32⟩ : BufTy).Contents (Elt F) → (⟨S50000x100, .f32⟩ : BufTy).Contents (Elt F)),
    unary main_v1 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)),
    unary main_v26 main_v45 (broadcastInDim S850000x1 ![0] bcast_S850000_S850000x1_0 : (⟨S850000, .f32⟩ : BufTy).Contents (Elt F) → (⟨S850000x1, .f32⟩ : BufTy).Contents (Elt F)),
    nullary main_c_10 (constantI S_ 32 0#32),
    unary main_c_10 main_v46 (broadcastInDim S850000 ![] bcast_S_S850000 : (⟨S_, .i32⟩ : BufTy).Contents (Elt F) → (⟨S850000, .i32⟩ : BufTy).Contents (Elt F)),
    binary main_v2 main_v46 main_v47 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v48 (broadcastInDim S850000 ![] bcast_S_S850000 : (⟨S_, .i32⟩ : BufTy).Contents (Elt F) → (⟨S850000, .i32⟩ : BufTy).Contents (Elt F)),
    binary main_v2 main_v48 main_v49 (addi : (⟨S850000, .i32⟩ : BufTy).Contents (Elt F) → (⟨S850000, .i32⟩ : BufTy).Contents (Elt F) → (⟨S850000, .i32⟩ : BufTy).Contents (Elt F)),
    ternary main_v47 main_v49 main_v2 main_v50 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v50 main_v51 (broadcastInDim S850000x1 ![0] bcast_S850000_S850000x1_0 : (⟨S850000, .i32⟩ : BufTy).Contents (Elt F) → (⟨S850000x1, .i32⟩ : BufTy).Contents (Elt F)),
    binary main_v44 main_v51 main_v52 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)),
    unary main_v45 main_v53 (broadcastInDim S850000x100 ![0, 1] bcast_S850000x1_S850000x100_0_1 : (⟨S850000x1, .f32⟩ : BufTy).Contents (Elt F) → (⟨S850000x100, .f32⟩ : BufTy).Contents (Elt F)),
    binary main_v53 main_v52 main_v54 (mulf : (⟨S850000x100, .f32⟩ : BufTy).Contents (Elt F) → (⟨S850000x100, .f32⟩ : BufTy).Contents (Elt F) → (⟨S850000x100, .f32⟩ : BufTy).Contents (Elt F)),
    nullary main_cst_12 (constant S_ .f32 0x00000000#32),
    unary main_cst_12 main_v55 (broadcastInDim S50000x100 ![] bcast_S_S50000x100 : (⟨S_, .f32⟩ : BufTy).Contents (Elt F) → (⟨S50000x100, .f32⟩ : BufTy).Contents (Elt F)),
    unary main_v1 main_v56 (broadcastInDim S850000x1 ![0] bcast_S850000_S850000x1_0 : (⟨S850000, .i32⟩ : BufTy).Contents (Elt F) → (⟨S850000x1, .i32⟩ : BufTy).Contents (Elt F)),
    ternary main_v55 main_v56 main_v54 main_v57 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)),
    unary main_v26 main_v58 (broadcastInDim S850000x1 ![0] bcast_S850000_S850000x1_0 : (⟨S850000, .f32⟩ : BufTy).Contents (Elt F) → (⟨S850000x1, .f32⟩ : BufTy).Contents (Elt F)),
    nullary main_c_13 (constantI S_ 32 0#32),
    unary main_c_13 main_v59 (broadcastInDim S850000 ![] bcast_S_S850000 : (⟨S_, .i32⟩ : BufTy).Contents (Elt F) → (⟨S850000, .i32⟩ : BufTy).Contents (Elt F)),
    binary main_v2 main_v59 main_v60 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v61 (broadcastInDim S850000 ![] bcast_S_S850000 : (⟨S_, .i32⟩ : BufTy).Contents (Elt F) → (⟨S850000, .i32⟩ : BufTy).Contents (Elt F)),
    binary main_v2 main_v61 main_v62 (addi : (⟨S850000, .i32⟩ : BufTy).Contents (Elt F) → (⟨S850000, .i32⟩ : BufTy).Contents (Elt F) → (⟨S850000, .i32⟩ : BufTy).Contents (Elt F)),
    ternary main_v60 main_v62 main_v2 main_v63 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v63 main_v64 (broadcastInDim S850000x1 ![0] bcast_S850000_S850000x1_0 : (⟨S850000, .i32⟩ : BufTy).Contents (Elt F) → (⟨S850000x1, .i32⟩ : BufTy).Contents (Elt F)),
    binary main_v57 main_v64 main_v65 ((fun x i => Host.gather gather_S50000x100_S850000x1_S850000x100_1_0_n_n_0_1_1100 x i) : (⟨S50000x100, .f32⟩ : BufTy).Contents (Elt F) → (⟨S850000x1, .i32⟩ : BufTy).Contents (Elt F) → (⟨S850000x100, .f32⟩ : BufTy).Contents (Elt F)),
    unary main_v58 main_v66 (broadcastInDim S850000x100 ![0, 1] bcast_S850000x1_S850000x100_0_1 : (⟨S850000x1, .f32⟩ : BufTy).Contents (Elt F) → (⟨S850000x100, .f32⟩ : BufTy).Contents (Elt F)),
    binary main_v66 main_v65 main_v67 (mulf : (⟨S850000x100, .f32⟩ : BufTy).Contents (Elt F) → (⟨S850000x100, .f32⟩ : BufTy).Contents (Elt F) → (⟨S850000x100, .f32⟩ : BufTy).Contents (Elt F)),
    nullary main_cst_15 (constant S_ .f32 0x00000000#32),
    unary main_cst_15 main_v68 (broadcastInDim S50000x100 ![] bcast_S_S50000x100 : (⟨S_, .f32⟩ : BufTy).Contents (Elt F) → (⟨S50000x100, .f32⟩ : BufTy).Contents (Elt F)),
    unary main_v1 main_v69 (broadcastInDim S850000x1 ![0] bcast_S850000_S850000x1_0 : (⟨S850000, .i32⟩ : BufTy).Contents (Elt F) → (⟨S850000x1, .i32⟩ : BufTy).Contents (Elt F)),
    ternary main_v68 main_v69 main_v67 main_v70 ((fun x i u => Host.scatterAdd scatter_S50000x100_S850000x1_S850000x100_1_0_0_1 x i u) : (⟨S50000x100, .f32⟩ : BufTy).Contents (Elt F) → (⟨S850000x1, .i32⟩ : BufTy).Contents (Elt F) → (⟨S850000x100, .f32⟩ : BufTy).Contents (Elt F) → (⟨S50000x100, .f32⟩ : BufTy).Contents (Elt F)) ]

set_option maxRecDepth 8192 in
theorem rops1_sub : (rops1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

abbrev rops2 : List (HloOp τ sig (Elt F)) :=
  [ unary main_arg3 main_v71 ((extractStridedSlice S1x100x16 ![0, 0, 0] · slices_S12x100x16_S1x100x16_0_0_0) : (⟨S12x100x16, .f32⟩ : BufTy).Contents (Elt F) → (⟨S1x100x16, .f32⟩ : BufTy).Contents (Elt F)),
    reshape main_v71 main_v72 rfl shapeCasts_S1x100x16_S100x16,
    binary main_v31 main_v72 main_v73 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v74 ((extractStridedSlice S1x16 ![0, 0] · slices_S12x16_S1x16_0_0) : (⟨S12x16, .f32⟩ : BufTy).Contents (Elt F) → (⟨S1x16, .f32⟩ : BufTy).Contents (Elt F)),
    reshape main_v74 main_v75 rfl shapeCasts_S1x16_S16,
    unary main_v75 main_v76 (broadcastInDim S1x16 ![1] bcast_S16_S1x16_1 : (⟨S16, .f32⟩ : BufTy).Contents (Elt F) → (⟨S1x16, .f32⟩ : BufTy).Contents (Elt F)),
    unary main_v76 main_v77 (broadcastInDim S50000x16 ![0, 1] bcast_S1x16_S50000x16_0_1 : (⟨S1x16, .f32⟩ : BufTy).Contents (Elt F) → (⟨S50000x16, .f32⟩ : BufTy).Contents (Elt F)),
    binary main_v73 main_v77 main_v78 (addf : (⟨S50000x16, .f32⟩ : BufTy).Contents (Elt F) → (⟨S50000x16, .f32⟩ : BufTy).Contents (Elt F) → (⟨S50000x16, .f32⟩ : BufTy).Contents (Elt F)),
    unary main_arg7 main_v79 ((extractStridedSlice S1x16 ![0, 0] · slices_S12x16_S1x16_0_0) : (⟨S12x16, .f32⟩ : BufTy).Contents (Elt F) → (⟨S1x16, .f32⟩ : BufTy).Contents (Elt F)),
    reshape main_v79 main_v80 rfl shapeCasts_S1x16_S16,
    unary main_v80 main_v81 (broadcastInDim S1x16 ![1] bcast_S16_S1x16_1 : (⟨S16, .f32⟩ : BufTy).Contents (Elt F) → (⟨S1x16, .f32⟩ : BufTy).Contents (Elt F)),
    unary main_v81 main_v82 (broadcastInDim S50000x16 ![0, 1] bcast_S1x16_S50000x16_0_1 : (⟨S1x16, .f32⟩ : BufTy).Contents (Elt F) → (⟨S50000x16, .f32⟩ : BufTy).Contents (Elt F)),
    binary main_v78 main_v82 main_v83 (subf : (⟨S50000x16, .f32⟩ : BufTy).Contents (Elt F) → (⟨S50000x16, .f32⟩ : BufTy).Contents (Elt F) → (⟨S50000x16, .f32⟩ : BufTy).Contents (Elt F)),
    unary main_arg5 main_v84 ((extractStridedSlice S1x16 ![0, 0] · slices_S12x16_S1x16_0_0) : (⟨S12x16, .f32⟩ : BufTy).Contents (Elt F) → (⟨S1x16, .f32⟩ : BufTy).Contents (Elt F)),
    reshape main_v84 main_v85 rfl shapeCasts_S1x16_S16,
    unary main_arg8 main_v86 ((extractStridedSlice S1x16 ![0, 0] · slices_S12x16_S1x16_0_0) : (⟨S12x16, .f32⟩ : BufTy).Contents (Elt F) → (⟨S1x16, .f32⟩ : BufTy).Contents (Elt F)),
    reshape main_v86 main_v87 rfl shapeCasts_S1x16_S16,
    nullary main_cst_16 (constant S_ .f32 0x3727C5AC#32),
    unary main_cst_16 main_v88 (broadcastInDim S16 ![] bcast_S_S16 : (⟨S_, .f32⟩ : BufTy).Contents (Elt F) → (⟨S16, .f32⟩ : BufTy).Contents (Elt F)),
    binary main_v87 main_v88 main_v89 (addf : (⟨S16, .f32⟩ : BufTy).Contents (Elt F) → (⟨S16, .f32⟩ : BufTy).Contents (Elt F) → (⟨S16, .f32⟩ : BufTy).Contents (Elt F)),
    unary main_v89 main_v90 (Host.rsqrt : (⟨S16, .f32⟩ : BufTy).Contents (Elt F) → (⟨S16, .f32⟩ : BufTy).Contents (Elt F)),
    binary main_v85 main_v90 main_v91 (mulf : (⟨S16, .f32⟩ : BufTy).Contents (Elt F) → (⟨S16, .f32⟩ : BufTy).Contents (Elt F) → (⟨S16, .f32⟩ : BufTy).Contents (Elt F)),
    unary main_v91 main_v92 (broadcastInDim S1x16 ![1] bcast_S16_S1x16_1 : (⟨S16, .f32⟩ : BufTy).Contents (Elt F) → (⟨S1x16, .f32⟩ : BufTy).Contents (Elt F)),
    unary main_v92 main_v93 (broadcastInDim S50000x16 ![0, 1] bcast_S1x16_S50000x16_0_1 : (⟨S1x16, .f32⟩ : BufTy).Contents (Elt F) → (⟨S50000x16, .f32⟩ : BufTy).Contents (Elt F)),
    binary main_v83 main_v93 main_v94 (mulf : (⟨S50000x16, .f32⟩ : BufTy).Contents (Elt F) → (⟨S50000x16, .f32⟩ : BufTy).Contents (Elt F) → (⟨S50000x16, .f32⟩ : BufTy).Contents (Elt F)),
    unary main_arg6 main_v95 ((extractStridedSlice S1x16 ![0, 0] · slices_S12x16_S1x16_0_0) : (⟨S12x16, .f32⟩ : BufTy).Contents (Elt F) → (⟨S1x16, .f32⟩ : BufTy).Contents (Elt F)),
    reshape main_v95 main_v96 rfl shapeCasts_S1x16_S16,
    unary main_v96 main_v97 (broadcastInDim S1x16 ![1] bcast_S16_S1x16_1 : (⟨S16, .f32⟩ : BufTy).Contents (Elt F) → (⟨S1x16, .f32⟩ : BufTy).Contents (Elt F)),
    unary main_v97 main_v98 (broadcastInDim S50000x16 ![0, 1] bcast_S1x16_S50000x16_0_1 : (⟨S1x16, .f32⟩ : BufTy).Contents (Elt F) → (⟨S50000x16, .f32⟩ : BufTy).Contents (Elt F)),
    binary main_v94 main_v98 main_v99 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x16, .f32⟩) main_call2_v0) (broadcastInDim S50000x16 ![] bcast_S_S50000x16),
    TRef.binary (TRef.of (T := ⟨S50000x16, .f32⟩) main_v99) (TRef.of (T := ⟨S50000x16, .f32⟩) main_call2_v0) (TRef.of (T := ⟨S50000x16, .f32⟩) main_v100) maximumf ]

set_option maxRecDepth 8192 in
theorem rops2_sub : (rops2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops3 : List (HloOp τ sig (Elt F)) :=
  [ unary main_arg9 main_v101 ((extractStridedSlice S1x16x40 ![0, 0, 0] · slices_S12x16x40_S1x16x40_0_0_0) : (⟨S12x16x40, .f32⟩ : BufTy).Contents (Elt F) → (⟨S1x16x40, .f32⟩ : BufTy).Contents (Elt F)),
    reshape main_v101 main_v102 rfl shapeCasts_S1x16x40_S16x40,
    binary main_v100 main_v102 main_v103 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v104 ((extractStridedSlice S1x40 ![0, 0] · slices_S12x40_S1x40_0_0) : (⟨S12x40, .f32⟩ : BufTy).Contents (Elt F) → (⟨S1x40, .f32⟩ : BufTy).Contents (Elt F)),
    reshape main_v104 main_v105 rfl shapeCasts_S1x40_S40,
    unary main_v105 main_v106 (broadcastInDim S1x40 ![1] bcast_S40_S1x40_1 : (⟨S40, .f32⟩ : BufTy).Contents (Elt F) → (⟨S1x40, .f32⟩ : BufTy).Contents (Elt F)),
    unary main_v106 main_v107 (broadcastInDim S50000x40 ![0, 1] bcast_S1x40_S50000x40_0_1 : (⟨S1x40, .f32⟩ : BufTy).Contents (Elt F) → (⟨S50000x40, .f32⟩ : BufTy).Contents (Elt F)),
    binary main_v103 main_v107 main_v108 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops3_sub : (rops3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩

abbrev rops4 : List (HloOp τ sig (Elt F)) :=
  [ unary main_arg3 main_v109 ((extractStridedSlice S1x100x16 ![1, 0, 0] · slices_S12x100x16_S1x100x16_1_0_0) : (⟨S12x100x16, .f32⟩ : BufTy).Contents (Elt F) → (⟨S1x100x16, .f32⟩ : BufTy).Contents (Elt F)),
    reshape main_v109 main_v110 rfl shapeCasts_S1x100x16_S100x16,
    binary main_v44 main_v110 main_v111 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v112 ((extractStridedSlice S1x16 ![1, 0] · slices_S12x16_S1x16_1_0) : (⟨S12x16, .f32⟩ : BufTy).Contents (Elt F) → (⟨S1x16, .f32⟩ : BufTy).Contents (Elt F)),
    reshape main_v112 main_v113 rfl shapeCasts_S1x16_S16,
    unary main_v113 main_v114 (broadcastInDim S1x16 ![1] bcast_S16_S1x16_1 : (⟨S16, .f32⟩ : BufTy).Contents (Elt F) → (⟨S1x16, .f32⟩ : BufTy).Contents (Elt F)),
    unary main_v114 main_v115 (broadcastInDim S50000x16 ![0, 1] bcast_S1x16_S50000x16_0_1 : (⟨S1x16, .f32⟩ : BufTy).Contents (Elt F) → (⟨S50000x16, .f32⟩ : BufTy).Contents (Elt F)),
    binary main_v111 main_v115 main_v116 (addf : (⟨S50000x16, .f32⟩ : BufTy).Contents (Elt F) → (⟨S50000x16, .f32⟩ : BufTy).Contents (Elt F) → (⟨S50000x16, .f32⟩ : BufTy).Contents (Elt F)),
    unary main_arg7 main_v117 ((extractStridedSlice S1x16 ![1, 0] · slices_S12x16_S1x16_1_0) : (⟨S12x16, .f32⟩ : BufTy).Contents (Elt F) → (⟨S1x16, .f32⟩ : BufTy).Contents (Elt F)),
    reshape main_v117 main_v118 rfl shapeCasts_S1x16_S16,
    unary main_v118 main_v119 (broadcastInDim S1x16 ![1] bcast_S16_S1x16_1 : (⟨S16, .f32⟩ : BufTy).Contents (Elt F) → (⟨S1x16, .f32⟩ : BufTy).Contents (Elt F)),
    unary main_v119 main_v120 (broadcastInDim S50000x16 ![0, 1] bcast_S1x16_S50000x16_0_1 : (⟨S1x16, .f32⟩ : BufTy).Contents (Elt F) → (⟨S50000x16, .f32⟩ : BufTy).Contents (Elt F)),
    binary main_v116 main_v120 main_v121 (subf : (⟨S50000x16, .f32⟩ : BufTy).Contents (Elt F) → (⟨S50000x16, .f32⟩ : BufTy).Contents (Elt F) → (⟨S50000x16, .f32⟩ : BufTy).Contents (Elt F)),
    unary main_arg5 main_v122 ((extractStridedSlice S1x16 ![1, 0] · slices_S12x16_S1x16_1_0) : (⟨S12x16, .f32⟩ : BufTy).Contents (Elt F) → (⟨S1x16, .f32⟩ : BufTy).Contents (Elt F)),
    reshape main_v122 main_v123 rfl shapeCasts_S1x16_S16,
    unary main_arg8 main_v124 ((extractStridedSlice S1x16 ![1, 0] · slices_S12x16_S1x16_1_0) : (⟨S12x16, .f32⟩ : BufTy).Contents (Elt F) → (⟨S1x16, .f32⟩ : BufTy).Contents (Elt F)),
    reshape main_v124 main_v125 rfl shapeCasts_S1x16_S16,
    nullary main_cst_17 (constant S_ .f32 0x3727C5AC#32),
    unary main_cst_17 main_v126 (broadcastInDim S16 ![] bcast_S_S16 : (⟨S_, .f32⟩ : BufTy).Contents (Elt F) → (⟨S16, .f32⟩ : BufTy).Contents (Elt F)),
    binary main_v125 main_v126 main_v127 (addf : (⟨S16, .f32⟩ : BufTy).Contents (Elt F) → (⟨S16, .f32⟩ : BufTy).Contents (Elt F) → (⟨S16, .f32⟩ : BufTy).Contents (Elt F)),
    unary main_v127 main_v128 (Host.rsqrt : (⟨S16, .f32⟩ : BufTy).Contents (Elt F) → (⟨S16, .f32⟩ : BufTy).Contents (Elt F)),
    binary main_v123 main_v128 main_v129 (mulf : (⟨S16, .f32⟩ : BufTy).Contents (Elt F) → (⟨S16, .f32⟩ : BufTy).Contents (Elt F) → (⟨S16, .f32⟩ : BufTy).Contents (Elt F)),
    unary main_v129 main_v130 (broadcastInDim S1x16 ![1] bcast_S16_S1x16_1 : (⟨S16, .f32⟩ : BufTy).Contents (Elt F) → (⟨S1x16, .f32⟩ : BufTy).Contents (Elt F)),
    unary main_v130 main_v131 (broadcastInDim S50000x16 ![0, 1] bcast_S1x16_S50000x16_0_1 : (⟨S1x16, .f32⟩ : BufTy).Contents (Elt F) → (⟨S50000x16, .f32⟩ : BufTy).Contents (Elt F)),
    binary main_v121 main_v131 main_v132 (mulf : (⟨S50000x16, .f32⟩ : BufTy).Contents (Elt F) → (⟨S50000x16, .f32⟩ : BufTy).Contents (Elt F) → (⟨S50000x16, .f32⟩ : BufTy).Contents (Elt F)),
    unary main_arg6 main_v133 ((extractStridedSlice S1x16 ![1, 0] · slices_S12x16_S1x16_1_0) : (⟨S12x16, .f32⟩ : BufTy).Contents (Elt F) → (⟨S1x16, .f32⟩ : BufTy).Contents (Elt F)),
    reshape main_v133 main_v134 rfl shapeCasts_S1x16_S16,
    unary main_v134 main_v135 (broadcastInDim S1x16 ![1] bcast_S16_S1x16_1 : (⟨S16, .f32⟩ : BufTy).Contents (Elt F) → (⟨S1x16, .f32⟩ : BufTy).Contents (Elt F)),
    unary main_v135 main_v136 (broadcastInDim S50000x16 ![0, 1] bcast_S1x16_S50000x16_0_1 : (⟨S1x16, .f32⟩ : BufTy).Contents (Elt F) → (⟨S50000x16, .f32⟩ : BufTy).Contents (Elt F)),
    binary main_v132 main_v136 main_v137 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x16, .f32⟩) main_call3_v0) (broadcastInDim S50000x16 ![] bcast_S_S50000x16),
    TRef.binary (TRef.of (T := ⟨S50000x16, .f32⟩) main_v137) (TRef.of (T := ⟨S50000x16, .f32⟩) main_call3_v0) (TRef.of (T := ⟨S50000x16, .f32⟩) main_v138) maximumf ]

set_option maxRecDepth 8192 in
theorem rops4_sub : (rops4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops5 : List (HloOp τ sig (Elt F)) :=
  [ unary main_v26 main_v139 (broadcastInDim S850000x1 ![0] bcast_S850000_S850000x1_0 : (⟨S850000, .f32⟩ : BufTy).Contents (Elt F) → (⟨S850000x1, .f32⟩ : BufTy).Contents (Elt F)),
    nullary main_c_18 (constantI S_ 32 0#32),
    unary main_c_18 main_v140 (broadcastInDim S850000 ![] bcast_S_S850000 : (⟨S_, .i32⟩ : BufTy).Contents (Elt F) → (⟨S850000, .i32⟩ : BufTy).Contents (Elt F)),
    binary main_v2 main_v140 main_v141 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v142 (broadcastInDim S850000 ![] bcast_S_S850000 : (⟨S_, .i32⟩ : BufTy).Contents (Elt F) → (⟨S850000, .i32⟩ : BufTy).Contents (Elt F)),
    binary main_v2 main_v142 main_v143 (addi : (⟨S850000, .i32⟩ : BufTy).Contents (Elt F) → (⟨S850000, .i32⟩ : BufTy).Contents (Elt F) → (⟨S850000, .i32⟩ : BufTy).Contents (Elt F)),
    ternary main_v141 main_v143 main_v2 main_v144 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v144 main_v145 (broadcastInDim S850000x1 ![0] bcast_S850000_S850000x1_0 : (⟨S850000, .i32⟩ : BufTy).Contents (Elt F) → (⟨S850000x1, .i32⟩ : BufTy).Contents (Elt F)),
    binary main_v138 main_v145 main_v146 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v139 main_v147 (broadcastInDim S850000x16 ![0, 1] bcast_S850000x1_S850000x16_0_1 : (⟨S850000x1, .f32⟩ : BufTy).Contents (Elt F) → (⟨S850000x16, .f32⟩ : BufTy).Contents (Elt F)),
    binary main_v147 main_v146 main_v148 (mulf : (⟨S850000x16, .f32⟩ : BufTy).Contents (Elt F) → (⟨S850000x16, .f32⟩ : BufTy).Contents (Elt F) → (⟨S850000x16, .f32⟩ : BufTy).Contents (Elt F)),
    nullary main_cst_20 (constant S_ .f32 0x00000000#32),
    unary main_cst_20 main_v149 (broadcastInDim S50000x16 ![] bcast_S_S50000x16 : (⟨S_, .f32⟩ : BufTy).Contents (Elt F) → (⟨S50000x16, .f32⟩ : BufTy).Contents (Elt F)),
    unary main_v1 main_v150 (broadcastInDim S850000x1 ![0] bcast_S850000_S850000x1_0 : (⟨S850000, .i32⟩ : BufTy).Contents (Elt F) → (⟨S850000x1, .i32⟩ : BufTy).Contents (Elt F)),
    ternary main_v149 main_v150 main_v148 main_v151 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v152 ((extractStridedSlice S1x16x40 ![1, 0, 0] · slices_S12x16x40_S1x16x40_1_0_0) : (⟨S12x16x40, .f32⟩ : BufTy).Contents (Elt F) → (⟨S1x16x40, .f32⟩ : BufTy).Contents (Elt F)),
    reshape main_v152 main_v153 rfl shapeCasts_S1x16x40_S16x40,
    binary main_v151 main_v153 main_v154 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v155 ((extractStridedSlice S1x40 ![1, 0] · slices_S12x40_S1x40_1_0) : (⟨S12x40, .f32⟩ : BufTy).Contents (Elt F) → (⟨S1x40, .f32⟩ : BufTy).Contents (Elt F)),
    reshape main_v155 main_v156 rfl shapeCasts_S1x40_S40,
    unary main_v156 main_v157 (broadcastInDim S1x40 ![1] bcast_S40_S1x40_1 : (⟨S40, .f32⟩ : BufTy).Contents (Elt F) → (⟨S1x40, .f32⟩ : BufTy).Contents (Elt F)),
    unary main_v157 main_v158 (broadcastInDim S50000x40 ![0, 1] bcast_S1x40_S50000x40_0_1 : (⟨S1x40, .f32⟩ : BufTy).Contents (Elt F) → (⟨S50000x40, .f32⟩ : BufTy).Contents (Elt F)),
    binary main_v154 main_v158 main_v159 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops5_sub : (rops5 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops6 : List (HloOp τ sig (Elt F)) :=
  [ unary main_arg3 main_v160 ((extractStridedSlice S1x100x16 ![2, 0, 0] · slices_S12x100x16_S1x100x16_2_0_0) : (⟨S12x100x16, .f32⟩ : BufTy).Contents (Elt F) → (⟨S1x100x16, .f32⟩ : BufTy).Contents (Elt F)),
    reshape main_v160 main_v161 rfl shapeCasts_S1x100x16_S100x16,
    binary main_v57 main_v161 main_v162 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v163 ((extractStridedSlice S1x16 ![2, 0] · slices_S12x16_S1x16_2_0) : (⟨S12x16, .f32⟩ : BufTy).Contents (Elt F) → (⟨S1x16, .f32⟩ : BufTy).Contents (Elt F)),
    reshape main_v163 main_v164 rfl shapeCasts_S1x16_S16,
    unary main_v164 main_v165 (broadcastInDim S1x16 ![1] bcast_S16_S1x16_1 : (⟨S16, .f32⟩ : BufTy).Contents (Elt F) → (⟨S1x16, .f32⟩ : BufTy).Contents (Elt F)),
    unary main_v165 main_v166 (broadcastInDim S50000x16 ![0, 1] bcast_S1x16_S50000x16_0_1 : (⟨S1x16, .f32⟩ : BufTy).Contents (Elt F) → (⟨S50000x16, .f32⟩ : BufTy).Contents (Elt F)),
    binary main_v162 main_v166 main_v167 (addf : (⟨S50000x16, .f32⟩ : BufTy).Contents (Elt F) → (⟨S50000x16, .f32⟩ : BufTy).Contents (Elt F) → (⟨S50000x16, .f32⟩ : BufTy).Contents (Elt F)),
    unary main_arg7 main_v168 ((extractStridedSlice S1x16 ![2, 0] · slices_S12x16_S1x16_2_0) : (⟨S12x16, .f32⟩ : BufTy).Contents (Elt F) → (⟨S1x16, .f32⟩ : BufTy).Contents (Elt F)),
    reshape main_v168 main_v169 rfl shapeCasts_S1x16_S16,
    unary main_v169 main_v170 (broadcastInDim S1x16 ![1] bcast_S16_S1x16_1 : (⟨S16, .f32⟩ : BufTy).Contents (Elt F) → (⟨S1x16, .f32⟩ : BufTy).Contents (Elt F)),
    unary main_v170 main_v171 (broadcastInDim S50000x16 ![0, 1] bcast_S1x16_S50000x16_0_1 : (⟨S1x16, .f32⟩ : BufTy).Contents (Elt F) → (⟨S50000x16, .f32⟩ : BufTy).Contents (Elt F)),
    binary main_v167 main_v171 main_v172 (subf : (⟨S50000x16, .f32⟩ : BufTy).Contents (Elt F) → (⟨S50000x16, .f32⟩ : BufTy).Contents (Elt F) → (⟨S50000x16, .f32⟩ : BufTy).Contents (Elt F)),
    unary main_arg5 main_v173 ((extractStridedSlice S1x16 ![2, 0] · slices_S12x16_S1x16_2_0) : (⟨S12x16, .f32⟩ : BufTy).Contents (Elt F) → (⟨S1x16, .f32⟩ : BufTy).Contents (Elt F)),
    reshape main_v173 main_v174 rfl shapeCasts_S1x16_S16,
    unary main_arg8 main_v175 ((extractStridedSlice S1x16 ![2, 0] · slices_S12x16_S1x16_2_0) : (⟨S12x16, .f32⟩ : BufTy).Contents (Elt F) → (⟨S1x16, .f32⟩ : BufTy).Contents (Elt F)),
    reshape main_v175 main_v176 rfl shapeCasts_S1x16_S16,
    nullary main_cst_21 (constant S_ .f32 0x3727C5AC#32),
    unary main_cst_21 main_v177 (broadcastInDim S16 ![] bcast_S_S16 : (⟨S_, .f32⟩ : BufTy).Contents (Elt F) → (⟨S16, .f32⟩ : BufTy).Contents (Elt F)),
    binary main_v176 main_v177 main_v178 (addf : (⟨S16, .f32⟩ : BufTy).Contents (Elt F) → (⟨S16, .f32⟩ : BufTy).Contents (Elt F) → (⟨S16, .f32⟩ : BufTy).Contents (Elt F)),
    unary main_v178 main_v179 (Host.rsqrt : (⟨S16, .f32⟩ : BufTy).Contents (Elt F) → (⟨S16, .f32⟩ : BufTy).Contents (Elt F)),
    binary main_v174 main_v179 main_v180 (mulf : (⟨S16, .f32⟩ : BufTy).Contents (Elt F) → (⟨S16, .f32⟩ : BufTy).Contents (Elt F) → (⟨S16, .f32⟩ : BufTy).Contents (Elt F)),
    unary main_v180 main_v181 (broadcastInDim S1x16 ![1] bcast_S16_S1x16_1 : (⟨S16, .f32⟩ : BufTy).Contents (Elt F) → (⟨S1x16, .f32⟩ : BufTy).Contents (Elt F)),
    unary main_v181 main_v182 (broadcastInDim S50000x16 ![0, 1] bcast_S1x16_S50000x16_0_1 : (⟨S1x16, .f32⟩ : BufTy).Contents (Elt F) → (⟨S50000x16, .f32⟩ : BufTy).Contents (Elt F)),
    binary main_v172 main_v182 main_v183 (mulf : (⟨S50000x16, .f32⟩ : BufTy).Contents (Elt F) → (⟨S50000x16, .f32⟩ : BufTy).Contents (Elt F) → (⟨S50000x16, .f32⟩ : BufTy).Contents (Elt F)),
    unary main_arg6 main_v184 ((extractStridedSlice S1x16 ![2, 0] · slices_S12x16_S1x16_2_0) : (⟨S12x16, .f32⟩ : BufTy).Contents (Elt F) → (⟨S1x16, .f32⟩ : BufTy).Contents (Elt F)),
    reshape main_v184 main_v185 rfl shapeCasts_S1x16_S16,
    unary main_v185 main_v186 (broadcastInDim S1x16 ![1] bcast_S16_S1x16_1 : (⟨S16, .f32⟩ : BufTy).Contents (Elt F) → (⟨S1x16, .f32⟩ : BufTy).Contents (Elt F)),
    unary main_v186 main_v187 (broadcastInDim S50000x16 ![0, 1] bcast_S1x16_S50000x16_0_1 : (⟨S1x16, .f32⟩ : BufTy).Contents (Elt F) → (⟨S50000x16, .f32⟩ : BufTy).Contents (Elt F)),
    binary main_v183 main_v187 main_v188 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x16, .f32⟩) main_call4_v0) (broadcastInDim S50000x16 ![] bcast_S_S50000x16),
    TRef.binary (TRef.of (T := ⟨S50000x16, .f32⟩) main_v188) (TRef.of (T := ⟨S50000x16, .f32⟩) main_call4_v0) (TRef.of (T := ⟨S50000x16, .f32⟩) main_v189) maximumf ]

set_option maxRecDepth 8192 in
theorem rops6_sub : (rops6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops7 : List (HloOp τ sig (Elt F)) :=
  [ unary main_v26 main_v190 (broadcastInDim S850000x1 ![0] bcast_S850000_S850000x1_0 : (⟨S850000, .f32⟩ : BufTy).Contents (Elt F) → (⟨S850000x1, .f32⟩ : BufTy).Contents (Elt F)),
    nullary main_c_22 (constantI S_ 32 0#32),
    unary main_c_22 main_v191 (broadcastInDim S850000 ![] bcast_S_S850000 : (⟨S_, .i32⟩ : BufTy).Contents (Elt F) → (⟨S850000, .i32⟩ : BufTy).Contents (Elt F)),
    binary main_v2 main_v191 main_v192 (cmpi .slt : (⟨S850000, .i32⟩ : BufTy).Contents (Elt F) → (⟨S850000, .i32⟩ : BufTy).Contents (Elt F) → (⟨S850000, .i1⟩ : BufTy).Contents (Elt F)),
    nullary main_c_23 (constantI S_ 32 50000#32),
    unary main_c_23 main_v193 (broadcastInDim S850000 ![] bcast_S_S850000 : (⟨S_, .i32⟩ : BufTy).Contents (Elt F) → (⟨S850000, .i32⟩ : BufTy).Contents (Elt F)),
    binary main_v2 main_v193 main_v194 (addi : (⟨S850000, .i32⟩ : BufTy).Contents (Elt F) → (⟨S850000, .i32⟩ : BufTy).Contents (Elt F) → (⟨S850000, .i32⟩ : BufTy).Contents (Elt F)),
    ternary main_v192 main_v194 main_v2 main_v195 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v195 main_v196 (broadcastInDim S850000x1 ![0] bcast_S850000_S850000x1_0 : (⟨S850000, .i32⟩ : BufTy).Contents (Elt F) → (⟨S850000x1, .i32⟩ : BufTy).Contents (Elt F)),
    binary main_v189 main_v196 main_v197 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v190 main_v198 (broadcastInDim S850000x16 ![0, 1] bcast_S850000x1_S850000x16_0_1 : (⟨S850000x1, .f32⟩ : BufTy).Contents (Elt F) → (⟨S850000x16, .f32⟩ : BufTy).Contents (Elt F)),
    binary main_v198 main_v197 main_v199 (mulf : (⟨S850000x16, .f32⟩ : BufTy).Contents (Elt F) → (⟨S850000x16, .f32⟩ : BufTy).Contents (Elt F) → (⟨S850000x16, .f32⟩ : BufTy).Contents (Elt F)),
    nullary main_cst_24 (constant S_ .f32 0x00000000#32),
    unary main_cst_24 main_v200 (broadcastInDim S50000x16 ![] bcast_S_S50000x16 : (⟨S_, .f32⟩ : BufTy).Contents (Elt F) → (⟨S50000x16, .f32⟩ : BufTy).Contents (Elt F)),
    unary main_v1 main_v201 (broadcastInDim S850000x1 ![0] bcast_S850000_S850000x1_0 : (⟨S850000, .i32⟩ : BufTy).Contents (Elt F) → (⟨S850000x1, .i32⟩ : BufTy).Contents (Elt F)),
    ternary main_v200 main_v201 main_v199 main_v202 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v203 (broadcastInDim S850000x1 ![0] bcast_S850000_S850000x1_0 : (⟨S850000, .f32⟩ : BufTy).Contents (Elt F) → (⟨S850000x1, .f32⟩ : BufTy).Contents (Elt F)),
    nullary main_c_25 (constantI S_ 32 0#32),
    unary main_c_25 main_v204 (broadcastInDim S850000 ![] bcast_S_S850000 : (⟨S_, .i32⟩ : BufTy).Contents (Elt F) → (⟨S850000, .i32⟩ : BufTy).Contents (Elt F)),
    binary main_v2 main_v204 main_v205 (cmpi .slt : (⟨S850000, .i32⟩ : BufTy).Contents (Elt F) → (⟨S850000, .i32⟩ : BufTy).Contents (Elt F) → (⟨S850000, .i1⟩ : BufTy).Contents (Elt F)),
    nullary main_c_26 (constantI S_ 32 50000#32),
    unary main_c_26 main_v206 (broadcastInDim S850000 ![] bcast_S_S850000 : (⟨S_, .i32⟩ : BufTy).Contents (Elt F) → (⟨S850000, .i32⟩ : BufTy).Contents (Elt F)),
    binary main_v2 main_v206 main_v207 (addi : (⟨S850000, .i32⟩ : BufTy).Contents (Elt F) → (⟨S850000, .i32⟩ : BufTy).Contents (Elt F) → (⟨S850000, .i32⟩ : BufTy).Contents (Elt F)),
    ternary main_v205 main_v207 main_v2 main_v208 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v208 main_v209 (broadcastInDim S850000x1 ![0] bcast_S850000_S850000x1_0 : (⟨S850000, .i32⟩ : BufTy).Contents (Elt F) → (⟨S850000x1, .i32⟩ : BufTy).Contents (Elt F)),
    binary main_v202 main_v209 main_v210 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v203 main_v211 (broadcastInDim S850000x16 ![0, 1] bcast_S850000x1_S850000x16_0_1 : (⟨S850000x1, .f32⟩ : BufTy).Contents (Elt F) → (⟨S850000x16, .f32⟩ : BufTy).Contents (Elt F)),
    binary main_v211 main_v210 main_v212 (mulf : (⟨S850000x16, .f32⟩ : BufTy).Contents (Elt F) → (⟨S850000x16, .f32⟩ : BufTy).Contents (Elt F) → (⟨S850000x16, .f32⟩ : BufTy).Contents (Elt F)),
    nullary main_cst_27 (constant S_ .f32 0x00000000#32),
    unary main_cst_27 main_v213 (broadcastInDim S50000x16 ![] bcast_S_S50000x16 : (⟨S_, .f32⟩ : BufTy).Contents (Elt F) → (⟨S50000x16, .f32⟩ : BufTy).Contents (Elt F)),
    unary main_v1 main_v214 (broadcastInDim S850000x1 ![0] bcast_S850000_S850000x1_0 : (⟨S850000, .i32⟩ : BufTy).Contents (Elt F) → (⟨S850000x1, .i32⟩ : BufTy).Contents (Elt F)),
    ternary main_v213 main_v214 main_v212 main_v215 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v216 ((extractStridedSlice S1x16x40 ![2, 0, 0] · slices_S12x16x40_S1x16x40_2_0_0) : (⟨S12x16x40, .f32⟩ : BufTy).Contents (Elt F) → (⟨S1x16x40, .f32⟩ : BufTy).Contents (Elt F)),
    reshape main_v216 main_v217 rfl shapeCasts_S1x16x40_S16x40,
    binary main_v215 main_v217 main_v218 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v219 ((extractStridedSlice S1x40 ![2, 0] · slices_S12x40_S1x40_2_0) : (⟨S12x40, .f32⟩ : BufTy).Contents (Elt F) → (⟨S1x40, .f32⟩ : BufTy).Contents (Elt F)),
    reshape main_v219 main_v220 rfl shapeCasts_S1x40_S40,
    unary main_v220 main_v221 (broadcastInDim S1x40 ![1] bcast_S40_S1x40_1 : (⟨S40, .f32⟩ : BufTy).Contents (Elt F) → (⟨S1x40, .f32⟩ : BufTy).Contents (Elt F)),
    unary main_v221 main_v222 (broadcastInDim S50000x40 ![0, 1] bcast_S1x40_S50000x40_0_1 : (⟨S1x40, .f32⟩ : BufTy).Contents (Elt F) → (⟨S50000x40, .f32⟩ : BufTy).Contents (Elt F)),
    binary main_v218 main_v222 main_v223 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops7_sub : (rops7 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops8 : List (HloOp τ sig (Elt F)) :=
  [ unary main_arg3 main_v224 ((extractStridedSlice S1x100x16 ![3, 0, 0] · slices_S12x100x16_S1x100x16_3_0_0) : (⟨S12x100x16, .f32⟩ : BufTy).Contents (Elt F) → (⟨S1x100x16, .f32⟩ : BufTy).Contents (Elt F)),
    reshape main_v224 main_v225 rfl shapeCasts_S1x100x16_S100x16,
    binary main_v70 main_v225 main_v226 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v227 ((extractStridedSlice S1x16 ![3, 0] · slices_S12x16_S1x16_3_0) : (⟨S12x16, .f32⟩ : BufTy).Contents (Elt F) → (⟨S1x16, .f32⟩ : BufTy).Contents (Elt F)),
    reshape main_v227 main_v228 rfl shapeCasts_S1x16_S16,
    unary main_v228 main_v229 (broadcastInDim S1x16 ![1] bcast_S16_S1x16_1 : (⟨S16, .f32⟩ : BufTy).Contents (Elt F) → (⟨S1x16, .f32⟩ : BufTy).Contents (Elt F)),
    unary main_v229 main_v230 (broadcastInDim S50000x16 ![0, 1] bcast_S1x16_S50000x16_0_1 : (⟨S1x16, .f32⟩ : BufTy).Contents (Elt F) → (⟨S50000x16, .f32⟩ : BufTy).Contents (Elt F)),
    binary main_v226 main_v230 main_v231 (addf : (⟨S50000x16, .f32⟩ : BufTy).Contents (Elt F) → (⟨S50000x16, .f32⟩ : BufTy).Contents (Elt F) → (⟨S50000x16, .f32⟩ : BufTy).Contents (Elt F)),
    unary main_arg7 main_v232 ((extractStridedSlice S1x16 ![3, 0] · slices_S12x16_S1x16_3_0) : (⟨S12x16, .f32⟩ : BufTy).Contents (Elt F) → (⟨S1x16, .f32⟩ : BufTy).Contents (Elt F)),
    reshape main_v232 main_v233 rfl shapeCasts_S1x16_S16,
    unary main_v233 main_v234 (broadcastInDim S1x16 ![1] bcast_S16_S1x16_1 : (⟨S16, .f32⟩ : BufTy).Contents (Elt F) → (⟨S1x16, .f32⟩ : BufTy).Contents (Elt F)),
    unary main_v234 main_v235 (broadcastInDim S50000x16 ![0, 1] bcast_S1x16_S50000x16_0_1 : (⟨S1x16, .f32⟩ : BufTy).Contents (Elt F) → (⟨S50000x16, .f32⟩ : BufTy).Contents (Elt F)),
    binary main_v231 main_v235 main_v236 (subf : (⟨S50000x16, .f32⟩ : BufTy).Contents (Elt F) → (⟨S50000x16, .f32⟩ : BufTy).Contents (Elt F) → (⟨S50000x16, .f32⟩ : BufTy).Contents (Elt F)),
    unary main_arg5 main_v237 ((extractStridedSlice S1x16 ![3, 0] · slices_S12x16_S1x16_3_0) : (⟨S12x16, .f32⟩ : BufTy).Contents (Elt F) → (⟨S1x16, .f32⟩ : BufTy).Contents (Elt F)),
    reshape main_v237 main_v238 rfl shapeCasts_S1x16_S16,
    unary main_arg8 main_v239 ((extractStridedSlice S1x16 ![3, 0] · slices_S12x16_S1x16_3_0) : (⟨S12x16, .f32⟩ : BufTy).Contents (Elt F) → (⟨S1x16, .f32⟩ : BufTy).Contents (Elt F)),
    reshape main_v239 main_v240 rfl shapeCasts_S1x16_S16,
    nullary main_cst_28 (constant S_ .f32 0x3727C5AC#32),
    unary main_cst_28 main_v241 (broadcastInDim S16 ![] bcast_S_S16 : (⟨S_, .f32⟩ : BufTy).Contents (Elt F) → (⟨S16, .f32⟩ : BufTy).Contents (Elt F)),
    binary main_v240 main_v241 main_v242 (addf : (⟨S16, .f32⟩ : BufTy).Contents (Elt F) → (⟨S16, .f32⟩ : BufTy).Contents (Elt F) → (⟨S16, .f32⟩ : BufTy).Contents (Elt F)),
    unary main_v242 main_v243 (Host.rsqrt : (⟨S16, .f32⟩ : BufTy).Contents (Elt F) → (⟨S16, .f32⟩ : BufTy).Contents (Elt F)),
    binary main_v238 main_v243 main_v244 (mulf : (⟨S16, .f32⟩ : BufTy).Contents (Elt F) → (⟨S16, .f32⟩ : BufTy).Contents (Elt F) → (⟨S16, .f32⟩ : BufTy).Contents (Elt F)),
    unary main_v244 main_v245 (broadcastInDim S1x16 ![1] bcast_S16_S1x16_1 : (⟨S16, .f32⟩ : BufTy).Contents (Elt F) → (⟨S1x16, .f32⟩ : BufTy).Contents (Elt F)),
    unary main_v245 main_v246 (broadcastInDim S50000x16 ![0, 1] bcast_S1x16_S50000x16_0_1 : (⟨S1x16, .f32⟩ : BufTy).Contents (Elt F) → (⟨S50000x16, .f32⟩ : BufTy).Contents (Elt F)),
    binary main_v236 main_v246 main_v247 (mulf : (⟨S50000x16, .f32⟩ : BufTy).Contents (Elt F) → (⟨S50000x16, .f32⟩ : BufTy).Contents (Elt F) → (⟨S50000x16, .f32⟩ : BufTy).Contents (Elt F)),
    unary main_arg6 main_v248 ((extractStridedSlice S1x16 ![3, 0] · slices_S12x16_S1x16_3_0) : (⟨S12x16, .f32⟩ : BufTy).Contents (Elt F) → (⟨S1x16, .f32⟩ : BufTy).Contents (Elt F)),
    reshape main_v248 main_v249 rfl shapeCasts_S1x16_S16,
    unary main_v249 main_v250 (broadcastInDim S1x16 ![1] bcast_S16_S1x16_1 : (⟨S16, .f32⟩ : BufTy).Contents (Elt F) → (⟨S1x16, .f32⟩ : BufTy).Contents (Elt F)),
    unary main_v250 main_v251 (broadcastInDim S50000x16 ![0, 1] bcast_S1x16_S50000x16_0_1 : (⟨S1x16, .f32⟩ : BufTy).Contents (Elt F) → (⟨S50000x16, .f32⟩ : BufTy).Contents (Elt F)),
    binary main_v247 main_v251 main_v252 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x16, .f32⟩) main_call5_v0) (broadcastInDim S50000x16 ![] bcast_S_S50000x16),
    TRef.binary (TRef.of (T := ⟨S50000x16, .f32⟩) main_v252) (TRef.of (T := ⟨S50000x16, .f32⟩) main_call5_v0) (TRef.of (T := ⟨S50000x16, .f32⟩) main_v253) maximumf ]

set_option maxRecDepth 8192 in
theorem rops8_sub : (rops8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops9 : List (HloOp τ sig (Elt F)) :=
  [ unary main_v26 main_v254 (broadcastInDim S850000x1 ![0] bcast_S850000_S850000x1_0 : (⟨S850000, .f32⟩ : BufTy).Contents (Elt F) → (⟨S850000x1, .f32⟩ : BufTy).Contents (Elt F)),
    nullary main_c_29 (constantI S_ 32 0#32),
    unary main_c_29 main_v255 (broadcastInDim S850000 ![] bcast_S_S850000 : (⟨S_, .i32⟩ : BufTy).Contents (Elt F) → (⟨S850000, .i32⟩ : BufTy).Contents (Elt F)),
    binary main_v2 main_v255 main_v256 (cmpi .slt : (⟨S850000, .i32⟩ : BufTy).Contents (Elt F) → (⟨S850000, .i32⟩ : BufTy).Contents (Elt F) → (⟨S850000, .i1⟩ : BufTy).Contents (Elt F)),
    nullary main_c_30 (constantI S_ 32 50000#32),
    unary main_c_30 main_v257 (broadcastInDim S850000 ![] bcast_S_S850000 : (⟨S_, .i32⟩ : BufTy).Contents (Elt F) → (⟨S850000, .i32⟩ : BufTy).Contents (Elt F)),
    binary main_v2 main_v257 main_v258 (addi : (⟨S850000, .i32⟩ : BufTy).Contents (Elt F) → (⟨S850000, .i32⟩ : BufTy).Contents (Elt F) → (⟨S850000, .i32⟩ : BufTy).Contents (Elt F)),
    ternary main_v256 main_v258 main_v2 main_v259 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v259 main_v260 (broadcastInDim S850000x1 ![0] bcast_S850000_S850000x1_0 : (⟨S850000, .i32⟩ : BufTy).Contents (Elt F) → (⟨S850000x1, .i32⟩ : BufTy).Contents (Elt F)),
    binary main_v253 main_v260 main_v261 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v254 main_v262 (broadcastInDim S850000x16 ![0, 1] bcast_S850000x1_S850000x16_0_1 : (⟨S850000x1, .f32⟩ : BufTy).Contents (Elt F) → (⟨S850000x16, .f32⟩ : BufTy).Contents (Elt F)),
    binary main_v262 main_v261 main_v263 (mulf : (⟨S850000x16, .f32⟩ : BufTy).Contents (Elt F) → (⟨S850000x16, .f32⟩ : BufTy).Contents (Elt F) → (⟨S850000x16, .f32⟩ : BufTy).Contents (Elt F)),
    nullary main_cst_31 (constant S_ .f32 0x00000000#32),
    unary main_cst_31 main_v264 (broadcastInDim S50000x16 ![] bcast_S_S50000x16 : (⟨S_, .f32⟩ : BufTy).Contents (Elt F) → (⟨S50000x16, .f32⟩ : BufTy).Contents (Elt F)),
    unary main_v1 main_v265 (broadcastInDim S850000x1 ![0] bcast_S850000_S850000x1_0 : (⟨S850000, .i32⟩ : BufTy).Contents (Elt F) → (⟨S850000x1, .i32⟩ : BufTy).Contents (Elt F)),
    ternary main_v264 main_v265 main_v263 main_v266 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v267 (broadcastInDim S850000x1 ![0] bcast_S850000_S850000x1_0 : (⟨S850000, .f32⟩ : BufTy).Contents (Elt F) → (⟨S850000x1, .f32⟩ : BufTy).Contents (Elt F)),
    nullary main_c_32 (constantI S_ 32 0#32),
    unary main_c_32 main_v268 (broadcastInDim S850000 ![] bcast_S_S850000 : (⟨S_, .i32⟩ : BufTy).Contents (Elt F) → (⟨S850000, .i32⟩ : BufTy).Contents (Elt F)),
    binary main_v2 main_v268 main_v269 (cmpi .slt : (⟨S850000, .i32⟩ : BufTy).Contents (Elt F) → (⟨S850000, .i32⟩ : BufTy).Contents (Elt F) → (⟨S850000, .i1⟩ : BufTy).Contents (Elt F)),
    nullary main_c_33 (constantI S_ 32 50000#32),
    unary main_c_33 main_v270 (broadcastInDim S850000 ![] bcast_S_S850000 : (⟨S_, .i32⟩ : BufTy).Contents (Elt F) → (⟨S850000, .i32⟩ : BufTy).Contents (Elt F)),
    binary main_v2 main_v270 main_v271 (addi : (⟨S850000, .i32⟩ : BufTy).Contents (Elt F) → (⟨S850000, .i32⟩ : BufTy).Contents (Elt F) → (⟨S850000, .i32⟩ : BufTy).Contents (Elt F)),
    ternary main_v269 main_v271 main_v2 main_v272 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v272 main_v273 (broadcastInDim S850000x1 ![0] bcast_S850000_S850000x1_0 : (⟨S850000, .i32⟩ : BufTy).Contents (Elt F) → (⟨S850000x1, .i32⟩ : BufTy).Contents (Elt F)),
    binary main_v266 main_v273 main_v274 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v267 main_v275 (broadcastInDim S850000x16 ![0, 1] bcast_S850000x1_S850000x16_0_1 : (⟨S850000x1, .f32⟩ : BufTy).Contents (Elt F) → (⟨S850000x16, .f32⟩ : BufTy).Contents (Elt F)),
    binary main_v275 main_v274 main_v276 (mulf : (⟨S850000x16, .f32⟩ : BufTy).Contents (Elt F) → (⟨S850000x16, .f32⟩ : BufTy).Contents (Elt F) → (⟨S850000x16, .f32⟩ : BufTy).Contents (Elt F)),
    nullary main_cst_34 (constant S_ .f32 0x00000000#32),
    unary main_cst_34 main_v277 (broadcastInDim S50000x16 ![] bcast_S_S50000x16 : (⟨S_, .f32⟩ : BufTy).Contents (Elt F) → (⟨S50000x16, .f32⟩ : BufTy).Contents (Elt F)),
    unary main_v1 main_v278 (broadcastInDim S850000x1 ![0] bcast_S850000_S850000x1_0 : (⟨S850000, .i32⟩ : BufTy).Contents (Elt F) → (⟨S850000x1, .i32⟩ : BufTy).Contents (Elt F)),
    ternary main_v277 main_v278 main_v276 main_v279 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v280 (broadcastInDim S850000x1 ![0] bcast_S850000_S850000x1_0 : (⟨S850000, .f32⟩ : BufTy).Contents (Elt F) → (⟨S850000x1, .f32⟩ : BufTy).Contents (Elt F)),
    nullary main_c_35 (constantI S_ 32 0#32),
    unary main_c_35 main_v281 (broadcastInDim S850000 ![] bcast_S_S850000 : (⟨S_, .i32⟩ : BufTy).Contents (Elt F) → (⟨S850000, .i32⟩ : BufTy).Contents (Elt F)),
    binary main_v2 main_v281 main_v282 (cmpi .slt : (⟨S850000, .i32⟩ : BufTy).Contents (Elt F) → (⟨S850000, .i32⟩ : BufTy).Contents (Elt F) → (⟨S850000, .i1⟩ : BufTy).Contents (Elt F)),
    nullary main_c_36 (constantI S_ 32 50000#32),
    unary main_c_36 main_v283 (broadcastInDim S850000 ![] bcast_S_S850000 : (⟨S_, .i32⟩ : BufTy).Contents (Elt F) → (⟨S850000, .i32⟩ : BufTy).Contents (Elt F)),
    binary main_v2 main_v283 main_v284 (addi : (⟨S850000, .i32⟩ : BufTy).Contents (Elt F) → (⟨S850000, .i32⟩ : BufTy).Contents (Elt F) → (⟨S850000, .i32⟩ : BufTy).Contents (Elt F)),
    ternary main_v282 main_v284 main_v2 main_v285 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v285 main_v286 (broadcastInDim S850000x1 ![0] bcast_S850000_S850000x1_0 : (⟨S850000, .i32⟩ : BufTy).Contents (Elt F) → (⟨S850000x1, .i32⟩ : BufTy).Contents (Elt F)),
    binary main_v279 main_v286 main_v287 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v280 main_v288 (broadcastInDim S850000x16 ![0, 1] bcast_S850000x1_S850000x16_0_1 : (⟨S850000x1, .f32⟩ : BufTy).Contents (Elt F) → (⟨S850000x16, .f32⟩ : BufTy).Contents (Elt F)),
    binary main_v288 main_v287 main_v289 (mulf : (⟨S850000x16, .f32⟩ : BufTy).Contents (Elt F) → (⟨S850000x16, .f32⟩ : BufTy).Contents (Elt F) → (⟨S850000x16, .f32⟩ : BufTy).Contents (Elt F)),
    nullary main_cst_37 (constant S_ .f32 0x00000000#32),
    unary main_cst_37 main_v290 (broadcastInDim S50000x16 ![] bcast_S_S50000x16 : (⟨S_, .f32⟩ : BufTy).Contents (Elt F) → (⟨S50000x16, .f32⟩ : BufTy).Contents (Elt F)),
    unary main_v1 main_v291 (broadcastInDim S850000x1 ![0] bcast_S850000_S850000x1_0 : (⟨S850000, .i32⟩ : BufTy).Contents (Elt F) → (⟨S850000x1, .i32⟩ : BufTy).Contents (Elt F)),
    ternary main_v290 main_v291 main_v289 main_v292 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v293 ((extractStridedSlice S1x16x40 ![3, 0, 0] · slices_S12x16x40_S1x16x40_3_0_0) : (⟨S12x16x40, .f32⟩ : BufTy).Contents (Elt F) → (⟨S1x16x40, .f32⟩ : BufTy).Contents (Elt F)),
    reshape main_v293 main_v294 rfl shapeCasts_S1x16x40_S16x40,
    binary main_v292 main_v294 main_v295 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v296 ((extractStridedSlice S1x40 ![3, 0] · slices_S12x40_S1x40_3_0) : (⟨S12x40, .f32⟩ : BufTy).Contents (Elt F) → (⟨S1x40, .f32⟩ : BufTy).Contents (Elt F)),
    reshape main_v296 main_v297 rfl shapeCasts_S1x40_S40,
    unary main_v297 main_v298 (broadcastInDim S1x40 ![1] bcast_S40_S1x40_1 : (⟨S40, .f32⟩ : BufTy).Contents (Elt F) → (⟨S1x40, .f32⟩ : BufTy).Contents (Elt F)),
    unary main_v298 main_v299 (broadcastInDim S50000x40 ![0, 1] bcast_S1x40_S50000x40_0_1 : (⟨S1x40, .f32⟩ : BufTy).Contents (Elt F) → (⟨S50000x40, .f32⟩ : BufTy).Contents (Elt F)),
    binary main_v295 main_v299 main_v300 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops9_sub : (rops9 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops10 : List (HloOp τ sig (Elt F)) :=
  [ unary main_arg3 main_v301 ((extractStridedSlice S1x100x16 ![4, 0, 0] · slices_S12x100x16_S1x100x16_4_0_0) : (⟨S12x100x16, .f32⟩ : BufTy).Contents (Elt F) → (⟨S1x100x16, .f32⟩ : BufTy).Contents (Elt F)),
    reshape main_v301 main_v302 rfl shapeCasts_S1x100x16_S100x16,
    binary main_v31 main_v302 main_v303 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v304 ((extractStridedSlice S1x16 ![4, 0] · slices_S12x16_S1x16_4_0) : (⟨S12x16, .f32⟩ : BufTy).Contents (Elt F) → (⟨S1x16, .f32⟩ : BufTy).Contents (Elt F)),
    reshape main_v304 main_v305 rfl shapeCasts_S1x16_S16,
    unary main_v305 main_v306 (broadcastInDim S1x16 ![1] bcast_S16_S1x16_1 : (⟨S16, .f32⟩ : BufTy).Contents (Elt F) → (⟨S1x16, .f32⟩ : BufTy).Contents (Elt F)),
    unary main_v306 main_v307 (broadcastInDim S50000x16 ![0, 1] bcast_S1x16_S50000x16_0_1 : (⟨S1x16, .f32⟩ : BufTy).Contents (Elt F) → (⟨S50000x16, .f32⟩ : BufTy).Contents (Elt F)),
    binary main_v303 main_v307 main_v308 (addf : (⟨S50000x16, .f32⟩ : BufTy).Contents (Elt F) → (⟨S50000x16, .f32⟩ : BufTy).Contents (Elt F) → (⟨S50000x16, .f32⟩ : BufTy).Contents (Elt F)),
    unary main_arg7 main_v309 ((extractStridedSlice S1x16 ![4, 0] · slices_S12x16_S1x16_4_0) : (⟨S12x16, .f32⟩ : BufTy).Contents (Elt F) → (⟨S1x16, .f32⟩ : BufTy).Contents (Elt F)),
    reshape main_v309 main_v310 rfl shapeCasts_S1x16_S16,
    unary main_v310 main_v311 (broadcastInDim S1x16 ![1] bcast_S16_S1x16_1 : (⟨S16, .f32⟩ : BufTy).Contents (Elt F) → (⟨S1x16, .f32⟩ : BufTy).Contents (Elt F)),
    unary main_v311 main_v312 (broadcastInDim S50000x16 ![0, 1] bcast_S1x16_S50000x16_0_1 : (⟨S1x16, .f32⟩ : BufTy).Contents (Elt F) → (⟨S50000x16, .f32⟩ : BufTy).Contents (Elt F)),
    binary main_v308 main_v312 main_v313 (subf : (⟨S50000x16, .f32⟩ : BufTy).Contents (Elt F) → (⟨S50000x16, .f32⟩ : BufTy).Contents (Elt F) → (⟨S50000x16, .f32⟩ : BufTy).Contents (Elt F)),
    unary main_arg5 main_v314 ((extractStridedSlice S1x16 ![4, 0] · slices_S12x16_S1x16_4_0) : (⟨S12x16, .f32⟩ : BufTy).Contents (Elt F) → (⟨S1x16, .f32⟩ : BufTy).Contents (Elt F)),
    reshape main_v314 main_v315 rfl shapeCasts_S1x16_S16,
    unary main_arg8 main_v316 ((extractStridedSlice S1x16 ![4, 0] · slices_S12x16_S1x16_4_0) : (⟨S12x16, .f32⟩ : BufTy).Contents (Elt F) → (⟨S1x16, .f32⟩ : BufTy).Contents (Elt F)),
    reshape main_v316 main_v317 rfl shapeCasts_S1x16_S16,
    nullary main_cst_38 (constant S_ .f32 0x3727C5AC#32),
    unary main_cst_38 main_v318 (broadcastInDim S16 ![] bcast_S_S16 : (⟨S_, .f32⟩ : BufTy).Contents (Elt F) → (⟨S16, .f32⟩ : BufTy).Contents (Elt F)),
    binary main_v317 main_v318 main_v319 (addf : (⟨S16, .f32⟩ : BufTy).Contents (Elt F) → (⟨S16, .f32⟩ : BufTy).Contents (Elt F) → (⟨S16, .f32⟩ : BufTy).Contents (Elt F)),
    unary main_v319 main_v320 (Host.rsqrt : (⟨S16, .f32⟩ : BufTy).Contents (Elt F) → (⟨S16, .f32⟩ : BufTy).Contents (Elt F)),
    binary main_v315 main_v320 main_v321 (mulf : (⟨S16, .f32⟩ : BufTy).Contents (Elt F) → (⟨S16, .f32⟩ : BufTy).Contents (Elt F) → (⟨S16, .f32⟩ : BufTy).Contents (Elt F)),
    unary main_v321 main_v322 (broadcastInDim S1x16 ![1] bcast_S16_S1x16_1 : (⟨S16, .f32⟩ : BufTy).Contents (Elt F) → (⟨S1x16, .f32⟩ : BufTy).Contents (Elt F)),
    unary main_v322 main_v323 (broadcastInDim S50000x16 ![0, 1] bcast_S1x16_S50000x16_0_1 : (⟨S1x16, .f32⟩ : BufTy).Contents (Elt F) → (⟨S50000x16, .f32⟩ : BufTy).Contents (Elt F)),
    binary main_v313 main_v323 main_v324 (mulf : (⟨S50000x16, .f32⟩ : BufTy).Contents (Elt F) → (⟨S50000x16, .f32⟩ : BufTy).Contents (Elt F) → (⟨S50000x16, .f32⟩ : BufTy).Contents (Elt F)),
    unary main_arg6 main_v325 ((extractStridedSlice S1x16 ![4, 0] · slices_S12x16_S1x16_4_0) : (⟨S12x16, .f32⟩ : BufTy).Contents (Elt F) → (⟨S1x16, .f32⟩ : BufTy).Contents (Elt F)),
    reshape main_v325 main_v326 rfl shapeCasts_S1x16_S16,
    unary main_v326 main_v327 (broadcastInDim S1x16 ![1] bcast_S16_S1x16_1 : (⟨S16, .f32⟩ : BufTy).Contents (Elt F) → (⟨S1x16, .f32⟩ : BufTy).Contents (Elt F)),
    unary main_v327 main_v328 (broadcastInDim S50000x16 ![0, 1] bcast_S1x16_S50000x16_0_1 : (⟨S1x16, .f32⟩ : BufTy).Contents (Elt F) → (⟨S50000x16, .f32⟩ : BufTy).Contents (Elt F)),
    binary main_v324 main_v328 main_v329 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x16, .f32⟩) main_call6_v0) (broadcastInDim S50000x16 ![] bcast_S_S50000x16),
    TRef.binary (TRef.of (T := ⟨S50000x16, .f32⟩) main_v329) (TRef.of (T := ⟨S50000x16, .f32⟩) main_call6_v0) (TRef.of (T := ⟨S50000x16, .f32⟩) main_v330) maximumf ]

set_option maxRecDepth 8192 in
theorem rops10_sub : (rops10 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops11 : List (HloOp τ sig (Elt F)) :=
  [ unary main_arg9 main_v331 ((extractStridedSlice S1x16x40 ![4, 0, 0] · slices_S12x16x40_S1x16x40_4_0_0) : (⟨S12x16x40, .f32⟩ : BufTy).Contents (Elt F) → (⟨S1x16x40, .f32⟩ : BufTy).Contents (Elt F)),
    reshape main_v331 main_v332 rfl shapeCasts_S1x16x40_S16x40,
    binary main_v330 main_v332 main_v333 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v334 ((extractStridedSlice S1x40 ![4, 0] · slices_S12x40_S1x40_4_0) : (⟨S12x40, .f32⟩ : BufTy).Contents (Elt F) → (⟨S1x40, .f32⟩ : BufTy).Contents (Elt F)),
    reshape main_v334 main_v335 rfl shapeCasts_S1x40_S40,
    unary main_v335 main_v336 (broadcastInDim S1x40 ![1] bcast_S40_S1x40_1 : (⟨S40, .f32⟩ : BufTy).Contents (Elt F) → (⟨S1x40, .f32⟩ : BufTy).Contents (Elt F)),
    unary main_v336 main_v337 (broadcastInDim S50000x40 ![0, 1] bcast_S1x40_S50000x40_0_1 : (⟨S1x40, .f32⟩ : BufTy).Contents (Elt F) → (⟨S50000x40, .f32⟩ : BufTy).Contents (Elt F)),
    binary main_v333 main_v337 main_v338 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops11_sub : (rops11 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩

abbrev rops12 : List (HloOp τ sig (Elt F)) :=
  [ unary main_arg3 main_v339 ((extractStridedSlice S1x100x16 ![5, 0, 0] · slices_S12x100x16_S1x100x16_5_0_0) : (⟨S12x100x16, .f32⟩ : BufTy).Contents (Elt F) → (⟨S1x100x16, .f32⟩ : BufTy).Contents (Elt F)),
    reshape main_v339 main_v340 rfl shapeCasts_S1x100x16_S100x16,
    binary main_v44 main_v340 main_v341 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v342 ((extractStridedSlice S1x16 ![5, 0] · slices_S12x16_S1x16_5_0) : (⟨S12x16, .f32⟩ : BufTy).Contents (Elt F) → (⟨S1x16, .f32⟩ : BufTy).Contents (Elt F)),
    reshape main_v342 main_v343 rfl shapeCasts_S1x16_S16,
    unary main_v343 main_v344 (broadcastInDim S1x16 ![1] bcast_S16_S1x16_1 : (⟨S16, .f32⟩ : BufTy).Contents (Elt F) → (⟨S1x16, .f32⟩ : BufTy).Contents (Elt F)),
    unary main_v344 main_v345 (broadcastInDim S50000x16 ![0, 1] bcast_S1x16_S50000x16_0_1 : (⟨S1x16, .f32⟩ : BufTy).Contents (Elt F) → (⟨S50000x16, .f32⟩ : BufTy).Contents (Elt F)),
    binary main_v341 main_v345 main_v346 (addf : (⟨S50000x16, .f32⟩ : BufTy).Contents (Elt F) → (⟨S50000x16, .f32⟩ : BufTy).Contents (Elt F) → (⟨S50000x16, .f32⟩ : BufTy).Contents (Elt F)),
    unary main_arg7 main_v347 ((extractStridedSlice S1x16 ![5, 0] · slices_S12x16_S1x16_5_0) : (⟨S12x16, .f32⟩ : BufTy).Contents (Elt F) → (⟨S1x16, .f32⟩ : BufTy).Contents (Elt F)),
    reshape main_v347 main_v348 rfl shapeCasts_S1x16_S16,
    unary main_v348 main_v349 (broadcastInDim S1x16 ![1] bcast_S16_S1x16_1 : (⟨S16, .f32⟩ : BufTy).Contents (Elt F) → (⟨S1x16, .f32⟩ : BufTy).Contents (Elt F)),
    unary main_v349 main_v350 (broadcastInDim S50000x16 ![0, 1] bcast_S1x16_S50000x16_0_1 : (⟨S1x16, .f32⟩ : BufTy).Contents (Elt F) → (⟨S50000x16, .f32⟩ : BufTy).Contents (Elt F)),
    binary main_v346 main_v350 main_v351 (subf : (⟨S50000x16, .f32⟩ : BufTy).Contents (Elt F) → (⟨S50000x16, .f32⟩ : BufTy).Contents (Elt F) → (⟨S50000x16, .f32⟩ : BufTy).Contents (Elt F)),
    unary main_arg5 main_v352 ((extractStridedSlice S1x16 ![5, 0] · slices_S12x16_S1x16_5_0) : (⟨S12x16, .f32⟩ : BufTy).Contents (Elt F) → (⟨S1x16, .f32⟩ : BufTy).Contents (Elt F)),
    reshape main_v352 main_v353 rfl shapeCasts_S1x16_S16,
    unary main_arg8 main_v354 ((extractStridedSlice S1x16 ![5, 0] · slices_S12x16_S1x16_5_0) : (⟨S12x16, .f32⟩ : BufTy).Contents (Elt F) → (⟨S1x16, .f32⟩ : BufTy).Contents (Elt F)),
    reshape main_v354 main_v355 rfl shapeCasts_S1x16_S16,
    nullary main_cst_39 (constant S_ .f32 0x3727C5AC#32),
    unary main_cst_39 main_v356 (broadcastInDim S16 ![] bcast_S_S16 : (⟨S_, .f32⟩ : BufTy).Contents (Elt F) → (⟨S16, .f32⟩ : BufTy).Contents (Elt F)),
    binary main_v355 main_v356 main_v357 (addf : (⟨S16, .f32⟩ : BufTy).Contents (Elt F) → (⟨S16, .f32⟩ : BufTy).Contents (Elt F) → (⟨S16, .f32⟩ : BufTy).Contents (Elt F)),
    unary main_v357 main_v358 (Host.rsqrt : (⟨S16, .f32⟩ : BufTy).Contents (Elt F) → (⟨S16, .f32⟩ : BufTy).Contents (Elt F)),
    binary main_v353 main_v358 main_v359 (mulf : (⟨S16, .f32⟩ : BufTy).Contents (Elt F) → (⟨S16, .f32⟩ : BufTy).Contents (Elt F) → (⟨S16, .f32⟩ : BufTy).Contents (Elt F)),
    unary main_v359 main_v360 (broadcastInDim S1x16 ![1] bcast_S16_S1x16_1 : (⟨S16, .f32⟩ : BufTy).Contents (Elt F) → (⟨S1x16, .f32⟩ : BufTy).Contents (Elt F)),
    unary main_v360 main_v361 (broadcastInDim S50000x16 ![0, 1] bcast_S1x16_S50000x16_0_1 : (⟨S1x16, .f32⟩ : BufTy).Contents (Elt F) → (⟨S50000x16, .f32⟩ : BufTy).Contents (Elt F)),
    binary main_v351 main_v361 main_v362 (mulf : (⟨S50000x16, .f32⟩ : BufTy).Contents (Elt F) → (⟨S50000x16, .f32⟩ : BufTy).Contents (Elt F) → (⟨S50000x16, .f32⟩ : BufTy).Contents (Elt F)),
    unary main_arg6 main_v363 ((extractStridedSlice S1x16 ![5, 0] · slices_S12x16_S1x16_5_0) : (⟨S12x16, .f32⟩ : BufTy).Contents (Elt F) → (⟨S1x16, .f32⟩ : BufTy).Contents (Elt F)),
    reshape main_v363 main_v364 rfl shapeCasts_S1x16_S16,
    unary main_v364 main_v365 (broadcastInDim S1x16 ![1] bcast_S16_S1x16_1 : (⟨S16, .f32⟩ : BufTy).Contents (Elt F) → (⟨S1x16, .f32⟩ : BufTy).Contents (Elt F)),
    unary main_v365 main_v366 (broadcastInDim S50000x16 ![0, 1] bcast_S1x16_S50000x16_0_1 : (⟨S1x16, .f32⟩ : BufTy).Contents (Elt F) → (⟨S50000x16, .f32⟩ : BufTy).Contents (Elt F)),
    binary main_v362 main_v366 main_v367 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x16, .f32⟩) main_call7_v0) (broadcastInDim S50000x16 ![] bcast_S_S50000x16),
    TRef.binary (TRef.of (T := ⟨S50000x16, .f32⟩) main_v367) (TRef.of (T := ⟨S50000x16, .f32⟩) main_call7_v0) (TRef.of (T := ⟨S50000x16, .f32⟩) main_v368) maximumf ]

set_option maxRecDepth 8192 in
theorem rops12_sub : (rops12 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops13 : List (HloOp τ sig (Elt F)) :=
  [ unary main_v26 main_v369 (broadcastInDim S850000x1 ![0] bcast_S850000_S850000x1_0 : (⟨S850000, .f32⟩ : BufTy).Contents (Elt F) → (⟨S850000x1, .f32⟩ : BufTy).Contents (Elt F)),
    nullary main_c_40 (constantI S_ 32 0#32),
    unary main_c_40 main_v370 (broadcastInDim S850000 ![] bcast_S_S850000 : (⟨S_, .i32⟩ : BufTy).Contents (Elt F) → (⟨S850000, .i32⟩ : BufTy).Contents (Elt F)),
    binary main_v2 main_v370 main_v371 (cmpi .slt : (⟨S850000, .i32⟩ : BufTy).Contents (Elt F) → (⟨S850000, .i32⟩ : BufTy).Contents (Elt F) → (⟨S850000, .i1⟩ : BufTy).Contents (Elt F)),
    nullary main_c_41 (constantI S_ 32 50000#32),
    unary main_c_41 main_v372 (broadcastInDim S850000 ![] bcast_S_S850000 : (⟨S_, .i32⟩ : BufTy).Contents (Elt F) → (⟨S850000, .i32⟩ : BufTy).Contents (Elt F)),
    binary main_v2 main_v372 main_v373 (addi : (⟨S850000, .i32⟩ : BufTy).Contents (Elt F) → (⟨S850000, .i32⟩ : BufTy).Contents (Elt F) → (⟨S850000, .i32⟩ : BufTy).Contents (Elt F)),
    ternary main_v371 main_v373 main_v2 main_v374 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v374 main_v375 (broadcastInDim S850000x1 ![0] bcast_S850000_S850000x1_0 : (⟨S850000, .i32⟩ : BufTy).Contents (Elt F) → (⟨S850000x1, .i32⟩ : BufTy).Contents (Elt F)),
    binary main_v368 main_v375 main_v376 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v369 main_v377 (broadcastInDim S850000x16 ![0, 1] bcast_S850000x1_S850000x16_0_1 : (⟨S850000x1, .f32⟩ : BufTy).Contents (Elt F) → (⟨S850000x16, .f32⟩ : BufTy).Contents (Elt F)),
    binary main_v377 main_v376 main_v378 (mulf : (⟨S850000x16, .f32⟩ : BufTy).Contents (Elt F) → (⟨S850000x16, .f32⟩ : BufTy).Contents (Elt F) → (⟨S850000x16, .f32⟩ : BufTy).Contents (Elt F)),
    nullary main_cst_42 (constant S_ .f32 0x00000000#32),
    unary main_cst_42 main_v379 (broadcastInDim S50000x16 ![] bcast_S_S50000x16 : (⟨S_, .f32⟩ : BufTy).Contents (Elt F) → (⟨S50000x16, .f32⟩ : BufTy).Contents (Elt F)),
    unary main_v1 main_v380 (broadcastInDim S850000x1 ![0] bcast_S850000_S850000x1_0 : (⟨S850000, .i32⟩ : BufTy).Contents (Elt F) → (⟨S850000x1, .i32⟩ : BufTy).Contents (Elt F)),
    ternary main_v379 main_v380 main_v378 main_v381 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v382 ((extractStridedSlice S1x16x40 ![5, 0, 0] · slices_S12x16x40_S1x16x40_5_0_0) : (⟨S12x16x40, .f32⟩ : BufTy).Contents (Elt F) → (⟨S1x16x40, .f32⟩ : BufTy).Contents (Elt F)),
    reshape main_v382 main_v383 rfl shapeCasts_S1x16x40_S16x40,
    binary main_v381 main_v383 main_v384 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v385 ((extractStridedSlice S1x40 ![5, 0] · slices_S12x40_S1x40_5_0) : (⟨S12x40, .f32⟩ : BufTy).Contents (Elt F) → (⟨S1x40, .f32⟩ : BufTy).Contents (Elt F)),
    reshape main_v385 main_v386 rfl shapeCasts_S1x40_S40,
    unary main_v386 main_v387 (broadcastInDim S1x40 ![1] bcast_S40_S1x40_1 : (⟨S40, .f32⟩ : BufTy).Contents (Elt F) → (⟨S1x40, .f32⟩ : BufTy).Contents (Elt F)),
    unary main_v387 main_v388 (broadcastInDim S50000x40 ![0, 1] bcast_S1x40_S50000x40_0_1 : (⟨S1x40, .f32⟩ : BufTy).Contents (Elt F) → (⟨S50000x40, .f32⟩ : BufTy).Contents (Elt F)),
    binary main_v384 main_v388 main_v389 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops13_sub : (rops13 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops14 : List (HloOp τ sig (Elt F)) :=
  [ unary main_arg3 main_v390 ((extractStridedSlice S1x100x16 ![6, 0, 0] · slices_S12x100x16_S1x100x16_6_0_0) : (⟨S12x100x16, .f32⟩ : BufTy).Contents (Elt F) → (⟨S1x100x16, .f32⟩ : BufTy).Contents (Elt F)),
    reshape main_v390 main_v391 rfl shapeCasts_S1x100x16_S100x16,
    binary main_v57 main_v391 main_v392 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v393 ((extractStridedSlice S1x16 ![6, 0] · slices_S12x16_S1x16_6_0) : (⟨S12x16, .f32⟩ : BufTy).Contents (Elt F) → (⟨S1x16, .f32⟩ : BufTy).Contents (Elt F)),
    reshape main_v393 main_v394 rfl shapeCasts_S1x16_S16,
    unary main_v394 main_v395 (broadcastInDim S1x16 ![1] bcast_S16_S1x16_1 : (⟨S16, .f32⟩ : BufTy).Contents (Elt F) → (⟨S1x16, .f32⟩ : BufTy).Contents (Elt F)),
    unary main_v395 main_v396 (broadcastInDim S50000x16 ![0, 1] bcast_S1x16_S50000x16_0_1 : (⟨S1x16, .f32⟩ : BufTy).Contents (Elt F) → (⟨S50000x16, .f32⟩ : BufTy).Contents (Elt F)),
    binary main_v392 main_v396 main_v397 (addf : (⟨S50000x16, .f32⟩ : BufTy).Contents (Elt F) → (⟨S50000x16, .f32⟩ : BufTy).Contents (Elt F) → (⟨S50000x16, .f32⟩ : BufTy).Contents (Elt F)),
    unary main_arg7 main_v398 ((extractStridedSlice S1x16 ![6, 0] · slices_S12x16_S1x16_6_0) : (⟨S12x16, .f32⟩ : BufTy).Contents (Elt F) → (⟨S1x16, .f32⟩ : BufTy).Contents (Elt F)),
    reshape main_v398 main_v399 rfl shapeCasts_S1x16_S16,
    unary main_v399 main_v400 (broadcastInDim S1x16 ![1] bcast_S16_S1x16_1 : (⟨S16, .f32⟩ : BufTy).Contents (Elt F) → (⟨S1x16, .f32⟩ : BufTy).Contents (Elt F)),
    unary main_v400 main_v401 (broadcastInDim S50000x16 ![0, 1] bcast_S1x16_S50000x16_0_1 : (⟨S1x16, .f32⟩ : BufTy).Contents (Elt F) → (⟨S50000x16, .f32⟩ : BufTy).Contents (Elt F)),
    binary main_v397 main_v401 main_v402 (subf : (⟨S50000x16, .f32⟩ : BufTy).Contents (Elt F) → (⟨S50000x16, .f32⟩ : BufTy).Contents (Elt F) → (⟨S50000x16, .f32⟩ : BufTy).Contents (Elt F)),
    unary main_arg5 main_v403 ((extractStridedSlice S1x16 ![6, 0] · slices_S12x16_S1x16_6_0) : (⟨S12x16, .f32⟩ : BufTy).Contents (Elt F) → (⟨S1x16, .f32⟩ : BufTy).Contents (Elt F)),
    reshape main_v403 main_v404 rfl shapeCasts_S1x16_S16,
    unary main_arg8 main_v405 ((extractStridedSlice S1x16 ![6, 0] · slices_S12x16_S1x16_6_0) : (⟨S12x16, .f32⟩ : BufTy).Contents (Elt F) → (⟨S1x16, .f32⟩ : BufTy).Contents (Elt F)),
    reshape main_v405 main_v406 rfl shapeCasts_S1x16_S16,
    nullary main_cst_43 (constant S_ .f32 0x3727C5AC#32),
    unary main_cst_43 main_v407 (broadcastInDim S16 ![] bcast_S_S16 : (⟨S_, .f32⟩ : BufTy).Contents (Elt F) → (⟨S16, .f32⟩ : BufTy).Contents (Elt F)),
    binary main_v406 main_v407 main_v408 (addf : (⟨S16, .f32⟩ : BufTy).Contents (Elt F) → (⟨S16, .f32⟩ : BufTy).Contents (Elt F) → (⟨S16, .f32⟩ : BufTy).Contents (Elt F)),
    unary main_v408 main_v409 (Host.rsqrt : (⟨S16, .f32⟩ : BufTy).Contents (Elt F) → (⟨S16, .f32⟩ : BufTy).Contents (Elt F)),
    binary main_v404 main_v409 main_v410 (mulf : (⟨S16, .f32⟩ : BufTy).Contents (Elt F) → (⟨S16, .f32⟩ : BufTy).Contents (Elt F) → (⟨S16, .f32⟩ : BufTy).Contents (Elt F)),
    unary main_v410 main_v411 (broadcastInDim S1x16 ![1] bcast_S16_S1x16_1 : (⟨S16, .f32⟩ : BufTy).Contents (Elt F) → (⟨S1x16, .f32⟩ : BufTy).Contents (Elt F)),
    unary main_v411 main_v412 (broadcastInDim S50000x16 ![0, 1] bcast_S1x16_S50000x16_0_1 : (⟨S1x16, .f32⟩ : BufTy).Contents (Elt F) → (⟨S50000x16, .f32⟩ : BufTy).Contents (Elt F)),
    binary main_v402 main_v412 main_v413 (mulf : (⟨S50000x16, .f32⟩ : BufTy).Contents (Elt F) → (⟨S50000x16, .f32⟩ : BufTy).Contents (Elt F) → (⟨S50000x16, .f32⟩ : BufTy).Contents (Elt F)),
    unary main_arg6 main_v414 ((extractStridedSlice S1x16 ![6, 0] · slices_S12x16_S1x16_6_0) : (⟨S12x16, .f32⟩ : BufTy).Contents (Elt F) → (⟨S1x16, .f32⟩ : BufTy).Contents (Elt F)),
    reshape main_v414 main_v415 rfl shapeCasts_S1x16_S16,
    unary main_v415 main_v416 (broadcastInDim S1x16 ![1] bcast_S16_S1x16_1 : (⟨S16, .f32⟩ : BufTy).Contents (Elt F) → (⟨S1x16, .f32⟩ : BufTy).Contents (Elt F)),
    unary main_v416 main_v417 (broadcastInDim S50000x16 ![0, 1] bcast_S1x16_S50000x16_0_1 : (⟨S1x16, .f32⟩ : BufTy).Contents (Elt F) → (⟨S50000x16, .f32⟩ : BufTy).Contents (Elt F)),
    binary main_v413 main_v417 main_v418 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x16, .f32⟩) main_call8_v0) (broadcastInDim S50000x16 ![] bcast_S_S50000x16),
    TRef.binary (TRef.of (T := ⟨S50000x16, .f32⟩) main_v418) (TRef.of (T := ⟨S50000x16, .f32⟩) main_call8_v0) (TRef.of (T := ⟨S50000x16, .f32⟩) main_v419) maximumf ]

set_option maxRecDepth 8192 in
theorem rops14_sub : (rops14 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops15 : List (HloOp τ sig (Elt F)) :=
  [ unary main_v26 main_v420 (broadcastInDim S850000x1 ![0] bcast_S850000_S850000x1_0 : (⟨S850000, .f32⟩ : BufTy).Contents (Elt F) → (⟨S850000x1, .f32⟩ : BufTy).Contents (Elt F)),
    nullary main_c_44 (constantI S_ 32 0#32),
    unary main_c_44 main_v421 (broadcastInDim S850000 ![] bcast_S_S850000 : (⟨S_, .i32⟩ : BufTy).Contents (Elt F) → (⟨S850000, .i32⟩ : BufTy).Contents (Elt F)),
    binary main_v2 main_v421 main_v422 (cmpi .slt : (⟨S850000, .i32⟩ : BufTy).Contents (Elt F) → (⟨S850000, .i32⟩ : BufTy).Contents (Elt F) → (⟨S850000, .i1⟩ : BufTy).Contents (Elt F)),
    nullary main_c_45 (constantI S_ 32 50000#32),
    unary main_c_45 main_v423 (broadcastInDim S850000 ![] bcast_S_S850000 : (⟨S_, .i32⟩ : BufTy).Contents (Elt F) → (⟨S850000, .i32⟩ : BufTy).Contents (Elt F)),
    binary main_v2 main_v423 main_v424 (addi : (⟨S850000, .i32⟩ : BufTy).Contents (Elt F) → (⟨S850000, .i32⟩ : BufTy).Contents (Elt F) → (⟨S850000, .i32⟩ : BufTy).Contents (Elt F)),
    ternary main_v422 main_v424 main_v2 main_v425 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v425 main_v426 (broadcastInDim S850000x1 ![0] bcast_S850000_S850000x1_0 : (⟨S850000, .i32⟩ : BufTy).Contents (Elt F) → (⟨S850000x1, .i32⟩ : BufTy).Contents (Elt F)),
    binary main_v419 main_v426 main_v427 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v420 main_v428 (broadcastInDim S850000x16 ![0, 1] bcast_S850000x1_S850000x16_0_1 : (⟨S850000x1, .f32⟩ : BufTy).Contents (Elt F) → (⟨S850000x16, .f32⟩ : BufTy).Contents (Elt F)),
    binary main_v428 main_v427 main_v429 (mulf : (⟨S850000x16, .f32⟩ : BufTy).Contents (Elt F) → (⟨S850000x16, .f32⟩ : BufTy).Contents (Elt F) → (⟨S850000x16, .f32⟩ : BufTy).Contents (Elt F)),
    nullary main_cst_46 (constant S_ .f32 0x00000000#32),
    unary main_cst_46 main_v430 (broadcastInDim S50000x16 ![] bcast_S_S50000x16 : (⟨S_, .f32⟩ : BufTy).Contents (Elt F) → (⟨S50000x16, .f32⟩ : BufTy).Contents (Elt F)),
    unary main_v1 main_v431 (broadcastInDim S850000x1 ![0] bcast_S850000_S850000x1_0 : (⟨S850000, .i32⟩ : BufTy).Contents (Elt F) → (⟨S850000x1, .i32⟩ : BufTy).Contents (Elt F)),
    ternary main_v430 main_v431 main_v429 main_v432 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v433 (broadcastInDim S850000x1 ![0] bcast_S850000_S850000x1_0 : (⟨S850000, .f32⟩ : BufTy).Contents (Elt F) → (⟨S850000x1, .f32⟩ : BufTy).Contents (Elt F)),
    nullary main_c_47 (constantI S_ 32 0#32),
    unary main_c_47 main_v434 (broadcastInDim S850000 ![] bcast_S_S850000 : (⟨S_, .i32⟩ : BufTy).Contents (Elt F) → (⟨S850000, .i32⟩ : BufTy).Contents (Elt F)),
    binary main_v2 main_v434 main_v435 (cmpi .slt : (⟨S850000, .i32⟩ : BufTy).Contents (Elt F) → (⟨S850000, .i32⟩ : BufTy).Contents (Elt F) → (⟨S850000, .i1⟩ : BufTy).Contents (Elt F)),
    nullary main_c_48 (constantI S_ 32 50000#32),
    unary main_c_48 main_v436 (broadcastInDim S850000 ![] bcast_S_S850000 : (⟨S_, .i32⟩ : BufTy).Contents (Elt F) → (⟨S850000, .i32⟩ : BufTy).Contents (Elt F)),
    binary main_v2 main_v436 main_v437 (addi : (⟨S850000, .i32⟩ : BufTy).Contents (Elt F) → (⟨S850000, .i32⟩ : BufTy).Contents (Elt F) → (⟨S850000, .i32⟩ : BufTy).Contents (Elt F)),
    ternary main_v435 main_v437 main_v2 main_v438 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v438 main_v439 (broadcastInDim S850000x1 ![0] bcast_S850000_S850000x1_0 : (⟨S850000, .i32⟩ : BufTy).Contents (Elt F) → (⟨S850000x1, .i32⟩ : BufTy).Contents (Elt F)),
    binary main_v432 main_v439 main_v440 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v433 main_v441 (broadcastInDim S850000x16 ![0, 1] bcast_S850000x1_S850000x16_0_1 : (⟨S850000x1, .f32⟩ : BufTy).Contents (Elt F) → (⟨S850000x16, .f32⟩ : BufTy).Contents (Elt F)),
    binary main_v441 main_v440 main_v442 (mulf : (⟨S850000x16, .f32⟩ : BufTy).Contents (Elt F) → (⟨S850000x16, .f32⟩ : BufTy).Contents (Elt F) → (⟨S850000x16, .f32⟩ : BufTy).Contents (Elt F)),
    nullary main_cst_49 (constant S_ .f32 0x00000000#32),
    unary main_cst_49 main_v443 (broadcastInDim S50000x16 ![] bcast_S_S50000x16 : (⟨S_, .f32⟩ : BufTy).Contents (Elt F) → (⟨S50000x16, .f32⟩ : BufTy).Contents (Elt F)),
    unary main_v1 main_v444 (broadcastInDim S850000x1 ![0] bcast_S850000_S850000x1_0 : (⟨S850000, .i32⟩ : BufTy).Contents (Elt F) → (⟨S850000x1, .i32⟩ : BufTy).Contents (Elt F)),
    ternary main_v443 main_v444 main_v442 main_v445 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v446 ((extractStridedSlice S1x16x40 ![6, 0, 0] · slices_S12x16x40_S1x16x40_6_0_0) : (⟨S12x16x40, .f32⟩ : BufTy).Contents (Elt F) → (⟨S1x16x40, .f32⟩ : BufTy).Contents (Elt F)),
    reshape main_v446 main_v447 rfl shapeCasts_S1x16x40_S16x40,
    binary main_v445 main_v447 main_v448 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v449 ((extractStridedSlice S1x40 ![6, 0] · slices_S12x40_S1x40_6_0) : (⟨S12x40, .f32⟩ : BufTy).Contents (Elt F) → (⟨S1x40, .f32⟩ : BufTy).Contents (Elt F)),
    reshape main_v449 main_v450 rfl shapeCasts_S1x40_S40,
    unary main_v450 main_v451 (broadcastInDim S1x40 ![1] bcast_S40_S1x40_1 : (⟨S40, .f32⟩ : BufTy).Contents (Elt F) → (⟨S1x40, .f32⟩ : BufTy).Contents (Elt F)),
    unary main_v451 main_v452 (broadcastInDim S50000x40 ![0, 1] bcast_S1x40_S50000x40_0_1 : (⟨S1x40, .f32⟩ : BufTy).Contents (Elt F) → (⟨S50000x40, .f32⟩ : BufTy).Contents (Elt F)),
    binary main_v448 main_v452 main_v453 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops15_sub : (rops15 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops16 : List (HloOp τ sig (Elt F)) :=
  [ unary main_arg3 main_v454 ((extractStridedSlice S1x100x16 ![7, 0, 0] · slices_S12x100x16_S1x100x16_7_0_0) : (⟨S12x100x16, .f32⟩ : BufTy).Contents (Elt F) → (⟨S1x100x16, .f32⟩ : BufTy).Contents (Elt F)),
    reshape main_v454 main_v455 rfl shapeCasts_S1x100x16_S100x16,
    binary main_v70 main_v455 main_v456 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v457 ((extractStridedSlice S1x16 ![7, 0] · slices_S12x16_S1x16_7_0) : (⟨S12x16, .f32⟩ : BufTy).Contents (Elt F) → (⟨S1x16, .f32⟩ : BufTy).Contents (Elt F)),
    reshape main_v457 main_v458 rfl shapeCasts_S1x16_S16,
    unary main_v458 main_v459 (broadcastInDim S1x16 ![1] bcast_S16_S1x16_1 : (⟨S16, .f32⟩ : BufTy).Contents (Elt F) → (⟨S1x16, .f32⟩ : BufTy).Contents (Elt F)),
    unary main_v459 main_v460 (broadcastInDim S50000x16 ![0, 1] bcast_S1x16_S50000x16_0_1 : (⟨S1x16, .f32⟩ : BufTy).Contents (Elt F) → (⟨S50000x16, .f32⟩ : BufTy).Contents (Elt F)),
    binary main_v456 main_v460 main_v461 (addf : (⟨S50000x16, .f32⟩ : BufTy).Contents (Elt F) → (⟨S50000x16, .f32⟩ : BufTy).Contents (Elt F) → (⟨S50000x16, .f32⟩ : BufTy).Contents (Elt F)),
    unary main_arg7 main_v462 ((extractStridedSlice S1x16 ![7, 0] · slices_S12x16_S1x16_7_0) : (⟨S12x16, .f32⟩ : BufTy).Contents (Elt F) → (⟨S1x16, .f32⟩ : BufTy).Contents (Elt F)),
    reshape main_v462 main_v463 rfl shapeCasts_S1x16_S16,
    unary main_v463 main_v464 (broadcastInDim S1x16 ![1] bcast_S16_S1x16_1 : (⟨S16, .f32⟩ : BufTy).Contents (Elt F) → (⟨S1x16, .f32⟩ : BufTy).Contents (Elt F)),
    unary main_v464 main_v465 (broadcastInDim S50000x16 ![0, 1] bcast_S1x16_S50000x16_0_1 : (⟨S1x16, .f32⟩ : BufTy).Contents (Elt F) → (⟨S50000x16, .f32⟩ : BufTy).Contents (Elt F)),
    binary main_v461 main_v465 main_v466 (subf : (⟨S50000x16, .f32⟩ : BufTy).Contents (Elt F) → (⟨S50000x16, .f32⟩ : BufTy).Contents (Elt F) → (⟨S50000x16, .f32⟩ : BufTy).Contents (Elt F)),
    unary main_arg5 main_v467 ((extractStridedSlice S1x16 ![7, 0] · slices_S12x16_S1x16_7_0) : (⟨S12x16, .f32⟩ : BufTy).Contents (Elt F) → (⟨S1x16, .f32⟩ : BufTy).Contents (Elt F)),
    reshape main_v467 main_v468 rfl shapeCasts_S1x16_S16,
    unary main_arg8 main_v469 ((extractStridedSlice S1x16 ![7, 0] · slices_S12x16_S1x16_7_0) : (⟨S12x16, .f32⟩ : BufTy).Contents (Elt F) → (⟨S1x16, .f32⟩ : BufTy).Contents (Elt F)),
    reshape main_v469 main_v470 rfl shapeCasts_S1x16_S16,
    nullary main_cst_50 (constant S_ .f32 0x3727C5AC#32),
    unary main_cst_50 main_v471 (broadcastInDim S16 ![] bcast_S_S16 : (⟨S_, .f32⟩ : BufTy).Contents (Elt F) → (⟨S16, .f32⟩ : BufTy).Contents (Elt F)),
    binary main_v470 main_v471 main_v472 (addf : (⟨S16, .f32⟩ : BufTy).Contents (Elt F) → (⟨S16, .f32⟩ : BufTy).Contents (Elt F) → (⟨S16, .f32⟩ : BufTy).Contents (Elt F)),
    unary main_v472 main_v473 (Host.rsqrt : (⟨S16, .f32⟩ : BufTy).Contents (Elt F) → (⟨S16, .f32⟩ : BufTy).Contents (Elt F)),
    binary main_v468 main_v473 main_v474 (mulf : (⟨S16, .f32⟩ : BufTy).Contents (Elt F) → (⟨S16, .f32⟩ : BufTy).Contents (Elt F) → (⟨S16, .f32⟩ : BufTy).Contents (Elt F)),
    unary main_v474 main_v475 (broadcastInDim S1x16 ![1] bcast_S16_S1x16_1 : (⟨S16, .f32⟩ : BufTy).Contents (Elt F) → (⟨S1x16, .f32⟩ : BufTy).Contents (Elt F)),
    unary main_v475 main_v476 (broadcastInDim S50000x16 ![0, 1] bcast_S1x16_S50000x16_0_1 : (⟨S1x16, .f32⟩ : BufTy).Contents (Elt F) → (⟨S50000x16, .f32⟩ : BufTy).Contents (Elt F)),
    binary main_v466 main_v476 main_v477 (mulf : (⟨S50000x16, .f32⟩ : BufTy).Contents (Elt F) → (⟨S50000x16, .f32⟩ : BufTy).Contents (Elt F) → (⟨S50000x16, .f32⟩ : BufTy).Contents (Elt F)),
    unary main_arg6 main_v478 ((extractStridedSlice S1x16 ![7, 0] · slices_S12x16_S1x16_7_0) : (⟨S12x16, .f32⟩ : BufTy).Contents (Elt F) → (⟨S1x16, .f32⟩ : BufTy).Contents (Elt F)),
    reshape main_v478 main_v479 rfl shapeCasts_S1x16_S16,
    unary main_v479 main_v480 (broadcastInDim S1x16 ![1] bcast_S16_S1x16_1 : (⟨S16, .f32⟩ : BufTy).Contents (Elt F) → (⟨S1x16, .f32⟩ : BufTy).Contents (Elt F)),
    unary main_v480 main_v481 (broadcastInDim S50000x16 ![0, 1] bcast_S1x16_S50000x16_0_1 : (⟨S1x16, .f32⟩ : BufTy).Contents (Elt F) → (⟨S50000x16, .f32⟩ : BufTy).Contents (Elt F)),
    binary main_v477 main_v481 main_v482 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x16, .f32⟩) main_call9_v0) (broadcastInDim S50000x16 ![] bcast_S_S50000x16),
    TRef.binary (TRef.of (T := ⟨S50000x16, .f32⟩) main_v482) (TRef.of (T := ⟨S50000x16, .f32⟩) main_call9_v0) (TRef.of (T := ⟨S50000x16, .f32⟩) main_v483) maximumf ]

set_option maxRecDepth 8192 in
theorem rops16_sub : (rops16 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops17 : List (HloOp τ sig (Elt F)) :=
  [ unary main_v26 main_v484 (broadcastInDim S850000x1 ![0] bcast_S850000_S850000x1_0 : (⟨S850000, .f32⟩ : BufTy).Contents (Elt F) → (⟨S850000x1, .f32⟩ : BufTy).Contents (Elt F)),
    nullary main_c_51 (constantI S_ 32 0#32),
    unary main_c_51 main_v485 (broadcastInDim S850000 ![] bcast_S_S850000 : (⟨S_, .i32⟩ : BufTy).Contents (Elt F) → (⟨S850000, .i32⟩ : BufTy).Contents (Elt F)),
    binary main_v2 main_v485 main_v486 (cmpi .slt : (⟨S850000, .i32⟩ : BufTy).Contents (Elt F) → (⟨S850000, .i32⟩ : BufTy).Contents (Elt F) → (⟨S850000, .i1⟩ : BufTy).Contents (Elt F)),
    nullary main_c_52 (constantI S_ 32 50000#32),
    unary main_c_52 main_v487 (broadcastInDim S850000 ![] bcast_S_S850000 : (⟨S_, .i32⟩ : BufTy).Contents (Elt F) → (⟨S850000, .i32⟩ : BufTy).Contents (Elt F)),
    binary main_v2 main_v487 main_v488 (addi : (⟨S850000, .i32⟩ : BufTy).Contents (Elt F) → (⟨S850000, .i32⟩ : BufTy).Contents (Elt F) → (⟨S850000, .i32⟩ : BufTy).Contents (Elt F)),
    ternary main_v486 main_v488 main_v2 main_v489 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v489 main_v490 (broadcastInDim S850000x1 ![0] bcast_S850000_S850000x1_0 : (⟨S850000, .i32⟩ : BufTy).Contents (Elt F) → (⟨S850000x1, .i32⟩ : BufTy).Contents (Elt F)),
    binary main_v483 main_v490 main_v491 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v484 main_v492 (broadcastInDim S850000x16 ![0, 1] bcast_S850000x1_S850000x16_0_1 : (⟨S850000x1, .f32⟩ : BufTy).Contents (Elt F) → (⟨S850000x16, .f32⟩ : BufTy).Contents (Elt F)),
    binary main_v492 main_v491 main_v493 (mulf : (⟨S850000x16, .f32⟩ : BufTy).Contents (Elt F) → (⟨S850000x16, .f32⟩ : BufTy).Contents (Elt F) → (⟨S850000x16, .f32⟩ : BufTy).Contents (Elt F)),
    nullary main_cst_53 (constant S_ .f32 0x00000000#32),
    unary main_cst_53 main_v494 (broadcastInDim S50000x16 ![] bcast_S_S50000x16 : (⟨S_, .f32⟩ : BufTy).Contents (Elt F) → (⟨S50000x16, .f32⟩ : BufTy).Contents (Elt F)),
    unary main_v1 main_v495 (broadcastInDim S850000x1 ![0] bcast_S850000_S850000x1_0 : (⟨S850000, .i32⟩ : BufTy).Contents (Elt F) → (⟨S850000x1, .i32⟩ : BufTy).Contents (Elt F)),
    ternary main_v494 main_v495 main_v493 main_v496 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v497 (broadcastInDim S850000x1 ![0] bcast_S850000_S850000x1_0 : (⟨S850000, .f32⟩ : BufTy).Contents (Elt F) → (⟨S850000x1, .f32⟩ : BufTy).Contents (Elt F)),
    nullary main_c_54 (constantI S_ 32 0#32),
    unary main_c_54 main_v498 (broadcastInDim S850000 ![] bcast_S_S850000 : (⟨S_, .i32⟩ : BufTy).Contents (Elt F) → (⟨S850000, .i32⟩ : BufTy).Contents (Elt F)),
    binary main_v2 main_v498 main_v499 (cmpi .slt : (⟨S850000, .i32⟩ : BufTy).Contents (Elt F) → (⟨S850000, .i32⟩ : BufTy).Contents (Elt F) → (⟨S850000, .i1⟩ : BufTy).Contents (Elt F)),
    nullary main_c_55 (constantI S_ 32 50000#32),
    unary main_c_55 main_v500 (broadcastInDim S850000 ![] bcast_S_S850000 : (⟨S_, .i32⟩ : BufTy).Contents (Elt F) → (⟨S850000, .i32⟩ : BufTy).Contents (Elt F)),
    binary main_v2 main_v500 main_v501 (addi : (⟨S850000, .i32⟩ : BufTy).Contents (Elt F) → (⟨S850000, .i32⟩ : BufTy).Contents (Elt F) → (⟨S850000, .i32⟩ : BufTy).Contents (Elt F)),
    ternary main_v499 main_v501 main_v2 main_v502 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v502 main_v503 (broadcastInDim S850000x1 ![0] bcast_S850000_S850000x1_0 : (⟨S850000, .i32⟩ : BufTy).Contents (Elt F) → (⟨S850000x1, .i32⟩ : BufTy).Contents (Elt F)),
    binary main_v496 main_v503 main_v504 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v497 main_v505 (broadcastInDim S850000x16 ![0, 1] bcast_S850000x1_S850000x16_0_1 : (⟨S850000x1, .f32⟩ : BufTy).Contents (Elt F) → (⟨S850000x16, .f32⟩ : BufTy).Contents (Elt F)),
    binary main_v505 main_v504 main_v506 (mulf : (⟨S850000x16, .f32⟩ : BufTy).Contents (Elt F) → (⟨S850000x16, .f32⟩ : BufTy).Contents (Elt F) → (⟨S850000x16, .f32⟩ : BufTy).Contents (Elt F)),
    nullary main_cst_56 (constant S_ .f32 0x00000000#32),
    unary main_cst_56 main_v507 (broadcastInDim S50000x16 ![] bcast_S_S50000x16 : (⟨S_, .f32⟩ : BufTy).Contents (Elt F) → (⟨S50000x16, .f32⟩ : BufTy).Contents (Elt F)),
    unary main_v1 main_v508 (broadcastInDim S850000x1 ![0] bcast_S850000_S850000x1_0 : (⟨S850000, .i32⟩ : BufTy).Contents (Elt F) → (⟨S850000x1, .i32⟩ : BufTy).Contents (Elt F)),
    ternary main_v507 main_v508 main_v506 main_v509 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v510 (broadcastInDim S850000x1 ![0] bcast_S850000_S850000x1_0 : (⟨S850000, .f32⟩ : BufTy).Contents (Elt F) → (⟨S850000x1, .f32⟩ : BufTy).Contents (Elt F)),
    nullary main_c_57 (constantI S_ 32 0#32),
    unary main_c_57 main_v511 (broadcastInDim S850000 ![] bcast_S_S850000 : (⟨S_, .i32⟩ : BufTy).Contents (Elt F) → (⟨S850000, .i32⟩ : BufTy).Contents (Elt F)),
    binary main_v2 main_v511 main_v512 (cmpi .slt : (⟨S850000, .i32⟩ : BufTy).Contents (Elt F) → (⟨S850000, .i32⟩ : BufTy).Contents (Elt F) → (⟨S850000, .i1⟩ : BufTy).Contents (Elt F)),
    nullary main_c_58 (constantI S_ 32 50000#32),
    unary main_c_58 main_v513 (broadcastInDim S850000 ![] bcast_S_S850000 : (⟨S_, .i32⟩ : BufTy).Contents (Elt F) → (⟨S850000, .i32⟩ : BufTy).Contents (Elt F)),
    binary main_v2 main_v513 main_v514 (addi : (⟨S850000, .i32⟩ : BufTy).Contents (Elt F) → (⟨S850000, .i32⟩ : BufTy).Contents (Elt F) → (⟨S850000, .i32⟩ : BufTy).Contents (Elt F)),
    ternary main_v512 main_v514 main_v2 main_v515 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v515 main_v516 (broadcastInDim S850000x1 ![0] bcast_S850000_S850000x1_0 : (⟨S850000, .i32⟩ : BufTy).Contents (Elt F) → (⟨S850000x1, .i32⟩ : BufTy).Contents (Elt F)),
    binary main_v509 main_v516 main_v517 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v510 main_v518 (broadcastInDim S850000x16 ![0, 1] bcast_S850000x1_S850000x16_0_1 : (⟨S850000x1, .f32⟩ : BufTy).Contents (Elt F) → (⟨S850000x16, .f32⟩ : BufTy).Contents (Elt F)),
    binary main_v518 main_v517 main_v519 (mulf : (⟨S850000x16, .f32⟩ : BufTy).Contents (Elt F) → (⟨S850000x16, .f32⟩ : BufTy).Contents (Elt F) → (⟨S850000x16, .f32⟩ : BufTy).Contents (Elt F)),
    nullary main_cst_59 (constant S_ .f32 0x00000000#32),
    unary main_cst_59 main_v520 (broadcastInDim S50000x16 ![] bcast_S_S50000x16 : (⟨S_, .f32⟩ : BufTy).Contents (Elt F) → (⟨S50000x16, .f32⟩ : BufTy).Contents (Elt F)),
    unary main_v1 main_v521 (broadcastInDim S850000x1 ![0] bcast_S850000_S850000x1_0 : (⟨S850000, .i32⟩ : BufTy).Contents (Elt F) → (⟨S850000x1, .i32⟩ : BufTy).Contents (Elt F)),
    ternary main_v520 main_v521 main_v519 main_v522 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v523 ((extractStridedSlice S1x16x40 ![7, 0, 0] · slices_S12x16x40_S1x16x40_7_0_0) : (⟨S12x16x40, .f32⟩ : BufTy).Contents (Elt F) → (⟨S1x16x40, .f32⟩ : BufTy).Contents (Elt F)),
    reshape main_v523 main_v524 rfl shapeCasts_S1x16x40_S16x40,
    binary main_v522 main_v524 main_v525 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v526 ((extractStridedSlice S1x40 ![7, 0] · slices_S12x40_S1x40_7_0) : (⟨S12x40, .f32⟩ : BufTy).Contents (Elt F) → (⟨S1x40, .f32⟩ : BufTy).Contents (Elt F)),
    reshape main_v526 main_v527 rfl shapeCasts_S1x40_S40,
    unary main_v527 main_v528 (broadcastInDim S1x40 ![1] bcast_S40_S1x40_1 : (⟨S40, .f32⟩ : BufTy).Contents (Elt F) → (⟨S1x40, .f32⟩ : BufTy).Contents (Elt F)),
    unary main_v528 main_v529 (broadcastInDim S50000x40 ![0, 1] bcast_S1x40_S50000x40_0_1 : (⟨S1x40, .f32⟩ : BufTy).Contents (Elt F) → (⟨S50000x40, .f32⟩ : BufTy).Contents (Elt F)),
    binary main_v525 main_v529 main_v530 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops17_sub : (rops17 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops18 : List (HloOp τ sig (Elt F)) :=
  [ unary main_arg3 main_v531 ((extractStridedSlice S1x100x16 ![8, 0, 0] · slices_S12x100x16_S1x100x16_8_0_0) : (⟨S12x100x16, .f32⟩ : BufTy).Contents (Elt F) → (⟨S1x100x16, .f32⟩ : BufTy).Contents (Elt F)),
    reshape main_v531 main_v532 rfl shapeCasts_S1x100x16_S100x16,
    binary main_v31 main_v532 main_v533 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v534 ((extractStridedSlice S1x16 ![8, 0] · slices_S12x16_S1x16_8_0) : (⟨S12x16, .f32⟩ : BufTy).Contents (Elt F) → (⟨S1x16, .f32⟩ : BufTy).Contents (Elt F)),
    reshape main_v534 main_v535 rfl shapeCasts_S1x16_S16,
    unary main_v535 main_v536 (broadcastInDim S1x16 ![1] bcast_S16_S1x16_1 : (⟨S16, .f32⟩ : BufTy).Contents (Elt F) → (⟨S1x16, .f32⟩ : BufTy).Contents (Elt F)),
    unary main_v536 main_v537 (broadcastInDim S50000x16 ![0, 1] bcast_S1x16_S50000x16_0_1 : (⟨S1x16, .f32⟩ : BufTy).Contents (Elt F) → (⟨S50000x16, .f32⟩ : BufTy).Contents (Elt F)),
    binary main_v533 main_v537 main_v538 (addf : (⟨S50000x16, .f32⟩ : BufTy).Contents (Elt F) → (⟨S50000x16, .f32⟩ : BufTy).Contents (Elt F) → (⟨S50000x16, .f32⟩ : BufTy).Contents (Elt F)),
    unary main_arg7 main_v539 ((extractStridedSlice S1x16 ![8, 0] · slices_S12x16_S1x16_8_0) : (⟨S12x16, .f32⟩ : BufTy).Contents (Elt F) → (⟨S1x16, .f32⟩ : BufTy).Contents (Elt F)),
    reshape main_v539 main_v540 rfl shapeCasts_S1x16_S16,
    unary main_v540 main_v541 (broadcastInDim S1x16 ![1] bcast_S16_S1x16_1 : (⟨S16, .f32⟩ : BufTy).Contents (Elt F) → (⟨S1x16, .f32⟩ : BufTy).Contents (Elt F)),
    unary main_v541 main_v542 (broadcastInDim S50000x16 ![0, 1] bcast_S1x16_S50000x16_0_1 : (⟨S1x16, .f32⟩ : BufTy).Contents (Elt F) → (⟨S50000x16, .f32⟩ : BufTy).Contents (Elt F)),
    binary main_v538 main_v542 main_v543 (subf : (⟨S50000x16, .f32⟩ : BufTy).Contents (Elt F) → (⟨S50000x16, .f32⟩ : BufTy).Contents (Elt F) → (⟨S50000x16, .f32⟩ : BufTy).Contents (Elt F)),
    unary main_arg5 main_v544 ((extractStridedSlice S1x16 ![8, 0] · slices_S12x16_S1x16_8_0) : (⟨S12x16, .f32⟩ : BufTy).Contents (Elt F) → (⟨S1x16, .f32⟩ : BufTy).Contents (Elt F)),
    reshape main_v544 main_v545 rfl shapeCasts_S1x16_S16,
    unary main_arg8 main_v546 ((extractStridedSlice S1x16 ![8, 0] · slices_S12x16_S1x16_8_0) : (⟨S12x16, .f32⟩ : BufTy).Contents (Elt F) → (⟨S1x16, .f32⟩ : BufTy).Contents (Elt F)),
    reshape main_v546 main_v547 rfl shapeCasts_S1x16_S16,
    nullary main_cst_60 (constant S_ .f32 0x3727C5AC#32),
    unary main_cst_60 main_v548 (broadcastInDim S16 ![] bcast_S_S16 : (⟨S_, .f32⟩ : BufTy).Contents (Elt F) → (⟨S16, .f32⟩ : BufTy).Contents (Elt F)),
    binary main_v547 main_v548 main_v549 (addf : (⟨S16, .f32⟩ : BufTy).Contents (Elt F) → (⟨S16, .f32⟩ : BufTy).Contents (Elt F) → (⟨S16, .f32⟩ : BufTy).Contents (Elt F)),
    unary main_v549 main_v550 (Host.rsqrt : (⟨S16, .f32⟩ : BufTy).Contents (Elt F) → (⟨S16, .f32⟩ : BufTy).Contents (Elt F)),
    binary main_v545 main_v550 main_v551 (mulf : (⟨S16, .f32⟩ : BufTy).Contents (Elt F) → (⟨S16, .f32⟩ : BufTy).Contents (Elt F) → (⟨S16, .f32⟩ : BufTy).Contents (Elt F)),
    unary main_v551 main_v552 (broadcastInDim S1x16 ![1] bcast_S16_S1x16_1 : (⟨S16, .f32⟩ : BufTy).Contents (Elt F) → (⟨S1x16, .f32⟩ : BufTy).Contents (Elt F)),
    unary main_v552 main_v553 (broadcastInDim S50000x16 ![0, 1] bcast_S1x16_S50000x16_0_1 : (⟨S1x16, .f32⟩ : BufTy).Contents (Elt F) → (⟨S50000x16, .f32⟩ : BufTy).Contents (Elt F)),
    binary main_v543 main_v553 main_v554 (mulf : (⟨S50000x16, .f32⟩ : BufTy).Contents (Elt F) → (⟨S50000x16, .f32⟩ : BufTy).Contents (Elt F) → (⟨S50000x16, .f32⟩ : BufTy).Contents (Elt F)),
    unary main_arg6 main_v555 ((extractStridedSlice S1x16 ![8, 0] · slices_S12x16_S1x16_8_0) : (⟨S12x16, .f32⟩ : BufTy).Contents (Elt F) → (⟨S1x16, .f32⟩ : BufTy).Contents (Elt F)),
    reshape main_v555 main_v556 rfl shapeCasts_S1x16_S16,
    unary main_v556 main_v557 (broadcastInDim S1x16 ![1] bcast_S16_S1x16_1 : (⟨S16, .f32⟩ : BufTy).Contents (Elt F) → (⟨S1x16, .f32⟩ : BufTy).Contents (Elt F)),
    unary main_v557 main_v558 (broadcastInDim S50000x16 ![0, 1] bcast_S1x16_S50000x16_0_1 : (⟨S1x16, .f32⟩ : BufTy).Contents (Elt F) → (⟨S50000x16, .f32⟩ : BufTy).Contents (Elt F)),
    binary main_v554 main_v558 main_v559 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S50000x16, .f32⟩) main_call10_v0) (broadcastInDim S50000x16 ![] bcast_S_S50000x16),
    TRef.binary (TRef.of (T := ⟨S50000x16, .f32⟩) main_v559) (TRef.of (T := ⟨S50000x16, .f32⟩) main_call10_v0) (TRef.of (T := ⟨S50000x16, .f32⟩) main_v560) maximumf ]

set_option maxRecDepth 8192 in
theorem rops18_sub : (rops18 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops19 : List (HloOp τ sig (Elt F)) :=
  [ unary main_arg9 main_v561 ((extractStridedSlice S1x16x40 ![8, 0, 0] · slices_S12x16x40_S1x16x40_8_0_0) : (⟨S12x16x40, .f32⟩ : BufTy).Contents (Elt F) → (⟨S1x16x40, .f32⟩ : BufTy).Contents (Elt F)),
    reshape main_v561 main_v562 rfl shapeCasts_S1x16x40_S16x40,
    binary main_v560 main_v562 main_v563 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v564 ((extractStridedSlice S1x40 ![8, 0] · slices_S12x40_S1x40_8_0) : (⟨S12x40, .f32⟩ : BufTy).Contents (Elt F) → (⟨S1x40, .f32⟩ : BufTy).Contents (Elt F)),
    reshape main_v564 main_v565 rfl shapeCasts_S1x40_S40,
    unary main_v565 main_v566 (broadcastInDim S1x40 ![1] bcast_S40_S1x40_1 : (⟨S40, .f32⟩ : BufTy).Contents (Elt F) → (⟨S1x40, .f32⟩ : BufTy).Contents (Elt F)),
    unary main_v566 main_v567 (broadcastInDim S50000x40 ![0, 1] bcast_S1x40_S50000x40_0_1 : (⟨S1x40, .f32⟩ : BufTy).Contents (Elt F) → (⟨S50000x40, .f32⟩ : BufTy).Contents (Elt F)),
    binary main_v563 main_v567 main_v568 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops19_sub : (rops19 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩

abbrev rops20 : List (HloOp τ sig (Elt F)) :=
  [ unary main_arg3 main_v569 ((extractStridedSlice S1x100x16 ![9, 0, 0] · slices_S12x100x16_S1x100x16_9_0_0) : (⟨S12x100x16, .f32⟩ : BufTy).Contents (Elt F) → (⟨S1x100x16, .f32⟩ : BufTy).Contents (Elt F)),
    reshape main_v569 main_v570 rfl shapeCasts_S1x100x16_S100x16,
    binary main_v44 main_v570 main_v571 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v572 ((extractStridedSlice S1x16 ![9, 0] · slices_S12x16_S1x16_9_0) : (⟨S12x16, .f32⟩ : BufTy).Contents (Elt F) → (⟨S1x16, .f32⟩ : BufTy).Contents (Elt F)),
    reshape main_v572 main_v573 rfl shapeCasts_S1x16_S16,
    unary main_v573 main_v574 (broadcastInDim S1x16 ![1] bcast_S16_S1x16_1 : (⟨S16, .f32⟩ : BufTy).Contents (Elt F) → (⟨S1x16, .f32⟩ : BufTy).Contents (Elt F)),
    unary main_v574 main_v575 (broadcastInDim S50000x16 ![0, 1] bcast_S1x16_S50000x16_0_1 : (⟨S1x16, .f32⟩ : BufTy).Contents (Elt F) → (⟨S50000x16, .f32⟩ : BufTy).Contents (Elt F)),
    binary main_v571 main_v575 main_v576 (addf : (⟨S50000x16, .f32⟩ : BufTy).Contents (Elt F) → (⟨S50000x16, .f32⟩ : BufTy).Contents (Elt F) → (⟨S50000x16, .f32⟩ : BufTy).Contents (Elt F)),
    unary main_arg7 main_v577 ((extractStridedSlice S1x16 ![9, 0] · slices_S12x16_S1x16_9_0) : (⟨S12x16, .f32⟩ : BufTy).Contents (Elt F) → (⟨S1x16, .f32⟩ : BufTy).Contents (Elt F)),
    reshape main_v577 main_v578 rfl shapeCasts_S1x16_S16,
    unary main_v578 main_v579 (broadcastInDim S1x16 ![1] bcast_S16_S1x16_1 : (⟨S16, .f32⟩ : BufTy).Contents (Elt F) → (⟨S1x16, .f32⟩ : BufTy).Contents (Elt F)),
    unary main_v579 main_v580 (broadcastInDim S50000x16 ![0, 1] bcast_S1x16_S50000x16_0_1 : (⟨S1x16, .f32⟩ : BufTy).Contents (Elt F) → (⟨S50000x16, .f32⟩ : BufTy).Contents (Elt F)),
    binary main_v576 main_v580 main_v581 (subf : (⟨S50000x16, .f32⟩ : BufTy).Contents (Elt F) → (⟨S50000x16, .f32⟩ : BufTy).Contents (Elt F) → (⟨S50000x16, .f32⟩ : BufTy).Contents (Elt F)),
    unary main_arg5 main_v582 ((extractStridedSlice S1x16 ![9, 0] · slices_S12x16_S1x16_9_0) : (⟨S12x16, .f32⟩ : BufTy).Contents (Elt F) → (⟨S1x16, .f32⟩ : BufTy).Contents (Elt F)),
    reshape main_v582 main_v583 rfl shapeCasts_S1x16_S16,
    unary main_arg8 main_v584 ((extractStridedSlice S1x16 ![9, 0] · slices_S12x16_S1x16_9_0) : (⟨S12x16, .f32⟩ : BufTy).Contents (Elt F) → (⟨S1x16, .f32⟩ : BufTy).Contents (Elt F)),
    reshape main_v584 main_v585 rfl shapeCasts_S1x16_S16,
    nullary main_cst_61 (constant S_ .f32 0x3727C5AC#32),
    unary main_cst_61 main_v586 (broadcastInDim S16 ![] bcast_S_S16 : (⟨S_, .f32⟩ : BufTy).Contents (Elt F) → (⟨S16, .f32⟩ : BufTy).Contents (Elt F)),
    binary main_v585 main_v586 main_v587 (addf : (⟨S16, .f32⟩ : BufTy).Contents (Elt F) → (⟨S16, .f32⟩ : BufTy).Contents (Elt F) → (⟨S16, .f32⟩ : BufTy).Contents (Elt F)),
    unary main_v587 main_v588 (Host.rsqrt : (⟨S16, .f32⟩ : BufTy).Contents (Elt F) → (⟨S16, .f32⟩ : BufTy).Contents (Elt F)),
    binary main_v583 main_v588 main_v589 (mulf : (⟨S16, .f32⟩ : BufTy).Contents (Elt F) → (⟨S16, .f32⟩ : BufTy).Contents (Elt F) → (⟨S16, .f32⟩ : BufTy).Contents (Elt F)),
    unary main_v589 main_v590 (broadcastInDim S1x16 ![1] bcast_S16_S1x16_1 : (⟨S16, .f32⟩ : BufTy).Contents (Elt F) → (⟨S1x16, .f32⟩ : BufTy).Contents (Elt F)),
    unary main_v590 main_v591 (broadcastInDim S50000x16 ![0, 1] bcast_S1x16_S50000x16_0_1 : (⟨S1x16, .f32⟩ : BufTy).Contents (Elt F) → (⟨S50000x16, .f32⟩ : BufTy).Contents (Elt F)),
    binary main_v581 main_v591 main_v592 (mulf : (⟨S50000x16, .f32⟩ : BufTy).Contents (Elt F) → (⟨S50000x16, .f32⟩ : BufTy).Contents (Elt F) → (⟨S50000x16, .f32⟩ : BufTy).Contents (Elt F)),
    unary main_arg6 main_v593 ((extractStridedSlice S1x16 ![9, 0] · slices_S12x16_S1x16_9_0) : (⟨S12x16, .f32⟩ : BufTy).Contents (Elt F) → (⟨S1x16, .f32⟩ : BufTy).Contents (Elt F)),
    reshape main_v593 main_v594 rfl shapeCasts_S1x16_S16,
    unary main_v594 main_v595 (broadcastInDim S1x16 ![1] bcast_S16_S1x16_1 : (⟨S16, .f32⟩ : BufTy).Contents (Elt F) → (⟨S1x16, .f32⟩ : BufTy).Contents (Elt F)),
    unary main_v595 main_v596 (broadcastInDim S50000x16 ![0, 1] bcast_S1x16_S50000x16_0_1 : (⟨S1x16, .f32⟩ : BufTy).Contents (Elt F) → (⟨S50000x16, .f32⟩ : BufTy).Contents (Elt F)),
    binary main_v592 main_v596 main_v597 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S50000x16, .f32⟩) main_call11_v0) (broadcastInDim S50000x16 ![] bcast_S_S50000x16),
    TRef.binary (TRef.of (T := ⟨S50000x16, .f32⟩) main_v597) (TRef.of (T := ⟨S50000x16, .f32⟩) main_call11_v0) (TRef.of (T := ⟨S50000x16, .f32⟩) main_v598) maximumf ]

set_option maxRecDepth 8192 in
theorem rops20_sub : (rops20 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops21 : List (HloOp τ sig (Elt F)) :=
  [ unary main_v26 main_v599 (broadcastInDim S850000x1 ![0] bcast_S850000_S850000x1_0 : (⟨S850000, .f32⟩ : BufTy).Contents (Elt F) → (⟨S850000x1, .f32⟩ : BufTy).Contents (Elt F)),
    nullary main_c_62 (constantI S_ 32 0#32),
    unary main_c_62 main_v600 (broadcastInDim S850000 ![] bcast_S_S850000 : (⟨S_, .i32⟩ : BufTy).Contents (Elt F) → (⟨S850000, .i32⟩ : BufTy).Contents (Elt F)),
    binary main_v2 main_v600 main_v601 (cmpi .slt : (⟨S850000, .i32⟩ : BufTy).Contents (Elt F) → (⟨S850000, .i32⟩ : BufTy).Contents (Elt F) → (⟨S850000, .i1⟩ : BufTy).Contents (Elt F)),
    nullary main_c_63 (constantI S_ 32 50000#32),
    unary main_c_63 main_v602 (broadcastInDim S850000 ![] bcast_S_S850000 : (⟨S_, .i32⟩ : BufTy).Contents (Elt F) → (⟨S850000, .i32⟩ : BufTy).Contents (Elt F)),
    binary main_v2 main_v602 main_v603 (addi : (⟨S850000, .i32⟩ : BufTy).Contents (Elt F) → (⟨S850000, .i32⟩ : BufTy).Contents (Elt F) → (⟨S850000, .i32⟩ : BufTy).Contents (Elt F)),
    ternary main_v601 main_v603 main_v2 main_v604 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v604 main_v605 (broadcastInDim S850000x1 ![0] bcast_S850000_S850000x1_0 : (⟨S850000, .i32⟩ : BufTy).Contents (Elt F) → (⟨S850000x1, .i32⟩ : BufTy).Contents (Elt F)),
    binary main_v598 main_v605 main_v606 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v599 main_v607 (broadcastInDim S850000x16 ![0, 1] bcast_S850000x1_S850000x16_0_1 : (⟨S850000x1, .f32⟩ : BufTy).Contents (Elt F) → (⟨S850000x16, .f32⟩ : BufTy).Contents (Elt F)),
    binary main_v607 main_v606 main_v608 (mulf : (⟨S850000x16, .f32⟩ : BufTy).Contents (Elt F) → (⟨S850000x16, .f32⟩ : BufTy).Contents (Elt F) → (⟨S850000x16, .f32⟩ : BufTy).Contents (Elt F)),
    nullary main_cst_64 (constant S_ .f32 0x00000000#32),
    unary main_cst_64 main_v609 (broadcastInDim S50000x16 ![] bcast_S_S50000x16 : (⟨S_, .f32⟩ : BufTy).Contents (Elt F) → (⟨S50000x16, .f32⟩ : BufTy).Contents (Elt F)),
    unary main_v1 main_v610 (broadcastInDim S850000x1 ![0] bcast_S850000_S850000x1_0 : (⟨S850000, .i32⟩ : BufTy).Contents (Elt F) → (⟨S850000x1, .i32⟩ : BufTy).Contents (Elt F)),
    ternary main_v609 main_v610 main_v608 main_v611 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v612 ((extractStridedSlice S1x16x40 ![9, 0, 0] · slices_S12x16x40_S1x16x40_9_0_0) : (⟨S12x16x40, .f32⟩ : BufTy).Contents (Elt F) → (⟨S1x16x40, .f32⟩ : BufTy).Contents (Elt F)),
    reshape main_v612 main_v613 rfl shapeCasts_S1x16x40_S16x40,
    binary main_v611 main_v613 main_v614 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v615 ((extractStridedSlice S1x40 ![9, 0] · slices_S12x40_S1x40_9_0) : (⟨S12x40, .f32⟩ : BufTy).Contents (Elt F) → (⟨S1x40, .f32⟩ : BufTy).Contents (Elt F)),
    reshape main_v615 main_v616 rfl shapeCasts_S1x40_S40,
    unary main_v616 main_v617 (broadcastInDim S1x40 ![1] bcast_S40_S1x40_1 : (⟨S40, .f32⟩ : BufTy).Contents (Elt F) → (⟨S1x40, .f32⟩ : BufTy).Contents (Elt F)),
    unary main_v617 main_v618 (broadcastInDim S50000x40 ![0, 1] bcast_S1x40_S50000x40_0_1 : (⟨S1x40, .f32⟩ : BufTy).Contents (Elt F) → (⟨S50000x40, .f32⟩ : BufTy).Contents (Elt F)),
    binary main_v614 main_v618 main_v619 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops21_sub : (rops21 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops22 : List (HloOp τ sig (Elt F)) :=
  [ unary main_arg3 main_v620 ((extractStridedSlice S1x100x16 ![10, 0, 0] · slices_S12x100x16_S1x100x16_10_0_0) : (⟨S12x100x16, .f32⟩ : BufTy).Contents (Elt F) → (⟨S1x100x16, .f32⟩ : BufTy).Contents (Elt F)),
    reshape main_v620 main_v621 rfl shapeCasts_S1x100x16_S100x16,
    binary main_v57 main_v621 main_v622 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v623 ((extractStridedSlice S1x16 ![10, 0] · slices_S12x16_S1x16_10_0) : (⟨S12x16, .f32⟩ : BufTy).Contents (Elt F) → (⟨S1x16, .f32⟩ : BufTy).Contents (Elt F)),
    reshape main_v623 main_v624 rfl shapeCasts_S1x16_S16,
    unary main_v624 main_v625 (broadcastInDim S1x16 ![1] bcast_S16_S1x16_1 : (⟨S16, .f32⟩ : BufTy).Contents (Elt F) → (⟨S1x16, .f32⟩ : BufTy).Contents (Elt F)),
    unary main_v625 main_v626 (broadcastInDim S50000x16 ![0, 1] bcast_S1x16_S50000x16_0_1 : (⟨S1x16, .f32⟩ : BufTy).Contents (Elt F) → (⟨S50000x16, .f32⟩ : BufTy).Contents (Elt F)),
    binary main_v622 main_v626 main_v627 (addf : (⟨S50000x16, .f32⟩ : BufTy).Contents (Elt F) → (⟨S50000x16, .f32⟩ : BufTy).Contents (Elt F) → (⟨S50000x16, .f32⟩ : BufTy).Contents (Elt F)),
    unary main_arg7 main_v628 ((extractStridedSlice S1x16 ![10, 0] · slices_S12x16_S1x16_10_0) : (⟨S12x16, .f32⟩ : BufTy).Contents (Elt F) → (⟨S1x16, .f32⟩ : BufTy).Contents (Elt F)),
    reshape main_v628 main_v629 rfl shapeCasts_S1x16_S16,
    unary main_v629 main_v630 (broadcastInDim S1x16 ![1] bcast_S16_S1x16_1 : (⟨S16, .f32⟩ : BufTy).Contents (Elt F) → (⟨S1x16, .f32⟩ : BufTy).Contents (Elt F)),
    unary main_v630 main_v631 (broadcastInDim S50000x16 ![0, 1] bcast_S1x16_S50000x16_0_1 : (⟨S1x16, .f32⟩ : BufTy).Contents (Elt F) → (⟨S50000x16, .f32⟩ : BufTy).Contents (Elt F)),
    binary main_v627 main_v631 main_v632 (subf : (⟨S50000x16, .f32⟩ : BufTy).Contents (Elt F) → (⟨S50000x16, .f32⟩ : BufTy).Contents (Elt F) → (⟨S50000x16, .f32⟩ : BufTy).Contents (Elt F)),
    unary main_arg5 main_v633 ((extractStridedSlice S1x16 ![10, 0] · slices_S12x16_S1x16_10_0) : (⟨S12x16, .f32⟩ : BufTy).Contents (Elt F) → (⟨S1x16, .f32⟩ : BufTy).Contents (Elt F)),
    reshape main_v633 main_v634 rfl shapeCasts_S1x16_S16,
    unary main_arg8 main_v635 ((extractStridedSlice S1x16 ![10, 0] · slices_S12x16_S1x16_10_0) : (⟨S12x16, .f32⟩ : BufTy).Contents (Elt F) → (⟨S1x16, .f32⟩ : BufTy).Contents (Elt F)),
    reshape main_v635 main_v636 rfl shapeCasts_S1x16_S16,
    nullary main_cst_65 (constant S_ .f32 0x3727C5AC#32),
    unary main_cst_65 main_v637 (broadcastInDim S16 ![] bcast_S_S16 : (⟨S_, .f32⟩ : BufTy).Contents (Elt F) → (⟨S16, .f32⟩ : BufTy).Contents (Elt F)),
    binary main_v636 main_v637 main_v638 (addf : (⟨S16, .f32⟩ : BufTy).Contents (Elt F) → (⟨S16, .f32⟩ : BufTy).Contents (Elt F) → (⟨S16, .f32⟩ : BufTy).Contents (Elt F)),
    unary main_v638 main_v639 (Host.rsqrt : (⟨S16, .f32⟩ : BufTy).Contents (Elt F) → (⟨S16, .f32⟩ : BufTy).Contents (Elt F)),
    binary main_v634 main_v639 main_v640 (mulf : (⟨S16, .f32⟩ : BufTy).Contents (Elt F) → (⟨S16, .f32⟩ : BufTy).Contents (Elt F) → (⟨S16, .f32⟩ : BufTy).Contents (Elt F)),
    unary main_v640 main_v641 (broadcastInDim S1x16 ![1] bcast_S16_S1x16_1 : (⟨S16, .f32⟩ : BufTy).Contents (Elt F) → (⟨S1x16, .f32⟩ : BufTy).Contents (Elt F)),
    unary main_v641 main_v642 (broadcastInDim S50000x16 ![0, 1] bcast_S1x16_S50000x16_0_1 : (⟨S1x16, .f32⟩ : BufTy).Contents (Elt F) → (⟨S50000x16, .f32⟩ : BufTy).Contents (Elt F)),
    binary main_v632 main_v642 main_v643 (mulf : (⟨S50000x16, .f32⟩ : BufTy).Contents (Elt F) → (⟨S50000x16, .f32⟩ : BufTy).Contents (Elt F) → (⟨S50000x16, .f32⟩ : BufTy).Contents (Elt F)),
    unary main_arg6 main_v644 ((extractStridedSlice S1x16 ![10, 0] · slices_S12x16_S1x16_10_0) : (⟨S12x16, .f32⟩ : BufTy).Contents (Elt F) → (⟨S1x16, .f32⟩ : BufTy).Contents (Elt F)),
    reshape main_v644 main_v645 rfl shapeCasts_S1x16_S16,
    unary main_v645 main_v646 (broadcastInDim S1x16 ![1] bcast_S16_S1x16_1 : (⟨S16, .f32⟩ : BufTy).Contents (Elt F) → (⟨S1x16, .f32⟩ : BufTy).Contents (Elt F)),
    unary main_v646 main_v647 (broadcastInDim S50000x16 ![0, 1] bcast_S1x16_S50000x16_0_1 : (⟨S1x16, .f32⟩ : BufTy).Contents (Elt F) → (⟨S50000x16, .f32⟩ : BufTy).Contents (Elt F)),
    binary main_v643 main_v647 main_v648 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S50000x16, .f32⟩) main_call12_v0) (broadcastInDim S50000x16 ![] bcast_S_S50000x16),
    TRef.binary (TRef.of (T := ⟨S50000x16, .f32⟩) main_v648) (TRef.of (T := ⟨S50000x16, .f32⟩) main_call12_v0) (TRef.of (T := ⟨S50000x16, .f32⟩) main_v649) maximumf ]

set_option maxRecDepth 8192 in
theorem rops22_sub : (rops22 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops23 : List (HloOp τ sig (Elt F)) :=
  [ unary main_v26 main_v650 (broadcastInDim S850000x1 ![0] bcast_S850000_S850000x1_0 : (⟨S850000, .f32⟩ : BufTy).Contents (Elt F) → (⟨S850000x1, .f32⟩ : BufTy).Contents (Elt F)),
    nullary main_c_66 (constantI S_ 32 0#32),
    unary main_c_66 main_v651 (broadcastInDim S850000 ![] bcast_S_S850000 : (⟨S_, .i32⟩ : BufTy).Contents (Elt F) → (⟨S850000, .i32⟩ : BufTy).Contents (Elt F)),
    binary main_v2 main_v651 main_v652 (cmpi .slt : (⟨S850000, .i32⟩ : BufTy).Contents (Elt F) → (⟨S850000, .i32⟩ : BufTy).Contents (Elt F) → (⟨S850000, .i1⟩ : BufTy).Contents (Elt F)),
    nullary main_c_67 (constantI S_ 32 50000#32),
    unary main_c_67 main_v653 (broadcastInDim S850000 ![] bcast_S_S850000 : (⟨S_, .i32⟩ : BufTy).Contents (Elt F) → (⟨S850000, .i32⟩ : BufTy).Contents (Elt F)),
    binary main_v2 main_v653 main_v654 (addi : (⟨S850000, .i32⟩ : BufTy).Contents (Elt F) → (⟨S850000, .i32⟩ : BufTy).Contents (Elt F) → (⟨S850000, .i32⟩ : BufTy).Contents (Elt F)),
    ternary main_v652 main_v654 main_v2 main_v655 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v655 main_v656 (broadcastInDim S850000x1 ![0] bcast_S850000_S850000x1_0 : (⟨S850000, .i32⟩ : BufTy).Contents (Elt F) → (⟨S850000x1, .i32⟩ : BufTy).Contents (Elt F)),
    binary main_v649 main_v656 main_v657 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v650 main_v658 (broadcastInDim S850000x16 ![0, 1] bcast_S850000x1_S850000x16_0_1 : (⟨S850000x1, .f32⟩ : BufTy).Contents (Elt F) → (⟨S850000x16, .f32⟩ : BufTy).Contents (Elt F)),
    binary main_v658 main_v657 main_v659 (mulf : (⟨S850000x16, .f32⟩ : BufTy).Contents (Elt F) → (⟨S850000x16, .f32⟩ : BufTy).Contents (Elt F) → (⟨S850000x16, .f32⟩ : BufTy).Contents (Elt F)),
    nullary main_cst_68 (constant S_ .f32 0x00000000#32),
    unary main_cst_68 main_v660 (broadcastInDim S50000x16 ![] bcast_S_S50000x16 : (⟨S_, .f32⟩ : BufTy).Contents (Elt F) → (⟨S50000x16, .f32⟩ : BufTy).Contents (Elt F)),
    unary main_v1 main_v661 (broadcastInDim S850000x1 ![0] bcast_S850000_S850000x1_0 : (⟨S850000, .i32⟩ : BufTy).Contents (Elt F) → (⟨S850000x1, .i32⟩ : BufTy).Contents (Elt F)),
    ternary main_v660 main_v661 main_v659 main_v662 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v663 (broadcastInDim S850000x1 ![0] bcast_S850000_S850000x1_0 : (⟨S850000, .f32⟩ : BufTy).Contents (Elt F) → (⟨S850000x1, .f32⟩ : BufTy).Contents (Elt F)),
    nullary main_c_69 (constantI S_ 32 0#32),
    unary main_c_69 main_v664 (broadcastInDim S850000 ![] bcast_S_S850000 : (⟨S_, .i32⟩ : BufTy).Contents (Elt F) → (⟨S850000, .i32⟩ : BufTy).Contents (Elt F)),
    binary main_v2 main_v664 main_v665 (cmpi .slt : (⟨S850000, .i32⟩ : BufTy).Contents (Elt F) → (⟨S850000, .i32⟩ : BufTy).Contents (Elt F) → (⟨S850000, .i1⟩ : BufTy).Contents (Elt F)),
    nullary main_c_70 (constantI S_ 32 50000#32),
    unary main_c_70 main_v666 (broadcastInDim S850000 ![] bcast_S_S850000 : (⟨S_, .i32⟩ : BufTy).Contents (Elt F) → (⟨S850000, .i32⟩ : BufTy).Contents (Elt F)),
    binary main_v2 main_v666 main_v667 (addi : (⟨S850000, .i32⟩ : BufTy).Contents (Elt F) → (⟨S850000, .i32⟩ : BufTy).Contents (Elt F) → (⟨S850000, .i32⟩ : BufTy).Contents (Elt F)),
    ternary main_v665 main_v667 main_v2 main_v668 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v668 main_v669 (broadcastInDim S850000x1 ![0] bcast_S850000_S850000x1_0 : (⟨S850000, .i32⟩ : BufTy).Contents (Elt F) → (⟨S850000x1, .i32⟩ : BufTy).Contents (Elt F)),
    binary main_v662 main_v669 main_v670 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v663 main_v671 (broadcastInDim S850000x16 ![0, 1] bcast_S850000x1_S850000x16_0_1 : (⟨S850000x1, .f32⟩ : BufTy).Contents (Elt F) → (⟨S850000x16, .f32⟩ : BufTy).Contents (Elt F)),
    binary main_v671 main_v670 main_v672 (mulf : (⟨S850000x16, .f32⟩ : BufTy).Contents (Elt F) → (⟨S850000x16, .f32⟩ : BufTy).Contents (Elt F) → (⟨S850000x16, .f32⟩ : BufTy).Contents (Elt F)),
    nullary main_cst_71 (constant S_ .f32 0x00000000#32),
    unary main_cst_71 main_v673 (broadcastInDim S50000x16 ![] bcast_S_S50000x16 : (⟨S_, .f32⟩ : BufTy).Contents (Elt F) → (⟨S50000x16, .f32⟩ : BufTy).Contents (Elt F)),
    unary main_v1 main_v674 (broadcastInDim S850000x1 ![0] bcast_S850000_S850000x1_0 : (⟨S850000, .i32⟩ : BufTy).Contents (Elt F) → (⟨S850000x1, .i32⟩ : BufTy).Contents (Elt F)),
    ternary main_v673 main_v674 main_v672 main_v675 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v676 ((extractStridedSlice S1x16x40 ![10, 0, 0] · slices_S12x16x40_S1x16x40_10_0_0) : (⟨S12x16x40, .f32⟩ : BufTy).Contents (Elt F) → (⟨S1x16x40, .f32⟩ : BufTy).Contents (Elt F)),
    reshape main_v676 main_v677 rfl shapeCasts_S1x16x40_S16x40,
    binary main_v675 main_v677 main_v678 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v679 ((extractStridedSlice S1x40 ![10, 0] · slices_S12x40_S1x40_10_0) : (⟨S12x40, .f32⟩ : BufTy).Contents (Elt F) → (⟨S1x40, .f32⟩ : BufTy).Contents (Elt F)),
    reshape main_v679 main_v680 rfl shapeCasts_S1x40_S40,
    unary main_v680 main_v681 (broadcastInDim S1x40 ![1] bcast_S40_S1x40_1 : (⟨S40, .f32⟩ : BufTy).Contents (Elt F) → (⟨S1x40, .f32⟩ : BufTy).Contents (Elt F)),
    unary main_v681 main_v682 (broadcastInDim S50000x40 ![0, 1] bcast_S1x40_S50000x40_0_1 : (⟨S1x40, .f32⟩ : BufTy).Contents (Elt F) → (⟨S50000x40, .f32⟩ : BufTy).Contents (Elt F)),
    binary main_v678 main_v682 main_v683 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops23_sub : (rops23 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops24 : List (HloOp τ sig (Elt F)) :=
  [ unary main_arg3 main_v684 ((extractStridedSlice S1x100x16 ![11, 0, 0] · slices_S12x100x16_S1x100x16_11_0_0) : (⟨S12x100x16, .f32⟩ : BufTy).Contents (Elt F) → (⟨S1x100x16, .f32⟩ : BufTy).Contents (Elt F)),
    reshape main_v684 main_v685 rfl shapeCasts_S1x100x16_S100x16,
    binary main_v70 main_v685 main_v686 ((fun l r => Host.dotGeneral dot_S50000x100_S100x16_S50000x16_1_0_0_1_n_n none l r) : (⟨S50000x100, .f32⟩ : BufTy).Contents (Elt F) → (⟨S100x16, .f32⟩ : BufTy).Contents (Elt F) → (⟨S50000x16, .f32⟩ : BufTy).Contents (Elt F)),
    unary main_arg4 main_v687 ((extractStridedSlice S1x16 ![11, 0] · slices_S12x16_S1x16_11_0) : (⟨S12x16, .f32⟩ : BufTy).Contents (Elt F) → (⟨S1x16, .f32⟩ : BufTy).Contents (Elt F)),
    reshape main_v687 main_v688 rfl shapeCasts_S1x16_S16,
    unary main_v688 main_v689 (broadcastInDim S1x16 ![1] bcast_S16_S1x16_1 : (⟨S16, .f32⟩ : BufTy).Contents (Elt F) → (⟨S1x16, .f32⟩ : BufTy).Contents (Elt F)),
    unary main_v689 main_v690 (broadcastInDim S50000x16 ![0, 1] bcast_S1x16_S50000x16_0_1 : (⟨S1x16, .f32⟩ : BufTy).Contents (Elt F) → (⟨S50000x16, .f32⟩ : BufTy).Contents (Elt F)),
    binary main_v686 main_v690 main_v691 (addf : (⟨S50000x16, .f32⟩ : BufTy).Contents (Elt F) → (⟨S50000x16, .f32⟩ : BufTy).Contents (Elt F) → (⟨S50000x16, .f32⟩ : BufTy).Contents (Elt F)),
    unary main_arg7 main_v692 ((extractStridedSlice S1x16 ![11, 0] · slices_S12x16_S1x16_11_0) : (⟨S12x16, .f32⟩ : BufTy).Contents (Elt F) → (⟨S1x16, .f32⟩ : BufTy).Contents (Elt F)),
    reshape main_v692 main_v693 rfl shapeCasts_S1x16_S16,
    unary main_v693 main_v694 (broadcastInDim S1x16 ![1] bcast_S16_S1x16_1 : (⟨S16, .f32⟩ : BufTy).Contents (Elt F) → (⟨S1x16, .f32⟩ : BufTy).Contents (Elt F)),
    unary main_v694 main_v695 (broadcastInDim S50000x16 ![0, 1] bcast_S1x16_S50000x16_0_1 : (⟨S1x16, .f32⟩ : BufTy).Contents (Elt F) → (⟨S50000x16, .f32⟩ : BufTy).Contents (Elt F)),
    binary main_v691 main_v695 main_v696 (subf : (⟨S50000x16, .f32⟩ : BufTy).Contents (Elt F) → (⟨S50000x16, .f32⟩ : BufTy).Contents (Elt F) → (⟨S50000x16, .f32⟩ : BufTy).Contents (Elt F)),
    unary main_arg5 main_v697 ((extractStridedSlice S1x16 ![11, 0] · slices_S12x16_S1x16_11_0) : (⟨S12x16, .f32⟩ : BufTy).Contents (Elt F) → (⟨S1x16, .f32⟩ : BufTy).Contents (Elt F)),
    reshape main_v697 main_v698 rfl shapeCasts_S1x16_S16,
    unary main_arg8 main_v699 ((extractStridedSlice S1x16 ![11, 0] · slices_S12x16_S1x16_11_0) : (⟨S12x16, .f32⟩ : BufTy).Contents (Elt F) → (⟨S1x16, .f32⟩ : BufTy).Contents (Elt F)),
    reshape main_v699 main_v700 rfl shapeCasts_S1x16_S16,
    nullary main_cst_72 (constant S_ .f32 0x3727C5AC#32),
    unary main_cst_72 main_v701 (broadcastInDim S16 ![] bcast_S_S16 : (⟨S_, .f32⟩ : BufTy).Contents (Elt F) → (⟨S16, .f32⟩ : BufTy).Contents (Elt F)),
    binary main_v700 main_v701 main_v702 (addf : (⟨S16, .f32⟩ : BufTy).Contents (Elt F) → (⟨S16, .f32⟩ : BufTy).Contents (Elt F) → (⟨S16, .f32⟩ : BufTy).Contents (Elt F)),
    unary main_v702 main_v703 (Host.rsqrt : (⟨S16, .f32⟩ : BufTy).Contents (Elt F) → (⟨S16, .f32⟩ : BufTy).Contents (Elt F)),
    binary main_v698 main_v703 main_v704 (mulf : (⟨S16, .f32⟩ : BufTy).Contents (Elt F) → (⟨S16, .f32⟩ : BufTy).Contents (Elt F) → (⟨S16, .f32⟩ : BufTy).Contents (Elt F)),
    unary main_v704 main_v705 (broadcastInDim S1x16 ![1] bcast_S16_S1x16_1 : (⟨S16, .f32⟩ : BufTy).Contents (Elt F) → (⟨S1x16, .f32⟩ : BufTy).Contents (Elt F)),
    unary main_v705 main_v706 (broadcastInDim S50000x16 ![0, 1] bcast_S1x16_S50000x16_0_1 : (⟨S1x16, .f32⟩ : BufTy).Contents (Elt F) → (⟨S50000x16, .f32⟩ : BufTy).Contents (Elt F)),
    binary main_v696 main_v706 main_v707 (mulf : (⟨S50000x16, .f32⟩ : BufTy).Contents (Elt F) → (⟨S50000x16, .f32⟩ : BufTy).Contents (Elt F) → (⟨S50000x16, .f32⟩ : BufTy).Contents (Elt F)),
    unary main_arg6 main_v708 ((extractStridedSlice S1x16 ![11, 0] · slices_S12x16_S1x16_11_0) : (⟨S12x16, .f32⟩ : BufTy).Contents (Elt F) → (⟨S1x16, .f32⟩ : BufTy).Contents (Elt F)),
    reshape main_v708 main_v709 rfl shapeCasts_S1x16_S16,
    unary main_v709 main_v710 (broadcastInDim S1x16 ![1] bcast_S16_S1x16_1 : (⟨S16, .f32⟩ : BufTy).Contents (Elt F) → (⟨S1x16, .f32⟩ : BufTy).Contents (Elt F)),
    unary main_v710 main_v711 (broadcastInDim S50000x16 ![0, 1] bcast_S1x16_S50000x16_0_1 : (⟨S1x16, .f32⟩ : BufTy).Contents (Elt F) → (⟨S50000x16, .f32⟩ : BufTy).Contents (Elt F)),
    binary main_v707 main_v711 main_v712 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S50000x16, .f32⟩) main_call13_v0) (broadcastInDim S50000x16 ![] bcast_S_S50000x16),
    TRef.binary (TRef.of (T := ⟨S50000x16, .f32⟩) main_v712) (TRef.of (T := ⟨S50000x16, .f32⟩) main_call13_v0) (TRef.of (T := ⟨S50000x16, .f32⟩) main_v713) maximumf ]

set_option maxRecDepth 8192 in
theorem rops24_sub : (rops24 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

abbrev rops25 : List (HloOp τ sig (Elt F)) :=
  [ unary main_v26 main_v714 (broadcastInDim S850000x1 ![0] bcast_S850000_S850000x1_0 : (⟨S850000, .f32⟩ : BufTy).Contents (Elt F) → (⟨S850000x1, .f32⟩ : BufTy).Contents (Elt F)),
    nullary main_c_73 (constantI S_ 32 0#32),
    unary main_c_73 main_v715 (broadcastInDim S850000 ![] bcast_S_S850000 : (⟨S_, .i32⟩ : BufTy).Contents (Elt F) → (⟨S850000, .i32⟩ : BufTy).Contents (Elt F)),
    binary main_v2 main_v715 main_v716 (cmpi .slt : (⟨S850000, .i32⟩ : BufTy).Contents (Elt F) → (⟨S850000, .i32⟩ : BufTy).Contents (Elt F) → (⟨S850000, .i1⟩ : BufTy).Contents (Elt F)),
    nullary main_c_74 (constantI S_ 32 50000#32),
    unary main_c_74 main_v717 (broadcastInDim S850000 ![] bcast_S_S850000 : (⟨S_, .i32⟩ : BufTy).Contents (Elt F) → (⟨S850000, .i32⟩ : BufTy).Contents (Elt F)),
    binary main_v2 main_v717 main_v718 (addi : (⟨S850000, .i32⟩ : BufTy).Contents (Elt F) → (⟨S850000, .i32⟩ : BufTy).Contents (Elt F) → (⟨S850000, .i32⟩ : BufTy).Contents (Elt F)),
    ternary main_v716 main_v718 main_v2 main_v719 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v719 main_v720 (broadcastInDim S850000x1 ![0] bcast_S850000_S850000x1_0 : (⟨S850000, .i32⟩ : BufTy).Contents (Elt F) → (⟨S850000x1, .i32⟩ : BufTy).Contents (Elt F)),
    binary main_v713 main_v720 main_v721 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v714 main_v722 (broadcastInDim S850000x16 ![0, 1] bcast_S850000x1_S850000x16_0_1 : (⟨S850000x1, .f32⟩ : BufTy).Contents (Elt F) → (⟨S850000x16, .f32⟩ : BufTy).Contents (Elt F)),
    binary main_v722 main_v721 main_v723 (mulf : (⟨S850000x16, .f32⟩ : BufTy).Contents (Elt F) → (⟨S850000x16, .f32⟩ : BufTy).Contents (Elt F) → (⟨S850000x16, .f32⟩ : BufTy).Contents (Elt F)),
    nullary main_cst_75 (constant S_ .f32 0x00000000#32),
    unary main_cst_75 main_v724 (broadcastInDim S50000x16 ![] bcast_S_S50000x16 : (⟨S_, .f32⟩ : BufTy).Contents (Elt F) → (⟨S50000x16, .f32⟩ : BufTy).Contents (Elt F)),
    unary main_v1 main_v725 (broadcastInDim S850000x1 ![0] bcast_S850000_S850000x1_0 : (⟨S850000, .i32⟩ : BufTy).Contents (Elt F) → (⟨S850000x1, .i32⟩ : BufTy).Contents (Elt F)),
    ternary main_v724 main_v725 main_v723 main_v726 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v727 (broadcastInDim S850000x1 ![0] bcast_S850000_S850000x1_0 : (⟨S850000, .f32⟩ : BufTy).Contents (Elt F) → (⟨S850000x1, .f32⟩ : BufTy).Contents (Elt F)),
    nullary main_c_76 (constantI S_ 32 0#32),
    unary main_c_76 main_v728 (broadcastInDim S850000 ![] bcast_S_S850000 : (⟨S_, .i32⟩ : BufTy).Contents (Elt F) → (⟨S850000, .i32⟩ : BufTy).Contents (Elt F)),
    binary main_v2 main_v728 main_v729 (cmpi .slt : (⟨S850000, .i32⟩ : BufTy).Contents (Elt F) → (⟨S850000, .i32⟩ : BufTy).Contents (Elt F) → (⟨S850000, .i1⟩ : BufTy).Contents (Elt F)),
    nullary main_c_77 (constantI S_ 32 50000#32),
    unary main_c_77 main_v730 (broadcastInDim S850000 ![] bcast_S_S850000 : (⟨S_, .i32⟩ : BufTy).Contents (Elt F) → (⟨S850000, .i32⟩ : BufTy).Contents (Elt F)),
    binary main_v2 main_v730 main_v731 (addi : (⟨S850000, .i32⟩ : BufTy).Contents (Elt F) → (⟨S850000, .i32⟩ : BufTy).Contents (Elt F) → (⟨S850000, .i32⟩ : BufTy).Contents (Elt F)),
    ternary main_v729 main_v731 main_v2 main_v732 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v732 main_v733 (broadcastInDim S850000x1 ![0] bcast_S850000_S850000x1_0 : (⟨S850000, .i32⟩ : BufTy).Contents (Elt F) → (⟨S850000x1, .i32⟩ : BufTy).Contents (Elt F)),
    binary main_v726 main_v733 main_v734 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v727 main_v735 (broadcastInDim S850000x16 ![0, 1] bcast_S850000x1_S850000x16_0_1 : (⟨S850000x1, .f32⟩ : BufTy).Contents (Elt F) → (⟨S850000x16, .f32⟩ : BufTy).Contents (Elt F)),
    binary main_v735 main_v734 main_v736 (mulf : (⟨S850000x16, .f32⟩ : BufTy).Contents (Elt F) → (⟨S850000x16, .f32⟩ : BufTy).Contents (Elt F) → (⟨S850000x16, .f32⟩ : BufTy).Contents (Elt F)),
    nullary main_cst_78 (constant S_ .f32 0x00000000#32),
    unary main_cst_78 main_v737 (broadcastInDim S50000x16 ![] bcast_S_S50000x16 : (⟨S_, .f32⟩ : BufTy).Contents (Elt F) → (⟨S50000x16, .f32⟩ : BufTy).Contents (Elt F)),
    unary main_v1 main_v738 (broadcastInDim S850000x1 ![0] bcast_S850000_S850000x1_0 : (⟨S850000, .i32⟩ : BufTy).Contents (Elt F) → (⟨S850000x1, .i32⟩ : BufTy).Contents (Elt F)),
    ternary main_v737 main_v738 main_v736 main_v739 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_v26 main_v740 (broadcastInDim S850000x1 ![0] bcast_S850000_S850000x1_0 : (⟨S850000, .f32⟩ : BufTy).Contents (Elt F) → (⟨S850000x1, .f32⟩ : BufTy).Contents (Elt F)),
    nullary main_c_79 (constantI S_ 32 0#32),
    unary main_c_79 main_v741 (broadcastInDim S850000 ![] bcast_S_S850000 : (⟨S_, .i32⟩ : BufTy).Contents (Elt F) → (⟨S850000, .i32⟩ : BufTy).Contents (Elt F)),
    binary main_v2 main_v741 main_v742 (cmpi .slt : (⟨S850000, .i32⟩ : BufTy).Contents (Elt F) → (⟨S850000, .i32⟩ : BufTy).Contents (Elt F) → (⟨S850000, .i1⟩ : BufTy).Contents (Elt F)),
    nullary main_c_80 (constantI S_ 32 50000#32),
    unary main_c_80 main_v743 (broadcastInDim S850000 ![] bcast_S_S850000 : (⟨S_, .i32⟩ : BufTy).Contents (Elt F) → (⟨S850000, .i32⟩ : BufTy).Contents (Elt F)),
    binary main_v2 main_v743 main_v744 (addi : (⟨S850000, .i32⟩ : BufTy).Contents (Elt F) → (⟨S850000, .i32⟩ : BufTy).Contents (Elt F) → (⟨S850000, .i32⟩ : BufTy).Contents (Elt F)),
    ternary main_v742 main_v744 main_v2 main_v745 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v745 main_v746 (broadcastInDim S850000x1 ![0] bcast_S850000_S850000x1_0 : (⟨S850000, .i32⟩ : BufTy).Contents (Elt F) → (⟨S850000x1, .i32⟩ : BufTy).Contents (Elt F)),
    binary main_v739 main_v746 main_v747 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v740 main_v748 (broadcastInDim S850000x16 ![0, 1] bcast_S850000x1_S850000x16_0_1 : (⟨S850000x1, .f32⟩ : BufTy).Contents (Elt F) → (⟨S850000x16, .f32⟩ : BufTy).Contents (Elt F)),
    binary main_v748 main_v747 main_v749 (mulf : (⟨S850000x16, .f32⟩ : BufTy).Contents (Elt F) → (⟨S850000x16, .f32⟩ : BufTy).Contents (Elt F) → (⟨S850000x16, .f32⟩ : BufTy).Contents (Elt F)),
    nullary main_cst_81 (constant S_ .f32 0x00000000#32),
    unary main_cst_81 main_v750 (broadcastInDim S50000x16 ![] bcast_S_S50000x16 : (⟨S_, .f32⟩ : BufTy).Contents (Elt F) → (⟨S50000x16, .f32⟩ : BufTy).Contents (Elt F)),
    unary main_v1 main_v751 (broadcastInDim S850000x1 ![0] bcast_S850000_S850000x1_0 : (⟨S850000, .i32⟩ : BufTy).Contents (Elt F) → (⟨S850000x1, .i32⟩ : BufTy).Contents (Elt F)),
    ternary main_v750 main_v751 main_v749 main_v752 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg9 main_v753 ((extractStridedSlice S1x16x40 ![11, 0, 0] · slices_S12x16x40_S1x16x40_11_0_0) : (⟨S12x16x40, .f32⟩ : BufTy).Contents (Elt F) → (⟨S1x16x40, .f32⟩ : BufTy).Contents (Elt F)),
    reshape main_v753 main_v754 rfl shapeCasts_S1x16x40_S16x40,
    binary main_v752 main_v754 main_v755 ((fun l r => Host.dotGeneral dot_S50000x16_S16x40_S50000x40_1_0_0_1_n_n none l r) : (⟨S50000x16, .f32⟩ : BufTy).Contents (Elt F) → (⟨S16x40, .f32⟩ : BufTy).Contents (Elt F) → (⟨S50000x40, .f32⟩ : BufTy).Contents (Elt F)),
    unary main_arg10 main_v756 ((extractStridedSlice S1x40 ![11, 0] · slices_S12x40_S1x40_11_0) : (⟨S12x40, .f32⟩ : BufTy).Contents (Elt F) → (⟨S1x40, .f32⟩ : BufTy).Contents (Elt F)),
    reshape main_v756 main_v757 rfl shapeCasts_S1x40_S40,
    unary main_v757 main_v758 (broadcastInDim S1x40 ![1] bcast_S40_S1x40_1 : (⟨S40, .f32⟩ : BufTy).Contents (Elt F) → (⟨S1x40, .f32⟩ : BufTy).Contents (Elt F)),
    unary main_v758 main_v759 (broadcastInDim S50000x40 ![0, 1] bcast_S1x40_S50000x40_0_1 : (⟨S1x40, .f32⟩ : BufTy).Contents (Elt F) → (⟨S50000x40, .f32⟩ : BufTy).Contents (Elt F)),
    binary main_v755 main_v759 main_v760 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops25_sub : (rops25 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub ..⟩

abbrev rops26 : List (HloOp τ sig (Elt F)) :=
  [ unary main_v108 main_v761 (broadcastInDim S50000x1x40 ![0, 2] bcast_S50000x40_S50000x1x40_0_2 : (⟨S50000x40, .f32⟩ : BufTy).Contents (Elt F) → (⟨S50000x1x40, .f32⟩ : BufTy).Contents (Elt F)),
    unary main_v159 main_v762 (broadcastInDim S50000x1x40 ![0, 2] bcast_S50000x40_S50000x1x40_0_2 : (⟨S50000x40, .f32⟩ : BufTy).Contents (Elt F) → (⟨S50000x1x40, .f32⟩ : BufTy).Contents (Elt F)),
    unary main_v223 main_v763 (broadcastInDim S50000x1x40 ![0, 2] bcast_S50000x40_S50000x1x40_0_2 : (⟨S50000x40, .f32⟩ : BufTy).Contents (Elt F) → (⟨S50000x1x40, .f32⟩ : BufTy).Contents (Elt F)),
    unary main_v300 main_v764 (broadcastInDim S50000x1x40 ![0, 2] bcast_S50000x40_S50000x1x40_0_2 : (⟨S50000x40, .f32⟩ : BufTy).Contents (Elt F) → (⟨S50000x1x40, .f32⟩ : BufTy).Contents (Elt F)),
    unary main_v338 main_v765 (broadcastInDim S50000x1x40 ![0, 2] bcast_S50000x40_S50000x1x40_0_2 : (⟨S50000x40, .f32⟩ : BufTy).Contents (Elt F) → (⟨S50000x1x40, .f32⟩ : BufTy).Contents (Elt F)),
    unary main_v389 main_v766 (broadcastInDim S50000x1x40 ![0, 2] bcast_S50000x40_S50000x1x40_0_2 : (⟨S50000x40, .f32⟩ : BufTy).Contents (Elt F) → (⟨S50000x1x40, .f32⟩ : BufTy).Contents (Elt F)),
    unary main_v453 main_v767 (broadcastInDim S50000x1x40 ![0, 2] bcast_S50000x40_S50000x1x40_0_2 : (⟨S50000x40, .f32⟩ : BufTy).Contents (Elt F) → (⟨S50000x1x40, .f32⟩ : BufTy).Contents (Elt F)),
    unary main_v530 main_v768 (broadcastInDim S50000x1x40 ![0, 2] bcast_S50000x40_S50000x1x40_0_2 : (⟨S50000x40, .f32⟩ : BufTy).Contents (Elt F) → (⟨S50000x1x40, .f32⟩ : BufTy).Contents (Elt F)),
    unary main_v568 main_v769 (broadcastInDim S50000x1x40 ![0, 2] bcast_S50000x40_S50000x1x40_0_2 : (⟨S50000x40, .f32⟩ : BufTy).Contents (Elt F) → (⟨S50000x1x40, .f32⟩ : BufTy).Contents (Elt F)),
    unary main_v619 main_v770 (broadcastInDim S50000x1x40 ![0, 2] bcast_S50000x40_S50000x1x40_0_2 : (⟨S50000x40, .f32⟩ : BufTy).Contents (Elt F) → (⟨S50000x1x40, .f32⟩ : BufTy).Contents (Elt F)),
    unary main_v683 main_v771 (broadcastInDim S50000x1x40 ![0, 2] bcast_S50000x40_S50000x1x40_0_2 : (⟨S50000x40, .f32⟩ : BufTy).Contents (Elt F) → (⟨S50000x1x40, .f32⟩ : BufTy).Contents (Elt F)),
    unary main_v760 main_v772 (broadcastInDim S50000x1x40 ![0, 2] bcast_S50000x40_S50000x1x40_0_2 : (⟨S50000x40, .f32⟩ : BufTy).Contents (Elt F) → (⟨S50000x1x40, .f32⟩ : BufTy).Contents (Elt F)),
    nary ![main_v761, main_v762, main_v763, main_v764, main_v765, main_v766, main_v767, main_v768, main_v769, main_v770, main_v771, main_v772] main_v773 (fun u => concatenate S50000x12x40 1 [⟨S50000x1x40, u 0⟩, ⟨S50000x1x40, u 1⟩, ⟨S50000x1x40, u 2⟩, ⟨S50000x1x40, u 3⟩, ⟨S50000x1x40, u 4⟩, ⟨S50000x1x40, u 5⟩, ⟨S50000x1x40, u 6⟩, ⟨S50000x1x40, u 7⟩, ⟨S50000x1x40, u 8⟩, ⟨S50000x1x40, u 9⟩, ⟨S50000x1x40, u 10⟩, ⟨S50000x1x40, u 11⟩] concatenates_S50000x1x40_S50000x1x40_S50000x1x40_S50000x1x40_S50000x1x40_S50000x1x40_S50000x1x40_S50000x1x40_S50000x1x40_S50000x1x40_S50000x1x40_S50000x1x40_S50000x12x40_d1),
    reshape main_v773 main_v774 rfl shapeCasts_S50000x12x40_S50000x480,
    TRef.nullary (TRef.of (T := ⟨S_, .f32⟩) main_call14_cst) (constant S_ .f32 0x00000000#32),
    TRef.unary (TRef.of (T := ⟨S_, .f32⟩) main_call14_cst) (TRef.of (T := ⟨S50000x480, .f32⟩) main_call14_v0) (broadcastInDim S50000x480 ![] bcast_S_S50000x480),
    TRef.binary (TRef.of (T := ⟨S50000x480, .f32⟩) main_v774) (TRef.of (T := ⟨S50000x480, .f32⟩) main_call14_v0) (TRef.of (T := ⟨S50000x480, .f32⟩) main_v775) maximumf,
    binary main_v775 main_arg11 main_v776 ((fun l r => Host.dotGeneral dot_S50000x480_S480x40_S50000x40_1_0_0_1_n_n none l r) : (⟨S50000x480, .f32⟩ : BufTy).Contents (Elt F) → (⟨S480x40, .f32⟩ : BufTy).Contents (Elt F) → (⟨S50000x40, .f32⟩ : BufTy).Contents (Elt F)),
    unary main_arg12 main_v777 (broadcastInDim S1x40 ![1] bcast_S40_S1x40_1 : (⟨S40, .f32⟩ : BufTy).Contents (Elt F) → (⟨S1x40, .f32⟩ : BufTy).Contents (Elt F)),
    unary main_v777 main_v778 (broadcastInDim S50000x40 ![0, 1] bcast_S1x40_S50000x40_0_1 : (⟨S1x40, .f32⟩ : BufTy).Contents (Elt F) → (⟨S50000x40, .f32⟩ : BufTy).Contents (Elt F)),
    binary main_v776 main_v778 main_v779 (addf : (⟨S50000x40, .f32⟩ : BufTy).Contents (Elt F) → (⟨S50000x40, .f32⟩ : BufTy).Contents (Elt F) → (⟨S50000x40, .f32⟩ : BufTy).Contents (Elt F)) ]

set_option maxRecDepth 8192 in
theorem rops26_sub : (rops26 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., nullary_bufs_sub .., unary_bufs_sub .., binary_bufs_sub .., binary_bufs_sub .., unary_bufs_sub .., unary_bufs_sub .., binary_bufs_sub ..⟩

end Cert.ReferenceIdeal.RVal

end
-- ==== Proof.RVal.Run.lean ====
import proofs.«124913_j71159018160549_2_alg».proof.Proof.RVal.Ops

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- All 894 operations, in order. -/
noncomputable abbrev ropsAll : List (HloOp τ sig (Elt F)) :=
  rops0 ++ (rops1 ++ (rops2 ++ (rops3 ++ (rops4 ++ (rops5 ++ (rops6 ++ (rops7 ++ (rops8 ++ (rops9 ++ (rops10
  ++ (rops11 ++ (rops12 ++ (rops13 ++ (rops14 ++ (rops15 ++ (rops16 ++ (rops17 ++ (rops18 ++ (rops19 ++
  (rops20 ++ (rops21 ++ (rops22 ++ (rops23 ++ (rops24 ++ (rops25 ++ (rops26))))))))))))))))))))))))))

theorem forall_append {α : Type _} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- The contents after a concatenation: the second list's run after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

set_option maxRecDepth 65536 in
set_option maxHeartbeats 4000000 in
theorem main_eq (c : Dev nD) : main (F := F) c = seq ropsAll := rfl

theorem scopedRefs_eq : (Finset.univ.filter fun b : Ref sig .tc => b.isScoped) = ∅ := by decide
theorem scopedSems_eq : (Finset.univ.filter fun sm : SemLoc sig => sm.isScoped .tc) = ∅ := by decide

theorem ropsAll_sub : (ropsAll : List (HloOp τ sig (Elt F))).Forall fun op => op.bufs ⊆ tcRefs τ sig :=
  forall_append rops0_sub (forall_append rops1_sub (forall_append rops2_sub (forall_append rops3_sub
  (forall_append rops4_sub (forall_append rops5_sub (forall_append rops6_sub (forall_append rops7_sub
  (forall_append rops8_sub (forall_append rops9_sub (forall_append rops10_sub (forall_append rops11_sub
  (forall_append rops12_sub (forall_append rops13_sub (forall_append rops14_sub (forall_append rops15_sub
  (forall_append rops16_sub (forall_append rops17_sub (forall_append rops18_sub (forall_append rops19_sub
  (forall_append rops20_sub (forall_append rops21_sub (forall_append rops22_sub (forall_append rops23_sub
  (forall_append rops24_sub (forall_append rops25_sub (rops26_sub))))))))))))))))))))))))))

/-- No operation allocates: the list is walked once, each operation by `rfl`. -/
theorem ropsAll_fresh : ∀ op ∈ (ropsAll : List (HloOp τ sig (Elt F))), op.fresh = ∅ := by
  refine List.forall_iff_forall_mem.1 ?_
  repeat' apply forall_append
  all_goals repeat' first | refine (List.forall_cons _ _ _).2 ⟨rfl, ?_⟩ | exact trivial

/-- Every weakly fair execution ends with each buffer at the 894 operations' run over its launch contents. -/
theorem ref_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ropsAll (launchContents m d) (Proc.devRef .tc b) :=
  run_seq scopedRefs_eq scopedSems_eq defs main (fun _ => ropsAll) main_eq (fun _ => ropsAll_sub) m ρ
    (fun _ => ropsAll_fresh)

/-- `U0` the launch contents, `U⟨k+1⟩` the contents after stretch `k`. -/
noncomputable abbrev U0 (m : (ℓ : Loc nD τ sig) → Buf (Elt F) ℓ) (d : Dev nD) : Valuation τ sig (Elt F) := launchContents m d
noncomputable abbrev U1 (m : (ℓ : Loc nD τ sig) → Buf (Elt F) ℓ) (d : Dev nD) : Valuation τ sig (Elt F) := after rops0 (U0 m d)
noncomputable abbrev U2 (m : (ℓ : Loc nD τ sig) → Buf (Elt F) ℓ) (d : Dev nD) : Valuation τ sig (Elt F) := after rops1 (U1 m d)
noncomputable abbrev U3 (m : (ℓ : Loc nD τ sig) → Buf (Elt F) ℓ) (d : Dev nD) : Valuation τ sig (Elt F) := after rops2 (U2 m d)
noncomputable abbrev U4 (m : (ℓ : Loc nD τ sig) → Buf (Elt F) ℓ) (d : Dev nD) : Valuation τ sig (Elt F) := after rops3 (U3 m d)
noncomputable abbrev U5 (m : (ℓ : Loc nD τ sig) → Buf (Elt F) ℓ) (d : Dev nD) : Valuation τ sig (Elt F) := after rops4 (U4 m d)
noncomputable abbrev U6 (m : (ℓ : Loc nD τ sig) → Buf (Elt F) ℓ) (d : Dev nD) : Valuation τ sig (Elt F) := after rops5 (U5 m d)
noncomputable abbrev U7 (m : (ℓ : Loc nD τ sig) → Buf (Elt F) ℓ) (d : Dev nD) : Valuation τ sig (Elt F) := after rops6 (U6 m d)
noncomputable abbrev U8 (m : (ℓ : Loc nD τ sig) → Buf (Elt F) ℓ) (d : Dev nD) : Valuation τ sig (Elt F) := after rops7 (U7 m d)
noncomputable abbrev U9 (m : (ℓ : Loc nD τ sig) → Buf (Elt F) ℓ) (d : Dev nD) : Valuation τ sig (Elt F) := after rops8 (U8 m d)
noncomputable abbrev U10 (m : (ℓ : Loc nD τ sig) → Buf (Elt F) ℓ) (d : Dev nD) : Valuation τ sig (Elt F) := after rops9 (U9 m d)
noncomputable abbrev U11 (m : (ℓ : Loc nD τ sig) → Buf (Elt F) ℓ) (d : Dev nD) : Valuation τ sig (Elt F) := after rops10 (U10 m d)
noncomputable abbrev U12 (m : (ℓ : Loc nD τ sig) → Buf (Elt F) ℓ) (d : Dev nD) : Valuation τ sig (Elt F) := after rops11 (U11 m d)
noncomputable abbrev U13 (m : (ℓ : Loc nD τ sig) → Buf (Elt F) ℓ) (d : Dev nD) : Valuation τ sig (Elt F) := after rops12 (U12 m d)
noncomputable abbrev U14 (m : (ℓ : Loc nD τ sig) → Buf (Elt F) ℓ) (d : Dev nD) : Valuation τ sig (Elt F) := after rops13 (U13 m d)
noncomputable abbrev U15 (m : (ℓ : Loc nD τ sig) → Buf (Elt F) ℓ) (d : Dev nD) : Valuation τ sig (Elt F) := after rops14 (U14 m d)
noncomputable abbrev U16 (m : (ℓ : Loc nD τ sig) → Buf (Elt F) ℓ) (d : Dev nD) : Valuation τ sig (Elt F) := after rops15 (U15 m d)
noncomputable abbrev U17 (m : (ℓ : Loc nD τ sig) → Buf (Elt F) ℓ) (d : Dev nD) : Valuation τ sig (Elt F) := after rops16 (U16 m d)
noncomputable abbrev U18 (m : (ℓ : Loc nD τ sig) → Buf (Elt F) ℓ) (d : Dev nD) : Valuation τ sig (Elt F) := after rops17 (U17 m d)
noncomputable abbrev U19 (m : (ℓ : Loc nD τ sig) → Buf (Elt F) ℓ) (d : Dev nD) : Valuation τ sig (Elt F) := after rops18 (U18 m d)
noncomputable abbrev U20 (m : (ℓ : Loc nD τ sig) → Buf (Elt F) ℓ) (d : Dev nD) : Valuation τ sig (Elt F) := after rops19 (U19 m d)
noncomputable abbrev U21 (m : (ℓ : Loc nD τ sig) → Buf (Elt F) ℓ) (d : Dev nD) : Valuation τ sig (Elt F) := after rops20 (U20 m d)
noncomputable abbrev U22 (m : (ℓ : Loc nD τ sig) → Buf (Elt F) ℓ) (d : Dev nD) : Valuation τ sig (Elt F) := after rops21 (U21 m d)
noncomputable abbrev U23 (m : (ℓ : Loc nD τ sig) → Buf (Elt F) ℓ) (d : Dev nD) : Valuation τ sig (Elt F) := after rops22 (U22 m d)
noncomputable abbrev U24 (m : (ℓ : Loc nD τ sig) → Buf (Elt F) ℓ) (d : Dev nD) : Valuation τ sig (Elt F) := after rops23 (U23 m d)
noncomputable abbrev U25 (m : (ℓ : Loc nD τ sig) → Buf (Elt F) ℓ) (d : Dev nD) : Valuation τ sig (Elt F) := after rops24 (U24 m d)
noncomputable abbrev U26 (m : (ℓ : Loc nD τ sig) → Buf (Elt F) ℓ) (d : Dev nD) : Valuation τ sig (Elt F) := after rops25 (U25 m d)
noncomputable abbrev U27 (m : (ℓ : Loc nD τ sig) → Buf (Elt F) ℓ) (d : Dev nD) : Valuation τ sig (Elt F) := after rops26 (U26 m d)

theorem after_all (m : (ℓ : Loc nD τ sig) → Buf (Elt F) ℓ) (d : Dev nD) :
    after ropsAll (launchContents m d) = U27 m d := by
  simp only [ropsAll, after_append]

end Cert.ReferenceIdeal.RVal

end
-- ==== Proof.RVal.Layers.lean ====
import proofs.«124913_j71159018160549_2_alg».proof.ReferenceIdeal
import proofs.«124913_j71159018160549_2_alg».proof.Proof.Gen.ReferenceIdeal
import proofs.«124913_j71159018160549_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RVal

open Cert.ReferenceIdeal Cert.ReferenceIdeal.Gen Idealize.ShloMosaic Idealize.ShloMosaic.TcCoe Idealize.SL.Sem
  Idealize.ShloMosaic.StableHlo Idealize.ShloMosaic.ValueIdx

theorem slabW2_apply (i : Fin 12) (W2 : FVec Ideal S12x16x40 .f32)
    (hs : S12x16x40.Slices ![i.val, 0, 0] S1x16x40) (hc : S1x16x40.ShapeCasts S16x40) (j : Fin 16) (k : Fin 40) :
    shapeCast S16x40 (extractStridedSlice S1x16x40 ![i.val, 0, 0] W2 hs) hc (ix2 j k) = W2 (ix3 i j k) := by
  refine (shapeCast_apply _ hc (ix2 j k) (ix3 (⟨0, Nat.one_pos⟩ : Fin 1) j k) ?_).trans ?_
  · rewrite [Shape.rowMajor_val_three, Shape.rowMajor_val_two]
    show (0 * 16 + j.val) * 40 + k.val = j.val * 40 + k.val
    omega
  · exact extractStridedSlice_apply _ W2 hs _ (ix3 i j k) (fun a => match a with
      | ⟨0, _⟩ => by show i.val = i.val + 0; omega
      | ⟨1, _⟩ => by show j.val = 0 + j.val; omega
      | ⟨2, _⟩ => by show k.val = 0 + k.val; omega)

theorem rowB40_apply (i : Fin 12) (b2 : FVec Ideal S12x40 .f32)
    (hs : S12x40.Slices ![i.val, 0] S1x40) (hc : S1x40.ShapeCasts S40)
    (hb1 : S40.BroadcastsInDim S1x40 (![1] : Fin 1 → Fin S1x40.rank))
    (hb2 : S1x40.BroadcastsInDim S50000x40 (![0, 1] : Fin 2 → Fin S50000x40.rank)) (n : Fin 50000) (k : Fin 40) :
    broadcastInDim S50000x40 ![0, 1] hb2 (broadcastInDim S1x40 ![1] hb1
      (shapeCast S40 (extractStridedSlice S1x40 ![i.val, 0] b2 hs) hc)) (ix2 n k) = b2 (ix2 i k) := by
  refine (broadcastInDim_apply _ hb2 _ (ix2 n k) (ix2 (⟨0, Nat.one_pos⟩ : Fin 1) k) (fun a => match a with
    | ⟨0, _⟩ => by show 0 = if (1 : Nat) = 1 then 0 else n.val; rw [if_pos rfl]
    | ⟨1, _⟩ => by show k.val = if (40 : Nat) = 1 then 0 else k.val; rw [if_neg (by decide)])).trans ?_
  refine (broadcastInDim_apply _ hb1 _ (ix2 (⟨0, Nat.one_pos⟩ : Fin 1) k) (ix1 k) (fun a => match a with
    | ⟨0, _⟩ => by show k.val = if (40 : Nat) = 1 then 0 else k.val; rw [if_neg (by decide)])).trans ?_
  refine (shapeCast_apply _ hc (ix1 k) (ix2 (⟨0, Nat.one_pos⟩ : Fin 1) k) ?_).trans ?_
  · rewrite [Shape.rowMajor_val_two, Shape.rowMajor_val_one]
    show 0 * 40 + k.val = k.val
    omega
  · exact extractStridedSlice_apply _ b2 hs _ (ix2 i k) (fun a => match a with
      | ⟨0, _⟩ => by show i.val = i.val + 0; omega
      | ⟨1, _⟩ => by show k.val = 0 + k.val; omega)

theorem dot16_lhs0 (j : S50000x40.Idx) (q : dot_S50000x16_S16x40_S50000x40_1_0_0_1_n_n.contr.Idx) :
    (dot_S50000x16_S16x40_S50000x40_1_0_0_1_n_n.lhsIdx j q 0).val = (j 0).val := by
  unfold DotDims.lhsIdx
  rw [dif_neg (show ¬(0 : Fin S50000x16.rank) ∈ dot_S50000x16_S16x40_S50000x40_1_0_0_1_n_n.lhsBatch by decide),
    dif_pos (show (0 : Fin S50000x16.rank) ∈ dot_S50000x16_S16x40_S50000x40_1_0_0_1_n_n.lhsNonContracting by decide)]
  rfl
theorem dot16_lhs1 (j : S50000x40.Idx) (q : dot_S50000x16_S16x40_S50000x40_1_0_0_1_n_n.contr.Idx) :
    (dot_S50000x16_S16x40_S50000x40_1_0_0_1_n_n.lhsIdx j q 1).val = (q ⟨0, by decide⟩).val :=
  dot_S50000x16_S16x40_S50000x40_1_0_0_1_n_n.lhsIdx_val_of_single rfl j q
theorem dot16_rhs0 (j : S50000x40.Idx) (q : dot_S50000x16_S16x40_S50000x40_1_0_0_1_n_n.contr.Idx) :
    (dot_S50000x16_S16x40_S50000x40_1_0_0_1_n_n.rhsIdx j q 0).val = (q ⟨0, by decide⟩).val :=
  dot_S50000x16_S16x40_S50000x40_1_0_0_1_n_n.rhsIdx_val_of_single rfl j q
theorem dot16_rhs1 (j : S50000x40.Idx) (q : dot_S50000x16_S16x40_S50000x40_1_0_0_1_n_n.contr.Idx) :
    (dot_S50000x16_S16x40_S50000x40_1_0_0_1_n_n.rhsIdx j q 1).val = (j 1).val := by
  unfold DotDims.rhsIdx
  rw [dif_neg (show ¬(1 : Fin S16x40.rank) ∈ dot_S50000x16_S16x40_S50000x40_1_0_0_1_n_n.rhsBatch by decide),
    dif_pos (show (1 : Fin S16x40.rank) ∈ dot_S50000x16_S16x40_S50000x40_1_0_0_1_n_n.rhsNonContracting by decide)]
  rfl

theorem dot16_apply (prec : Option ContractPrecision) (lhs : FVec Ideal S50000x16 .f32) (rhs : FVec Ideal S16x40 .f32)
    (n : Fin 50000) (k : Fin 40) :
    Host.dotGeneral dot_S50000x16_S16x40_S50000x40_1_0_0_1_n_n prec lhs rhs (ix2 n k)
      = ∑ j : Fin 16, lhs (ix2 n j) * rhs (ix2 j k) := by
  simp only [Host.dotGeneral]
  rw [Ideal.dotGeneral_apply, ← Equiv.sum_comp (contrEquiv1 dot_S50000x16_S16x40_S50000x40_1_0_0_1_n_n 16 rfl rfl).symm]
  refine Finset.sum_congr rfl fun j _ => ?_
  have hj := contrEquiv1_symm_val dot_S50000x16_S16x40_S50000x40_1_0_0_1_n_n 16 rfl rfl j
  have el : dot_S50000x16_S16x40_S50000x40_1_0_0_1_n_n.lhsIdx (ix2 n k)
      ((contrEquiv1 dot_S50000x16_S16x40_S50000x40_1_0_0_1_n_n 16 rfl rfl).symm j) = ix2 n j :=
    funext fun a => Fin.ext (by
      match a with
      | ⟨0, _⟩ => exact dot16_lhs0 _ _
      | ⟨1, _⟩ => exact (dot16_lhs1 _ _).trans hj)
  have er : dot_S50000x16_S16x40_S50000x40_1_0_0_1_n_n.rhsIdx (ix2 n k)
      ((contrEquiv1 dot_S50000x16_S16x40_S50000x40_1_0_0_1_n_n 16 rfl rfl).symm j) = ix2 j k :=
    funext fun a => Fin.ext (by
      match a with
      | ⟨0, _⟩ => exact (dot16_rhs0 _ _).trans hj
      | ⟨1, _⟩ => exact dot16_rhs1 _ _)
  rw [el, er]

theorem secondLayer_apply (i : Fin 12) (hid : FVec Ideal S50000x16 .f32) (W2 : FVec Ideal S12x16x40 .f32)
    (b2 : FVec Ideal S12x40 .f32)
    (hsW : S12x16x40.Slices ![i.val, 0, 0] S1x16x40) (hcW : S1x16x40.ShapeCasts S16x40)
    (hsb : S12x40.Slices ![i.val, 0] S1x40) (hcb : S1x40.ShapeCasts S40)
    (hb1 : S40.BroadcastsInDim S1x40 (![1] : Fin 1 → Fin S1x40.rank))
    (hb2 : S1x40.BroadcastsInDim S50000x40 (![0, 1] : Fin 2 → Fin S50000x40.rank))
    (n : Fin 50000) (k : Fin 40) :
    addf (Host.dotGeneral dot_S50000x16_S16x40_S50000x40_1_0_0_1_n_n none hid
        (shapeCast S16x40 (extractStridedSlice S1x16x40 ![i.val, 0, 0] W2 hsW) hcW))
      (broadcastInDim S50000x40 ![0, 1] hb2 (broadcastInDim S1x40 ![1] hb1
        (shapeCast S40 (extractStridedSlice S1x40 ![i.val, 0] b2 hsb) hcb))) (ix2 n k)
      = Cert.Spec.cellOut (fun n j => hid (ix2 n j)) (fun j k => W2 (ix3 i j k)) (fun k => b2 (ix2 i k)) n k := by
  rw [addf_apply, dot16_apply, rowB40_apply]
  unfold Cert.Spec.cellOut
  congr 1
  exact Finset.sum_congr rfl fun j _ => by rw [slabW2_apply]

theorem slabW1_apply (i : Fin 12) (W1 : FVec Ideal S12x100x16 .f32)
    (hs : S12x100x16.Slices ![i.val, 0, 0] S1x100x16) (hc : S1x100x16.ShapeCasts S100x16) (k : Fin 100) (q : Fin 16) :
    shapeCast S100x16 (extractStridedSlice S1x100x16 ![i.val, 0, 0] W1 hs) hc (ix2 k q) = W1 (ix3 i k q) := by
  refine (shapeCast_apply _ hc (ix2 k q) (ix3 (⟨0, Nat.one_pos⟩ : Fin 1) k q) ?_).trans ?_
  · rewrite [Shape.rowMajor_val_three, Shape.rowMajor_val_two]
    show (0 * 100 + k.val) * 16 + q.val = k.val * 16 + q.val
    omega
  · exact extractStridedSlice_apply _ W1 hs _ (ix3 i k q) (fun a => match a with
      | ⟨0, _⟩ => by show i.val = i.val + 0; omega
      | ⟨1, _⟩ => by show k.val = 0 + k.val; omega
      | ⟨2, _⟩ => by show q.val = 0 + q.val; omega)

theorem vec16_apply (i : Fin 12) (p : FVec Ideal S12x16 .f32)
    (hs : S12x16.Slices ![i.val, 0] S1x16) (hc : S1x16.ShapeCasts S16) (q : Fin 16) :
    shapeCast S16 (extractStridedSlice S1x16 ![i.val, 0] p hs) hc (ix1 q) = p (ix2 i q) := by
  refine (shapeCast_apply _ hc (ix1 q) (ix2 (⟨0, Nat.one_pos⟩ : Fin 1) q) ?_).trans ?_
  · rewrite [Shape.rowMajor_val_two, Shape.rowMajor_val_one]
    show 0 * 16 + q.val = q.val
    omega
  · exact extractStridedSlice_apply _ p hs _ (ix2 i q) (fun a => match a with
      | ⟨0, _⟩ => by show i.val = i.val + 0; omega
      | ⟨1, _⟩ => by show q.val = 0 + q.val; omega)

theorem spread16_apply (y : FVec Ideal S16 .f32)
    (hb1 : S16.BroadcastsInDim S1x16 (![1] : Fin 1 → Fin S1x16.rank))
    (hb2 : S1x16.BroadcastsInDim S50000x16 (![0, 1] : Fin 2 → Fin S50000x16.rank)) (n : Fin 50000) (q : Fin 16) :
    broadcastInDim S50000x16 ![0, 1] hb2 (broadcastInDim S1x16 ![1] hb1 y) (ix2 n q) = y (ix1 q) := by
  refine (broadcastInDim_apply _ hb2 _ (ix2 n q) (ix2 (⟨0, Nat.one_pos⟩ : Fin 1) q) (fun a => match a with
    | ⟨0, _⟩ => by show 0 = if (1 : Nat) = 1 then 0 else n.val; rw [if_pos rfl]
    | ⟨1, _⟩ => by show q.val = if (16 : Nat) = 1 then 0 else q.val; rw [if_neg (by decide)])).trans ?_
  exact broadcastInDim_apply _ hb1 _ (ix2 (⟨0, Nat.one_pos⟩ : Fin 1) q) (ix1 q) (fun a => match a with
    | ⟨0, _⟩ => by show q.val = if (16 : Nat) = 1 then 0 else q.val; rw [if_neg (by decide)])

theorem splat_apply {t : Shape} (b : BitVec FTy.f32.bits) (h : S_.BroadcastsInDim t (![] : Fin 0 → Fin t.rank))
    (j : t.Idx) : broadcastInDim t ![] h (constant (F := Ideal) S_ .f32 b) j = Ideal.ofBits .f32 b := rfl

theorem dot100_lhs0 (j : S50000x16.Idx) (q : dot_S50000x100_S100x16_S50000x16_1_0_0_1_n_n.contr.Idx) :
    (dot_S50000x100_S100x16_S50000x16_1_0_0_1_n_n.lhsIdx j q 0).val = (j 0).val := by
  unfold DotDims.lhsIdx
  rw [dif_neg (show ¬(0 : Fin S50000x100.rank) ∈ dot_S50000x100_S100x16_S50000x16_1_0_0_1_n_n.lhsBatch by decide),
    dif_pos (show (0 : Fin S50000x100.rank) ∈ dot_S50000x100_S100x16_S50000x16_1_0_0_1_n_n.lhsNonContracting by decide)]
  rfl
theorem dot100_lhs1 (j : S50000x16.Idx) (q : dot_S50000x100_S100x16_S50000x16_1_0_0_1_n_n.contr.Idx) :
    (dot_S50000x100_S100x16_S50000x16_1_0_0_1_n_n.lhsIdx j q 1).val = (q ⟨0, by decide⟩).val :=
  dot_S50000x100_S100x16_S50000x16_1_0_0_1_n_n.lhsIdx_val_of_single rfl j q
theorem dot100_rhs0 (j : S50000x16.Idx) (q : dot_S50000x100_S100x16_S50000x16_1_0_0_1_n_n.contr.Idx) :
    (dot_S50000x100_S100x16_S50000x16_1_0_0_1_n_n.rhsIdx j q 0).val = (q ⟨0, by decide⟩).val :=
  dot_S50000x100_S100x16_S50000x16_1_0_0_1_n_n.rhsIdx_val_of_single rfl j q
theorem dot100_rhs1 (j : S50000x16.Idx) (q : dot_S50000x100_S100x16_S50000x16_1_0_0_1_n_n.contr.Idx) :
    (dot_S50000x100_S100x16_S50000x16_1_0_0_1_n_n.rhsIdx j q 1).val = (j 1).val := by
  unfold DotDims.rhsIdx
  rw [dif_neg (show ¬(1 : Fin S100x16.rank) ∈ dot_S50000x100_S100x16_S50000x16_1_0_0_1_n_n.rhsBatch by decide),
    dif_pos (show (1 : Fin S100x16.rank) ∈ dot_S50000x100_S100x16_S50000x16_1_0_0_1_n_n.rhsNonContracting by decide)]
  rfl

theorem dot100_apply (prec : Option ContractPrecision) (lhs : FVec Ideal S50000x100 .f32) (rhs : FVec Ideal S100x16 .f32)
    (n : Fin 50000) (q : Fin 16) :
    Host.dotGeneral dot_S50000x100_S100x16_S50000x16_1_0_0_1_n_n prec lhs rhs (ix2 n q)
      = ∑ k : Fin 100, lhs (ix2 n k) * rhs (ix2 k q) := by
  simp only [Host.dotGeneral]
  rw [Ideal.dotGeneral_apply, ← Equiv.sum_comp (contrEquiv1 dot_S50000x100_S100x16_S50000x16_1_0_0_1_n_n 100 rfl rfl).symm]
  refine Finset.sum_congr rfl fun k _ => ?_
  have hk := contrEquiv1_symm_val dot_S50000x100_S100x16_S50000x16_1_0_0_1_n_n 100 rfl rfl k
  have el : dot_S50000x100_S100x16_S50000x16_1_0_0_1_n_n.lhsIdx (ix2 n q)
      ((contrEquiv1 dot_S50000x100_S100x16_S50000x16_1_0_0_1_n_n 100 rfl rfl).symm k) = ix2 n k :=
    funext fun a => Fin.ext (by
      match a with
      | ⟨0, _⟩ => exact dot100_lhs0 _ _
      | ⟨1, _⟩ => exact (dot100_lhs1 _ _).trans hk)
  have er : dot_S50000x100_S100x16_S50000x16_1_0_0_1_n_n.rhsIdx (ix2 n q)
      ((contrEquiv1 dot_S50000x100_S100x16_S50000x16_1_0_0_1_n_n 100 rfl rfl).symm k) = ix2 k q :=
    funext fun a => Fin.ext (by
      match a with
      | ⟨0, _⟩ => exact (dot100_rhs0 _ _).trans hk
      | ⟨1, _⟩ => exact dot100_rhs1 _ _)
  rw [el, er]

theorem firstLayer_apply (i : Fin 12) (xs : FVec Ideal S50000x100 .f32) (W1 : FVec Ideal S12x100x16 .f32)
    (b1 g be mu var : FVec Ideal S12x16 .f32)
    (hsW : S12x100x16.Slices ![i.val, 0, 0] S1x100x16) (hcW : S1x100x16.ShapeCasts S100x16)
    (hs : S12x16.Slices ![i.val, 0] S1x16) (hc : S1x16.ShapeCasts S16)
    (hb1 : S16.BroadcastsInDim S1x16 (![1] : Fin 1 → Fin S1x16.rank))
    (hb2 : S1x16.BroadcastsInDim S50000x16 (![0, 1] : Fin 2 → Fin S50000x16.rank))
    (hb0 : S_.BroadcastsInDim S16 (![] : Fin 0 → Fin S16.rank))
    (hbz : S_.BroadcastsInDim S50000x16 (![] : Fin 0 → Fin S50000x16.rank))
    (n : Fin 50000) (q : Fin 16) :
    maximumf
      (addf
        (mulf
          (subf
            (addf
              (Host.dotGeneral dot_S50000x100_S100x16_S50000x16_1_0_0_1_n_n none xs
                (shapeCast S100x16 (extractStridedSlice S1x100x16 ![i.val, 0, 0] W1 hsW) hcW))
              (broadcastInDim S50000x16 ![0, 1] hb2 (broadcastInDim S1x16 ![1] hb1
                (shapeCast S16 (extractStridedSlice S1x16 ![i.val, 0] b1 hs) hc))))
            (broadcastInDim S50000x16 ![0, 1] hb2 (broadcastInDim S1x16 ![1] hb1
              (shapeCast S16 (extractStridedSlice S1x16 ![i.val, 0] mu hs) hc))))
          (broadcastInDim S50000x16 ![0, 1] hb2 (broadcastInDim S1x16 ![1] hb1
            (mulf (shapeCast S16 (extractStridedSlice S1x16 ![i.val, 0] g hs) hc)
              (Host.rsqrt (addf (shapeCast S16 (extractStridedSlice S1x16 ![i.val, 0] var hs) hc)
                (broadcastInDim S16 ![] hb0 (constant S_ .f32 0x3727C5AC#32))))))))
        (broadcastInDim S50000x16 ![0, 1] hb2 (broadcastInDim S1x16 ![1] hb1
          (shapeCast S16 (extractStridedSlice S1x16 ![i.val, 0] be hs) hc))))
      (broadcastInDim S50000x16 ![] hbz (constant S_ .f32 0x00000000#32)) (ix2 n q)
      = Cert.Spec.cellHid (fun n k => xs (ix2 n k)) (fun k q => W1 (ix3 i k q)) (fun q => b1 (ix2 i q))
          (fun q => g (ix2 i q)) (fun q => be (ix2 i q)) (fun q => mu (ix2 i q)) (fun q => var (ix2 i q)) n q := by
  rw [maximumf_apply, addf_apply, mulf_apply, subf_apply, addf_apply, dot100_apply, splat_apply,
    spread16_apply, spread16_apply, spread16_apply, spread16_apply, mulf_apply, vec16_apply, vec16_apply, vec16_apply,
    vec16_apply]
  show max (((∑ k : Fin 100, xs (ix2 n k) * _) + b1 (ix2 i q) - mu (ix2 i q))
      * (g (ix2 i q) * Ideal.rsqrt (shapeCast S16 (extractStridedSlice S1x16 ![i.val, 0] var hs) hc (ix1 q)
          + Ideal.ofBits .f32 0x3727C5AC#32)) + be (ix2 i q)) (Ideal.ofBits .f32 0x00000000#32) = _
  rw [vec16_apply]
  unfold Cert.Spec.cellHid
  congr 5
  exact Finset.sum_congr rfl fun k _ => by rw [slabW1_apply]

theorem rowSum_apply (y : FVec Ideal S50000x100 .f32) (hred : S50000x100.ReducesTo [1] S50000) (hS : 0 < S_.numel)
    (n : Fin 50000) :
    Host.reduceAdd y (constant (F := Ideal) S_ .f32 0x00000000#32) hred hS (ix1 n) = ∑ k : Fin 100, y (ix2 n k) := by
  simp only [Host.reduceAdd, Ideal.hostReduceAdd_def]
  rw [Ideal.hostReduceAdd_single hred (by decide),
    show (constant (F := Ideal) S_ .f32 0x00000000#32) (Shape.Idx.first hS) = 0 from Ideal.ofBits_zero_f32, zero_add]
  refine Finset.sum_congr rfl fun k _ => ?_
  exact congrArg y (funext fun a => Fin.ext (by match a with | ⟨0, _⟩ => rfl | ⟨1, _⟩ => rfl))

theorem hostDivf_apply {s : Shape} (a b : FVec Ideal s .f32) (j : s.Idx) : Host.divf a b j = Ideal.div (a j) (b j) := rfl
theorem hostSqrt_apply {s : Shape} (a : FVec Ideal s .f32) (j : s.Idx) : Host.sqrt a j = Ideal.sqrt (a j) := rfl
theorem hostRsqrt_apply {s : Shape} (a : FVec Ideal s .f32) (j : s.Idx) : Host.rsqrt a j = Ideal.rsqrt (a j) := rfl

theorem unitCol_apply (y : FVec Ideal S50000 .f32)
    (hb1 : S50000.BroadcastsInDim S50000x1 (![0] : Fin 1 → Fin S50000x1.rank)) (n : Fin 50000) :
    broadcastInDim S50000x1 ![0] hb1 y (ix2 n (⟨0, Nat.one_pos⟩ : Fin 1)) = y (ix1 n) :=
  broadcastInDim_apply _ hb1 y _ (ix1 n) (fun a => match a with
    | ⟨0, _⟩ => by show n.val = if (50000 : Nat) = 1 then 0 else n.val; rw [if_neg (by decide)])

theorem spreadRow_apply (y : FVec Ideal S50000x1 .f32)
    (hb3 : S50000x1.BroadcastsInDim S50000x100 (![0, 1] : Fin 2 → Fin S50000x100.rank)) (n : Fin 50000) (k : Fin 100) :
    broadcastInDim S50000x100 ![0, 1] hb3 y (ix2 n k) = y (ix2 n (⟨0, Nat.one_pos⟩ : Fin 1)) :=
  broadcastInDim_apply _ hb3 y _ (ix2 n (⟨0, Nat.one_pos⟩ : Fin 1)) (fun a => match a with
    | ⟨0, _⟩ => by show n.val = if (50000 : Nat) = 1 then 0 else n.val; rw [if_neg (by decide)]
    | ⟨1, _⟩ => by show 0 = if (1 : Nat) = 1 then 0 else k.val; rw [if_pos rfl])

theorem l2norm_apply (x : FVec Ideal S50000x100 .f32)
    (hred : S50000x100.ReducesTo [1] S50000) (hS : 0 < S_.numel)
    (hb1 : S50000.BroadcastsInDim S50000x1 (![0] : Fin 1 → Fin S50000x1.rank))
    (hb2 : S_.BroadcastsInDim S50000x1 (![] : Fin 0 → Fin S50000x1.rank))
    (hb3 : S50000x1.BroadcastsInDim S50000x100 (![0, 1] : Fin 2 → Fin S50000x100.rank))
    (n : Fin 50000) (k : Fin 100) :
    Host.divf x (broadcastInDim S50000x100 ![0, 1] hb3
      (maximumf
        (Host.sqrt (broadcastInDim S50000x1 ![0] hb1
          (Host.reduceAdd (mulf x x) (constant S_ .f32 0x00000000#32) hred hS)))
        (broadcastInDim S50000x1 ![] hb2 (constant S_ .f32 0x2B8CBCCC#32)))) (ix2 n k)
      = Cert.Spec.l2norm (fun n k => x (ix2 n k)) n k := by
  rw [hostDivf_apply, spreadRow_apply, maximumf_apply, splat_apply, hostSqrt_apply, unitCol_apply, rowSum_apply]
  simp only [mulf_apply, Cert.Spec.l2norm]

theorem unitAxis_apply (c : FVec Ideal S50000x40 .f32)
    (hb : S50000x40.BroadcastsInDim S50000x1x40 (![0, 2] : Fin 2 → Fin S50000x1x40.rank)) (n : Fin 50000) (k : Fin 40) :
    broadcastInDim S50000x1x40 ![0, 2] hb c (ix3 n (⟨0, Nat.one_pos⟩ : Fin 1) k) = c (ix2 n k) :=
  broadcastInDim_apply _ hb c _ (ix2 n k) (fun a => match a with
    | ⟨0, _⟩ => by show n.val = if (50000 : Nat) = 1 then 0 else n.val; rw [if_neg (by decide)]
    | ⟨1, _⟩ => by show k.val = if (40 : Nat) = 1 then 0 else k.val; rw [if_neg (by decide)])

theorem stack12_apply (c0 c1 c2 c3 c4 c5 c6 c7 c8 c9 c10 c11 : FVec Ideal S50000x40 .f32)
    (hb : S50000x40.BroadcastsInDim S50000x1x40 (![0, 2] : Fin 2 → Fin S50000x1x40.rank))
    (hcat : Shape.Concatenates [S50000x1x40, S50000x1x40, S50000x1x40, S50000x1x40, S50000x1x40, S50000x1x40, S50000x1x40, S50000x1x40, S50000x1x40, S50000x1x40, S50000x1x40, S50000x1x40] S50000x12x40 1)
    (n : Fin 50000) (i : Fin 12) (k : Fin 40) :
    concatenate S50000x12x40 1
      [⟨S50000x1x40, broadcastInDim S50000x1x40 ![0, 2] hb c0⟩,
        ⟨S50000x1x40, broadcastInDim S50000x1x40 ![0, 2] hb c1⟩,
        ⟨S50000x1x40, broadcastInDim S50000x1x40 ![0, 2] hb c2⟩,
        ⟨S50000x1x40, broadcastInDim S50000x1x40 ![0, 2] hb c3⟩,
        ⟨S50000x1x40, broadcastInDim S50000x1x40 ![0, 2] hb c4⟩,
        ⟨S50000x1x40, broadcastInDim S50000x1x40 ![0, 2] hb c5⟩,
        ⟨S50000x1x40, broadcastInDim S50000x1x40 ![0, 2] hb c6⟩,
        ⟨S50000x1x40, broadcastInDim S50000x1x40 ![0, 2] hb c7⟩,
        ⟨S50000x1x40, broadcastInDim S50000x1x40 ![0, 2] hb c8⟩,
        ⟨S50000x1x40, broadcastInDim S50000x1x40 ![0, 2] hb c9⟩,
        ⟨S50000x1x40, broadcastInDim S50000x1x40 ![0, 2] hb c10⟩,
        ⟨S50000x1x40, broadcastInDim S50000x1x40 ![0, 2] hb c11⟩] hcat (ix3 n i k)
      = (![c0, c1, c2, c3, c4, c5, c6, c7, c8, c9, c10, c11] : Fin 12 → FVec Ideal S50000x40 .f32) i (ix2 n k) := by
  have key : ∀ (m : Nat) (hm : m < 12) (c : FVec Ideal S50000x40 .f32),
      ([⟨S50000x1x40, broadcastInDim S50000x1x40 ![0, 2] hb c0⟩,
        ⟨S50000x1x40, broadcastInDim S50000x1x40 ![0, 2] hb c1⟩,
        ⟨S50000x1x40, broadcastInDim S50000x1x40 ![0, 2] hb c2⟩,
        ⟨S50000x1x40, broadcastInDim S50000x1x40 ![0, 2] hb c3⟩,
        ⟨S50000x1x40, broadcastInDim S50000x1x40 ![0, 2] hb c4⟩,
        ⟨S50000x1x40, broadcastInDim S50000x1x40 ![0, 2] hb c5⟩,
        ⟨S50000x1x40, broadcastInDim S50000x1x40 ![0, 2] hb c6⟩,
        ⟨S50000x1x40, broadcastInDim S50000x1x40 ![0, 2] hb c7⟩,
        ⟨S50000x1x40, broadcastInDim S50000x1x40 ![0, 2] hb c8⟩,
        ⟨S50000x1x40, broadcastInDim S50000x1x40 ![0, 2] hb c9⟩,
        ⟨S50000x1x40, broadcastInDim S50000x1x40 ![0, 2] hb c10⟩,
        ⟨S50000x1x40, broadcastInDim S50000x1x40 ![0, 2] hb c11⟩] : List ((s : Shape) × (s.Idx → Ideal .f32)))[m]'(by simpa using hm)
        = ⟨S50000x1x40, broadcastInDim S50000x1x40 ![0, 2] hb c⟩ →
      i.val = m →
      concatenate S50000x12x40 1
        [⟨S50000x1x40, broadcastInDim S50000x1x40 ![0, 2] hb c0⟩,
        ⟨S50000x1x40, broadcastInDim S50000x1x40 ![0, 2] hb c1⟩,
        ⟨S50000x1x40, broadcastInDim S50000x1x40 ![0, 2] hb c2⟩,
        ⟨S50000x1x40, broadcastInDim S50000x1x40 ![0, 2] hb c3⟩,
        ⟨S50000x1x40, broadcastInDim S50000x1x40 ![0, 2] hb c4⟩,
        ⟨S50000x1x40, broadcastInDim S50000x1x40 ![0, 2] hb c5⟩,
        ⟨S50000x1x40, broadcastInDim S50000x1x40 ![0, 2] hb c6⟩,
        ⟨S50000x1x40, broadcastInDim S50000x1x40 ![0, 2] hb c7⟩,
        ⟨S50000x1x40, broadcastInDim S50000x1x40 ![0, 2] hb c8⟩,
        ⟨S50000x1x40, broadcastInDim S50000x1x40 ![0, 2] hb c9⟩,
        ⟨S50000x1x40, broadcastInDim S50000x1x40 ![0, 2] hb c10⟩,
        ⟨S50000x1x40, broadcastInDim S50000x1x40 ![0, 2] hb c11⟩] hcat (ix3 n i k) = c (ix2 n k) := by
    intro m hm c hxm him
    refine (concatenate_apply_piece (1 : Fin S50000x12x40.rank)
      [⟨S50000x1x40, broadcastInDim S50000x1x40 ![0, 2] hb c0⟩,
        ⟨S50000x1x40, broadcastInDim S50000x1x40 ![0, 2] hb c1⟩,
        ⟨S50000x1x40, broadcastInDim S50000x1x40 ![0, 2] hb c2⟩,
        ⟨S50000x1x40, broadcastInDim S50000x1x40 ![0, 2] hb c3⟩,
        ⟨S50000x1x40, broadcastInDim S50000x1x40 ![0, 2] hb c4⟩,
        ⟨S50000x1x40, broadcastInDim S50000x1x40 ![0, 2] hb c5⟩,
        ⟨S50000x1x40, broadcastInDim S50000x1x40 ![0, 2] hb c6⟩,
        ⟨S50000x1x40, broadcastInDim S50000x1x40 ![0, 2] hb c7⟩,
        ⟨S50000x1x40, broadcastInDim S50000x1x40 ![0, 2] hb c8⟩,
        ⟨S50000x1x40, broadcastInDim S50000x1x40 ![0, 2] hb c9⟩,
        ⟨S50000x1x40, broadcastInDim S50000x1x40 ![0, 2] hb c10⟩,
        ⟨S50000x1x40, broadcastInDim S50000x1x40 ![0, 2] hb c11⟩] hcat (ix3 n i k) m (by simpa using hm) S50000x1x40 _ hxm rfl m ?_
      (ix3 n (⟨0, Nat.one_pos⟩ : Fin 1) k) (fun b => match b with
        | ⟨0, _⟩ => fun _ => rfl
        | ⟨1, _⟩ => fun hne => absurd rfl hne
        | ⟨2, _⟩ => fun _ => rfl) ?_).trans (unitAxis_apply c hb n k)
    · interval_cases m <;> rfl
    · show m + 0 = i.val
      omega
  fin_cases i
  · exact key 0 (by omega) c0 rfl rfl
  · exact key 1 (by omega) c1 rfl rfl
  · exact key 2 (by omega) c2 rfl rfl
  · exact key 3 (by omega) c3 rfl rfl
  · exact key 4 (by omega) c4 rfl rfl
  · exact key 5 (by omega) c5 rfl rfl
  · exact key 6 (by omega) c6 rfl rfl
  · exact key 7 (by omega) c7 rfl rfl
  · exact key 8 (by omega) c8 rfl rfl
  · exact key 9 (by omega) c9 rfl rfl
  · exact key 10 (by omega) c10 rfl rfl
  · exact key 11 (by omega) c11 rfl rfl

theorem stack_apply (cells : Fin 12 → FVec Ideal S50000x40 .f32)
    (hb : S50000x40.BroadcastsInDim S50000x1x40 (![0, 2] : Fin 2 → Fin S50000x1x40.rank))
    (hcat : Shape.Concatenates [S50000x1x40, S50000x1x40, S50000x1x40, S50000x1x40, S50000x1x40, S50000x1x40, S50000x1x40, S50000x1x40, S50000x1x40, S50000x1x40, S50000x1x40, S50000x1x40] S50000x12x40 1)
    (n : Fin 50000) (i : Fin 12) (k : Fin 40) :
    concatenate S50000x12x40 1
      [⟨S50000x1x40, broadcastInDim S50000x1x40 ![0, 2] hb (cells 0)⟩,
        ⟨S50000x1x40, broadcastInDim S50000x1x40 ![0, 2] hb (cells 1)⟩,
        ⟨S50000x1x40, broadcastInDim S50000x1x40 ![0, 2] hb (cells 2)⟩,
        ⟨S50000x1x40, broadcastInDim S50000x1x40 ![0, 2] hb (cells 3)⟩,
        ⟨S50000x1x40, broadcastInDim S50000x1x40 ![0, 2] hb (cells 4)⟩,
        ⟨S50000x1x40, broadcastInDim S50000x1x40 ![0, 2] hb (cells 5)⟩,
        ⟨S50000x1x40, broadcastInDim S50000x1x40 ![0, 2] hb (cells 6)⟩,
        ⟨S50000x1x40, broadcastInDim S50000x1x40 ![0, 2] hb (cells 7)⟩,
        ⟨S50000x1x40, broadcastInDim S50000x1x40 ![0, 2] hb (cells 8)⟩,
        ⟨S50000x1x40, broadcastInDim S50000x1x40 ![0, 2] hb (cells 9)⟩,
        ⟨S50000x1x40, broadcastInDim S50000x1x40 ![0, 2] hb (cells 10)⟩,
        ⟨S50000x1x40, broadcastInDim S50000x1x40 ![0, 2] hb (cells 11)⟩] hcat (ix3 n i k)
      = cells i (ix2 n k) := by
  rw [stack12_apply]
  fin_cases i <;> rfl

theorem dot480_lhs0 (j : S50000x40.Idx) (q : dot_S50000x480_S480x40_S50000x40_1_0_0_1_n_n.contr.Idx) :
    (dot_S50000x480_S480x40_S50000x40_1_0_0_1_n_n.lhsIdx j q 0).val = (j 0).val := by
  unfold DotDims.lhsIdx
  rw [dif_neg (show ¬(0 : Fin S50000x480.rank) ∈ dot_S50000x480_S480x40_S50000x40_1_0_0_1_n_n.lhsBatch by decide),
    dif_pos (show (0 : Fin S50000x480.rank) ∈ dot_S50000x480_S480x40_S50000x40_1_0_0_1_n_n.lhsNonContracting by decide)]
  rfl
theorem dot480_lhs1 (j : S50000x40.Idx) (q : dot_S50000x480_S480x40_S50000x40_1_0_0_1_n_n.contr.Idx) :
    (dot_S50000x480_S480x40_S50000x40_1_0_0_1_n_n.lhsIdx j q 1).val = (q ⟨0, by decide⟩).val :=
  dot_S50000x480_S480x40_S50000x40_1_0_0_1_n_n.lhsIdx_val_of_single rfl j q
theorem dot480_rhs0 (j : S50000x40.Idx) (q : dot_S50000x480_S480x40_S50000x40_1_0_0_1_n_n.contr.Idx) :
    (dot_S50000x480_S480x40_S50000x40_1_0_0_1_n_n.rhsIdx j q 0).val = (q ⟨0, by decide⟩).val :=
  dot_S50000x480_S480x40_S50000x40_1_0_0_1_n_n.rhsIdx_val_of_single rfl j q
theorem dot480_rhs1 (j : S50000x40.Idx) (q : dot_S50000x480_S480x40_S50000x40_1_0_0_1_n_n.contr.Idx) :
    (dot_S50000x480_S480x40_S50000x40_1_0_0_1_n_n.rhsIdx j q 1).val = (j 1).val := by
  unfold DotDims.rhsIdx
  rw [dif_neg (show ¬(1 : Fin S480x40.rank) ∈ dot_S50000x480_S480x40_S50000x40_1_0_0_1_n_n.rhsBatch by decide),
    dif_pos (show (1 : Fin S480x40.rank) ∈ dot_S50000x480_S480x40_S50000x40_1_0_0_1_n_n.rhsNonContracting by decide)]
  rfl

theorem dot480_apply (prec : Option ContractPrecision) (lhs : FVec Ideal S50000x480 .f32) (rhs : FVec Ideal S480x40 .f32)
    (n : Fin 50000) (k : Fin 40) :
    Host.dotGeneral dot_S50000x480_S480x40_S50000x40_1_0_0_1_n_n prec lhs rhs (ix2 n k)
      = ∑ t : Fin 480, lhs (ix2 n t) * rhs (ix2 t k) := by
  simp only [Host.dotGeneral]
  rw [Ideal.dotGeneral_apply, ← Equiv.sum_comp (contrEquiv1 dot_S50000x480_S480x40_S50000x40_1_0_0_1_n_n 480 rfl rfl).symm]
  refine Finset.sum_congr rfl fun t _ => ?_
  have ht := contrEquiv1_symm_val dot_S50000x480_S480x40_S50000x40_1_0_0_1_n_n 480 rfl rfl t
  have el : dot_S50000x480_S480x40_S50000x40_1_0_0_1_n_n.lhsIdx (ix2 n k)
      ((contrEquiv1 dot_S50000x480_S480x40_S50000x40_1_0_0_1_n_n 480 rfl rfl).symm t) = ix2 n t :=
    funext fun a => Fin.ext (by
      match a with
      | ⟨0, _⟩ => exact dot480_lhs0 _ _
      | ⟨1, _⟩ => exact (dot480_lhs1 _ _).trans ht)
  have er : dot_S50000x480_S480x40_S50000x40_1_0_0_1_n_n.rhsIdx (ix2 n k)
      ((contrEquiv1 dot_S50000x480_S480x40_S50000x40_1_0_0_1_n_n 480 rfl rfl).symm t) = ix2 t k :=
    funext fun a => Fin.ext (by
      match a with
      | ⟨0, _⟩ => exact (dot480_rhs0 _ _).trans ht
      | ⟨1, _⟩ => exact dot480_rhs1 _ _)
  rw [el, er]

theorem flat480_apply (co : FVec Ideal S50000x12x40 .f32) (hc : S50000x12x40.ShapeCasts S50000x480)
    (n : Fin 50000) (t : Fin 480) :
    shapeCast S50000x480 co hc (ix2 n t)
      = co (ix3 n (⟨t.val / 40, by omega⟩ : Fin 12) (⟨t.val % 40, by omega⟩ : Fin 40)) := by
  refine shapeCast_apply co hc (ix2 n t) _ ?_
  rewrite [Shape.rowMajor_val_three, Shape.rowMajor_val_two]
  have ht := t.isLt
  show (n.val * 12 + t.val / 40) * 40 + t.val % 40 = n.val * 480 + t.val
  omega

theorem lastLayer_apply (co : FVec Ideal S50000x12x40 .f32) (Wout : FVec Ideal S480x40 .f32) (bout : FVec Ideal S40 .f32)
    (hc : S50000x12x40.ShapeCasts S50000x480)
    (hbz : S_.BroadcastsInDim S50000x480 (![] : Fin 0 → Fin S50000x480.rank))
    (hb1 : S40.BroadcastsInDim S1x40 (![1] : Fin 1 → Fin S1x40.rank))
    (hb2 : S1x40.BroadcastsInDim S50000x40 (![0, 1] : Fin 2 → Fin S50000x40.rank))
    (n : Fin 50000) (k : Fin 40) :
    addf
      (Host.dotGeneral dot_S50000x480_S480x40_S50000x40_1_0_0_1_n_n none
        (maximumf (shapeCast S50000x480 co hc) (broadcastInDim S50000x480 ![] hbz (constant S_ .f32 0x00000000#32)))
        Wout)
      (broadcastInDim S50000x40 ![0, 1] hb2 (broadcastInDim S1x40 ![1] hb1 bout)) (ix2 n k)
      = (∑ t : Fin 480, max (co (ix3 n (⟨t.val / 40, by omega⟩ : Fin 12) (⟨t.val % 40, by omega⟩ : Fin 40)))
          Cert.Spec.zeroW * Wout (ix2 t k)) + bout (ix1 k) := by
  rw [addf_apply, dot480_apply]
  congr 1
  · exact Finset.sum_congr rfl fun t _ => by rw [maximumf_apply, splat_apply, flat480_apply]
  · refine (broadcastInDim_apply _ hb2 _ (ix2 n k) (ix2 (⟨0, Nat.one_pos⟩ : Fin 1) k) (fun a => match a with
      | ⟨0, _⟩ => by show 0 = if (1 : Nat) = 1 then 0 else n.val; rw [if_pos rfl]
      | ⟨1, _⟩ => by show k.val = if (40 : Nat) = 1 then 0 else k.val; rw [if_neg (by decide)])).trans ?_
    exact broadcastInDim_apply _ hb1 _ (ix2 (⟨0, Nat.one_pos⟩ : Fin 1) k) (ix1 k) (fun a => match a with
      | ⟨0, _⟩ => by show k.val = if (40 : Nat) = 1 then 0 else k.val; rw [if_neg (by decide)])

end Cert.ReferenceIdeal.RVal

end
-- ==== Proof.RVal.Cells.lean ====
import proofs.«124913_j71159018160549_2_alg».proof.ReferenceIdeal
import proofs.«124913_j71159018160549_2_alg».proof.Proof.Gen.ReferenceIdeal
import proofs.«124913_j71159018160549_2_alg».proof.Proof.Spec
import proofs.«124913_j71159018160549_2_alg».proof.Proof.SpmmIdx
import proofs.«124913_j71159018160549_2_alg».proof.Proof.RVal.Run
import proofs.«124913_j71159018160549_2_alg».proof.Proof.RVal.Layers
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.ReferenceIdeal.RVal

open Cert.ReferenceIdeal Cert.ReferenceIdeal.Gen Idealize.ShloMosaic Idealize.ShloMosaic.TcCoe Idealize.SL.Sem
  Idealize.ShloMosaic.StableHlo Idealize.ShloMosaic.ValueIdx

section Composites
variable {F : FTy → Type} [FloatOps F]

def wrapC (C : IVec S850000 32) : IVec S850000 32 :=
  select (cmpi .slt C (broadcastInDim S850000 ![] bcast_S_S850000 (constantI S_ 32 0#32)))
    (addi C (broadcastInDim S850000 ![] bcast_S_S850000 (constantI S_ 32 50000#32))) C

def normRows (x : FVec F S50000x100 .f32) : FVec F S50000x100 .f32 :=
  Host.divf x (broadcastInDim S50000x100 ![0, 1] bcast_S50000x1_S50000x100_0_1
    (maximumf (Host.sqrt (broadcastInDim S50000x1 ![0] bcast_S50000_S50000x1_0
        (Host.reduceAdd (mulf x x) (constant S_ .f32 0x00000000#32) reducesTo_S50000x100_S50000_d1 h_S_)))
      (broadcastInDim S50000x1 ![] bcast_S_S50000x1 (constant S_ .f32 0x2B8CBCCC#32))))

def prop100 (vals : FVec F S850000 .f32) (R C : IVec S850000 32) (h : FVec F S50000x100 .f32) :
    FVec F S50000x100 .f32 :=
  Host.scatterAdd scatter_S50000x100_S850000x1_S850000x100_1_0_0_1
    (broadcastInDim S50000x100 ![] bcast_S_S50000x100 (constant S_ .f32 0x00000000#32))
    (broadcastInDim S850000x1 ![0] bcast_S850000_S850000x1_0 R)
    (mulf (broadcastInDim S850000x100 ![0, 1] bcast_S850000x1_S850000x100_0_1
        (broadcastInDim S850000x1 ![0] bcast_S850000_S850000x1_0 vals))
      (Host.gather gather_S50000x100_S850000x1_S850000x100_1_0_n_n_0_1_1100 h
        (broadcastInDim S850000x1 ![0] bcast_S850000_S850000x1_0 (wrapC C))))

def prop16 (vals : FVec F S850000 .f32) (R C : IVec S850000 32) (h : FVec F S50000x16 .f32) :
    FVec F S50000x16 .f32 :=
  Host.scatterAdd scatter_S50000x16_S850000x1_S850000x16_1_0_0_1
    (broadcastInDim S50000x16 ![] bcast_S_S50000x16 (constant S_ .f32 0x00000000#32))
    (broadcastInDim S850000x1 ![0] bcast_S850000_S850000x1_0 R)
    (mulf (broadcastInDim S850000x16 ![0, 1] bcast_S850000x1_S850000x16_0_1
        (broadcastInDim S850000x1 ![0] bcast_S850000_S850000x1_0 vals))
      (Host.gather gather_S50000x16_S850000x1_S850000x16_1_0_n_n_0_1_116 h
        (broadcastInDim S850000x1 ![0] bcast_S850000_S850000x1_0 (wrapC C))))

def layer1 (i : Fin 12) (hsW : S12x100x16.Slices ![i.val, 0, 0] S1x100x16) (hs : S12x16.Slices ![i.val, 0] S1x16)
    (xs : FVec F S50000x100 .f32) (W1 : FVec F S12x100x16 .f32) (b1 g be mu var : FVec F S12x16 .f32) :
    FVec F S50000x16 .f32 :=
  maximumf
    (addf
      (mulf
        (subf
          (addf
            (Host.dotGeneral dot_S50000x100_S100x16_S50000x16_1_0_0_1_n_n none xs
              (shapeCast S100x16 (extractStridedSlice S1x100x16 ![i.val, 0, 0] W1 hsW) shapeCasts_S1x100x16_S100x16))
            (broadcastInDim S50000x16 ![0, 1] bcast_S1x16_S50000x16_0_1 (broadcastInDim S1x16 ![1] bcast_S16_S1x16_1
              (shapeCast S16 (extractStridedSlice S1x16 ![i.val, 0] b1 hs) shapeCasts_S1x16_S16))))
          (broadcastInDim S50000x16 ![0, 1] bcast_S1x16_S50000x16_0_1 (broadcastInDim S1x16 ![1] bcast_S16_S1x16_1
            (shapeCast S16 (extractStridedSlice S1x16 ![i.val, 0] mu hs) shapeCasts_S1x16_S16))))
        (broadcastInDim S50000x16 ![0, 1] bcast_S1x16_S50000x16_0_1 (broadcastInDim S1x16 ![1] bcast_S16_S1x16_1
          (mulf (shapeCast S16 (extractStridedSlice S1x16 ![i.val, 0] g hs) shapeCasts_S1x16_S16)
            (Host.rsqrt (addf (shapeCast S16 (extractStridedSlice S1x16 ![i.val, 0] var hs) shapeCasts_S1x16_S16)
              (broadcastInDim S16 ![] bcast_S_S16 (constant S_ .f32 0x3727C5AC#32))))))))
      (broadcastInDim S50000x16 ![0, 1] bcast_S1x16_S50000x16_0_1 (broadcastInDim S1x16 ![1] bcast_S16_S1x16_1
        (shapeCast S16 (extractStridedSlice S1x16 ![i.val, 0] be hs) shapeCasts_S1x16_S16))))
    (broadcastInDim S50000x16 ![] bcast_S_S50000x16 (constant S_ .f32 0x00000000#32))

def layer2 (i : Fin 12) (hsW : S12x16x40.Slices ![i.val, 0, 0] S1x16x40) (hsb : S12x40.Slices ![i.val, 0] S1x40)
    (hid : FVec F S50000x16 .f32) (W2 : FVec F S12x16x40 .f32) (b2 : FVec F S12x40 .f32) : FVec F S50000x40 .f32 :=
  addf (Host.dotGeneral dot_S50000x16_S16x40_S50000x40_1_0_0_1_n_n none hid
      (shapeCast S16x40 (extractStridedSlice S1x16x40 ![i.val, 0, 0] W2 hsW) shapeCasts_S1x16x40_S16x40))
    (broadcastInDim S50000x40 ![0, 1] bcast_S1x40_S50000x40_0_1 (broadcastInDim S1x40 ![1] bcast_S40_S1x40_1
      (shapeCast S40 (extractStridedSlice S1x40 ![i.val, 0] b2 hsb) shapeCasts_S1x40_S40)))

end Composites

section Stretches
variable {F : FTy → Type} [FloatOps F] (V : Valuation τ sig (Elt F))

theorem s1_v31 : after rops1 V (Proc.devRef .tc main_v31) = normRows (V (Proc.devRef .tc main_arg0)) := by
  after_results_simp
  rfl

theorem s1_v44 : after rops1 V (Proc.devRef .tc main_v44)
    = prop100 (V (Proc.devRef .tc main_v26)) (V (Proc.devRef .tc main_v1)) (V (Proc.devRef .tc main_v2))
        (normRows (V (Proc.devRef .tc main_arg0))) := by
  after_results_simp
  rfl

theorem s1_v57 : after rops1 V (Proc.devRef .tc main_v57)
    = prop100 (V (Proc.devRef .tc main_v26)) (V (Proc.devRef .tc main_v1)) (V (Proc.devRef .tc main_v2))
        (prop100 (V (Proc.devRef .tc main_v26)) (V (Proc.devRef .tc main_v1)) (V (Proc.devRef .tc main_v2))
          (normRows (V (Proc.devRef .tc main_arg0)))) := by
  after_results_simp
  rfl

theorem s1_v70 : after rops1 V (Proc.devRef .tc main_v70)
    = prop100 (V (Proc.devRef .tc main_v26)) (V (Proc.devRef .tc main_v1)) (V (Proc.devRef .tc main_v2))
        (prop100 (V (Proc.devRef .tc main_v26)) (V (Proc.devRef .tc main_v1)) (V (Proc.devRef .tc main_v2))
          (prop100 (V (Proc.devRef .tc main_v26)) (V (Proc.devRef .tc main_v1)) (V (Proc.devRef .tc main_v2))
            (normRows (V (Proc.devRef .tc main_arg0))))) := by
  after_results_simp
  rfl

theorem s4_v138 : after rops4 V (Proc.devRef .tc main_v138)
    = layer1 1 slices_S12x100x16_S1x100x16_1_0_0 slices_S12x16_S1x16_1_0 (V (Proc.devRef .tc main_v44))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

theorem s5_v159 : after rops5 V (Proc.devRef .tc main_v159)
    = layer2 1 slices_S12x16x40_S1x16x40_1_0_0 slices_S12x40_S1x40_1_0
        (prop16 (V (Proc.devRef .tc main_v26)) (V (Proc.devRef .tc main_v1)) (V (Proc.devRef .tc main_v2))
          (V (Proc.devRef .tc main_v138)))
        (V (Proc.devRef .tc main_arg9)) (V (Proc.devRef .tc main_arg10)) := by
  after_results_simp
  rfl

end Stretches

section Values

open Cert.Spec

theorem normRows_eq (x : FVec Ideal S50000x100 .f32) :
    normRows x = fun j : S50000x100.Idx => l2norm (fun n k => x (ix2 n k)) (j 0) (j 1) := by
  funext j
  obtain ⟨n, k, rfl⟩ : ∃ n k, j = ix2 n k := ⟨j 0, j 1, eq_ix2 j⟩
  exact l2norm_apply x _ _ _ _ _ n k

theorem prop100_eq (vals : FVec Ideal S850000 .f32) (R C : IVec S850000 32) (H : Fin 50000 → Fin 100 → EReal) :
    prop100 vals R C (fun j : S50000x100.Idx => H (j 0) (j 1)) = fun j : S50000x100.Idx => spmm (adjOf vals R (wrapC C)) H (j 0) (j 1) := by
  funext j
  obtain ⟨n, f, rfl⟩ : ∃ n f, j = ix2 n f := ⟨j 0, j 1, eq_ix2 j⟩
  exact Cert.SpmmIdx.spmm_apply _ _ rfl rfl rfl rfl rfl rfl rfl rfl rfl rfl rfl _ _ _ vals R (wrapC C)
    (fun j : S50000x100.Idx => H (j 0) (j 1)) n f

theorem prop16_eq (vals : FVec Ideal S850000 .f32) (R C : IVec S850000 32) (H : Fin 50000 → Fin 16 → EReal) :
    prop16 vals R C (fun j : S50000x16.Idx => H (j 0) (j 1)) = fun j : S50000x16.Idx => spmm (adjOf vals R (wrapC C)) H (j 0) (j 1) := by
  funext j
  obtain ⟨n, f, rfl⟩ : ∃ n f, j = ix2 n f := ⟨j 0, j 1, eq_ix2 j⟩
  exact Cert.SpmmIdx.spmm_apply _ _ rfl rfl rfl rfl rfl rfl rfl rfl rfl rfl rfl _ _ _ vals R (wrapC C)
    (fun j : S50000x16.Idx => H (j 0) (j 1)) n f

theorem xs_zero (A : Adj) (P : Params) : xs A P 0 = l2norm fun n j => P.x (ix2 n j) := rfl
theorem xs_succ (A : Adj) (P : Params) (k : Nat) : xs A P (k + 1) = spmm A (xs A P k) := by
  show (spmm A)^[k + 1] (l2norm fun n j => P.x (ix2 n j)) = spmm A ((spmm A)^[k] (l2norm fun n j => P.x (ix2 n j)))
  exact Function.iterate_succ_apply' (spmm A) k _
theorem hop_zero (A : Adj) {G : Nat} (h : Fin 50000 → Fin G → EReal) : hop A 0 h = h := rfl
theorem hop_succ (A : Adj) {G : Nat} (k : Nat) (h : Fin 50000 → Fin G → EReal) : hop A (k + 1) h = spmm A (hop A k h) := by
  show (spmm A)^[k + 1] h = spmm A ((spmm A)^[k] h)
  exact Function.iterate_succ_apply' (spmm A) k h

theorem layer1_eq (A : Adj) (P : Params) (i : Fin 12) (hsW : S12x100x16.Slices ![i.val, 0, 0] S1x100x16)
    (hs : S12x16.Slices ![i.val, 0] S1x16) (k : Nat) (hk : i.val % 4 = k) :
    layer1 (F := Ideal) i hsW hs (fun j : S50000x100.Idx => xs A P k (j 0) (j 1)) P.W1 P.b1 P.g P.be P.mu P.var
      = fun j : S50000x16.Idx => hid A P i (j 0) (j 1) := by
  subst hk
  funext j
  obtain ⟨n, q, rfl⟩ : ∃ n q, j = ix2 n q := ⟨j 0, j 1, eq_ix2 j⟩
  exact firstLayer_apply i _ P.W1 P.b1 P.g P.be P.mu P.var hsW _ hs _ _ _ _ _ n q

theorem layer2_eq (A : Adj) (P : Params) (i : Fin 12) (hsW : S12x16x40.Slices ![i.val, 0, 0] S1x16x40)
    (hsb : S12x40.Slices ![i.val, 0] S1x40) (H : Fin 50000 → Fin 16 → EReal) (hH : H = hop A (i.val % 4) (hid A P i)) :
    layer2 (F := Ideal) i hsW hsb (fun j : S50000x16.Idx => H (j 0) (j 1)) P.W2 P.b2 = fun j : S50000x40.Idx => cell A P i (j 0) (j 1) := by
  subst hH
  funext j
  obtain ⟨n, k, rfl⟩ : ∃ n k, j = ix2 n k := ⟨j 0, j 1, eq_ix2 j⟩
  exact secondLayer_apply i _ P.W2 P.b2 hsW _ hsb _ _ _ n k

end Values

section StretchValues

open Cert.Spec

variable (V : Valuation τ sig (Elt Ideal)) (P : Params) (vals : FVec Ideal S850000 .f32) (R C : IVec S850000 32)

theorem rows_values (h0 : V (Proc.devRef .tc main_arg0) = P.x)
    (hv : V (Proc.devRef .tc main_v26) = vals)
    (hR : V (Proc.devRef .tc main_v1) = R) (hC : V (Proc.devRef .tc main_v2) = C) :
    (after rops1 V (Proc.devRef .tc main_v31)
        = fun j : S50000x100.Idx => xs (adjOf vals R (wrapC C)) P 0 (j 0) (j 1))
    ∧ (after rops1 V (Proc.devRef .tc main_v44)
        = fun j : S50000x100.Idx => xs (adjOf vals R (wrapC C)) P 1 (j 0) (j 1))
    ∧ (after rops1 V (Proc.devRef .tc main_v57)
        = fun j : S50000x100.Idx => xs (adjOf vals R (wrapC C)) P 2 (j 0) (j 1))
    ∧ (after rops1 V (Proc.devRef .tc main_v70)
        = fun j : S50000x100.Idx => xs (adjOf vals R (wrapC C)) P 3 (j 0) (j 1)) := by
  have e0 : normRows (F := Ideal) (V (Proc.devRef .tc main_arg0))
      = fun j : S50000x100.Idx => xs (adjOf vals R (wrapC C)) P 0 (j 0) (j 1) := by
    rw [h0, normRows_eq]; rfl
  refine ⟨?_, ?_, ?_, ?_⟩
  · rw [s1_v31, e0]
  · rw [s1_v44, e0, hv, hR, hC, prop100_eq, xs_succ]
  · rw [s1_v57, e0, hv, hR, hC, prop100_eq, prop100_eq, xs_succ, xs_succ]
  · rw [s1_v70, e0, hv, hR, hC, prop100_eq, prop100_eq, prop100_eq, xs_succ, xs_succ, xs_succ]

theorem hid1_value (A : Adj)
    (hX : V (Proc.devRef .tc main_v44) = fun j : S50000x100.Idx => xs A P 1 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops4 V (Proc.devRef .tc main_v138) = fun j : S50000x16.Idx => hid A P 1 (j 0) (j 1) := by
  rw [s4_v138, hX, h3, h4, h5, h6, h7, h8]
  exact layer1_eq A P 1 _ _ 1 rfl

theorem cell1_value
    (hH : V (Proc.devRef .tc main_v138)
      = fun j : S50000x16.Idx => hid (adjOf vals R (wrapC C)) P 1 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops5 V (Proc.devRef .tc main_v159)
      = fun j : S50000x40.Idx => cell (adjOf vals R (wrapC C)) P 1 (j 0) (j 1) := by
  rw [s5_v159, hH, hv, hR, hC, h9, h10, prop16_eq]
  exact layer2_eq _ P 1 _ _ _ rfl

end StretchValues

section Edges

variable (m : (ℓ : Loc nD τ sig) → Buf (Elt Ideal) ℓ) (d : Dev nD)

def rR : IVec S850000 32 := U1 m d (Proc.devRef .tc main_v1)

def rC : IVec S850000 32 := U1 m d (Proc.devRef .tc main_v2)

def rVals : FVec Ideal S850000 .f32 := U1 m d (Proc.devRef .tc main_v26)

def rCw : IVec S850000 32 :=
  select (cmpi .slt (rC m d) (broadcastInDim S850000 ![] bcast_S_S850000 (constantI S_ 32 0#32)))
    (addi (rC m d) (broadcastInDim S850000 ![] bcast_S_S850000 (constantI S_ 32 50000#32))) (rC m d)

def rA : Cert.Spec.Adj := Cert.Spec.adjOf (rVals m d) (rR m d) (rCw m d)

def rP : Cert.Spec.Params :=
  ⟨m ((d.tc : Thread nD τ).loc main_arg0), m ((d.tc : Thread nD τ).loc main_arg3), m ((d.tc : Thread nD τ).loc main_arg4),
    m ((d.tc : Thread nD τ).loc main_arg5), m ((d.tc : Thread nD τ).loc main_arg6), m ((d.tc : Thread nD τ).loc main_arg7),
    m ((d.tc : Thread nD τ).loc main_arg8), m ((d.tc : Thread nD τ).loc main_arg9), m ((d.tc : Thread nD τ).loc main_arg10),
    m ((d.tc : Thread nD τ).loc main_arg11), m ((d.tc : Thread nD τ).loc main_arg12)⟩

theorem rCw_eq : rCw m d = wrapC (rC m d) := rfl
theorem rA_eq : rA m d = Cert.Spec.adjOf (rVals m d) (rR m d) (wrapC (rC m d)) := rfl

end Edges

end Cert.ReferenceIdeal.RVal

end
-- ==== Proof.RVal.CellsAll1.lean ====
import proofs.«124913_j71159018160549_2_alg».proof.Proof.RVal.Cells

noncomputable section

open scoped BigOperators

namespace Cert.ReferenceIdeal.RVal

open Cert.ReferenceIdeal Cert.ReferenceIdeal.Gen Idealize.ShloMosaic Idealize.ShloMosaic.TcCoe Idealize.SL.Sem
  Idealize.ShloMosaic.StableHlo Idealize.ShloMosaic.ValueIdx

section Stretches
variable {F : FTy → Type} [FloatOps F] (V : Valuation τ sig (Elt F))

/-- Cell 0's clipped hidden rows. -/
theorem s2_v100 : after rops2 V (Proc.devRef .tc main_v100)
    = layer1 0 slices_S12x100x16_S1x100x16_0_0_0 slices_S12x16_S1x16_0_0 (V (Proc.devRef .tc main_v31))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 0's output. -/
theorem s3_v108 : after rops3 V (Proc.devRef .tc main_v108)
    = layer2 0 slices_S12x16x40_S1x16x40_0_0_0 slices_S12x40_S1x40_0_0
        (V (Proc.devRef .tc main_v100))
        (V (Proc.devRef .tc main_arg9)) (V (Proc.devRef .tc main_arg10)) := by
  after_results_simp
  rfl

/-- Cell 2's clipped hidden rows. -/
theorem s6_v189 : after rops6 V (Proc.devRef .tc main_v189)
    = layer1 2 slices_S12x100x16_S1x100x16_2_0_0 slices_S12x16_S1x16_2_0 (V (Proc.devRef .tc main_v57))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 2's output. -/
theorem s7_v223 : after rops7 V (Proc.devRef .tc main_v223)
    = layer2 2 slices_S12x16x40_S1x16x40_2_0_0 slices_S12x40_S1x40_2_0
        (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (V (Proc.devRef .tc main_v189))))
        (V (Proc.devRef .tc main_arg9)) (V (Proc.devRef .tc main_arg10)) := by
  after_results_simp
  rfl

/-- Cell 3's clipped hidden rows. -/
theorem s8_v253 : after rops8 V (Proc.devRef .tc main_v253)
    = layer1 3 slices_S12x100x16_S1x100x16_3_0_0 slices_S12x16_S1x16_3_0 (V (Proc.devRef .tc main_v70))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 3's output. -/
theorem s9_v300 : after rops9 V (Proc.devRef .tc main_v300)
    = layer2 3 slices_S12x16x40_S1x16x40_3_0_0 slices_S12x40_S1x40_3_0
        (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (V (Proc.devRef .tc main_v253)))))
        (V (Proc.devRef .tc main_arg9)) (V (Proc.devRef .tc main_arg10)) := by
  after_results_simp
  rfl

end Stretches

section StretchValues

open Cert.Spec

variable (V : Valuation τ sig (Elt Ideal)) (P : Params) (vals : FVec Ideal S850000 .f32) (R C : IVec S850000 32)

/-- Cell 0's first stretch leaves its clipped hidden rows. -/
theorem hid0_value (A : Adj)
    (hX : V (Proc.devRef .tc main_v31) = fun j : S50000x100.Idx => xs A P 0 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops2 V (Proc.devRef .tc main_v100) = fun j : S50000x16.Idx => hid A P 0 (j 0) (j 1) := by
  rw [s2_v100, hX, h3, h4, h5, h6, h7, h8]
  exact layer1_eq A P 0 _ _ 0 rfl

/-- Cell 0's second stretch leaves its output. -/
theorem cell0_value
    (hH : V (Proc.devRef .tc main_v100)
      = fun j : S50000x16.Idx => hid (adjOf vals R (wrapC C)) P 0 (j 0) (j 1))
    (h9 : V (Proc.devRef .tc main_arg9) = P.W2)
    (h10 : V (Proc.devRef .tc main_arg10) = P.b2) :
    after rops3 V (Proc.devRef .tc main_v108)
      = fun j : S50000x40.Idx => cell (adjOf vals R (wrapC C)) P 0 (j 0) (j 1) := by
  rw [s3_v108, hH, h9, h10]
  exact layer2_eq _ P 0 _ _ _ rfl

/-- Cell 2's first stretch leaves its clipped hidden rows. -/
theorem hid2_value (A : Adj)
    (hX : V (Proc.devRef .tc main_v57) = fun j : S50000x100.Idx => xs A P 2 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops6 V (Proc.devRef .tc main_v189) = fun j : S50000x16.Idx => hid A P 2 (j 0) (j 1) := by
  rw [s6_v189, hX, h3, h4, h5, h6, h7, h8]
  exact layer1_eq A P 2 _ _ 2 rfl

/-- Cell 2's second stretch leaves its output. -/
theorem cell2_value
    (hH : V (Proc.devRef .tc main_v189)
      = fun j : S50000x16.Idx => hid (adjOf vals R (wrapC C)) P 2 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops7 V (Proc.devRef .tc main_v223)
      = fun j : S50000x40.Idx => cell (adjOf vals R (wrapC C)) P 2 (j 0) (j 1) := by
  rw [s7_v223, hH, hv, hR, hC, h9, h10, prop16_eq, prop16_eq]
  exact layer2_eq _ P 2 _ _ _ rfl

/-- Cell 3's first stretch leaves its clipped hidden rows. -/
theorem hid3_value (A : Adj)
    (hX : V (Proc.devRef .tc main_v70) = fun j : S50000x100.Idx => xs A P 3 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops8 V (Proc.devRef .tc main_v253) = fun j : S50000x16.Idx => hid A P 3 (j 0) (j 1) := by
  rw [s8_v253, hX, h3, h4, h5, h6, h7, h8]
  exact layer1_eq A P 3 _ _ 3 rfl

/-- Cell 3's second stretch leaves its output. -/
theorem cell3_value
    (hH : V (Proc.devRef .tc main_v253)
      = fun j : S50000x16.Idx => hid (adjOf vals R (wrapC C)) P 3 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops9 V (Proc.devRef .tc main_v300)
      = fun j : S50000x40.Idx => cell (adjOf vals R (wrapC C)) P 3 (j 0) (j 1) := by
  rw [s9_v300, hH, hv, hR, hC, h9, h10, prop16_eq, prop16_eq, prop16_eq]
  exact layer2_eq _ P 3 _ _ _ rfl

end StretchValues

end Cert.ReferenceIdeal.RVal

end
-- ==== Proof.RVal.CellsAll2.lean ====
import proofs.«124913_j71159018160549_2_alg».proof.Proof.RVal.Cells

noncomputable section

open scoped BigOperators

namespace Cert.ReferenceIdeal.RVal

open Cert.ReferenceIdeal Cert.ReferenceIdeal.Gen Idealize.ShloMosaic Idealize.ShloMosaic.TcCoe Idealize.SL.Sem
  Idealize.ShloMosaic.StableHlo Idealize.ShloMosaic.ValueIdx

section Stretches
variable {F : FTy → Type} [FloatOps F] (V : Valuation τ sig (Elt F))

/-- Cell 4's clipped hidden rows. -/
theorem s10_v330 : after rops10 V (Proc.devRef .tc main_v330)
    = layer1 4 slices_S12x100x16_S1x100x16_4_0_0 slices_S12x16_S1x16_4_0 (V (Proc.devRef .tc main_v31))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 4's output. -/
theorem s11_v338 : after rops11 V (Proc.devRef .tc main_v338)
    = layer2 4 slices_S12x16x40_S1x16x40_4_0_0 slices_S12x40_S1x40_4_0
        (V (Proc.devRef .tc main_v330))
        (V (Proc.devRef .tc main_arg9)) (V (Proc.devRef .tc main_arg10)) := by
  after_results_simp
  rfl

/-- Cell 5's clipped hidden rows. -/
theorem s12_v368 : after rops12 V (Proc.devRef .tc main_v368)
    = layer1 5 slices_S12x100x16_S1x100x16_5_0_0 slices_S12x16_S1x16_5_0 (V (Proc.devRef .tc main_v44))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 5's output. -/
theorem s13_v389 : after rops13 V (Proc.devRef .tc main_v389)
    = layer2 5 slices_S12x16x40_S1x16x40_5_0_0 slices_S12x40_S1x40_5_0
        (prop16 (V (Proc.devRef .tc main_v26)) (V (Proc.devRef .tc main_v1)) (V (Proc.devRef .tc main_v2))
          (V (Proc.devRef .tc main_v368)))
        (V (Proc.devRef .tc main_arg9)) (V (Proc.devRef .tc main_arg10)) := by
  after_results_simp
  rfl

/-- Cell 6's clipped hidden rows. -/
theorem s14_v419 : after rops14 V (Proc.devRef .tc main_v419)
    = layer1 6 slices_S12x100x16_S1x100x16_6_0_0 slices_S12x16_S1x16_6_0 (V (Proc.devRef .tc main_v57))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 6's output. -/
theorem s15_v453 : after rops15 V (Proc.devRef .tc main_v453)
    = layer2 6 slices_S12x16x40_S1x16x40_6_0_0 slices_S12x40_S1x40_6_0
        (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (V (Proc.devRef .tc main_v419))))
        (V (Proc.devRef .tc main_arg9)) (V (Proc.devRef .tc main_arg10)) := by
  after_results_simp
  rfl

/-- Cell 7's clipped hidden rows. -/
theorem s16_v483 : after rops16 V (Proc.devRef .tc main_v483)
    = layer1 7 slices_S12x100x16_S1x100x16_7_0_0 slices_S12x16_S1x16_7_0 (V (Proc.devRef .tc main_v70))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 7's output. -/
theorem s17_v530 : after rops17 V (Proc.devRef .tc main_v530)
    = layer2 7 slices_S12x16x40_S1x16x40_7_0_0 slices_S12x40_S1x40_7_0
        (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (V (Proc.devRef .tc main_v483)))))
        (V (Proc.devRef .tc main_arg9)) (V (Proc.devRef .tc main_arg10)) := by
  after_results_simp
  rfl

end Stretches

section StretchValues

open Cert.Spec

variable (V : Valuation τ sig (Elt Ideal)) (P : Params) (vals : FVec Ideal S850000 .f32) (R C : IVec S850000 32)

/-- Cell 4's first stretch leaves its clipped hidden rows. -/
theorem hid4_value (A : Adj)
    (hX : V (Proc.devRef .tc main_v31) = fun j : S50000x100.Idx => xs A P 0 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops10 V (Proc.devRef .tc main_v330) = fun j : S50000x16.Idx => hid A P 4 (j 0) (j 1) := by
  rw [s10_v330, hX, h3, h4, h5, h6, h7, h8]
  exact layer1_eq A P 4 _ _ 0 rfl

/-- Cell 4's second stretch leaves its output. -/
theorem cell4_value
    (hH : V (Proc.devRef .tc main_v330)
      = fun j : S50000x16.Idx => hid (adjOf vals R (wrapC C)) P 4 (j 0) (j 1))
    (h9 : V (Proc.devRef .tc main_arg9) = P.W2)
    (h10 : V (Proc.devRef .tc main_arg10) = P.b2) :
    after rops11 V (Proc.devRef .tc main_v338)
      = fun j : S50000x40.Idx => cell (adjOf vals R (wrapC C)) P 4 (j 0) (j 1) := by
  rw [s11_v338, hH, h9, h10]
  exact layer2_eq _ P 4 _ _ _ rfl

/-- Cell 5's first stretch leaves its clipped hidden rows. -/
theorem hid5_value (A : Adj)
    (hX : V (Proc.devRef .tc main_v44) = fun j : S50000x100.Idx => xs A P 1 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops12 V (Proc.devRef .tc main_v368) = fun j : S50000x16.Idx => hid A P 5 (j 0) (j 1) := by
  rw [s12_v368, hX, h3, h4, h5, h6, h7, h8]
  exact layer1_eq A P 5 _ _ 1 rfl

/-- Cell 5's second stretch leaves its output. -/
theorem cell5_value
    (hH : V (Proc.devRef .tc main_v368)
      = fun j : S50000x16.Idx => hid (adjOf vals R (wrapC C)) P 5 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops13 V (Proc.devRef .tc main_v389)
      = fun j : S50000x40.Idx => cell (adjOf vals R (wrapC C)) P 5 (j 0) (j 1) := by
  rw [s13_v389, hH, hv, hR, hC, h9, h10, prop16_eq]
  exact layer2_eq _ P 5 _ _ _ rfl

/-- Cell 6's first stretch leaves its clipped hidden rows. -/
theorem hid6_value (A : Adj)
    (hX : V (Proc.devRef .tc main_v57) = fun j : S50000x100.Idx => xs A P 2 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops14 V (Proc.devRef .tc main_v419) = fun j : S50000x16.Idx => hid A P 6 (j 0) (j 1) := by
  rw [s14_v419, hX, h3, h4, h5, h6, h7, h8]
  exact layer1_eq A P 6 _ _ 2 rfl

/-- Cell 6's second stretch leaves its output. -/
theorem cell6_value
    (hH : V (Proc.devRef .tc main_v419)
      = fun j : S50000x16.Idx => hid (adjOf vals R (wrapC C)) P 6 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops15 V (Proc.devRef .tc main_v453)
      = fun j : S50000x40.Idx => cell (adjOf vals R (wrapC C)) P 6 (j 0) (j 1) := by
  rw [s15_v453, hH, hv, hR, hC, h9, h10, prop16_eq, prop16_eq]
  exact layer2_eq _ P 6 _ _ _ rfl

/-- Cell 7's first stretch leaves its clipped hidden rows. -/
theorem hid7_value (A : Adj)
    (hX : V (Proc.devRef .tc main_v70) = fun j : S50000x100.Idx => xs A P 3 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops16 V (Proc.devRef .tc main_v483) = fun j : S50000x16.Idx => hid A P 7 (j 0) (j 1) := by
  rw [s16_v483, hX, h3, h4, h5, h6, h7, h8]
  exact layer1_eq A P 7 _ _ 3 rfl

/-- Cell 7's second stretch leaves its output. -/
theorem cell7_value
    (hH : V (Proc.devRef .tc main_v483)
      = fun j : S50000x16.Idx => hid (adjOf vals R (wrapC C)) P 7 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops17 V (Proc.devRef .tc main_v530)
      = fun j : S50000x40.Idx => cell (adjOf vals R (wrapC C)) P 7 (j 0) (j 1) := by
  rw [s17_v530, hH, hv, hR, hC, h9, h10, prop16_eq, prop16_eq, prop16_eq]
  exact layer2_eq _ P 7 _ _ _ rfl

end StretchValues

end Cert.ReferenceIdeal.RVal

end
-- ==== Proof.RVal.CellsAll3.lean ====
import proofs.«124913_j71159018160549_2_alg».proof.Proof.RVal.Cells

noncomputable section

open scoped BigOperators

namespace Cert.ReferenceIdeal.RVal

open Cert.ReferenceIdeal Cert.ReferenceIdeal.Gen Idealize.ShloMosaic Idealize.ShloMosaic.TcCoe Idealize.SL.Sem
  Idealize.ShloMosaic.StableHlo Idealize.ShloMosaic.ValueIdx

section Stretches
variable {F : FTy → Type} [FloatOps F] (V : Valuation τ sig (Elt F))

/-- Cell 8's clipped hidden rows. -/
theorem s18_v560 : after rops18 V (Proc.devRef .tc main_v560)
    = layer1 8 slices_S12x100x16_S1x100x16_8_0_0 slices_S12x16_S1x16_8_0 (V (Proc.devRef .tc main_v31))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 8's output. -/
theorem s19_v568 : after rops19 V (Proc.devRef .tc main_v568)
    = layer2 8 slices_S12x16x40_S1x16x40_8_0_0 slices_S12x40_S1x40_8_0
        (V (Proc.devRef .tc main_v560))
        (V (Proc.devRef .tc main_arg9)) (V (Proc.devRef .tc main_arg10)) := by
  after_results_simp
  rfl

/-- Cell 9's clipped hidden rows. -/
theorem s20_v598 : after rops20 V (Proc.devRef .tc main_v598)
    = layer1 9 slices_S12x100x16_S1x100x16_9_0_0 slices_S12x16_S1x16_9_0 (V (Proc.devRef .tc main_v44))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 9's output. -/
theorem s21_v619 : after rops21 V (Proc.devRef .tc main_v619)
    = layer2 9 slices_S12x16x40_S1x16x40_9_0_0 slices_S12x40_S1x40_9_0
        (prop16 (V (Proc.devRef .tc main_v26)) (V (Proc.devRef .tc main_v1)) (V (Proc.devRef .tc main_v2))
          (V (Proc.devRef .tc main_v598)))
        (V (Proc.devRef .tc main_arg9)) (V (Proc.devRef .tc main_arg10)) := by
  after_results_simp
  rfl

/-- Cell 10's clipped hidden rows. -/
theorem s22_v649 : after rops22 V (Proc.devRef .tc main_v649)
    = layer1 10 slices_S12x100x16_S1x100x16_10_0_0 slices_S12x16_S1x16_10_0 (V (Proc.devRef .tc main_v57))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 10's output. -/
theorem s23_v683 : after rops23 V (Proc.devRef .tc main_v683)
    = layer2 10 slices_S12x16x40_S1x16x40_10_0_0 slices_S12x40_S1x40_10_0
        (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (V (Proc.devRef .tc main_v649))))
        (V (Proc.devRef .tc main_arg9)) (V (Proc.devRef .tc main_arg10)) := by
  after_results_simp
  rfl

/-- Cell 11's clipped hidden rows. -/
theorem s24_v713 : after rops24 V (Proc.devRef .tc main_v713)
    = layer1 11 slices_S12x100x16_S1x100x16_11_0_0 slices_S12x16_S1x16_11_0 (V (Proc.devRef .tc main_v70))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  after_results_simp
  rfl

/-- Cell 11's output. -/
theorem s25_v760 : after rops25 V (Proc.devRef .tc main_v760)
    = layer2 11 slices_S12x16x40_S1x16x40_11_0_0 slices_S12x40_S1x40_11_0
        (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (prop16 (V (Proc.devRef .tc main_v26)) (V (Proc.devRef .tc main_v1)) (V (Proc.devRef .tc main_v2))
          (V (Proc.devRef .tc main_v713)))))
        (V (Proc.devRef .tc main_arg9)) (V (Proc.devRef .tc main_arg10)) := by
  after_results_simp
  rfl

end Stretches

section StretchValues

open Cert.Spec

variable (V : Valuation τ sig (Elt Ideal)) (P : Params) (vals : FVec Ideal S850000 .f32) (R C : IVec S850000 32)

/-- Cell 8's first stretch leaves its clipped hidden rows. -/
theorem hid8_value (A : Adj)
    (hX : V (Proc.devRef .tc main_v31) = fun j : S50000x100.Idx => xs A P 0 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops18 V (Proc.devRef .tc main_v560) = fun j : S50000x16.Idx => hid A P 8 (j 0) (j 1) := by
  rw [s18_v560, hX, h3, h4, h5, h6, h7, h8]
  exact layer1_eq A P 8 _ _ 0 rfl

/-- Cell 8's second stretch leaves its output. -/
theorem cell8_value
    (hH : V (Proc.devRef .tc main_v560)
      = fun j : S50000x16.Idx => hid (adjOf vals R (wrapC C)) P 8 (j 0) (j 1))
    (h9 : V (Proc.devRef .tc main_arg9) = P.W2)
    (h10 : V (Proc.devRef .tc main_arg10) = P.b2) :
    after rops19 V (Proc.devRef .tc main_v568)
      = fun j : S50000x40.Idx => cell (adjOf vals R (wrapC C)) P 8 (j 0) (j 1) := by
  rw [s19_v568, hH, h9, h10]
  exact layer2_eq _ P 8 _ _ _ rfl

/-- Cell 9's first stretch leaves its clipped hidden rows. -/
theorem hid9_value (A : Adj)
    (hX : V (Proc.devRef .tc main_v44) = fun j : S50000x100.Idx => xs A P 1 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops20 V (Proc.devRef .tc main_v598) = fun j : S50000x16.Idx => hid A P 9 (j 0) (j 1) := by
  rw [s20_v598, hX, h3, h4, h5, h6, h7, h8]
  exact layer1_eq A P 9 _ _ 1 rfl

/-- Cell 9's second stretch leaves its output. -/
theorem cell9_value
    (hH : V (Proc.devRef .tc main_v598)
      = fun j : S50000x16.Idx => hid (adjOf vals R (wrapC C)) P 9 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops21 V (Proc.devRef .tc main_v619)
      = fun j : S50000x40.Idx => cell (adjOf vals R (wrapC C)) P 9 (j 0) (j 1) := by
  rw [s21_v619, hH, hv, hR, hC, h9, h10, prop16_eq]
  exact layer2_eq _ P 9 _ _ _ rfl

/-- Cell 10's first stretch leaves its clipped hidden rows. -/
theorem hid10_value (A : Adj)
    (hX : V (Proc.devRef .tc main_v57) = fun j : S50000x100.Idx => xs A P 2 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops22 V (Proc.devRef .tc main_v649) = fun j : S50000x16.Idx => hid A P 10 (j 0) (j 1) := by
  rw [s22_v649, hX, h3, h4, h5, h6, h7, h8]
  exact layer1_eq A P 10 _ _ 2 rfl

/-- Cell 10's second stretch leaves its output. -/
theorem cell10_value
    (hH : V (Proc.devRef .tc main_v649)
      = fun j : S50000x16.Idx => hid (adjOf vals R (wrapC C)) P 10 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops23 V (Proc.devRef .tc main_v683)
      = fun j : S50000x40.Idx => cell (adjOf vals R (wrapC C)) P 10 (j 0) (j 1) := by
  rw [s23_v683, hH, hv, hR, hC, h9, h10, prop16_eq, prop16_eq]
  exact layer2_eq _ P 10 _ _ _ rfl

/-- Cell 11's first stretch leaves its clipped hidden rows. -/
theorem hid11_value (A : Adj)
    (hX : V (Proc.devRef .tc main_v70) = fun j : S50000x100.Idx => xs A P 3 (j 0) (j 1))
    (h3 : V (Proc.devRef .tc main_arg3) = P.W1)
    (h4 : V (Proc.devRef .tc main_arg4) = P.b1)
    (h5 : V (Proc.devRef .tc main_arg5) = P.g)
    (h6 : V (Proc.devRef .tc main_arg6) = P.be)
    (h7 : V (Proc.devRef .tc main_arg7) = P.mu)
    (h8 : V (Proc.devRef .tc main_arg8) = P.var) :
    after rops24 V (Proc.devRef .tc main_v713) = fun j : S50000x16.Idx => hid A P 11 (j 0) (j 1) := by
  rw [s24_v713, hX, h3, h4, h5, h6, h7, h8]
  exact layer1_eq A P 11 _ _ 3 rfl

/-- Cell 11's second stretch leaves its output. -/
theorem cell11_value
    (hH : V (Proc.devRef .tc main_v713)
      = fun j : S50000x16.Idx => hid (adjOf vals R (wrapC C)) P 11 (j 0) (j 1))
    (hv : V (Proc.devRef .tc main_v26) = vals)
    (hR : V (Proc.devRef .tc main_v1) = R) (hC : V (Proc.devRef .tc main_v2) = C)
    (h9 : V (Proc.devRef .tc main_arg9) = P.W2)
    (h10 : V (Proc.devRef .tc main_arg10) = P.b2) :
    after rops25 V (Proc.devRef .tc main_v760)
      = fun j : S50000x40.Idx => cell (adjOf vals R (wrapC C)) P 11 (j 0) (j 1) := by
  rw [s25_v760, hH, hv, hR, hC, h9, h10, prop16_eq, prop16_eq, prop16_eq]
  exact layer2_eq _ P 11 _ _ _ rfl

end StretchValues

end Cert.ReferenceIdeal.RVal

end
-- ==== Proof.RVal.Frames.lean ====
import proofs.«124913_j71159018160549_2_alg».proof.Proof.RVal.Run
import Mathlib.Tactic.IntervalCases

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- The 27 stretches of the operation list, in order. -/
noncomputable abbrev ropsL : List (List (HloOp τ sig (Elt F))) :=
  [rops0, rops1, rops2, rops3, rops4, rops5, rops6, rops7, rops8, rops9, rops10, rops11, rops12, rops13,
   rops14, rops15, rops16, rops17, rops18, rops19, rops20, rops21, rops22, rops23, rops24, rops25, rops26]

/-- The buffer contents before stretch `k` (after the last one, from 27 on). -/
noncomputable def Uat (m : (ℓ : Loc nD τ sig) → Buf (Elt F) ℓ) (d : Dev nD) : ℕ → Valuation τ sig (Elt F)
  | 0 => U0 m d
  | k + 1 => after (ropsL.getD k []) (Uat m d k)

/-- The number of the first buffer stretch `k` writes: the 13 arguments, then one buffer an operation, in program order. -/
def lo : ℕ → ℕ
  | 0 => 13
  | k + 1 => lo k + ([35, 58, 33, 8, 33, 24, 33, 40, 33, 56, 33, 8, 33, 24, 33, 40, 33, 56, 33, 8, 33, 24, 33, 40, 33, 56, 21] : List ℕ).getD k 0

theorem lo_mono : Monotone lo := monotone_nat_of_le_succ fun _ => Nat.le_add_right _ _

/-- An operation whose one result is numbered `B` or above writes no buffer numbered below `B`. -/
theorem not_mem_writes {op : HloOp τ sig (Elt F)} {r y : Ref sig .tc} {B : ℕ} (hr : r.idx.val < B) (hy : ¬ y.idx.val < B)
    (hop : op.writes = {Proc.devRef .tc y}) : (Proc.devRef .tc r : DevRef τ sig) ∉ op.writes :=
  hop ▸ fun h => hy (Proc.devRef_injective _ (Finset.mem_singleton.1 h) ▸ hr)

/-- Stretch `k` writes no buffer numbered below `lo k`. -/
theorem writes_from (k : ℕ) (r : Ref sig .tc) (hr : r.idx.val < lo k) :
    (ropsL.getD k [] : List (HloOp τ sig (Elt F))).Forall fun op => (Proc.devRef .tc r : DevRef τ sig) ∉ op.writes := by
  by_cases hk : k < 27
  · interval_cases k <;>
      repeat' first | refine (List.forall_cons _ _ _).2 ⟨not_mem_writes hr (by decide) rfl, ?_⟩ | exact trivial
  · obtain ⟨n, rfl⟩ := Nat.exists_eq_add_of_le' (not_lt.1 hk); trivial

section
variable (m : (ℓ : Loc nD τ sig) → Buf (Elt F) ℓ) (d : Dev nD)

/-- A buffer numbered below stretch `i`'s first is written by no stretch from `i` on. -/
theorem carry {r : Ref sig .tc} (i j : ℕ) (hr : r.idx.val < lo i := by decide) (hij : i ≤ j := by decide) :
    Uat m d j (Proc.devRef .tc r) = Uat m d i (Proc.devRef .tc r) := by
  induction j, hij using Nat.le_induction with
  | base => rfl
  | succ j hij ih =>
    exact (after_of_forall_not_mem _ _ (List.forall_iff_forall_mem.1 (writes_from j r (hr.trans_le (lo_mono hij))))).trans ih

/-- An argument holds its launch contents at every boundary. -/
theorem arg_at (k : ℕ) {r : Ref sig .tc} (hr : r.idx.val < 13 := by decide) :
    Uat m d k (Proc.devRef .tc r) = m ((d.tc : Thread nD τ).loc r) :=
  carry m d 0 k hr (Nat.zero_le k)

theorem ref_args :
    U27 m d (Proc.devRef .tc main_arg0) = m ((d.tc : Thread nD τ).loc main_arg0)
    ∧ U27 m d (Proc.devRef .tc main_arg1) = m ((d.tc : Thread nD τ).loc main_arg1)
    ∧ U27 m d (Proc.devRef .tc main_arg2) = m ((d.tc : Thread nD τ).loc main_arg2)
    ∧ U27 m d (Proc.devRef .tc main_arg3) = m ((d.tc : Thread nD τ).loc main_arg3)
    ∧ U27 m d (Proc.devRef .tc main_arg4) = m ((d.tc : Thread nD τ).loc main_arg4)
    ∧ U27 m d (Proc.devRef .tc main_arg5) = m ((d.tc : Thread nD τ).loc main_arg5)
    ∧ U27 m d (Proc.devRef .tc main_arg6) = m ((d.tc : Thread nD τ).loc main_arg6)
    ∧ U27 m d (Proc.devRef .tc main_arg7) = m ((d.tc : Thread nD τ).loc main_arg7)
    ∧ U27 m d (Proc.devRef .tc main_arg8) = m ((d.tc : Thread nD τ).loc main_arg8)
    ∧ U27 m d (Proc.devRef .tc main_arg9) = m ((d.tc : Thread nD τ).loc main_arg9)
    ∧ U27 m d (Proc.devRef .tc main_arg10) = m ((d.tc : Thread nD τ).loc main_arg10)
    ∧ U27 m d (Proc.devRef .tc main_arg11) = m ((d.tc : Thread nD τ).loc main_arg11)
    ∧ U27 m d (Proc.devRef .tc main_arg12) = m ((d.tc : Thread nD τ).loc main_arg12) :=
  ⟨arg_at m d 27, arg_at m d 27, arg_at m d 27, arg_at m d 27, arg_at m d 27, arg_at m d 27, arg_at m d 27, arg_at m d 27, arg_at m d 27, arg_at m d 27, arg_at m d 27, arg_at m d 27, arg_at m d 27⟩

end

end Cert.ReferenceIdeal.RVal

end
-- ==== Proof.RVal.Tail.lean ====
import proofs.«124913_j71159018160549_2_alg».proof.Proof.RVal.Run
import proofs.«124913_j71159018160549_2_alg».proof.Proof.RVal.Layers
import proofs.«124913_j71159018160549_2_alg».proof.Proof.Spec

noncomputable section

open scoped BigOperators

namespace Cert.ReferenceIdeal.RVal

open Cert.ReferenceIdeal Cert.ReferenceIdeal.Gen Idealize.ShloMosaic Idealize.ShloMosaic.TcCoe Idealize.SL.Sem
  Idealize.ShloMosaic.StableHlo Idealize.ShloMosaic.ValueIdx

section Split

variable {F : FTy → Type} [FloatOps F]

abbrev rops26a : List (HloOp τ sig (Elt F)) :=
  [ unary main_v108 main_v761 (broadcastInDim S50000x1x40 ![0, 2] bcast_S50000x40_S50000x1x40_0_2 : (⟨S50000x40, .f32⟩ : BufTy).Contents (Elt F) → (⟨S50000x1x40, .f32⟩ : BufTy).Contents (Elt F)),
    unary main_v159 main_v762 (broadcastInDim S50000x1x40 ![0, 2] bcast_S50000x40_S50000x1x40_0_2 : (⟨S50000x40, .f32⟩ : BufTy).Contents (Elt F) → (⟨S50000x1x40, .f32⟩ : BufTy).Contents (Elt F)),
    unary main_v223 main_v763 (broadcastInDim S50000x1x40 ![0, 2] bcast_S50000x40_S50000x1x40_0_2 : (⟨S50000x40, .f32⟩ : BufTy).Contents (Elt F) → (⟨S50000x1x40, .f32⟩ : BufTy).Contents (Elt F)),
    unary main_v300 main_v764 (broadcastInDim S50000x1x40 ![0, 2] bcast_S50000x40_S50000x1x40_0_2 : (⟨S50000x40, .f32⟩ : BufTy).Contents (Elt F) → (⟨S50000x1x40, .f32⟩ : BufTy).Contents (Elt F)),
    unary main_v338 main_v765 (broadcastInDim S50000x1x40 ![0, 2] bcast_S50000x40_S50000x1x40_0_2 : (⟨S50000x40, .f32⟩ : BufTy).Contents (Elt F) → (⟨S50000x1x40, .f32⟩ : BufTy).Contents (Elt F)),
    unary main_v389 main_v766 (broadcastInDim S50000x1x40 ![0, 2] bcast_S50000x40_S50000x1x40_0_2 : (⟨S50000x40, .f32⟩ : BufTy).Contents (Elt F) → (⟨S50000x1x40, .f32⟩ : BufTy).Contents (Elt F)),
    unary main_v453 main_v767 (broadcastInDim S50000x1x40 ![0, 2] bcast_S50000x40_S50000x1x40_0_2 : (⟨S50000x40, .f32⟩ : BufTy).Contents (Elt F) → (⟨S50000x1x40, .f32⟩ : BufTy).Contents (Elt F)),
    unary main_v530 main_v768 (broadcastInDim S50000x1x40 ![0, 2] bcast_S50000x40_S50000x1x40_0_2 : (⟨S50000x40, .f32⟩ : BufTy).Contents (Elt F) → (⟨S50000x1x40, .f32⟩ : BufTy).Contents (Elt F)),
    unary main_v568 main_v769 (broadcastInDim S50000x1x40 ![0, 2] bcast_S50000x40_S50000x1x40_0_2 : (⟨S50000x40, .f32⟩ : BufTy).Contents (Elt F) → (⟨S50000x1x40, .f32⟩ : BufTy).Contents (Elt F)),
    unary main_v619 main_v770 (broadcastInDim S50000x1x40 ![0, 2] bcast_S50000x40_S50000x1x40_0_2 : (⟨S50000x40, .f32⟩ : BufTy).Contents (Elt F) → (⟨S50000x1x40, .f32⟩ : BufTy).Contents (Elt F)),
    unary main_v683 main_v771 (broadcastInDim S50000x1x40 ![0, 2] bcast_S50000x40_S50000x1x40_0_2 : (⟨S50000x40, .f32⟩ : BufTy).Contents (Elt F) → (⟨S50000x1x40, .f32⟩ : BufTy).Contents (Elt F)),
    unary main_v760 main_v772 (broadcastInDim S50000x1x40 ![0, 2] bcast_S50000x40_S50000x1x40_0_2 : (⟨S50000x40, .f32⟩ : BufTy).Contents (Elt F) → (⟨S50000x1x40, .f32⟩ : BufTy).Contents (Elt F)) ]

abbrev rops26b : List (HloOp τ sig (Elt F)) :=
  [ nary ![main_v761, main_v762, main_v763, main_v764, main_v765, main_v766, main_v767, main_v768, main_v769, main_v770, main_v771, main_v772] main_v773 (fun u => concatenate S50000x12x40 1 [⟨S50000x1x40, u 0⟩, ⟨S50000x1x40, u 1⟩, ⟨S50000x1x40, u 2⟩, ⟨S50000x1x40, u 3⟩, ⟨S50000x1x40, u 4⟩, ⟨S50000x1x40, u 5⟩, ⟨S50000x1x40, u 6⟩, ⟨S50000x1x40, u 7⟩, ⟨S50000x1x40, u 8⟩, ⟨S50000x1x40, u 9⟩, ⟨S50000x1x40, u 10⟩, ⟨S50000x1x40, u 11⟩] concatenates_S50000x1x40_S50000x1x40_S50000x1x40_S50000x1x40_S50000x1x40_S50000x1x40_S50000x1x40_S50000x1x40_S50000x1x40_S50000x1x40_S50000x1x40_S50000x1x40_S50000x12x40_d1),
    reshape main_v773 main_v774 rfl shapeCasts_S50000x12x40_S50000x480,
    TRef.nullary (TRef.of (T := ⟨S_, .f32⟩) main_call14_cst) (constant S_ .f32 0x00000000#32),
    TRef.unary (TRef.of (T := ⟨S_, .f32⟩) main_call14_cst) (TRef.of (T := ⟨S50000x480, .f32⟩) main_call14_v0) (broadcastInDim S50000x480 ![] bcast_S_S50000x480),
    TRef.binary (TRef.of (T := ⟨S50000x480, .f32⟩) main_v774) (TRef.of (T := ⟨S50000x480, .f32⟩) main_call14_v0) (TRef.of (T := ⟨S50000x480, .f32⟩) main_v775) maximumf,
    binary main_v775 main_arg11 main_v776 ((fun l r => Host.dotGeneral dot_S50000x480_S480x40_S50000x40_1_0_0_1_n_n none l r) : (⟨S50000x480, .f32⟩ : BufTy).Contents (Elt F) → (⟨S480x40, .f32⟩ : BufTy).Contents (Elt F) → (⟨S50000x40, .f32⟩ : BufTy).Contents (Elt F)),
    unary main_arg12 main_v777 (broadcastInDim S1x40 ![1] bcast_S40_S1x40_1 : (⟨S40, .f32⟩ : BufTy).Contents (Elt F) → (⟨S1x40, .f32⟩ : BufTy).Contents (Elt F)),
    unary main_v777 main_v778 (broadcastInDim S50000x40 ![0, 1] bcast_S1x40_S50000x40_0_1 : (⟨S1x40, .f32⟩ : BufTy).Contents (Elt F) → (⟨S50000x40, .f32⟩ : BufTy).Contents (Elt F)),
    binary main_v776 main_v778 main_v779 (addf : (⟨S50000x40, .f32⟩ : BufTy).Contents (Elt F) → (⟨S50000x40, .f32⟩ : BufTy).Contents (Elt F) → (⟨S50000x40, .f32⟩ : BufTy).Contents (Elt F)) ]

theorem rops26_eq : (rops26 : List (HloOp τ sig (Elt F))) = rops26a ++ rops26b := rfl

variable (V : Valuation τ sig (Elt F))

theorem a_v761 : after rops26a V (Proc.devRef .tc main_v761)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v108)) := by
  after_results_simp <;> rfl
theorem a_v762 : after rops26a V (Proc.devRef .tc main_v762)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v159)) := by
  after_results_simp <;> rfl
theorem a_v763 : after rops26a V (Proc.devRef .tc main_v763)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v223)) := by
  after_results_simp <;> rfl
theorem a_v764 : after rops26a V (Proc.devRef .tc main_v764)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v300)) := by
  after_results_simp <;> rfl
theorem a_v765 : after rops26a V (Proc.devRef .tc main_v765)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v338)) := by
  after_results_simp <;> rfl
theorem a_v766 : after rops26a V (Proc.devRef .tc main_v766)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v389)) := by
  after_results_simp <;> rfl
theorem a_v767 : after rops26a V (Proc.devRef .tc main_v767)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v453)) := by
  after_results_simp <;> rfl
theorem a_v768 : after rops26a V (Proc.devRef .tc main_v768)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v530)) := by
  after_results_simp <;> rfl
theorem a_v769 : after rops26a V (Proc.devRef .tc main_v769)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v568)) := by
  after_results_simp <;> rfl
theorem a_v770 : after rops26a V (Proc.devRef .tc main_v770)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v619)) := by
  after_results_simp <;> rfl
theorem a_v771 : after rops26a V (Proc.devRef .tc main_v771)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v683)) := by
  after_results_simp <;> rfl
theorem a_v772 : after rops26a V (Proc.devRef .tc main_v772)
    = (broadcastInDim S50000x1x40 ![0, 2] bcast_S50000x40_S50000x1x40_0_2 : (⟨S50000x40, .f32⟩ : BufTy).Contents (Elt F) → (⟨S50000x1x40, .f32⟩ : BufTy).Contents (Elt F)) (V (Proc.devRef .tc main_v760)) := by
  after_results_simp <;> rfl
theorem a_arg11 : after rops26a V (Proc.devRef .tc main_arg11) = V (Proc.devRef .tc main_arg11) := by
  after_results_simp <;> rfl
theorem a_arg12 : after rops26a V (Proc.devRef .tc main_arg12) = V (Proc.devRef .tc main_arg12) := by
  after_results_simp <;> rfl

set_option maxRecDepth 8192 in
theorem b_v773 : after rops26b V (Proc.devRef .tc main_v773)
    = (concatenate S50000x12x40 1 [⟨S50000x1x40, (V (Proc.devRef .tc main_v761) : (⟨S50000x1x40, .f32⟩ : BufTy).Contents (Elt F))⟩, ⟨S50000x1x40, (V (Proc.devRef .tc main_v762) : (⟨S50000x1x40, .f32⟩ : BufTy).Contents (Elt F))⟩, ⟨S50000x1x40, (V (Proc.devRef .tc main_v763) : (⟨S50000x1x40, .f32⟩ : BufTy).Contents (Elt F))⟩, ⟨S50000x1x40, (V (Proc.devRef .tc main_v764) : (⟨S50000x1x40, .f32⟩ : BufTy).Contents (Elt F))⟩, ⟨S50000x1x40, (V (Proc.devRef .tc main_v765) : (⟨S50000x1x40, .f32⟩ : BufTy).Contents (Elt F))⟩, ⟨S50000x1x40, (V (Proc.devRef .tc main_v766) : (⟨S50000x1x40, .f32⟩ : BufTy).Contents (Elt F))⟩, ⟨S50000x1x40, (V (Proc.devRef .tc main_v767) : (⟨S50000x1x40, .f32⟩ : BufTy).Contents (Elt F))⟩, ⟨S50000x1x40, (V (Proc.devRef .tc main_v768) : (⟨S50000x1x40, .f32⟩ : BufTy).Contents (Elt F))⟩, ⟨S50000x1x40, (V (Proc.devRef .tc main_v769) : (⟨S50000x1x40, .f32⟩ : BufTy).Contents (Elt F))⟩, ⟨S50000x1x40, (V (Proc.devRef .tc main_v770) : (⟨S50000x1x40, .f32⟩ : BufTy).Contents (Elt F))⟩, ⟨S50000x1x40, (V (Proc.devRef .tc main_v771) : (⟨S50000x1x40, .f32⟩ : BufTy).Contents (Elt F))⟩, ⟨S50000x1x40, (V (Proc.devRef .tc main_v772) : (⟨S50000x1x40, .f32⟩ : BufTy).Contents (Elt F))⟩] concatenates_S50000x1x40_S50000x1x40_S50000x1x40_S50000x1x40_S50000x1x40_S50000x1x40_S50000x1x40_S50000x1x40_S50000x1x40_S50000x1x40_S50000x1x40_S50000x1x40_S50000x12x40_d1 : (⟨S50000x12x40, .f32⟩ : BufTy).Contents (Elt F)) := by
  after_results_simp <;> rfl

set_option maxRecDepth 8192 in
theorem b_v779 : after rops26b V (Proc.devRef .tc main_v779)
    = (addf
        (Host.dotGeneral dot_S50000x480_S480x40_S50000x40_1_0_0_1_n_n none
          (maximumf
            (shapeCast S50000x480 (after rops26b V (Proc.devRef .tc main_v773) : (⟨S50000x12x40, .f32⟩ : BufTy).Contents (Elt F))
              shapeCasts_S50000x12x40_S50000x480)
            (broadcastInDim S50000x480 ![] bcast_S_S50000x480 (constant S_ .f32 0x00000000#32)))
          (V (Proc.devRef .tc main_arg11) : (⟨S480x40, .f32⟩ : BufTy).Contents (Elt F)))
        (broadcastInDim S50000x40 ![0, 1] bcast_S1x40_S50000x40_0_1 (broadcastInDim S1x40 ![1] bcast_S40_S1x40_1
          (V (Proc.devRef .tc main_arg12) : (⟨S40, .f32⟩ : BufTy).Contents (Elt F))))
        : (⟨S50000x40, .f32⟩ : BufTy).Contents (Elt F)) := by
  rw [b_v773]
  after_results_simp <;> rfl

end Split

section Values

variable (m : (ℓ : Loc nD τ sig) → Buf (Elt Ideal) ℓ) (d : Dev nD) (A : Cert.Spec.Adj) (P : Cert.Spec.Params)

theorem U27_split : U27 m d = after rops26b (after rops26a (U26 m d)) := by
  show after rops26 (U26 m d) = _
  rw [rops26_eq, after_append]

theorem tail_join
    (hcell0 : U26 m d (Proc.devRef .tc main_v108) = fun j : S50000x40.Idx => Cert.Spec.cell A P 0 (j 0) (j 1))
    (hcell1 : U26 m d (Proc.devRef .tc main_v159) = fun j : S50000x40.Idx => Cert.Spec.cell A P 1 (j 0) (j 1))
    (hcell2 : U26 m d (Proc.devRef .tc main_v223) = fun j : S50000x40.Idx => Cert.Spec.cell A P 2 (j 0) (j 1))
    (hcell3 : U26 m d (Proc.devRef .tc main_v300) = fun j : S50000x40.Idx => Cert.Spec.cell A P 3 (j 0) (j 1))
    (hcell4 : U26 m d (Proc.devRef .tc main_v338) = fun j : S50000x40.Idx => Cert.Spec.cell A P 4 (j 0) (j 1))
    (hcell5 : U26 m d (Proc.devRef .tc main_v389) = fun j : S50000x40.Idx => Cert.Spec.cell A P 5 (j 0) (j 1))
    (hcell6 : U26 m d (Proc.devRef .tc main_v453) = fun j : S50000x40.Idx => Cert.Spec.cell A P 6 (j 0) (j 1))
    (hcell7 : U26 m d (Proc.devRef .tc main_v530) = fun j : S50000x40.Idx => Cert.Spec.cell A P 7 (j 0) (j 1))
    (hcell8 : U26 m d (Proc.devRef .tc main_v568) = fun j : S50000x40.Idx => Cert.Spec.cell A P 8 (j 0) (j 1))
    (hcell9 : U26 m d (Proc.devRef .tc main_v619) = fun j : S50000x40.Idx => Cert.Spec.cell A P 9 (j 0) (j 1))
    (hcell10 : U26 m d (Proc.devRef .tc main_v683) = fun j : S50000x40.Idx => Cert.Spec.cell A P 10 (j 0) (j 1))
    (hcell11 : U26 m d (Proc.devRef .tc main_v760) = fun j : S50000x40.Idx => Cert.Spec.cell A P 11 (j 0) (j 1))
    (n : Fin 50000) (i : Fin 12) (k : Fin 40) :
    after rops26b (after rops26a (U26 m d)) (Proc.devRef .tc main_v773) (ix3 n i k) = Cert.Spec.cell A P i n k := by
  rw [b_v773, a_v761, a_v762, a_v763, a_v764, a_v765, a_v766, a_v767, a_v768, a_v769, a_v770, a_v771, a_v772,
    hcell0, hcell1, hcell2, hcell3, hcell4, hcell5, hcell6, hcell7, hcell8, hcell9, hcell10, hcell11]
  exact stack_apply (fun (i : Fin 12) (j : S50000x40.Idx) => Cert.Spec.cell A P i (j 0) (j 1)) _ _ n i k

theorem tail_last
    (hjoin : ∀ (n : Fin 50000) (i : Fin 12) (k : Fin 40),
      after rops26b (after rops26a (U26 m d)) (Proc.devRef .tc main_v773) (ix3 n i k) = Cert.Spec.cell A P i n k)
    (hWout : U26 m d (Proc.devRef .tc main_arg11) = P.Wout) (hbout : U26 m d (Proc.devRef .tc main_arg12) = P.bout)
    (n : Fin 50000) (k : Fin 40) :
    after rops26b (after rops26a (U26 m d)) (Proc.devRef .tc main_v779) (ix2 n k) = Cert.Spec.out0 A P (ix2 n k) := by
  rw [b_v779]
  refine (lastLayer_apply _ _ _ _ _ _ _ n k).trans ?_
  rw [a_arg11, a_arg12, hWout, hbout]
  show _ = (∑ t : Fin 480, max (Cert.Spec.flat A P n t) Cert.Spec.zeroW * P.Wout (ix2 t k)) + P.bout (ix1 k)
  refine congrArg (· + P.bout (ix1 k)) (Finset.sum_congr rfl fun t _ => ?_)
  rw [hjoin]
  rfl

theorem tail_values
    (hcell0 : U26 m d (Proc.devRef .tc main_v108) = fun j : S50000x40.Idx => Cert.Spec.cell A P 0 (j 0) (j 1))
    (hcell1 : U26 m d (Proc.devRef .tc main_v159) = fun j : S50000x40.Idx => Cert.Spec.cell A P 1 (j 0) (j 1))
    (hcell2 : U26 m d (Proc.devRef .tc main_v223) = fun j : S50000x40.Idx => Cert.Spec.cell A P 2 (j 0) (j 1))
    (hcell3 : U26 m d (Proc.devRef .tc main_v300) = fun j : S50000x40.Idx => Cert.Spec.cell A P 3 (j 0) (j 1))
    (hcell4 : U26 m d (Proc.devRef .tc main_v338) = fun j : S50000x40.Idx => Cert.Spec.cell A P 4 (j 0) (j 1))
    (hcell5 : U26 m d (Proc.devRef .tc main_v389) = fun j : S50000x40.Idx => Cert.Spec.cell A P 5 (j 0) (j 1))
    (hcell6 : U26 m d (Proc.devRef .tc main_v453) = fun j : S50000x40.Idx => Cert.Spec.cell A P 6 (j 0) (j 1))
    (hcell7 : U26 m d (Proc.devRef .tc main_v530) = fun j : S50000x40.Idx => Cert.Spec.cell A P 7 (j 0) (j 1))
    (hcell8 : U26 m d (Proc.devRef .tc main_v568) = fun j : S50000x40.Idx => Cert.Spec.cell A P 8 (j 0) (j 1))
    (hcell9 : U26 m d (Proc.devRef .tc main_v619) = fun j : S50000x40.Idx => Cert.Spec.cell A P 9 (j 0) (j 1))
    (hcell10 : U26 m d (Proc.devRef .tc main_v683) = fun j : S50000x40.Idx => Cert.Spec.cell A P 10 (j 0) (j 1))
    (hcell11 : U26 m d (Proc.devRef .tc main_v760) = fun j : S50000x40.Idx => Cert.Spec.cell A P 11 (j 0) (j 1))
    (hWout : U26 m d (Proc.devRef .tc main_arg11) = P.Wout) (hbout : U26 m d (Proc.devRef .tc main_arg12) = P.bout) :
    U27 m d (Proc.devRef .tc main_v779) = Cert.Spec.out0 A P
      ∧ U27 m d (Proc.devRef .tc main_v773) = Cert.Spec.out1 A P := by
  have hjoin := tail_join m d A P hcell0 hcell1 hcell2 hcell3 hcell4 hcell5 hcell6 hcell7 hcell8 hcell9 hcell10 hcell11
  rw [U27_split]
  refine ⟨funext fun j => ?_, funext fun j => ?_⟩
  · obtain ⟨n, k, rfl⟩ : ∃ n k, j = ix2 n k := ⟨j 0, j 1, eq_ix2 j⟩
    exact tail_last m d A P hjoin hWout hbout n k
  · obtain ⟨n, i, k, rfl⟩ : ∃ n i k, j = ix3 n i k := ⟨j 0, j 1, j 2, eq_ix3 j⟩
    exact hjoin n i k

end Values

end Cert.ReferenceIdeal.RVal

end
-- ==== Proof.RVal.Values.lean ====
import proofs.«124913_j71159018160549_2_alg».proof.Proof.RVal.Cells
import proofs.«124913_j71159018160549_2_alg».proof.Proof.RVal.CellsAll1
import proofs.«124913_j71159018160549_2_alg».proof.Proof.RVal.CellsAll2
import proofs.«124913_j71159018160549_2_alg».proof.Proof.RVal.CellsAll3
import proofs.«124913_j71159018160549_2_alg».proof.Proof.RVal.Frames
import proofs.«124913_j71159018160549_2_alg».proof.Proof.RVal.Tail

noncomputable section

namespace Cert.ReferenceIdeal.RVal

open Cert.ReferenceIdeal Cert.ReferenceIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (d : Dev nD)

/-- What stretch 1 computes: the four units' rows. -/
theorem rows :
    (Uat m d 2 (Proc.devRef .tc main_v31) = fun j : S50000x100.Idx => Cert.Spec.xs (rA m d) (rP m d) 0 (j 0) (j 1))
    ∧ (Uat m d 2 (Proc.devRef .tc main_v44) = fun j : S50000x100.Idx => Cert.Spec.xs (rA m d) (rP m d) 1 (j 0) (j 1))
    ∧ (Uat m d 2 (Proc.devRef .tc main_v57) = fun j : S50000x100.Idx => Cert.Spec.xs (rA m d) (rP m d) 2 (j 0) (j 1))
    ∧ (Uat m d 2 (Proc.devRef .tc main_v70) = fun j : S50000x100.Idx => Cert.Spec.xs (rA m d) (rP m d) 3 (j 0) (j 1)) :=
  rows_values (Uat m d 1) (rP m d) (rVals m d) (rR m d) (rC m d) (arg_at m d 1) rfl rfl rfl

/-- Cell `k`: stretch `2k+2` computes its hidden rows from unit `k % 4`'s rows, stretch `2k+3` the cell, and no later one writes it. -/
theorem cell0 : Uat m d 26 (Proc.devRef .tc main_v108) = fun j : S50000x40.Idx => Cert.Spec.cell (rA m d) (rP m d) 0 (j 0) (j 1) :=
  (carry m d 4 26).trans <| cell0_value (Uat m d 3) (rP m d) (rVals m d) (rR m d) (rC m d)
    (hid0_value (Uat m d 2) (rP m d) (rA m d) (rows m d).1 (arg_at m d 2) (arg_at m d 2) (arg_at m d 2) (arg_at m d 2) (arg_at m d 2) (arg_at m d 2)) (arg_at m d 3) (arg_at m d 3)
theorem cell1 : Uat m d 26 (Proc.devRef .tc main_v159) = fun j : S50000x40.Idx => Cert.Spec.cell (rA m d) (rP m d) 1 (j 0) (j 1) :=
  (carry m d 6 26).trans <| cell1_value (Uat m d 5) (rP m d) (rVals m d) (rR m d) (rC m d)
    (hid1_value (Uat m d 4) (rP m d) (rA m d) ((carry m d 2 4).trans (rows m d).2.1) (arg_at m d 4) (arg_at m d 4) (arg_at m d 4) (arg_at m d 4) (arg_at m d 4) (arg_at m d 4)) (carry m d 1 5) (carry m d 1 5) (carry m d 1 5) (arg_at m d 5) (arg_at m d 5)
theorem cell2 : Uat m d 26 (Proc.devRef .tc main_v223) = fun j : S50000x40.Idx => Cert.Spec.cell (rA m d) (rP m d) 2 (j 0) (j 1) :=
  (carry m d 8 26).trans <| cell2_value (Uat m d 7) (rP m d) (rVals m d) (rR m d) (rC m d)
    (hid2_value (Uat m d 6) (rP m d) (rA m d) ((carry m d 2 6).trans (rows m d).2.2.1) (arg_at m d 6) (arg_at m d 6) (arg_at m d 6) (arg_at m d 6) (arg_at m d 6) (arg_at m d 6)) (carry m d 1 7) (carry m d 1 7) (carry m d 1 7) (arg_at m d 7) (arg_at m d 7)
theorem cell3 : Uat m d 26 (Proc.devRef .tc main_v300) = fun j : S50000x40.Idx => Cert.Spec.cell (rA m d) (rP m d) 3 (j 0) (j 1) :=
  (carry m d 10 26).trans <| cell3_value (Uat m d 9) (rP m d) (rVals m d) (rR m d) (rC m d)
    (hid3_value (Uat m d 8) (rP m d) (rA m d) ((carry m d 2 8).trans (rows m d).2.2.2) (arg_at m d 8) (arg_at m d 8) (arg_at m d 8) (arg_at m d 8) (arg_at m d 8) (arg_at m d 8)) (carry m d 1 9) (carry m d 1 9) (carry m d 1 9) (arg_at m d 9) (arg_at m d 9)
theorem cell4 : Uat m d 26 (Proc.devRef .tc main_v338) = fun j : S50000x40.Idx => Cert.Spec.cell (rA m d) (rP m d) 4 (j 0) (j 1) :=
  (carry m d 12 26).trans <| cell4_value (Uat m d 11) (rP m d) (rVals m d) (rR m d) (rC m d)
    (hid4_value (Uat m d 10) (rP m d) (rA m d) ((carry m d 2 10).trans (rows m d).1) (arg_at m d 10) (arg_at m d 10) (arg_at m d 10) (arg_at m d 10) (arg_at m d 10) (arg_at m d 10)) (arg_at m d 11) (arg_at m d 11)
theorem cell5 : Uat m d 26 (Proc.devRef .tc main_v389) = fun j : S50000x40.Idx => Cert.Spec.cell (rA m d) (rP m d) 5 (j 0) (j 1) :=
  (carry m d 14 26).trans <| cell5_value (Uat m d 13) (rP m d) (rVals m d) (rR m d) (rC m d)
    (hid5_value (Uat m d 12) (rP m d) (rA m d) ((carry m d 2 12).trans (rows m d).2.1) (arg_at m d 12) (arg_at m d 12) (arg_at m d 12) (arg_at m d 12) (arg_at m d 12) (arg_at m d 12)) (carry m d 1 13) (carry m d 1 13) (carry m d 1 13) (arg_at m d 13) (arg_at m d 13)
theorem cell6 : Uat m d 26 (Proc.devRef .tc main_v453) = fun j : S50000x40.Idx => Cert.Spec.cell (rA m d) (rP m d) 6 (j 0) (j 1) :=
  (carry m d 16 26).trans <| cell6_value (Uat m d 15) (rP m d) (rVals m d) (rR m d) (rC m d)
    (hid6_value (Uat m d 14) (rP m d) (rA m d) ((carry m d 2 14).trans (rows m d).2.2.1) (arg_at m d 14) (arg_at m d 14) (arg_at m d 14) (arg_at m d 14) (arg_at m d 14) (arg_at m d 14)) (carry m d 1 15) (carry m d 1 15) (carry m d 1 15) (arg_at m d 15) (arg_at m d 15)
theorem cell7 : Uat m d 26 (Proc.devRef .tc main_v530) = fun j : S50000x40.Idx => Cert.Spec.cell (rA m d) (rP m d) 7 (j 0) (j 1) :=
  (carry m d 18 26).trans <| cell7_value (Uat m d 17) (rP m d) (rVals m d) (rR m d) (rC m d)
    (hid7_value (Uat m d 16) (rP m d) (rA m d) ((carry m d 2 16).trans (rows m d).2.2.2) (arg_at m d 16) (arg_at m d 16) (arg_at m d 16) (arg_at m d 16) (arg_at m d 16) (arg_at m d 16)) (carry m d 1 17) (carry m d 1 17) (carry m d 1 17) (arg_at m d 17) (arg_at m d 17)
theorem cell8 : Uat m d 26 (Proc.devRef .tc main_v568) = fun j : S50000x40.Idx => Cert.Spec.cell (rA m d) (rP m d) 8 (j 0) (j 1) :=
  (carry m d 20 26).trans <| cell8_value (Uat m d 19) (rP m d) (rVals m d) (rR m d) (rC m d)
    (hid8_value (Uat m d 18) (rP m d) (rA m d) ((carry m d 2 18).trans (rows m d).1) (arg_at m d 18) (arg_at m d 18) (arg_at m d 18) (arg_at m d 18) (arg_at m d 18) (arg_at m d 18)) (arg_at m d 19) (arg_at m d 19)
theorem cell9 : Uat m d 26 (Proc.devRef .tc main_v619) = fun j : S50000x40.Idx => Cert.Spec.cell (rA m d) (rP m d) 9 (j 0) (j 1) :=
  (carry m d 22 26).trans <| cell9_value (Uat m d 21) (rP m d) (rVals m d) (rR m d) (rC m d)
    (hid9_value (Uat m d 20) (rP m d) (rA m d) ((carry m d 2 20).trans (rows m d).2.1) (arg_at m d 20) (arg_at m d 20) (arg_at m d 20) (arg_at m d 20) (arg_at m d 20) (arg_at m d 20)) (carry m d 1 21) (carry m d 1 21) (carry m d 1 21) (arg_at m d 21) (arg_at m d 21)
theorem cell10 : Uat m d 26 (Proc.devRef .tc main_v683) = fun j : S50000x40.Idx => Cert.Spec.cell (rA m d) (rP m d) 10 (j 0) (j 1) :=
  (carry m d 24 26).trans <| cell10_value (Uat m d 23) (rP m d) (rVals m d) (rR m d) (rC m d)
    (hid10_value (Uat m d 22) (rP m d) (rA m d) ((carry m d 2 22).trans (rows m d).2.2.1) (arg_at m d 22) (arg_at m d 22) (arg_at m d 22) (arg_at m d 22) (arg_at m d 22) (arg_at m d 22)) (carry m d 1 23) (carry m d 1 23) (carry m d 1 23) (arg_at m d 23) (arg_at m d 23)
theorem cell11 : Uat m d 26 (Proc.devRef .tc main_v760) = fun j : S50000x40.Idx => Cert.Spec.cell (rA m d) (rP m d) 11 (j 0) (j 1) :=
  cell11_value (Uat m d 25) (rP m d) (rVals m d) (rR m d) (rC m d)
    (hid11_value (Uat m d 24) (rP m d) (rA m d) ((carry m d 2 24).trans (rows m d).2.2.2) (arg_at m d 24) (arg_at m d 24) (arg_at m d 24) (arg_at m d 24) (arg_at m d 24) (arg_at m d 24)) (carry m d 1 25) (carry m d 1 25) (carry m d 1 25) (arg_at m d 25) (arg_at m d 25)

theorem ref_values : U27 m d (Proc.devRef .tc main_v779) = Cert.Spec.out0 (rA m d) (rP m d)
    ∧ U27 m d (Proc.devRef .tc main_v773) = Cert.Spec.out1 (rA m d) (rP m d) :=
  tail_values m d (rA m d) (rP m d) (cell0 m d) (cell1 m d) (cell2 m d) (cell3 m d) (cell4 m d) (cell5 m d) (cell6 m d) (cell7 m d) (cell8 m d) (cell9 m d) (cell10 m d) (cell11 m d)
    (arg_at m d 26) (arg_at m d 26)

end Cert.ReferenceIdeal.RVal

end
-- ==== Proof.Bridge.lean ====
import proofs.«124913_j71159018160549_2_alg».proof.Proof.KVal.Defs
import proofs.«124913_j71159018160549_2_alg».proof.Proof.RVal.Cells

set_option maxRecDepth 16384

noncomputable section

namespace Cert.Bridge

open Idealize.ShloMosaic Idealize.ShloMosaic.TcCoe Idealize.SL.Sem Idealize.ShloMosaic.StableHlo

section AnyInstance

variable {F : FTy → Type} [FloatOps F]
variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)
  (c : Dev Cert.KernelIdeal.nD)

set_option maxHeartbeats 4000000 in
theorem vals_any (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.RVal.U1 m' c (Proc.devRef .tc Cert.ReferenceIdeal.main_v26) : (⟨1, ![850000]⟩ : Shape).Idx → F .f32)
      = (Cert.KernelIdeal.Gen.W3 m c (Proc.devRef .tc Cert.KernelIdeal.main_v26) : (⟨1, ![850000]⟩ : Shape).Idx → F .f32) := by
  have e1 : launchContents m' c (Proc.devRef .tc Cert.ReferenceIdeal.main_arg1) = Cert.KernelIdeal.Gen.W0 m c (Proc.devRef .tc Cert.KernelIdeal.main_arg1) := h1
  have e2 : launchContents m' c (Proc.devRef .tc Cert.ReferenceIdeal.main_arg2) = Cert.KernelIdeal.Gen.W0 m c (Proc.devRef .tc Cert.KernelIdeal.main_arg2) := h2
  simp only [Cert.ReferenceIdeal.RVal.U1, Cert.ReferenceIdeal.RVal.U0, Cert.KernelIdeal.Gen.W3, Cert.KernelIdeal.Gen.W2, Cert.KernelIdeal.Gen.W1, Cert.KernelIdeal.Gen.W0]
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rw [e1, e2]
  first | rfl | done

end AnyInstance

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

set_option maxHeartbeats 8000000 in
theorem rows_eq (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.RVal.rR m' c : (⟨1, ![850000]⟩ : Shape).Idx → BitVec 32)
      = (Cert.KernelIdeal.KVal.kR m c : (⟨1, ![850000]⟩ : Shape).Idx → BitVec 32) := by
  have e1 : launchContents m' c (Proc.devRef .tc Cert.ReferenceIdeal.main_arg1) = Cert.KernelIdeal.Gen.W0 m c (Proc.devRef .tc Cert.KernelIdeal.main_arg1) := h1
  unfold Cert.KernelIdeal.KVal.kR Cert.ReferenceIdeal.RVal.rR
  simp only [Cert.ReferenceIdeal.RVal.U1, Cert.ReferenceIdeal.RVal.U0, Cert.KernelIdeal.Gen.W3, Cert.KernelIdeal.Gen.W2, Cert.KernelIdeal.Gen.W1, Cert.KernelIdeal.Gen.W0]
  after_results
  rw [e1]

set_option maxHeartbeats 8000000 in
theorem cols_eq (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.RVal.rC m' c : (⟨1, ![850000]⟩ : Shape).Idx → BitVec 32)
      = (Cert.KernelIdeal.KVal.kC m c : (⟨1, ![850000]⟩ : Shape).Idx → BitVec 32) := by
  have e2 : launchContents m' c (Proc.devRef .tc Cert.ReferenceIdeal.main_arg2) = Cert.KernelIdeal.Gen.W0 m c (Proc.devRef .tc Cert.KernelIdeal.main_arg2) := h2
  unfold Cert.KernelIdeal.KVal.kC Cert.ReferenceIdeal.RVal.rC
  simp only [Cert.ReferenceIdeal.RVal.U1, Cert.ReferenceIdeal.RVal.U0, Cert.KernelIdeal.Gen.W3, Cert.KernelIdeal.Gen.W2, Cert.KernelIdeal.Gen.W1, Cert.KernelIdeal.Gen.W0]
  after_results
  rw [e2]

theorem vals_eq (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.RVal.rVals m' c : (⟨1, ![850000]⟩ : Shape).Idx → EReal)
      = (Cert.KernelIdeal.KVal.kVals m c : (⟨1, ![850000]⟩ : Shape).Idx → EReal) :=
  vals_any (F := Ideal) m m' c h1 h2

set_option maxHeartbeats 8000000 in
theorem wrapped_eq (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.RVal.rCw m' c : (⟨1, ![850000]⟩ : Shape).Idx → BitVec 32)
      = (Cert.KernelIdeal.KVal.kCw m c : (⟨1, ![850000]⟩ : Shape).Idx → BitVec 32) := by
  have hc := cols_eq m m' c h2
  unfold Cert.KernelIdeal.KVal.kCw Cert.ReferenceIdeal.RVal.rCw
  rw [hc]

set_option maxHeartbeats 8000000 in
theorem adj_eq (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) : Cert.ReferenceIdeal.RVal.rA m' c = Cert.KernelIdeal.KVal.kA m c := by
  unfold Cert.ReferenceIdeal.RVal.rA Cert.KernelIdeal.KVal.kA
  rw [vals_eq m m' c h1 h2, rows_eq m m' c h1, wrapped_eq m m' c h2]

set_option maxHeartbeats 8000000 in
theorem par_eq (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8)) (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10)) (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11)) (h12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12)) : Cert.ReferenceIdeal.RVal.rP m' c = Cert.KernelIdeal.KVal.kP m c := by
  unfold Cert.ReferenceIdeal.RVal.rP Cert.KernelIdeal.KVal.kP
  rw [h0, h3, h4, h5, h6, h7, h8, h9, h10, h11, h12]

end Cert.Bridge

end
-- ==== Proof.lean ====
import proofs.«124913_j71159018160549_2_alg».proof.Defs
import proofs.«124913_j71159018160549_2_alg».proof.Proof.Gen.Kernel
import proofs.«124913_j71159018160549_2_alg».proof.Proof.Gen.KernelIdeal
import proofs.«124913_j71159018160549_2_alg».proof.Proof.Gen.ReferenceIdeal
import proofs.«124913_j71159018160549_2_alg».proof.Proof.Gen.Pre_finite_inputs
import proofs.«124913_j71159018160549_2_alg».proof.Proof.FrameB.Args
import proofs.«124913_j71159018160549_2_alg».proof.Proof.KVal.Kernel
import proofs.«124913_j71159018160549_2_alg».proof.Proof.RVal.Values
import proofs.«124913_j71159018160549_2_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun r h c => by
      have ha := Cert.ReferenceIdeal.RVal.ref_args (F := Ideal) m c
      simp only [Cert.ReferenceIdeal.RVal.after_all] at h
      exact ⟨(h c Cert.ReferenceIdeal.main_arg0).trans ha.1,
        (h c Cert.ReferenceIdeal.main_arg1).trans ha.2.1,
        (h c Cert.ReferenceIdeal.main_arg2).trans ha.2.2.1,
        (h c Cert.ReferenceIdeal.main_arg3).trans ha.2.2.2.1,
        (h c Cert.ReferenceIdeal.main_arg4).trans ha.2.2.2.2.1,
        (h c Cert.ReferenceIdeal.main_arg5).trans ha.2.2.2.2.2.1,
        (h c Cert.ReferenceIdeal.main_arg6).trans ha.2.2.2.2.2.2.1,
        (h c Cert.ReferenceIdeal.main_arg7).trans ha.2.2.2.2.2.2.2.1,
        (h c Cert.ReferenceIdeal.main_arg8).trans ha.2.2.2.2.2.2.2.2.1,
        (h c Cert.ReferenceIdeal.main_arg9).trans ha.2.2.2.2.2.2.2.2.2.1,
        (h c Cert.ReferenceIdeal.main_arg10).trans ha.2.2.2.2.2.2.2.2.2.2.1,
        (h c Cert.ReferenceIdeal.main_arg11).trans ha.2.2.2.2.2.2.2.2.2.2.2.1,
        (h c Cert.ReferenceIdeal.main_arg12).trans ha.2.2.2.2.2.2.2.2.2.2.2.2⟩)
    (Cert.ReferenceIdeal.RVal.ref_run (F := Ideal) m ρ)

theorem algebraic : Cert.algebraic_KernelIdeal_ReferenceIdeal := by
  intro m ρ m' ρ' _ hagree
  refine ⟨fun c => Cert.Spec.out0 (Cert.KernelIdeal.KVal.kA m c) (Cert.KernelIdeal.KVal.kP m c),
    fun c => Cert.Spec.out1 (Cert.KernelIdeal.KVal.kA m c) (Cert.KernelIdeal.KVal.kP m c),
    Cert.KernelIdeal.KVal.kernel_values m ρ, ?_⟩
  refine (θ_run Cert.ReferenceIdeal.defs _ _).mono (fun r h c => ?_) (Cert.ReferenceIdeal.RVal.ref_run (F := Ideal) m' ρ')
  have ha := Cert.ReferenceIdeal.RVal.ref_args (F := Ideal) m' c
  have hv := Cert.ReferenceIdeal.RVal.ref_values m' c
  have hA := Cert.Bridge.adj_eq m m' c (hagree c).2.1 (hagree c).2.2.1
  have hP := Cert.Bridge.par_eq m m' c (hagree c).1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2
  simp only [Cert.ReferenceIdeal.RVal.after_all] at h
  rw [hA, hP] at hv
  exact ⟨(h c Cert.ReferenceIdeal.main_v779).trans hv.1, (h c Cert.ReferenceIdeal.main_v773).trans hv.2,
        (h c Cert.ReferenceIdeal.main_arg0).trans ha.1,
        (h c Cert.ReferenceIdeal.main_arg1).trans ha.2.1,
        (h c Cert.ReferenceIdeal.main_arg2).trans ha.2.2.1,
        (h c Cert.ReferenceIdeal.main_arg3).trans ha.2.2.2.1,
        (h c Cert.ReferenceIdeal.main_arg4).trans ha.2.2.2.2.1,
        (h c Cert.ReferenceIdeal.main_arg5).trans ha.2.2.2.2.2.1,
        (h c Cert.ReferenceIdeal.main_arg6).trans ha.2.2.2.2.2.2.1,
        (h c Cert.ReferenceIdeal.main_arg7).trans ha.2.2.2.2.2.2.2.1,
        (h c Cert.ReferenceIdeal.main_arg8).trans ha.2.2.2.2.2.2.2.2.1,
        (h c Cert.ReferenceIdeal.main_arg9).trans ha.2.2.2.2.2.2.2.2.2.1,
        (h c Cert.ReferenceIdeal.main_arg10).trans ha.2.2.2.2.2.2.2.2.2.2.1,
        (h c Cert.ReferenceIdeal.main_arg11).trans ha.2.2.2.2.2.2.2.2.2.2.2.1,
        (h c Cert.ReferenceIdeal.main_arg12).trans ha.2.2.2.2.2.2.2.2.2.2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
